-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)
  ∧ IdealRules.named_const.Statement Cert.KernelIdeal.κ "inv_10" .f32 0x3DCCCCCD#32 ((1 / 10 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x512 : Shape := ⟨2, ![256, 512]⟩
abbrev S50000 : Shape := ⟨1, ![50000]⟩
abbrev S50000x10 : Shape := ⟨2, ![50000, 10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S50000 : S_.BroadcastsInDim S50000 (![] : Fin 0 → Fin S50000.rank)
  reducesTo_S50000_S_d0 : S50000.ReducesTo [0] S_
  bcast_S_S50000x10 : S_.BroadcastsInDim S50000x10 (![] : Fin 0 → Fin S50000x10.rank)
  reducesTo_S50000x10_S_d0_1 : S50000x10.ReducesTo [0, 1] S_

variable [Facts]

def fn_part1 {F : FTy → Type} [FloatOps F] (main_arg3 : IVec S50000x10 32) (main_v15 : IVec S_ 1) (main_c_5 : IVec S_ 32) : IVec S_ 1 :=
  let main_v16 : IVec S50000x10 32 := broadcastInDim S50000x10 ![] bcast_S_S50000x10 main_c_5
  let main_v17 : IVec S50000x10 1 := cmpi .sge main_arg3 main_v16
  let main_c_6 : IVec S_ 32 := constantI S_ 32 100000#32
  let main_v18 : IVec S50000x10 32 := broadcastInDim S50000x10 ![] bcast_S_S50000x10 main_c_6
  let main_v19 : IVec S50000x10 1 := cmpi .slt main_arg3 main_v18
  let main_v20 : IVec S50000x10 1 := andi main_v17 main_v19
  let main_c_7 : IVec S_ 1 := constantI S_ 1 1#1
  let main_v21 : IVec S_ 1 := (fun x v => Host.reduce IntOp.andi x v reducesTo_S50000x10_S_d0_1 h_S_) main_v20 main_c_7
  let main_v22 : IVec S_ 1 := andi main_v15 main_v21
  main_v22

def fn {F : FTy → Type} [FloatOps F] (main_arg0 : FVec F S100000x256 .f32) (main_arg1 : FVec F S256x512 .f32) (main_arg2 : IVec S50000 32) (main_arg3 : IVec S50000x10 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_c_2 : IVec S_ 32 := constantI S_ 32 0#32
  let main_v9 : IVec S50000 32 := broadcastInDim S50000 ![] bcast_S_S50000 main_c_2
  let main_v10 : IVec S50000 1 := cmpi .sge main_arg2 main_v9
  let main_c_3 : IVec S_ 32 := constantI S_ 32 100000#32
  let main_v11 : IVec S50000 32 := broadcastInDim S50000 ![] bcast_S_S50000 main_c_3
  let main_v12 : IVec S50000 1 := cmpi .slt main_arg2 main_v11
  let main_v13 : IVec S50000 1 := andi main_v10 main_v12
  let main_c_4 : IVec S_ 1 := constantI S_ 1 1#1
  let main_v14 : IVec S_ 1 := (fun x v => Host.reduce IntOp.andi x v reducesTo_S50000_S_d0 h_S_) main_v13 main_c_4
  let main_v15 : IVec S_ 1 := andi main_v8 main_v14
  let main_c_5 : IVec S_ 32 := constantI S_ 32 0#32
  fn_part1 (F := F) main_arg3 main_v15 main_c_5
-- ==== Kernel.lean ====
abbrev S100000x256 : Shape := ⟨2, ![100000, 256]⟩
abbrev S256x512 : Shape := ⟨2, ![256, 512]⟩
abbrev S50000 : Shape := ⟨1, ![50000]⟩
abbrev S50000x10 : Shape := ⟨2, ![50000, 10]⟩
abbrev S100000x1x256 : Shape := ⟨3, ![100000, 1, 256]⟩
abbrev S12500 : Shape := ⟨1, ![12500]⟩
abbrev S12500x10 : Shape := ⟨2, ![12500, 10]⟩
abbrev S125000 : Shape := ⟨1, ![125000]⟩
abbrev S12500x1x256 : Shape := ⟨3, ![12500, 1, 256]⟩
abbrev S1x1x256 : Shape := ⟨3, ![1, 1, 256]⟩
abbrev S1 : Shape := ⟨1, ![1]⟩
abbrev S12500x256 : Shape := ⟨2, ![12500, 256]⟩
abbrev S50000x256 : Shape := ⟨2, ![50000, 256]⟩
abbrev S50000x512 : Shape := ⟨2, ![50000, 512]⟩
abbrev S_ : Shape := ⟨0, ![]⟩
abbrev S51200x512 : Shape := ⟨2, ![51200, 512]⟩
abbrev S256x51200 : Shape := ⟨2, ![256, 51200]⟩
abbrev S2048x512 : Shape := ⟨2, ![2048, 512]⟩
abbrev S256x2048 : Shape := ⟨2, ![256, 2048]⟩
abbrev S256x50000 : Shape := ⟨2, ![256, 50000]⟩

abbrev nBuf : Space → Nat
  | .hbm => 33
  | .vmem => 109
  | .smem => 8
  | _ => 0

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S50000, .i32⟩
  | .hbm, ⟨3, _⟩ => ⟨S50000x10, .i32⟩
  | .hbm, ⟨4, _⟩ => ⟨S100000x1x256, .f32⟩
  | .hbm, ⟨5, _⟩ => ⟨S12500x10, .i32⟩
  | .hbm, ⟨6, _⟩ => ⟨S12500x1x256, .f32⟩
  | .hbm, ⟨7, _⟩ => ⟨S12500x1x256, .f32⟩
  | .hbm, ⟨8, _⟩ => ⟨S12500x256, .f32⟩
  | .hbm, ⟨9, _⟩ => ⟨S12500x256, .f32⟩
  | .hbm, ⟨10, _⟩ => ⟨S12500x10, .i32⟩
  | .hbm, ⟨11, _⟩ => ⟨S12500x1x256, .f32⟩
  | .hbm, ⟨12, _⟩ => ⟨S12500x1x256, .f32⟩
  | .hbm, ⟨13, _⟩ => ⟨S12500x256, .f32⟩
  | .hbm, ⟨14, _⟩ => ⟨S12500x256, .f32⟩
  | .hbm, ⟨15, _⟩ => ⟨S12500x10, .i32⟩
  | .hbm, ⟨16, _⟩ => ⟨S12500x1x256, .f32⟩
  | .hbm, ⟨17, _⟩ => ⟨S12500x1x256, .f32⟩
  | .hbm, ⟨18, _⟩ => ⟨S12500x256, .f32⟩
  | .hbm, ⟨19, _⟩ => ⟨S12500x256, .f32⟩
  | .hbm, ⟨20, _⟩ => ⟨S12500x10, .i32⟩
  | .hbm, ⟨21, _⟩ => ⟨S12500x1x256, .f32⟩
  | .hbm, ⟨22, _⟩ => ⟨S12500x1x256, .f32⟩
  | .hbm, ⟨23, _⟩ => ⟨S12500x256, .f32⟩
  | .hbm, ⟨24, _⟩ => ⟨S12500x256, .f32⟩
  | .hbm, ⟨25, _⟩ => ⟨S50000x256, .f32⟩
  | .hbm, ⟨26, _⟩ => ⟨S50000x256, .f32⟩
  | .hbm, ⟨27, _⟩ => ⟨S50000x512, .f32⟩
  | .hbm, ⟨28, _⟩ => ⟨S_, .i32⟩
  | .hbm, ⟨29, _⟩ => ⟨S_, .f32⟩
  | .hbm, ⟨30, _⟩ => ⟨S51200x512, .f32⟩
  | .hbm, ⟨31, _⟩ => ⟨S256x51200, .f32⟩
  | .hbm, ⟨32, _⟩ => ⟨S256x50000, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1x256, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1x256, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1x256, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1x256, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1x256, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S1x1x256, .f32⟩
  | .local _ .vmem, ⟨44, _⟩ => ⟨S1x1x256, .f32⟩
  | .local _ .vmem, ⟨45, _⟩ => ⟨S1x1x256, .f32⟩
  | .local _ .vmem, ⟨46, _⟩ => ⟨S1x1x256, .f32⟩
  | .local _ .vmem, ⟨47, _⟩ => ⟨S1x1x256, .f32⟩
  | .local _ .vmem, ⟨48, _⟩ => ⟨S1x1x256, .f32⟩
  | .local _ .vmem, ⟨49, _⟩ => ⟨S1x1x256, .f32⟩
  | .local _ .vmem, ⟨50, _⟩ => ⟨S1x1x256, .f32⟩
  | .local _ .vmem, ⟨51, _⟩ => ⟨S1x1x256, .f32⟩
  | .local _ .vmem, ⟨52, _⟩ => ⟨S1x1x256, .f32⟩
  | .local _ .vmem, ⟨53, _⟩ => ⟨S1x1x256, .f32⟩
  | .local _ .vmem, ⟨54, _⟩ => ⟨S1x1x256, .f32⟩
  | .local _ .vmem, ⟨55, _⟩ => ⟨S1x1x256, .f32⟩
  | .local _ .vmem, ⟨56, _⟩ => ⟨S1x1x256, .f32⟩
  | .local _ .vmem, ⟨57, _⟩ => ⟨S1x1x256, .f32⟩
  | .local _ .vmem, ⟨58, _⟩ => ⟨S1x1x256, .f32⟩
  | .local _ .vmem, ⟨59, _⟩ => ⟨S1x1x256, .f32⟩
  | .local _ .vmem, ⟨60, _⟩ => ⟨S1x1x256, .f32⟩
  | .local _ .vmem, ⟨61, _⟩ => ⟨S1x1x256, .f32⟩
  | .local _ .vmem, ⟨62, _⟩ => ⟨S1x1x256, .f32⟩
  | .local _ .vmem, ⟨63, _⟩ => ⟨S1x1x256, .f32⟩
  | .local _ .vmem, ⟨64, _⟩ => ⟨S1x1x256, .f32⟩
  | .local _ .vmem, ⟨65, _⟩ => ⟨S1x1x256, .f32⟩
  | .local _ .vmem, ⟨66, _⟩ => ⟨S1x1x256, .f32⟩
  | .local _ .vmem, ⟨67, _⟩ => ⟨S1x1x256, .f32⟩
  | .local _ .vmem, ⟨68, _⟩ => ⟨S1x1x256, .f32⟩
  | .local _ .vmem, ⟨69, _⟩ => ⟨S1x1x256, .f32⟩
  | .local _ .vmem, ⟨70, _⟩ => ⟨S1x1x256, .f32⟩
  | .local _ .vmem, ⟨71, _⟩ => ⟨S1x1x256, .f32⟩
  | .local _ .vmem, ⟨72, _⟩ => ⟨S1x1x256, .f32⟩
  | .local _ .vmem, ⟨73, _⟩ => ⟨S1x1x256, .f32⟩
  | .local _ .vmem, ⟨74, _⟩ => ⟨S1x1x256, .f32⟩
  | .local _ .vmem, ⟨75, _⟩ => ⟨S1x1x256, .f32⟩
  | .local _ .vmem, ⟨76, _⟩ => ⟨S1x1x256, .f32⟩
  | .local _ .vmem, ⟨77, _⟩ => ⟨S1x1x256, .f32⟩
  | .local _ .vmem, ⟨78, _⟩ => ⟨S1x1x256, .f32⟩
  | .local _ .vmem, ⟨79, _⟩ => ⟨S1x1x256, .f32⟩
  | .local _ .vmem, ⟨80, _⟩ => ⟨S1x1x256, .f32⟩
  | .local _ .vmem, ⟨81, _⟩ => ⟨S1x1x256, .f32⟩
  | .local _ .vmem, ⟨82, _⟩ => ⟨S1x1x256, .f32⟩
  | .local _ .vmem, ⟨83, _⟩ => ⟨S1x1x256, .f32⟩
  | .local _ .vmem, ⟨84, _⟩ => ⟨S1x1x256, .f32⟩
  | .local _ .vmem, ⟨85, _⟩ => ⟨S1x1x256, .f32⟩
  | .local _ .vmem, ⟨86, _⟩ => ⟨S1x1x256, .f32⟩
  | .local _ .vmem, ⟨87, _⟩ => ⟨S1x1x256, .f32⟩
  | .local _ .vmem, ⟨88, _⟩ => ⟨S1x1x256, .f32⟩
  | .local _ .vmem, ⟨89, _⟩ => ⟨S1x1x256, .f32⟩
  | .local _ .vmem, ⟨90, _⟩ => ⟨S1x1x256, .f32⟩
  | .local _ .vmem, ⟨91, _⟩ => ⟨S1x1x256, .f32⟩
  | .local _ .vmem, ⟨92, _⟩ => ⟨S1x1x256, .f32⟩
  | .local _ .vmem, ⟨93, _⟩ => ⟨S1x1x256, .f32⟩
  | .local _ .vmem, ⟨94, _⟩ => ⟨S1x1x256, .f32⟩
  | .local _ .vmem, ⟨95, _⟩ => ⟨S1x1x256, .f32⟩
  | .local _ .vmem, ⟨96, _⟩ => ⟨S1x1x256, .f32⟩
  | .local _ .vmem, ⟨97, _⟩ => ⟨S1x1x256, .f32⟩
  | .local _ .vmem, ⟨98, _⟩ => ⟨S1x1x256, .f32⟩
  | .local _ .vmem, ⟨99, _⟩ => ⟨S1x1x256, .f32⟩
  | .local _ .vmem, ⟨100, _⟩ => ⟨S1x1x256, .f32⟩
  | .local _ .vmem, ⟨101, _⟩ => ⟨S1x1x256, .f32⟩
  | .local _ .vmem, ⟨102, _⟩ => ⟨S1x1x256, .f32⟩
  | .local _ .vmem, ⟨103, _⟩ => ⟨S1x1x256, .f32⟩
  | .local _ .vmem, ⟨104, _⟩ => ⟨S256x512, .f32⟩
  | .local _ .vmem, ⟨105, _⟩ => ⟨S2048x512, .f32⟩
  | .local _ .vmem, ⟨106, _⟩ => ⟨S2048x512, .f32⟩
  | .local _ .vmem, ⟨107, _⟩ => ⟨S256x2048, .f32⟩
  | .local _ .vmem, ⟨108, _⟩ => ⟨S256x2048, .f32⟩
  | .local _ .smem, ⟨0, _⟩ => ⟨S12500, .i32⟩
  | .local _ .smem, ⟨1, _⟩ => ⟨S125000, .i32⟩
  | .local _ .smem, ⟨2, _⟩ => ⟨S12500, .i32⟩
  | .local _ .smem, ⟨3, _⟩ => ⟨S125000, .i32⟩
  | .local _ .smem, ⟨4, _⟩ => ⟨S12500, .i32⟩
  | .local _ .smem, ⟨5, _⟩ => ⟨S125000, .i32⟩
  | .local _ .smem, ⟨6, _⟩ => ⟨S12500, .i32⟩
  | .local _ .smem, ⟨7, _⟩ => ⟨S125000, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | _, _ => false

abbrev semScoped : Fin 0 → Bool
  | ⟨_, h⟩ => absurd h (Nat.not_lt_zero _)

abbrev dmaSemScoped : Fin 109 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | _ => false

abbrev sig : RefSig :=
  ofTc nBuf bufTy 0 109 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v2 : Ref sig .tc := ⟨.hbm, 5, rfl⟩
abbrev main_v4_0 : Ref sig .tc := ⟨.hbm, 6, rfl⟩
abbrev main_v4_1 : Ref sig .tc := ⟨.hbm, 7, rfl⟩
abbrev main_v5 : Ref sig .tc := ⟨.hbm, 8, rfl⟩
abbrev main_v6 : Ref sig .tc := ⟨.hbm, 9, rfl⟩
abbrev main_v8 : Ref sig .tc := ⟨.hbm, 10, rfl⟩
abbrev main_v10_0 : Ref sig .tc := ⟨.hbm, 11, rfl⟩
abbrev main_v10_1 : Ref sig .tc := ⟨.hbm, 12, rfl⟩
abbrev main_v11 : Ref sig .tc := ⟨.hbm, 13, rfl⟩
abbrev main_v12 : Ref sig .tc := ⟨.hbm, 14, rfl⟩
abbrev main_v14 : Ref sig .tc := ⟨.hbm, 15, rfl⟩
abbrev main_v16_0 : Ref sig .tc := ⟨.hbm, 16, rfl⟩
abbrev main_v16_1 : Ref sig .tc := ⟨.hbm, 17, rfl⟩
abbrev main_v17 : Ref sig .tc := ⟨.hbm, 18, rfl⟩
abbrev main_v18 : Ref sig .tc := ⟨.hbm, 19, rfl⟩
abbrev main_v20 : Ref sig .tc := ⟨.hbm, 20, rfl⟩
abbrev main_v22_0 : Ref sig .tc := ⟨.hbm, 21, rfl⟩
abbrev main_v22_1 : Ref sig .tc := ⟨.hbm, 22, rfl⟩
abbrev main_v23 : Ref sig .tc := ⟨.hbm, 23, rfl⟩
abbrev main_v24 : Ref sig .tc := ⟨.hbm, 24, rfl⟩
abbrev main_v25 : Ref sig .tc := ⟨.hbm, 25, rfl⟩
abbrev main_v26 : Ref sig .tc := ⟨.hbm, 26, rfl⟩
abbrev main_v27 : Ref sig .tc := ⟨.hbm, 27, rfl⟩
abbrev main_c : Ref sig .tc := ⟨.hbm, 28, rfl⟩
abbrev main_call0_v0 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v1 : Ref sig .tc := ⟨.smem, 0, rfl⟩
abbrev main_v3 : Ref sig .tc := ⟨.smem, 1, rfl⟩
abbrev main_v7 : Ref sig .tc := ⟨.smem, 2, rfl⟩
abbrev main_v9 : Ref sig .tc := ⟨.smem, 3, rfl⟩
abbrev main_v13 : Ref sig .tc := ⟨.smem, 4, rfl⟩
abbrev main_v15 : Ref sig .tc := ⟨.smem, 5, rfl⟩
abbrev main_v19 : Ref sig .tc := ⟨.smem, 6, rfl⟩
abbrev main_v21 : Ref sig .tc := ⟨.smem, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc1_stg10_0 : Ref sig .tc := ⟨.vmem, 46, rfl⟩
abbrev cc1_stg10_1 : Ref sig .tc := ⟨.vmem, 47, rfl⟩
abbrev cc1_stg11_0 : Ref sig .tc := ⟨.vmem, 48, rfl⟩
abbrev cc1_stg11_1 : Ref sig .tc := ⟨.vmem, 49, rfl⟩
abbrev cc1_stg12_0 : Ref sig .tc := ⟨.vmem, 50, rfl⟩
abbrev cc1_stg12_1 : Ref sig .tc := ⟨.vmem, 51, rfl⟩
abbrev cc2_stg0_0 : Ref sig .tc := ⟨.vmem, 52, rfl⟩
abbrev cc2_stg0_1 : Ref sig .tc := ⟨.vmem, 53, rfl⟩
abbrev cc2_stg1_0 : Ref sig .tc := ⟨.vmem, 54, rfl⟩
abbrev cc2_stg1_1 : Ref sig .tc := ⟨.vmem, 55, rfl⟩
abbrev cc2_stg2_0 : Ref sig .tc := ⟨.vmem, 56, rfl⟩
abbrev cc2_stg2_1 : Ref sig .tc := ⟨.vmem, 57, rfl⟩
abbrev cc2_stg3_0 : Ref sig .tc := ⟨.vmem, 58, rfl⟩
abbrev cc2_stg3_1 : Ref sig .tc := ⟨.vmem, 59, rfl⟩
abbrev cc2_stg4_0 : Ref sig .tc := ⟨.vmem, 60, rfl⟩
abbrev cc2_stg4_1 : Ref sig .tc := ⟨.vmem, 61, rfl⟩
abbrev cc2_stg5_0 : Ref sig .tc := ⟨.vmem, 62, rfl⟩
abbrev cc2_stg5_1 : Ref sig .tc := ⟨.vmem, 63, rfl⟩
abbrev cc2_stg6_0 : Ref sig .tc := ⟨.vmem, 64, rfl⟩
abbrev cc2_stg6_1 : Ref sig .tc := ⟨.vmem, 65, rfl⟩
abbrev cc2_stg7_0 : Ref sig .tc := ⟨.vmem, 66, rfl⟩
abbrev cc2_stg7_1 : Ref sig .tc := ⟨.vmem, 67, rfl⟩
abbrev cc2_stg8_0 : Ref sig .tc := ⟨.vmem, 68, rfl⟩
abbrev cc2_stg8_1 : Ref sig .tc := ⟨.vmem, 69, rfl⟩
abbrev cc2_stg9_0 : Ref sig .tc := ⟨.vmem, 70, rfl⟩
abbrev cc2_stg9_1 : Ref sig .tc := ⟨.vmem, 71, rfl⟩
abbrev cc2_stg10_0 : Ref sig .tc := ⟨.vmem, 72, rfl⟩
abbrev cc2_stg10_1 : Ref sig .tc := ⟨.vmem, 73, rfl⟩
abbrev cc2_stg11_0 : Ref sig .tc := ⟨.vmem, 74, rfl⟩
abbrev cc2_stg11_1 : Ref sig .tc := ⟨.vmem, 75, rfl⟩
abbrev cc2_stg12_0 : Ref sig .tc := ⟨.vmem, 76, rfl⟩
abbrev cc2_stg12_1 : Ref sig .tc := ⟨.vmem, 77, rfl⟩
abbrev cc3_stg0_0 : Ref sig .tc := ⟨.vmem, 78, rfl⟩
abbrev cc3_stg0_1 : Ref sig .tc := ⟨.vmem, 79, rfl⟩
abbrev cc3_stg1_0 : Ref sig .tc := ⟨.vmem, 80, rfl⟩
abbrev cc3_stg1_1 : Ref sig .tc := ⟨.vmem, 81, rfl⟩
abbrev cc3_stg2_0 : Ref sig .tc := ⟨.vmem, 82, rfl⟩
abbrev cc3_stg2_1 : Ref sig .tc := ⟨.vmem, 83, rfl⟩
abbrev cc3_stg3_0 : Ref sig .tc := ⟨.vmem, 84, rfl⟩
abbrev cc3_stg3_1 : Ref sig .tc := ⟨.vmem, 85, rfl⟩
abbrev cc3_stg4_0 : Ref sig .tc := ⟨.vmem, 86, rfl⟩
abbrev cc3_stg4_1 : Ref sig .tc := ⟨.vmem, 87, rfl⟩
abbrev cc3_stg5_0 : Ref sig .tc := ⟨.vmem, 88, rfl⟩
abbrev cc3_stg5_1 : Ref sig .tc := ⟨.vmem, 89, rfl⟩
abbrev cc3_stg6_0 : Ref sig .tc := ⟨.vmem, 90, rfl⟩
abbrev cc3_stg6_1 : Ref sig .tc := ⟨.vmem, 91, rfl⟩
abbrev cc3_stg7_0 : Ref sig .tc := ⟨.vmem, 92, rfl⟩
abbrev cc3_stg7_1 : Ref sig .tc := ⟨.vmem, 93, rfl⟩
abbrev cc3_stg8_0 : Ref sig .tc := ⟨.vmem, 94, rfl⟩
abbrev cc3_stg8_1 : Ref sig .tc := ⟨.vmem, 95, rfl⟩
abbrev cc3_stg9_0 : Ref sig .tc := ⟨.vmem, 96, rfl⟩
abbrev cc3_stg9_1 : Ref sig .tc := ⟨.vmem, 97, rfl⟩
abbrev cc3_stg10_0 : Ref sig .tc := ⟨.vmem, 98, rfl⟩
abbrev cc3_stg10_1 : Ref sig .tc := ⟨.vmem, 99, rfl⟩
abbrev cc3_stg11_0 : Ref sig .tc := ⟨.vmem, 100, rfl⟩
abbrev cc3_stg11_1 : Ref sig .tc := ⟨.vmem, 101, rfl⟩
abbrev cc3_stg12_0 : Ref sig .tc := ⟨.vmem, 102, rfl⟩
abbrev cc3_stg12_1 : Ref sig .tc := ⟨.vmem, 103, rfl⟩
abbrev cc4_stg0_0 : Ref sig .tc := ⟨.vmem, 104, rfl⟩
abbrev cc4_stg1_0 : Ref sig .tc := ⟨.vmem, 105, rfl⟩
abbrev cc4_stg1_1 : Ref sig .tc := ⟨.vmem, 106, rfl⟩
abbrev cc4_stg2_0 : Ref sig .tc := ⟨.vmem, 107, rfl⟩
abbrev cc4_stg2_1 : Ref sig .tc := ⟨.vmem, 108, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem3_1 : DmaSem sig := 33
abbrev cc1_sem4_0 : DmaSem sig := 34
abbrev cc1_sem4_1 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43
abbrev cc1_sem9_0 : DmaSem sig := 44
abbrev cc1_sem9_1 : DmaSem sig := 45
abbrev cc1_sem10_0 : DmaSem sig := 46
abbrev cc1_sem10_1 : DmaSem sig := 47
abbrev cc1_sem11_0 : DmaSem sig := 48
abbrev cc1_sem11_1 : DmaSem sig := 49
abbrev cc1_sem12_0 : DmaSem sig := 50
abbrev cc1_sem12_1 : DmaSem sig := 51
abbrev cc2_sem0_0 : DmaSem sig := 52
abbrev cc2_sem0_1 : DmaSem sig := 53
abbrev cc2_sem1_0 : DmaSem sig := 54
abbrev cc2_sem1_1 : DmaSem sig := 55
abbrev cc2_sem2_0 : DmaSem sig := 56
abbrev cc2_sem2_1 : DmaSem sig := 57
abbrev cc2_sem3_0 : DmaSem sig := 58
abbrev cc2_sem3_1 : DmaSem sig := 59
abbrev cc2_sem4_0 : DmaSem sig := 60
abbrev cc2_sem4_1 : DmaSem sig := 61
abbrev cc2_sem5_0 : DmaSem sig := 62
abbrev cc2_sem5_1 : DmaSem sig := 63
abbrev cc2_sem6_0 : DmaSem sig := 64
abbrev cc2_sem6_1 : DmaSem sig := 65
abbrev cc2_sem7_0 : DmaSem sig := 66
abbrev cc2_sem7_1 : DmaSem sig := 67
abbrev cc2_sem8_0 : DmaSem sig := 68
abbrev cc2_sem8_1 : DmaSem sig := 69
abbrev cc2_sem9_0 : DmaSem sig := 70
abbrev cc2_sem9_1 : DmaSem sig := 71
abbrev cc2_sem10_0 : DmaSem sig := 72
abbrev cc2_sem10_1 : DmaSem sig := 73
abbrev cc2_sem11_0 : DmaSem sig := 74
abbrev cc2_sem11_1 : DmaSem sig := 75
abbrev cc2_sem12_0 : DmaSem sig := 76
abbrev cc2_sem12_1 : DmaSem sig := 77
abbrev cc3_sem0_0 : DmaSem sig := 78
abbrev cc3_sem0_1 : DmaSem sig := 79
abbrev cc3_sem1_0 : DmaSem sig := 80
abbrev cc3_sem1_1 : DmaSem sig := 81
abbrev cc3_sem2_0 : DmaSem sig := 82
abbrev cc3_sem2_1 : DmaSem sig := 83
abbrev cc3_sem3_0 : DmaSem sig := 84
abbrev cc3_sem3_1 : DmaSem sig := 85
abbrev cc3_sem4_0 : DmaSem sig := 86
abbrev cc3_sem4_1 : DmaSem sig := 87
abbrev cc3_sem5_0 : DmaSem sig := 88
abbrev cc3_sem5_1 : DmaSem sig := 89
abbrev cc3_sem6_0 : DmaSem sig := 90
abbrev cc3_sem6_1 : DmaSem sig := 91
abbrev cc3_sem7_0 : DmaSem sig := 92
abbrev cc3_sem7_1 : DmaSem sig := 93
abbrev cc3_sem8_0 : DmaSem sig := 94
abbrev cc3_sem8_1 : DmaSem sig := 95
abbrev cc3_sem9_0 : DmaSem sig := 96
abbrev cc3_sem9_1 : DmaSem sig := 97
abbrev cc3_sem10_0 : DmaSem sig := 98
abbrev cc3_sem10_1 : DmaSem sig := 99
abbrev cc3_sem11_0 : DmaSem sig := 100
abbrev cc3_sem11_1 : DmaSem sig := 101
abbrev cc3_sem12_0 : DmaSem sig := 102
abbrev cc3_sem12_1 : DmaSem sig := 103
abbrev cc4_sem0_0 : DmaSem sig := 104
abbrev cc4_sem1_0 : DmaSem sig := 105
abbrev cc4_sem1_1 : DmaSem sig := 106
abbrev cc4_sem2_0 : DmaSem sig := 107
abbrev cc4_sem2_1 : DmaSem sig := 108

abbrev nD : Nat := 1
abbrev τ : Topo := Topo.v7x

variable {F : FTy → Type} [FloatOps F]

abbrev grid0 : Pipeline.Grid := ⟨1, ![12500], ![false]⟩

abbrev pre0 : Pipeline.Prefetch sig := ⟨2, ![main_v1.idx, main_v3.idx], fun | 0 => main_v1.names | 1 => main_v3.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) (c0_i32 : BitVec 32) : Fin 1 → Nat :=
  let arg0 : BitVec 32 := BitVec.ofNat 32 (i 0).val
  let c10_i32 : BitVec 32 := 10#32
  let v0 : BitVec 32 := Scalar.muli arg0 c10_i32
  let v1 : BitVec 32 := Scalar.addi v0 c0_i32
  let v2 : Index := Scalar.indexCast v1
  ![v2.toNat]
def cc0_transform_0 (k0_off1_inb : ∀ i : grid0.Coords, ∀ a, (k0_off1 i) a + S1.size a ≤ S12500.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12500) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c0_i32 : BitVec 32 := 0#32
  let v1 : BitVec 32 := Scalar.addi v0 c0_i32
  let v2 : Index := Scalar.indexCast v1
  let v3 : BitVec 32 := pf.at 1 (Rect.unit (s := S125000) ![v2.toNat] S1.size (k0_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_2 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c1_i32 : BitVec 32 := 1#32
  let v1 : BitVec 32 := Scalar.addi v0 c1_i32
  let v2 : Index := Scalar.indexCast v1
  let v3 : BitVec 32 := pf.at 1 (Rect.unit (s := S125000) ![v2.toNat] S1.size (k0_off2_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c2_i32 : BitVec 32 := 2#32
  let v1 : BitVec 32 := Scalar.addi v0 c2_i32
  let v2 : Index := Scalar.indexCast v1
  let v3 : BitVec 32 := pf.at 1 (Rect.unit (s := S125000) ![v2.toNat] S1.size (k0_off2_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c3_i32 : BitVec 32 := 3#32
  let v1 : BitVec 32 := Scalar.addi v0 c3_i32
  let v2 : Index := Scalar.indexCast v1
  let v3 : BitVec 32 := pf.at 1 (Rect.unit (s := S125000) ![v2.toNat] S1.size (k0_off2_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c4_i32 : BitVec 32 := 4#32
  let v1 : BitVec 32 := Scalar.addi v0 c4_i32
  let v2 : Index := Scalar.indexCast v1
  let v3 : BitVec 32 := pf.at 1 (Rect.unit (s := S125000) ![v2.toNat] S1.size (k0_off2_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c5_i32 : BitVec 32 := 5#32
  let v1 : BitVec 32 := Scalar.addi v0 c5_i32
  let v2 : Index := Scalar.indexCast v1
  let v3 : BitVec 32 := pf.at 1 (Rect.unit (s := S125000) ![v2.toNat] S1.size (k0_off2_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c6_i32 : BitVec 32 := 6#32
  let v1 : BitVec 32 := Scalar.addi v0 c6_i32
  let v2 : Index := Scalar.indexCast v1
  let v3 : BitVec 32 := pf.at 1 (Rect.unit (s := S125000) ![v2.toNat] S1.size (k0_off2_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c7_i32 : BitVec 32 := 7#32
  let v1 : BitVec 32 := Scalar.addi v0 c7_i32
  let v2 : Index := Scalar.indexCast v1
  let v3 : BitVec 32 := pf.at 1 (Rect.unit (s := S125000) ![v2.toNat] S1.size (k0_off2_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c8_i32 : BitVec 32 := 8#32
  let v1 : BitVec 32 := Scalar.addi v0 c8_i32
  let v2 : Index := Scalar.indexCast v1
  let v3 : BitVec 32 := pf.at 1 (Rect.unit (s := S125000) ![v2.toNat] S1.size (k0_off2_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off2_inb : ∀ i : grid0.Coords, ∀ (r : Fin 10), ∀ a, (k0_off2 i (BitVec.ofNat 32 r.val)) a + S1.size a ≤ S125000.size a) (numel1_S1 : S1.numel = 1) (pf : pre0.Contents (Elt F)) (i : grid0.Coords) : Fin 3 → Nat :=
  let arg0 : BitVec 32 := BitVec.ofNat 32 (i 0).val
  let c10_i32 : BitVec 32 := 10#32
  let v0 : BitVec 32 := Scalar.muli arg0 c10_i32
  let c9_i32 : BitVec 32 := 9#32
  let v1 : BitVec 32 := Scalar.addi v0 c9_i32
  let v2 : Index := Scalar.indexCast v1
  let v3 : BitVec 32 := pf.at 1 (Rect.unit (s := S125000) ![v2.toNat] S1.size (k0_off2_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev grid1 : Pipeline.Grid := ⟨1, ![12500], ![false]⟩

abbrev pre1 : Pipeline.Prefetch sig := ⟨2, ![main_v7.idx, main_v9.idx], fun | 0 => main_v7.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) (c0_i32 : BitVec 32) : Fin 1 → Nat :=
  let arg0 : BitVec 32 := BitVec.ofNat 32 (i 0).val
  let c10_i32 : BitVec 32 := 10#32
  let v0 : BitVec 32 := Scalar.muli arg0 c10_i32
  let v1 : BitVec 32 := Scalar.addi v0 c0_i32
  let v2 : Index := Scalar.indexCast v1
  ![v2.toNat]
def cc1_transform_0 (k1_off1_inb : ∀ i : grid1.Coords, ∀ a, (k1_off1 i) a + S1.size a ≤ S12500.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S12500) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c0_i32 : BitVec 32 := 0#32
  let v1 : BitVec 32 := Scalar.addi v0 c0_i32
  let v2 : Index := Scalar.indexCast v1
  let v3 : BitVec 32 := pf.at 1 (Rect.unit (s := S125000) ![v2.toNat] S1.size (k1_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc1_transform_2 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c1_i32 : BitVec 32 := 1#32
  let v1 : BitVec 32 := Scalar.addi v0 c1_i32
  let v2 : Index := Scalar.indexCast v1
  let v3 : BitVec 32 := pf.at 1 (Rect.unit (s := S125000) ![v2.toNat] S1.size (k1_off2_inb i 1)) numel1_S1
  let c0_i32 : BitVec 32 := 0#32
  let c0_i32_0 : BitVec 32 := 0#32
  let c0_i32_1 : BitVec 32 := 0#32
  ![v3.toNat, c0_i32.toNat, c0_i32_0.toNat]

def cc1_transform_3 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c2_i32 : BitVec 32 := 2#32
  let v1 : BitVec 32 := Scalar.addi v0 c2_i32
  let v2 : Index := Scalar.indexCast v1
  let v3 : BitVec 32 := pf.at 1 (Rect.unit (s := S125000) ![v2.toNat] S1.size (k1_off2_inb i 2)) numel1_S1
  let c0_i32 : BitVec 32 := 0#32
  let c0_i32_0 : BitVec 32 := 0#32
  let c0_i32_1 : BitVec 32 := 0#32
  ![v3.toNat, c0_i32.toNat, c0_i32_0.toNat]

def cc1_transform_4 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c3_i32 : BitVec 32 := 3#32
  let v1 : BitVec 32 := Scalar.addi v0 c3_i32
  let v2 : Index := Scalar.indexCast v1
  let v3 : BitVec 32 := pf.at 1 (Rect.unit (s := S125000) ![v2.toNat] S1.size (k1_off2_inb i 3)) numel1_S1
  let c0_i32 : BitVec 32 := 0#32
  let c0_i32_0 : BitVec 32 := 0#32
  let c0_i32_1 : BitVec 32 := 0#32
  ![v3.toNat, c0_i32.toNat, c0_i32_0.toNat]

def cc1_transform_5 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c4_i32 : BitVec 32 := 4#32
  let v1 : BitVec 32 := Scalar.addi v0 c4_i32
  let v2 : Index := Scalar.indexCast v1
  let v3 : BitVec 32 := pf.at 1 (Rect.unit (s := S125000) ![v2.toNat] S1.size (k1_off2_inb i 4)) numel1_S1
  let c0_i32 : BitVec 32 := 0#32
  let c0_i32_0 : BitVec 32 := 0#32
  let c0_i32_1 : BitVec 32 := 0#32
  ![v3.toNat, c0_i32.toNat, c0_i32_0.toNat]

def cc1_transform_6 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c5_i32 : BitVec 32 := 5#32
  let v1 : BitVec 32 := Scalar.addi v0 c5_i32
  let v2 : Index := Scalar.indexCast v1
  let v3 : BitVec 32 := pf.at 1 (Rect.unit (s := S125000) ![v2.toNat] S1.size (k1_off2_inb i 5)) numel1_S1
  let c0_i32 : BitVec 32 := 0#32
  let c0_i32_0 : BitVec 32 := 0#32
  let c0_i32_1 : BitVec 32 := 0#32
  ![v3.toNat, c0_i32.toNat, c0_i32_0.toNat]

def cc1_transform_7 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c6_i32 : BitVec 32 := 6#32
  let v1 : BitVec 32 := Scalar.addi v0 c6_i32
  let v2 : Index := Scalar.indexCast v1
  let v3 : BitVec 32 := pf.at 1 (Rect.unit (s := S125000) ![v2.toNat] S1.size (k1_off2_inb i 6)) numel1_S1
  let c0_i32 : BitVec 32 := 0#32
  let c0_i32_0 : BitVec 32 := 0#32
  let c0_i32_1 : BitVec 32 := 0#32
  ![v3.toNat, c0_i32.toNat, c0_i32_0.toNat]

def cc1_transform_8 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c7_i32 : BitVec 32 := 7#32
  let v1 : BitVec 32 := Scalar.addi v0 c7_i32
  let v2 : Index := Scalar.indexCast v1
  let v3 : BitVec 32 := pf.at 1 (Rect.unit (s := S125000) ![v2.toNat] S1.size (k1_off2_inb i 7)) numel1_S1
  let c0_i32 : BitVec 32 := 0#32
  let c0_i32_0 : BitVec 32 := 0#32
  let c0_i32_1 : BitVec 32 := 0#32
  ![v3.toNat, c0_i32.toNat, c0_i32_0.toNat]

def cc1_transform_9 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c8_i32 : BitVec 32 := 8#32
  let v1 : BitVec 32 := Scalar.addi v0 c8_i32
  let v2 : Index := Scalar.indexCast v1
  let v3 : BitVec 32 := pf.at 1 (Rect.unit (s := S125000) ![v2.toNat] S1.size (k1_off2_inb i 8)) numel1_S1
  let c0_i32 : BitVec 32 := 0#32
  let c0_i32_0 : BitVec 32 := 0#32
  let c0_i32_1 : BitVec 32 := 0#32
  ![v3.toNat, c0_i32.toNat, c0_i32_0.toNat]

def cc1_transform_10 (k1_off2_inb : ∀ i : grid1.Coords, ∀ (r : Fin 10), ∀ a, (k1_off2 i (BitVec.ofNat 32 r.val)) a + S1.size a ≤ S125000.size a) (numel1_S1 : S1.numel = 1) (pf : pre1.Contents (Elt F)) (i : grid1.Coords) : Fin 3 → Nat :=
  let arg0 : BitVec 32 := BitVec.ofNat 32 (i 0).val
  let c10_i32 : BitVec 32 := 10#32
  let v0 : BitVec 32 := Scalar.muli arg0 c10_i32
  let c9_i32 : BitVec 32 := 9#32
  let v1 : BitVec 32 := Scalar.addi v0 c9_i32
  let v2 : Index := Scalar.indexCast v1
  let v3 : BitVec 32 := pf.at 1 (Rect.unit (s := S125000) ![v2.toNat] S1.size (k1_off2_inb i 9)) numel1_S1
  let c0_i32 : BitVec 32 := 0#32
  let c0_i32_0 : BitVec 32 := 0#32
  let c0_i32_1 : BitVec 32 := 0#32
  ![v3.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x1x256 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x1x256 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![12500], ![false]⟩

abbrev pre2 : Pipeline.Prefetch sig := ⟨2, ![main_v13.idx, main_v15.idx], fun | 0 => main_v13.names | 1 => main_v15.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def k2_off2 (i : grid2.Coords) (c0_i32 : BitVec 32) : Fin 1 → Nat :=
  let arg0 : BitVec 32 := BitVec.ofNat 32 (i 0).val
  let c10_i32 : BitVec 32 := 10#32
  let v0 : BitVec 32 := Scalar.muli arg0 c10_i32
  let v1 : BitVec 32 := Scalar.addi v0 c0_i32
  let v2 : Index := Scalar.indexCast v1
  ![v2.toNat]
def cc2_transform_0 (k2_off1_inb : ∀ i : grid2.Coords, ∀ a, (k2_off1 i) a + S1.size a ≤ S12500.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S12500) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c0_i32 : BitVec 32 := 0#32
  let v1 : BitVec 32 := Scalar.addi v0 c0_i32
  let v2 : Index := Scalar.indexCast v1
  let v3 : BitVec 32 := pf.at 1 (Rect.unit (s := S125000) ![v2.toNat] S1.size (k2_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc2_transform_2 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c1_i32 : BitVec 32 := 1#32
  let v1 : BitVec 32 := Scalar.addi v0 c1_i32
  let v2 : Index := Scalar.indexCast v1
  let v3 : BitVec 32 := pf.at 1 (Rect.unit (s := S125000) ![v2.toNat] S1.size (k2_off2_inb i 1)) numel1_S1
  let c0_i32 : BitVec 32 := 0#32
  let c0_i32_0 : BitVec 32 := 0#32
  let c0_i32_1 : BitVec 32 := 0#32
  ![v3.toNat, c0_i32.toNat, c0_i32_0.toNat]

def cc2_transform_3 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c2_i32 : BitVec 32 := 2#32
  let v1 : BitVec 32 := Scalar.addi v0 c2_i32
  let v2 : Index := Scalar.indexCast v1
  let v3 : BitVec 32 := pf.at 1 (Rect.unit (s := S125000) ![v2.toNat] S1.size (k2_off2_inb i 2)) numel1_S1
  let c0_i32 : BitVec 32 := 0#32
  let c0_i32_0 : BitVec 32 := 0#32
  let c0_i32_1 : BitVec 32 := 0#32
  ![v3.toNat, c0_i32.toNat, c0_i32_0.toNat]

def cc2_transform_4 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c3_i32 : BitVec 32 := 3#32
  let v1 : BitVec 32 := Scalar.addi v0 c3_i32
  let v2 : Index := Scalar.indexCast v1
  let v3 : BitVec 32 := pf.at 1 (Rect.unit (s := S125000) ![v2.toNat] S1.size (k2_off2_inb i 3)) numel1_S1
  let c0_i32 : BitVec 32 := 0#32
  let c0_i32_0 : BitVec 32 := 0#32
  let c0_i32_1 : BitVec 32 := 0#32
  ![v3.toNat, c0_i32.toNat, c0_i32_0.toNat]

def cc2_transform_5 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c4_i32 : BitVec 32 := 4#32
  let v1 : BitVec 32 := Scalar.addi v0 c4_i32
  let v2 : Index := Scalar.indexCast v1
  let v3 : BitVec 32 := pf.at 1 (Rect.unit (s := S125000) ![v2.toNat] S1.size (k2_off2_inb i 4)) numel1_S1
  let c0_i32 : BitVec 32 := 0#32
  let c0_i32_0 : BitVec 32 := 0#32
  let c0_i32_1 : BitVec 32 := 0#32
  ![v3.toNat, c0_i32.toNat, c0_i32_0.toNat]

def cc2_transform_6 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c5_i32 : BitVec 32 := 5#32
  let v1 : BitVec 32 := Scalar.addi v0 c5_i32
  let v2 : Index := Scalar.indexCast v1
  let v3 : BitVec 32 := pf.at 1 (Rect.unit (s := S125000) ![v2.toNat] S1.size (k2_off2_inb i 5)) numel1_S1
  let c0_i32 : BitVec 32 := 0#32
  let c0_i32_0 : BitVec 32 := 0#32
  let c0_i32_1 : BitVec 32 := 0#32
  ![v3.toNat, c0_i32.toNat, c0_i32_0.toNat]

def cc2_transform_7 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c6_i32 : BitVec 32 := 6#32
  let v1 : BitVec 32 := Scalar.addi v0 c6_i32
  let v2 : Index := Scalar.indexCast v1
  let v3 : BitVec 32 := pf.at 1 (Rect.unit (s := S125000) ![v2.toNat] S1.size (k2_off2_inb i 6)) numel1_S1
  let c0_i32 : BitVec 32 := 0#32
  let c0_i32_0 : BitVec 32 := 0#32
  let c0_i32_1 : BitVec 32 := 0#32
  ![v3.toNat, c0_i32.toNat, c0_i32_0.toNat]

def cc2_transform_8 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c7_i32 : BitVec 32 := 7#32
  let v1 : BitVec 32 := Scalar.addi v0 c7_i32
  let v2 : Index := Scalar.indexCast v1
  let v3 : BitVec 32 := pf.at 1 (Rect.unit (s := S125000) ![v2.toNat] S1.size (k2_off2_inb i 7)) numel1_S1
  let c0_i32 : BitVec 32 := 0#32
  let c0_i32_0 : BitVec 32 := 0#32
  let c0_i32_1 : BitVec 32 := 0#32
  ![v3.toNat, c0_i32.toNat, c0_i32_0.toNat]

def cc2_transform_9 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c8_i32 : BitVec 32 := 8#32
  let v1 : BitVec 32 := Scalar.addi v0 c8_i32
  let v2 : Index := Scalar.indexCast v1
  let v3 : BitVec 32 := pf.at 1 (Rect.unit (s := S125000) ![v2.toNat] S1.size (k2_off2_inb i 8)) numel1_S1
  let c0_i32 : BitVec 32 := 0#32
  let c0_i32_0 : BitVec 32 := 0#32
  let c0_i32_1 : BitVec 32 := 0#32
  ![v3.toNat, c0_i32.toNat, c0_i32_0.toNat]

def cc2_transform_10 (k2_off2_inb : ∀ i : grid2.Coords, ∀ (r : Fin 10), ∀ a, (k2_off2 i (BitVec.ofNat 32 r.val)) a + S1.size a ≤ S125000.size a) (numel1_S1 : S1.numel = 1) (pf : pre2.Contents (Elt F)) (i : grid2.Coords) : Fin 3 → Nat :=
  let arg0 : BitVec 32 := BitVec.ofNat 32 (i 0).val
  let c10_i32 : BitVec 32 := 10#32
  let v0 : BitVec 32 := Scalar.muli arg0 c10_i32
  let c9_i32 : BitVec 32 := 9#32
  let v1 : BitVec 32 := Scalar.addi v0 c9_i32
  let v2 : Index := Scalar.indexCast v1
  let v3 : BitVec 32 := pf.at 1 (Rect.unit (s := S125000) ![v2.toNat] S1.size (k2_off2_inb i 9)) numel1_S1
  let c0_i32 : BitVec 32 := 0#32
  let c0_i32_0 : BitVec 32 := 0#32
  let c0_i32_1 : BitVec 32 := 0#32
  ![v3.toNat, c0_i32.toNat, c0_i32_0.toNat]

def cc2_transform_11 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_12 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x1x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x1x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S1x1x256 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S1x1x256 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev stage2_11 : Fin 2 → Memref sig .tc .vmem S1x1x256 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev stage2_12 : Fin 2 → Memref sig .tc .vmem S1x1x256 .f32 := fun | 0 => Memref.whole cc2_stg12_0 | 1 => Memref.whole cc2_stg12_1 | ⟨_ + 2, h⟩ => absurd h (Nat.not_lt.2 (Nat.le_add_left _ _))
abbrev sem2_12 : Fin 2 → DmaSem sig := fun | 0 => cc2_sem12_0 | 1 => cc2_sem12_1 | ⟨_ + 2, h⟩ => absurd h (Nat.not_lt.2 (Nat.le_add_left _ _))
abbrev reads2_12 : Fin grid2.rank → Bool := ![true]

abbrev grid3 : Pipeline.Grid := ⟨1, ![12500], ![false]⟩

abbrev pre3 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_off2 (i : grid3.Coords) (c0_i32 : BitVec 32) : Fin 1 → Nat :=
  let arg0 : BitVec 32 := BitVec.ofNat 32 (i 0).val
  let c10_i32 : BitVec 32 := 10#32
  let v0 : BitVec 32 := Scalar.muli arg0 c10_i32
  let v1 : BitVec 32 := Scalar.addi v0 c0_i32
  let v2 : Index := Scalar.indexCast v1
  ![v2.toNat]
def cc3_transform_0 (k3_off1_inb : ∀ i : grid3.Coords, ∀ a, (k3_off1 i) a + S1.size a ≤ S12500.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S12500) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c0_i32 : BitVec 32 := 0#32
  let v1 : BitVec 32 := Scalar.addi v0 c0_i32
  let v2 : Index := Scalar.indexCast v1
  let v3 : BitVec 32 := pf.at 1 (Rect.unit (s := S125000) ![v2.toNat] S1.size (k3_off2_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc3_transform_2 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c1_i32 : BitVec 32 := 1#32
  let v1 : BitVec 32 := Scalar.addi v0 c1_i32
  let v2 : Index := Scalar.indexCast v1
  let v3 : BitVec 32 := pf.at 1 (Rect.unit (s := S125000) ![v2.toNat] S1.size (k3_off2_inb i 1)) numel1_S1
  let c0_i32 : BitVec 32 := 0#32
  let c0_i32_0 : BitVec 32 := 0#32
  let c0_i32_1 : BitVec 32 := 0#32
  ![v3.toNat, c0_i32.toNat, c0_i32_0.toNat]

def cc3_transform_3 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c2_i32 : BitVec 32 := 2#32
  let v1 : BitVec 32 := Scalar.addi v0 c2_i32
  let v2 : Index := Scalar.indexCast v1
  let v3 : BitVec 32 := pf.at 1 (Rect.unit (s := S125000) ![v2.toNat] S1.size (k3_off2_inb i 2)) numel1_S1
  let c0_i32 : BitVec 32 := 0#32
  let c0_i32_0 : BitVec 32 := 0#32
  let c0_i32_1 : BitVec 32 := 0#32
  ![v3.toNat, c0_i32.toNat, c0_i32_0.toNat]

def cc3_transform_4 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c3_i32 : BitVec 32 := 3#32
  let v1 : BitVec 32 := Scalar.addi v0 c3_i32
  let v2 : Index := Scalar.indexCast v1
  let v3 : BitVec 32 := pf.at 1 (Rect.unit (s := S125000) ![v2.toNat] S1.size (k3_off2_inb i 3)) numel1_S1
  let c0_i32 : BitVec 32 := 0#32
  let c0_i32_0 : BitVec 32 := 0#32
  let c0_i32_1 : BitVec 32 := 0#32
  ![v3.toNat, c0_i32.toNat, c0_i32_0.toNat]

def cc3_transform_5 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c4_i32 : BitVec 32 := 4#32
  let v1 : BitVec 32 := Scalar.addi v0 c4_i32
  let v2 : Index := Scalar.indexCast v1
  let v3 : BitVec 32 := pf.at 1 (Rect.unit (s := S125000) ![v2.toNat] S1.size (k3_off2_inb i 4)) numel1_S1
  let c0_i32 : BitVec 32 := 0#32
  let c0_i32_0 : BitVec 32 := 0#32
  let c0_i32_1 : BitVec 32 := 0#32
  ![v3.toNat, c0_i32.toNat, c0_i32_0.toNat]

def cc3_transform_6 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c5_i32 : BitVec 32 := 5#32
  let v1 : BitVec 32 := Scalar.addi v0 c5_i32
  let v2 : Index := Scalar.indexCast v1
  let v3 : BitVec 32 := pf.at 1 (Rect.unit (s := S125000) ![v2.toNat] S1.size (k3_off2_inb i 5)) numel1_S1
  let c0_i32 : BitVec 32 := 0#32
  let c0_i32_0 : BitVec 32 := 0#32
  let c0_i32_1 : BitVec 32 := 0#32
  ![v3.toNat, c0_i32.toNat, c0_i32_0.toNat]

def cc3_transform_7 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c6_i32 : BitVec 32 := 6#32
  let v1 : BitVec 32 := Scalar.addi v0 c6_i32
  let v2 : Index := Scalar.indexCast v1
  let v3 : BitVec 32 := pf.at 1 (Rect.unit (s := S125000) ![v2.toNat] S1.size (k3_off2_inb i 6)) numel1_S1
  let c0_i32 : BitVec 32 := 0#32
  let c0_i32_0 : BitVec 32 := 0#32
  let c0_i32_1 : BitVec 32 := 0#32
  ![v3.toNat, c0_i32.toNat, c0_i32_0.toNat]

def cc3_transform_8 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c7_i32 : BitVec 32 := 7#32
  let v1 : BitVec 32 := Scalar.addi v0 c7_i32
  let v2 : Index := Scalar.indexCast v1
  let v3 : BitVec 32 := pf.at 1 (Rect.unit (s := S125000) ![v2.toNat] S1.size (k3_off2_inb i 7)) numel1_S1
  let c0_i32 : BitVec 32 := 0#32
  let c0_i32_0 : BitVec 32 := 0#32
  let c0_i32_1 : BitVec 32 := 0#32
  ![v3.toNat, c0_i32.toNat, c0_i32_0.toNat]

def cc3_transform_9 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c8_i32 : BitVec 32 := 8#32
  let v1 : BitVec 32 := Scalar.addi v0 c8_i32
  let v2 : Index := Scalar.indexCast v1
  let v3 : BitVec 32 := pf.at 1 (Rect.unit (s := S125000) ![v2.toNat] S1.size (k3_off2_inb i 8)) numel1_S1
  let c0_i32 : BitVec 32 := 0#32
  let c0_i32_0 : BitVec 32 := 0#32
  let c0_i32_1 : BitVec 32 := 0#32
  ![v3.toNat, c0_i32.toNat, c0_i32_0.toNat]

def cc3_transform_10 (k3_off2_inb : ∀ i : grid3.Coords, ∀ (r : Fin 10), ∀ a, (k3_off2 i (BitVec.ofNat 32 r.val)) a + S1.size a ≤ S125000.size a) (numel1_S1 : S1.numel = 1) (pf : pre3.Contents (Elt F)) (i : grid3.Coords) : Fin 3 → Nat :=
  let arg0 : BitVec 32 := BitVec.ofNat 32 (i 0).val
  let c10_i32 : BitVec 32 := 10#32
  let v0 : BitVec 32 := Scalar.muli arg0 c10_i32
  let c9_i32 : BitVec 32 := 9#32
  let v1 : BitVec 32 := Scalar.addi v0 c9_i32
  let v2 : Index := Scalar.indexCast v1
  let v3 : BitVec 32 := pf.at 1 (Rect.unit (s := S125000) ![v2.toNat] S1.size (k3_off2_inb i 9)) numel1_S1
  let c0_i32 : BitVec 32 := 0#32
  let c0_i32_0 : BitVec 32 := 0#32
  let c0_i32_1 : BitVec 32 := 0#32
  ![v3.toNat, c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_12 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x1x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x1x256 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x1x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x1x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x1x256 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x1x256 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S1x1x256 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S1x1x256 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S1x1x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S1x1x256 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 1 → Memref sig .tc .vmem S256x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  shapeCasts_S100000x256_S100000x1x256 : S100000x256.ShapeCasts S100000x1x256
  slices_S50000_S12500_0 : S50000.Slices ![0] S12500
  slices_S50000x10_S12500x10_0_0 : S50000x10.Slices ![0, 0] S12500x10
  shapeCasts_S12500x10_S125000 : S12500x10.ShapeCasts S125000
  numel1_S1 : S1.numel = 1
  inb_S1x1x256_S1x1x256_0_0_0 : ∀ a, (![0, 0, 0] : Fin 3 → Nat) a + S1x1x256.size a ≤ S1x1x256.size a
  h_S1x1x256 : 0 < S1x1x256.numel
  shapeCasts_S1x1x256_S1x1x256 : S1x1x256.ShapeCasts S1x1x256
  shapeCasts_S12500x1x256_S12500x256 : S12500x1x256.ShapeCasts S12500x256
  slices_S50000_S12500_12500 : S50000.Slices ![12500] S12500
  slices_S50000x10_S12500x10_12500_0 : S50000x10.Slices ![12500, 0] S12500x10
  slices_S50000_S12500_25000 : S50000.Slices ![25000] S12500
  slices_S50000x10_S12500x10_25000_0 : S50000x10.Slices ![25000, 0] S12500x10
  slices_S50000_S12500_37500 : S50000.Slices ![37500] S12500
  slices_S50000x10_S12500x10_37500_0 : S50000x10.Slices ![37500, 0] S12500x10
  concatenates_S12500x256_S12500x256_S12500x256_S12500x256_S50000x256_d0 : Shape.Concatenates [S12500x256, S12500x256, S12500x256, S12500x256] S50000x256 0
  concatenates_S50000x256_S50000x256_S50000x512_d1 : Shape.Concatenates [S50000x256, S50000x256] S50000x512 1
  pads_S50000x512_S51200x512_012000_000 : S50000x512.Pads (![0, 0] : Fin 2 → Nat) ![1200, 0] ![0, 0] S51200x512
  h_S_ : 0 < S_.numel
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S256x2048_S256x2048_0_0 : ∀ a, (![0, 0] : Fin 2 → Nat) a + S256x2048.size a ≤ S256x2048.size a
  h_S256x2048 : 0 < S256x2048.numel
  slices_S256x51200_S256x50000_0_0 : S256x51200.Slices ![0, 0] S256x50000
  dot_S256x512_S2048x512_S256x2048_1_1_0_0_n_n_wf : DotDims.WF S256x512 S2048x512 S256x2048 [1] [1] [0] [0] [] []
  hrank0 : 0 < grid0.rank
  k0_off1_inb : ∀ i : grid0.Coords, ∀ a, (k0_off1 i) a + S1.size a ≤ S12500.size a
  k0_off2_inb : ∀ i : grid0.Coords, ∀ (r : Fin 10), ∀ a, (k0_off2 i (BitVec.ofNat 32 r.val)) a + S1.size a ≤ S125000.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off2_inb numel1_S1 pf i = cc0_transform_1 k0_off2_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off2_inb numel1_S1 pf i = cc0_transform_2 k0_off2_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off2_inb numel1_S1 pf i = cc0_transform_3 k0_off2_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off2_inb numel1_S1 pf i = cc0_transform_4 k0_off2_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off2_inb numel1_S1 pf i = cc0_transform_5 k0_off2_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off2_inb numel1_S1 pf i = cc0_transform_6 k0_off2_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off2_inb numel1_S1 pf i = cc0_transform_7 k0_off2_inb numel1_S1 pf i'
  hstage0_8 : ∀ j, (stage0_8 j).IsWhole
  nbuf0_8 : grid0.bufCount reads0_8 false = 2
  hreads0_8 : ∀ {F : FTy → Type} [FloatOps F] (pf : pre0.Contents (Elt F)) (i i' : grid0.Coords), (∀ a, reads0_8 a = true → i a = i' a) → cc0_transform_8 k0_off2_inb numel1_S1 pf i = cc0_transform_8 k0_off2_inb numel1_S1 pf i'
  hstage0_9 : ∀ j, (stage0_9 j).IsWhole
  nbuf0_9 : grid0.bufCount reads0_9 false = 2
  hreads0_9 : ∀ {F : FTy → Type} [FloatOps F] (pf : pre0.Contents (Elt F)) (i i' : grid0.Coords), (∀ a, reads0_9 a = true → i a = i' a) → cc0_transform_9 k0_off2_inb numel1_S1 pf i = cc0_transform_9 k0_off2_inb numel1_S1 pf i'
  hstage0_10 : ∀ j, (stage0_10 j).IsWhole
  nbuf0_10 : grid0.bufCount reads0_10 false = 2
  hreads0_10 : ∀ {F : FTy → Type} [FloatOps F] (pf : pre0.Contents (Elt F)) (i i' : grid0.Coords), (∀ a, reads0_10 a = true → i a = i' a) → cc0_transform_10 k0_off2_inb numel1_S1 pf i = cc0_transform_10 k0_off2_inb numel1_S1 pf i'
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x256.size a ≤ S12500x1x256.size a
  hwx0_11 : ∀ i : grid0.Coords, EltTy.bits .f32 = 32 ∨ (Rect.block (s := S12500x1x256) S1x1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x256.size a ≤ S12500x1x256.size a
  hwx0_12 : ∀ i : grid0.Coords, EltTy.bits .f32 = 32 ∨ (Rect.block (s := S12500x1x256) S1x1x256.size (cc0_transform_12 i) (hinb0_12 i)).WholeWords (EltTy.packing .f32)
  hrank1 : 0 < grid1.rank
  k1_off1_inb : ∀ i : grid1.Coords, ∀ a, (k1_off1 i) a + S1.size a ≤ S12500.size a
  k1_off2_inb : ∀ i : grid1.Coords, ∀ (r : Fin 10), ∀ a, (k1_off2 i (BitVec.ofNat 32 r.val)) a + S1.size a ≤ S125000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off2_inb numel1_S1 pf i = cc1_transform_1 k1_off2_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off2_inb numel1_S1 pf i = cc1_transform_2 k1_off2_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off2_inb numel1_S1 pf i = cc1_transform_3 k1_off2_inb numel1_S1 pf i'
  hstage1_4 : ∀ j, (stage1_4 j).IsWhole
  nbuf1_4 : grid1.bufCount reads1_4 false = 2
  hreads1_4 : ∀ {F : FTy → Type} [FloatOps F] (pf : pre1.Contents (Elt F)) (i i' : grid1.Coords), (∀ a, reads1_4 a = true → i a = i' a) → cc1_transform_4 k1_off2_inb numel1_S1 pf i = cc1_transform_4 k1_off2_inb numel1_S1 pf i'
  hstage1_5 : ∀ j, (stage1_5 j).IsWhole
  nbuf1_5 : grid1.bufCount reads1_5 false = 2
  hreads1_5 : ∀ {F : FTy → Type} [FloatOps F] (pf : pre1.Contents (Elt F)) (i i' : grid1.Coords), (∀ a, reads1_5 a = true → i a = i' a) → cc1_transform_5 k1_off2_inb numel1_S1 pf i = cc1_transform_5 k1_off2_inb numel1_S1 pf i'
  hstage1_6 : ∀ j, (stage1_6 j).IsWhole
  nbuf1_6 : grid1.bufCount reads1_6 false = 2
  hreads1_6 : ∀ {F : FTy → Type} [FloatOps F] (pf : pre1.Contents (Elt F)) (i i' : grid1.Coords), (∀ a, reads1_6 a = true → i a = i' a) → cc1_transform_6 k1_off2_inb numel1_S1 pf i = cc1_transform_6 k1_off2_inb numel1_S1 pf i'
  hstage1_7 : ∀ j, (stage1_7 j).IsWhole
  nbuf1_7 : grid1.bufCount reads1_7 false = 2
  hreads1_7 : ∀ {F : FTy → Type} [FloatOps F] (pf : pre1.Contents (Elt F)) (i i' : grid1.Coords), (∀ a, reads1_7 a = true → i a = i' a) → cc1_transform_7 k1_off2_inb numel1_S1 pf i = cc1_transform_7 k1_off2_inb numel1_S1 pf i'
  hstage1_8 : ∀ j, (stage1_8 j).IsWhole
  nbuf1_8 : grid1.bufCount reads1_8 false = 2
  hreads1_8 : ∀ {F : FTy → Type} [FloatOps F] (pf : pre1.Contents (Elt F)) (i i' : grid1.Coords), (∀ a, reads1_8 a = true → i a = i' a) → cc1_transform_8 k1_off2_inb numel1_S1 pf i = cc1_transform_8 k1_off2_inb numel1_S1 pf i'
  hstage1_9 : ∀ j, (stage1_9 j).IsWhole
  nbuf1_9 : grid1.bufCount reads1_9 false = 2
  hreads1_9 : ∀ {F : FTy → Type} [FloatOps F] (pf : pre1.Contents (Elt F)) (i i' : grid1.Coords), (∀ a, reads1_9 a = true → i a = i' a) → cc1_transform_9 k1_off2_inb numel1_S1 pf i = cc1_transform_9 k1_off2_inb numel1_S1 pf i'
  hstage1_10 : ∀ j, (stage1_10 j).IsWhole
  nbuf1_10 : grid1.bufCount reads1_10 false = 2
  hreads1_10 : ∀ {F : FTy → Type} [FloatOps F] (pf : pre1.Contents (Elt F)) (i i' : grid1.Coords), (∀ a, reads1_10 a = true → i a = i' a) → cc1_transform_10 k1_off2_inb numel1_S1 pf i = cc1_transform_10 k1_off2_inb numel1_S1 pf i'
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S1x1x256.size a ≤ S12500x1x256.size a
  hwx1_11 : ∀ i : grid1.Coords, EltTy.bits .f32 = 32 ∨ (Rect.block (s := S12500x1x256) S1x1x256.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x1x256.size a ≤ S12500x1x256.size a
  hwx1_12 : ∀ i : grid1.Coords, EltTy.bits .f32 = 32 ∨ (Rect.block (s := S12500x1x256) S1x1x256.size (cc1_transform_12 i) (hinb1_12 i)).WholeWords (EltTy.packing .f32)
  hrank2 : 0 < grid2.rank
  k2_off1_inb : ∀ i : grid2.Coords, ∀ a, (k2_off1 i) a + S1.size a ≤ S12500.size a
  k2_off2_inb : ∀ i : grid2.Coords, ∀ (r : Fin 10), ∀ a, (k2_off2 i (BitVec.ofNat 32 r.val)) a + S1.size a ≤ S125000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off2_inb numel1_S1 pf i = cc2_transform_1 k2_off2_inb numel1_S1 pf i'
  hstage2_2 : ∀ j, (stage2_2 j).IsWhole
  nbuf2_2 : grid2.bufCount reads2_2 false = 2
  hreads2_2 : ∀ {F : FTy → Type} [FloatOps F] (pf : pre2.Contents (Elt F)) (i i' : grid2.Coords), (∀ a, reads2_2 a = true → i a = i' a) → cc2_transform_2 k2_off2_inb numel1_S1 pf i = cc2_transform_2 k2_off2_inb numel1_S1 pf i'
  hstage2_3 : ∀ j, (stage2_3 j).IsWhole
  nbuf2_3 : grid2.bufCount reads2_3 false = 2
  hreads2_3 : ∀ {F : FTy → Type} [FloatOps F] (pf : pre2.Contents (Elt F)) (i i' : grid2.Coords), (∀ a, reads2_3 a = true → i a = i' a) → cc2_transform_3 k2_off2_inb numel1_S1 pf i = cc2_transform_3 k2_off2_inb numel1_S1 pf i'
  hstage2_4 : ∀ j, (stage2_4 j).IsWhole
  nbuf2_4 : grid2.bufCount reads2_4 false = 2
  hreads2_4 : ∀ {F : FTy → Type} [FloatOps F] (pf : pre2.Contents (Elt F)) (i i' : grid2.Coords), (∀ a, reads2_4 a = true → i a = i' a) → cc2_transform_4 k2_off2_inb numel1_S1 pf i = cc2_transform_4 k2_off2_inb numel1_S1 pf i'
  hstage2_5 : ∀ j, (stage2_5 j).IsWhole
  nbuf2_5 : grid2.bufCount reads2_5 false = 2
  hreads2_5 : ∀ {F : FTy → Type} [FloatOps F] (pf : pre2.Contents (Elt F)) (i i' : grid2.Coords), (∀ a, reads2_5 a = true → i a = i' a) → cc2_transform_5 k2_off2_inb numel1_S1 pf i = cc2_transform_5 k2_off2_inb numel1_S1 pf i'
  hstage2_6 : ∀ j, (stage2_6 j).IsWhole
  nbuf2_6 : grid2.bufCount reads2_6 false = 2
  hreads2_6 : ∀ {F : FTy → Type} [FloatOps F] (pf : pre2.Contents (Elt F)) (i i' : grid2.Coords), (∀ a, reads2_6 a = true → i a = i' a) → cc2_transform_6 k2_off2_inb numel1_S1 pf i = cc2_transform_6 k2_off2_inb numel1_S1 pf i'
  hstage2_7 : ∀ j, (stage2_7 j).IsWhole
  nbuf2_7 : grid2.bufCount reads2_7 false = 2
  hreads2_7 : ∀ {F : FTy → Type} [FloatOps F] (pf : pre2.Contents (Elt F)) (i i' : grid2.Coords), (∀ a, reads2_7 a = true → i a = i' a) → cc2_transform_7 k2_off2_inb numel1_S1 pf i = cc2_transform_7 k2_off2_inb numel1_S1 pf i'
  hstage2_8 : ∀ j, (stage2_8 j).IsWhole
  nbuf2_8 : grid2.bufCount reads2_8 false = 2
  hreads2_8 : ∀ {F : FTy → Type} [FloatOps F] (pf : pre2.Contents (Elt F)) (i i' : grid2.Coords), (∀ a, reads2_8 a = true → i a = i' a) → cc2_transform_8 k2_off2_inb numel1_S1 pf i = cc2_transform_8 k2_off2_inb numel1_S1 pf i'
  hstage2_9 : ∀ j, (stage2_9 j).IsWhole
  nbuf2_9 : grid2.bufCount reads2_9 false = 2
  hreads2_9 : ∀ {F : FTy → Type} [FloatOps F] (pf : pre2.Contents (Elt F)) (i i' : grid2.Coords), (∀ a, reads2_9 a = true → i a = i' a) → cc2_transform_9 k2_off2_inb numel1_S1 pf i = cc2_transform_9 k2_off2_inb numel1_S1 pf i'
  hstage2_10 : ∀ j, (stage2_10 j).IsWhole
  nbuf2_10 : grid2.bufCount reads2_10 false = 2
  hreads2_10 : ∀ {F : FTy → Type} [FloatOps F] (pf : pre2.Contents (Elt F)) (i i' : grid2.Coords), (∀ a, reads2_10 a = true → i a = i' a) → cc2_transform_10 k2_off2_inb numel1_S1 pf i = cc2_transform_10 k2_off2_inb numel1_S1 pf i'
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S1x1x256.size a ≤ S12500x1x256.size a
  hwx2_11 : ∀ i : grid2.Coords, EltTy.bits .f32 = 32 ∨ (Rect.block (s := S12500x1x256) S1x1x256.size (cc2_transform_11 i) (hinb2_11 i)).WholeWords (EltTy.packing .f32)
  hstage2_12 : ∀ j, (stage2_12 j).IsWhole
  nbuf2_12 : grid2.bufCount reads2_12 false = 2
  hreads2_12 : ∀ i i' : grid2.Coords, (∀ a, reads2_12 a = true → i a = i' a) → cc2_transform_12 i = cc2_transform_12 i'
  hinb2_12 : ∀ (i : grid2.Coords) a, (cc2_transform_12 i a + 1) * S1x1x256.size a ≤ S12500x1x256.size a
  hwx2_12 : ∀ i : grid2.Coords, EltTy.bits .f32 = 32 ∨ (Rect.block (s := S12500x1x256) S1x1x256.size (cc2_transform_12 i) (hinb2_12 i)).WholeWords (EltTy.packing .f32)
  hrank3 : 0 < grid3.rank
  k3_off1_inb : ∀ i : grid3.Coords, ∀ a, (k3_off1 i) a + S1.size a ≤ S12500.size a
  k3_off2_inb : ∀ i : grid3.Coords, ∀ (r : Fin 10), ∀ a, (k3_off2 i (BitVec.ofNat 32 r.val)) a + S1.size a ≤ S125000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off2_inb numel1_S1 pf i = cc3_transform_1 k3_off2_inb numel1_S1 pf i'
  hstage3_2 : ∀ j, (stage3_2 j).IsWhole
  nbuf3_2 : grid3.bufCount reads3_2 false = 2
  hreads3_2 : ∀ {F : FTy → Type} [FloatOps F] (pf : pre3.Contents (Elt F)) (i i' : grid3.Coords), (∀ a, reads3_2 a = true → i a = i' a) → cc3_transform_2 k3_off2_inb numel1_S1 pf i = cc3_transform_2 k3_off2_inb numel1_S1 pf i'
  hstage3_3 : ∀ j, (stage3_3 j).IsWhole
  nbuf3_3 : grid3.bufCount reads3_3 false = 2
  hreads3_3 : ∀ {F : FTy → Type} [FloatOps F] (pf : pre3.Contents (Elt F)) (i i' : grid3.Coords), (∀ a, reads3_3 a = true → i a = i' a) → cc3_transform_3 k3_off2_inb numel1_S1 pf i = cc3_transform_3 k3_off2_inb numel1_S1 pf i'
  hstage3_4 : ∀ j, (stage3_4 j).IsWhole
  nbuf3_4 : grid3.bufCount reads3_4 false = 2
  hreads3_4 : ∀ {F : FTy → Type} [FloatOps F] (pf : pre3.Contents (Elt F)) (i i' : grid3.Coords), (∀ a, reads3_4 a = true → i a = i' a) → cc3_transform_4 k3_off2_inb numel1_S1 pf i = cc3_transform_4 k3_off2_inb numel1_S1 pf i'
  hstage3_5 : ∀ j, (stage3_5 j).IsWhole
  nbuf3_5 : grid3.bufCount reads3_5 false = 2
  hreads3_5 : ∀ {F : FTy → Type} [FloatOps F] (pf : pre3.Contents (Elt F)) (i i' : grid3.Coords), (∀ a, reads3_5 a = true → i a = i' a) → cc3_transform_5 k3_off2_inb numel1_S1 pf i = cc3_transform_5 k3_off2_inb numel1_S1 pf i'
  hstage3_6 : ∀ j, (stage3_6 j).IsWhole
  nbuf3_6 : grid3.bufCount reads3_6 false = 2
  hreads3_6 : ∀ {F : FTy → Type} [FloatOps F] (pf : pre3.Contents (Elt F)) (i i' : grid3.Coords), (∀ a, reads3_6 a = true → i a = i' a) → cc3_transform_6 k3_off2_inb numel1_S1 pf i = cc3_transform_6 k3_off2_inb numel1_S1 pf i'
  hstage3_7 : ∀ j, (stage3_7 j).IsWhole
  nbuf3_7 : grid3.bufCount reads3_7 false = 2
  hreads3_7 : ∀ {F : FTy → Type} [FloatOps F] (pf : pre3.Contents (Elt F)) (i i' : grid3.Coords), (∀ a, reads3_7 a = true → i a = i' a) → cc3_transform_7 k3_off2_inb numel1_S1 pf i = cc3_transform_7 k3_off2_inb numel1_S1 pf i'
  hstage3_8 : ∀ j, (stage3_8 j).IsWhole
  nbuf3_8 : grid3.bufCount reads3_8 false = 2
  hreads3_8 : ∀ {F : FTy → Type} [FloatOps F] (pf : pre3.Contents (Elt F)) (i i' : grid3.Coords), (∀ a, reads3_8 a = true → i a = i' a) → cc3_transform_8 k3_off2_inb numel1_S1 pf i = cc3_transform_8 k3_off2_inb numel1_S1 pf i'
  hstage3_9 : ∀ j, (stage3_9 j).IsWhole
  nbuf3_9 : grid3.bufCount reads3_9 false = 2
  hreads3_9 : ∀ {F : FTy → Type} [FloatOps F] (pf : pre3.Contents (Elt F)) (i i' : grid3.Coords), (∀ a, reads3_9 a = true → i a = i' a) → cc3_transform_9 k3_off2_inb numel1_S1 pf i = cc3_transform_9 k3_off2_inb numel1_S1 pf i'
  hstage3_10 : ∀ j, (stage3_10 j).IsWhole
  nbuf3_10 : grid3.bufCount reads3_10 false = 2
  hreads3_10 : ∀ {F : FTy → Type} [FloatOps F] (pf : pre3.Contents (Elt F)) (i i' : grid3.Coords), (∀ a, reads3_10 a = true → i a = i' a) → cc3_transform_10 k3_off2_inb numel1_S1 pf i = cc3_transform_10 k3_off2_inb numel1_S1 pf i'
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S1x1x256.size a ≤ S12500x1x256.size a
  hwx3_11 : ∀ i : grid3.Coords, EltTy.bits .f32 = 32 ∨ (Rect.block (s := S12500x1x256) S1x1x256.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S1x1x256.size a ≤ S12500x1x256.size a
  hwx3_12 : ∀ i : grid3.Coords, EltTy.bits .f32 = 32 ∨ (Rect.block (s := S12500x1x256) S1x1x256.size (cc3_transform_12 i) (hinb3_12 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x512.size a ≤ S256x512.size a
  hwx4_0 : ∀ i : grid4.Coords, EltTy.bits .f32 = 32 ∨ (Rect.block (s := S256x512) S256x512.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x512.size a ≤ S51200x512.size a
  hwx4_1 : ∀ i : grid4.Coords, EltTy.bits .f32 = 32 ∨ (Rect.block (s := S51200x512) S2048x512.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S256x2048.size a ≤ S256x51200.size a
  hwx4_2 : ∀ i : grid4.Coords, EltTy.bits .f32 = 32 ∨ (Rect.block (s := S256x51200) S256x2048.size (cc4_transform_2 i) (hinb4_2 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf

abbrev spec0_0 : Pipeline.WinSpec sig grid0.rank :=
  Pipeline.WinSpec.ofSpec (Memref.whole main_v0) S1x1x256.size reads0_0 false false 2 stage0_0 sem0_0 nbuf0_0 hstage0_0

abbrev spec0_1 : Pipeline.WinSpec sig grid0.rank :=
  Pipeline.WinSpec.ofSpec (Memref.whole main_v0) S1x1x256.size reads0_1 false false 2 stage0_1 sem0_1 nbuf0_1 hstage0_1

abbrev spec0_2 : Pipeline.WinSpec sig grid0.rank :=
  Pipeline.WinSpec.ofSpec (Memref.whole main_v0) S1x1x256.size reads0_2 false false 2 stage0_2 sem0_2 nbuf0_2 hstage0_2

abbrev spec0_3 : Pipeline.WinSpec sig grid0.rank :=
  Pipeline.WinSpec.ofSpec (Memref.whole main_v0) S1x1x256.size reads0_3 false false 2 stage0_3 sem0_3 nbuf0_3 hstage0_3

abbrev spec0_4 : Pipeline.WinSpec sig grid0.rank :=
  Pipeline.WinSpec.ofSpec (Memref.whole main_v0) S1x1x256.size reads0_4 false false 2 stage0_4 sem0_4 nbuf0_4 hstage0_4

abbrev spec0_5 : Pipeline.WinSpec sig grid0.rank :=
  Pipeline.WinSpec.ofSpec (Memref.whole main_v0) S1x1x256.size reads0_5 false false 2 stage0_5 sem0_5 nbuf0_5 hstage0_5

abbrev spec0_6 : Pipeline.WinSpec sig grid0.rank :=
  Pipeline.WinSpec.ofSpec (Memref.whole main_v0) S1x1x256.size reads0_6 false false 2 stage0_6 sem0_6 nbuf0_6 hstage0_6

abbrev spec0_7 : Pipeline.WinSpec sig grid0.rank :=
  Pipeline.WinSpec.ofSpec (Memref.whole main_v0) S1x1x256.size reads0_7 false false 2 stage0_7 sem0_7 nbuf0_7 hstage0_7

abbrev spec0_8 : Pipeline.WinSpec sig grid0.rank :=
  Pipeline.WinSpec.ofSpec (Memref.whole main_v0) S1x1x256.size reads0_8 false false 2 stage0_8 sem0_8 nbuf0_8 hstage0_8

abbrev spec0_9 : Pipeline.WinSpec sig grid0.rank :=
  Pipeline.WinSpec.ofSpec (Memref.whole main_v0) S1x1x256.size reads0_9 false false 2 stage0_9 sem0_9 nbuf0_9 hstage0_9

abbrev spec0_10 : Pipeline.WinSpec sig grid0.rank :=
  Pipeline.WinSpec.ofSpec (Memref.whole main_v0) S1x1x256.size reads0_10 false false 2 stage0_10 sem0_10 nbuf0_10 hstage0_10

abbrev spec0_11 : Pipeline.WinSpec sig grid0.rank :=
  Pipeline.WinSpec.ofSpec (Memref.whole main_v4_0) S1x1x256.size reads0_11 true false 2 stage0_11 sem0_11 nbuf0_11 hstage0_11

abbrev spec0_12 : Pipeline.WinSpec sig grid0.rank :=
  Pipeline.WinSpec.ofSpec (Memref.whole main_v4_1) S1x1x256.size reads0_12 true false 2 stage0_12 sem0_12 nbuf0_12 hstage0_12

abbrev spec0 : Fin 13 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | ⟨_ + 13, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | ⟨_ + 13, h⟩ => absurd h (Nat.not_lt.2 (Nat.le_add_left _ _))
abbrev ix0 (pf : pre0.Contents (Elt F)) : (w : Fin 13) → grid0.Coords → Fin (spec0 w).shape.rank → Nat := fun | 0 => cc0_transform_0 k0_off1_inb numel1_S1 pf | 1 => cc0_transform_1 k0_off2_inb numel1_S1 pf | 2 => cc0_transform_2 k0_off2_inb numel1_S1 pf | 3 => cc0_transform_3 k0_off2_inb numel1_S1 pf | 4 => cc0_transform_4 k0_off2_inb numel1_S1 pf | 5 => cc0_transform_5 k0_off2_inb numel1_S1 pf | 6 => cc0_transform_6 k0_off2_inb numel1_S1 pf | 7 => cc0_transform_7 k0_off2_inb numel1_S1 pf | 8 => cc0_transform_8 k0_off2_inb numel1_S1 pf | 9 => cc0_transform_9 k0_off2_inb numel1_S1 pf | 10 => cc0_transform_10 k0_off2_inb numel1_S1 pf | 11 => cc0_transform_11 | 12 => cc0_transform_12 | ⟨_ + 13, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 pf | 8 => hreads0_8 pf | 9 => hreads0_9 pf | 10 => hreads0_10 pf | 11 => hreads0_11 | 12 => hreads0_12 | ⟨_ + 13, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S100000x1x256.size a), EltTy.bits .f32 = 32 ∨ (Rect.block (s := S100000x1x256) S1x1x256.size (cc0_transform_0 k0_off1_inb numel1_S1 pf i) h).WholeWords (EltTy.packing .f32)) ∧
  (∀ i : grid0.Coords, ∃ h : (∀ a, (cc0_transform_1 k0_off2_inb numel1_S1 pf i a + 1) * S1x1x256.size a ≤ S100000x1x256.size a), EltTy.bits .f32 = 32 ∨ (Rect.block (s := S100000x1x256) S1x1x256.size (cc0_transform_1 k0_off2_inb numel1_S1 pf i) h).WholeWords (EltTy.packing .f32)) ∧
  (∀ i : grid0.Coords, ∃ h : (∀ a, (cc0_transform_2 k0_off2_inb numel1_S1 pf i a + 1) * S1x1x256.size a ≤ S100000x1x256.size a), EltTy.bits .f32 = 32 ∨ (Rect.block (s := S100000x1x256) S1x1x256.size (cc0_transform_2 k0_off2_inb numel1_S1 pf i) h).WholeWords (EltTy.packing .f32)) ∧
  (∀ i : grid0.Coords, ∃ h : (∀ a, (cc0_transform_3 k0_off2_inb numel1_S1 pf i a + 1) * S1x1x256.size a ≤ S100000x1x256.size a), EltTy.bits .f32 = 32 ∨ (Rect.block (s := S100000x1x256) S1x1x256.size (cc0_transform_3 k0_off2_inb numel1_S1 pf i) h).WholeWords (EltTy.packing .f32)) ∧
  (∀ i : grid0.Coords, ∃ h : (∀ a, (cc0_transform_4 k0_off2_inb numel1_S1 pf i a + 1) * S1x1x256.size a ≤ S100000x1x256.size a), EltTy.bits .f32 = 32 ∨ (Rect.block (s := S100000x1x256) S1x1x256.size (cc0_transform_4 k0_off2_inb numel1_S1 pf i) h).WholeWords (EltTy.packing .f32)) ∧
  (∀ i : grid0.Coords, ∃ h : (∀ a, (cc0_transform_5 k0_off2_inb numel1_S1 pf i a + 1) * S1x1x256.size a ≤ S100000x1x256.size a), EltTy.bits .f32 = 32 ∨ (Rect.block (s := S100000x1x256) S1x1x256.size (cc0_transform_5 k0_off2_inb numel1_S1 pf i) h).WholeWords (EltTy.packing .f32)) ∧
  (∀ i : grid0.Coords, ∃ h : (∀ a, (cc0_transform_6 k0_off2_inb numel1_S1 pf i a + 1) * S1x1x256.size a ≤ S100000x1x256.size a), EltTy.bits .f32 = 32 ∨ (Rect.block (s := S100000x1x256) S1x1x256.size (cc0_transform_6 k0_off2_inb numel1_S1 pf i) h).WholeWords (EltTy.packing .f32)) ∧
  (∀ i : grid0.Coords, ∃ h : (∀ a, (cc0_transform_7 k0_off2_inb numel1_S1 pf i a + 1) * S1x1x256.size a ≤ S100000x1x256.size a), EltTy.bits .f32 = 32 ∨ (Rect.block (s := S100000x1x256) S1x1x256.size (cc0_transform_7 k0_off2_inb numel1_S1 pf i) h).WholeWords (EltTy.packing .f32)) ∧
  (∀ i : grid0.Coords, ∃ h : (∀ a, (cc0_transform_8 k0_off2_inb numel1_S1 pf i a + 1) * S1x1x256.size a ≤ S100000x1x256.size a), EltTy.bits .f32 = 32 ∨ (Rect.block (s := S100000x1x256) S1x1x256.size (cc0_transform_8 k0_off2_inb numel1_S1 pf i) h).WholeWords (EltTy.packing .f32)) ∧
  (∀ i : grid0.Coords, ∃ h : (∀ a, (cc0_transform_9 k0_off2_inb numel1_S1 pf i a + 1) * S1x1x256.size a ≤ S100000x1x256.size a), EltTy.bits .f32 = 32 ∨ (Rect.block (s := S100000x1x256) S1x1x256.size (cc0_transform_9 k0_off2_inb numel1_S1 pf i) h).WholeWords (EltTy.packing .f32)) ∧
  (∀ i : grid0.Coords, ∃ h : (∀ a, (cc0_transform_10 k0_off2_inb numel1_S1 pf i a + 1) * S1x1x256.size a ≤ S100000x1x256.size a), EltTy.bits .f32 = 32 ∨ (Rect.block (s := S100000x1x256) S1x1x256.size (cc0_transform_10 k0_off2_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2 i).elim fun h _ => h a | 11 => hinb0_11 | 12 => hinb0_12 | ⟨_ + 13, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2 i).elim fun _ h => h | 11 => hwx0_11 | 12 => hwx0_12 | ⟨_ + 13, h⟩ => absurd h (Nat.not_lt.2 (Nat.le_add_left _ _))
abbrev spec1_0 : Pipeline.WinSpec sig grid1.rank :=
  Pipeline.WinSpec.ofSpec (Memref.whole main_v0) S1x1x256.size reads1_0 false false 2 stage1_0 sem1_0 nbuf1_0 hstage1_0

abbrev spec1_1 : Pipeline.WinSpec sig grid1.rank :=
  Pipeline.WinSpec.ofSpec (Memref.whole main_v0) S1x1x256.size reads1_1 false false 2 stage1_1 sem1_1 nbuf1_1 hstage1_1

abbrev spec1_2 : Pipeline.WinSpec sig grid1.rank :=
  Pipeline.WinSpec.ofSpec (Memref.whole main_v0) S1x1x256.size reads1_2 false false 2 stage1_2 sem1_2 nbuf1_2 hstage1_2

abbrev spec1_3 : Pipeline.WinSpec sig grid1.rank :=
  Pipeline.WinSpec.ofSpec (Memref.whole main_v0) S1x1x256.size reads1_3 false false 2 stage1_3 sem1_3 nbuf1_3 hstage1_3

abbrev spec1_4 : Pipeline.WinSpec sig grid1.rank :=
  Pipeline.WinSpec.ofSpec (Memref.whole main_v0) S1x1x256.size reads1_4 false false 2 stage1_4 sem1_4 nbuf1_4 hstage1_4

abbrev spec1_5 : Pipeline.WinSpec sig grid1.rank :=
  Pipeline.WinSpec.ofSpec (Memref.whole main_v0) S1x1x256.size reads1_5 false false 2 stage1_5 sem1_5 nbuf1_5 hstage1_5

abbrev spec1_6 : Pipeline.WinSpec sig grid1.rank :=
  Pipeline.WinSpec.ofSpec (Memref.whole main_v0) S1x1x256.size reads1_6 false false 2 stage1_6 sem1_6 nbuf1_6 hstage1_6

abbrev spec1_7 : Pipeline.WinSpec sig grid1.rank :=
  Pipeline.WinSpec.ofSpec (Memref.whole main_v0) S1x1x256.size reads1_7 false false 2 stage1_7 sem1_7 nbuf1_7 hstage1_7

abbrev spec1_8 : Pipeline.WinSpec sig grid1.rank :=
  Pipeline.WinSpec.ofSpec (Memref.whole main_v0) S1x1x256.size reads1_8 false false 2 stage1_8 sem1_8 nbuf1_8 hstage1_8

abbrev spec1_9 : Pipeline.WinSpec sig grid1.rank :=
  Pipeline.WinSpec.ofSpec (Memref.whole main_v0) S1x1x256.size reads1_9 false false 2 stage1_9 sem1_9 nbuf1_9 hstage1_9

abbrev spec1_10 : Pipeline.WinSpec sig grid1.rank :=
  Pipeline.WinSpec.ofSpec (Memref.whole main_v0) S1x1x256.size reads1_10 false false 2 stage1_10 sem1_10 nbuf1_10 hstage1_10

abbrev spec1_11 : Pipeline.WinSpec sig grid1.rank :=
  Pipeline.WinSpec.ofSpec (Memref.whole main_v10_0) S1x1x256.size reads1_11 true false 2 stage1_11 sem1_11 nbuf1_11 hstage1_11

abbrev spec1_12 : Pipeline.WinSpec sig grid1.rank :=
  Pipeline.WinSpec.ofSpec (Memref.whole main_v10_1) S1x1x256.size reads1_12 true false 2 stage1_12 sem1_12 nbuf1_12 hstage1_12

abbrev spec1 : Fin 13 → Pipeline.WinSpec sig grid1.rank := fun | 0 => spec1_0 | 1 => spec1_1 | 2 => spec1_2 | 3 => spec1_3 | 4 => spec1_4 | 5 => spec1_5 | 6 => spec1_6 | 7 => spec1_7 | 8 => spec1_8 | 9 => spec1_9 | 10 => spec1_10 | 11 => spec1_11 | 12 => spec1_12 | ⟨_ + 13, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | 4 => nbuf1_4 | 5 => nbuf1_5 | 6 => nbuf1_6 | 7 => nbuf1_7 | 8 => nbuf1_8 | 9 => nbuf1_9 | 10 => nbuf1_10 | 11 => nbuf1_11 | 12 => nbuf1_12 | ⟨_ + 13, h⟩ => absurd h (Nat.not_lt.2 (Nat.le_add_left _ _))
abbrev ix1 (pf : pre1.Contents (Elt F)) : (w : Fin 13) → grid1.Coords → Fin (spec1 w).shape.rank → Nat := fun | 0 => cc1_transform_0 k1_off1_inb numel1_S1 pf | 1 => cc1_transform_1 k1_off2_inb numel1_S1 pf | 2 => cc1_transform_2 k1_off2_inb numel1_S1 pf | 3 => cc1_transform_3 k1_off2_inb numel1_S1 pf | 4 => cc1_transform_4 k1_off2_inb numel1_S1 pf | 5 => cc1_transform_5 k1_off2_inb numel1_S1 pf | 6 => cc1_transform_6 k1_off2_inb numel1_S1 pf | 7 => cc1_transform_7 k1_off2_inb numel1_S1 pf | 8 => cc1_transform_8 k1_off2_inb numel1_S1 pf | 9 => cc1_transform_9 k1_off2_inb numel1_S1 pf | 10 => cc1_transform_10 k1_off2_inb numel1_S1 pf | 11 => cc1_transform_11 | 12 => cc1_transform_12 | ⟨_ + 13, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | 4 => hreads1_4 pf | 5 => hreads1_5 pf | 6 => hreads1_6 pf | 7 => hreads1_7 pf | 8 => hreads1_8 pf | 9 => hreads1_9 pf | 10 => hreads1_10 pf | 11 => hreads1_11 | 12 => hreads1_12 | ⟨_ + 13, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x256.size a ≤ S100000x1x256.size a), EltTy.bits .f32 = 32 ∨ (Rect.block (s := S100000x1x256) S1x1x256.size (cc1_transform_0 k1_off1_inb numel1_S1 pf i) h).WholeWords (EltTy.packing .f32)) ∧
  (∀ i : grid1.Coords, ∃ h : (∀ a, (cc1_transform_1 k1_off2_inb numel1_S1 pf i a + 1) * S1x1x256.size a ≤ S100000x1x256.size a), EltTy.bits .f32 = 32 ∨ (Rect.block (s := S100000x1x256) S1x1x256.size (cc1_transform_1 k1_off2_inb numel1_S1 pf i) h).WholeWords (EltTy.packing .f32)) ∧
  (∀ i : grid1.Coords, ∃ h : (∀ a, (cc1_transform_2 k1_off2_inb numel1_S1 pf i a + 1) * S1x1x256.size a ≤ S100000x1x256.size a), EltTy.bits .f32 = 32 ∨ (Rect.block (s := S100000x1x256) S1x1x256.size (cc1_transform_2 k1_off2_inb numel1_S1 pf i) h).WholeWords (EltTy.packing .f32)) ∧
  (∀ i : grid1.Coords, ∃ h : (∀ a, (cc1_transform_3 k1_off2_inb numel1_S1 pf i a + 1) * S1x1x256.size a ≤ S100000x1x256.size a), EltTy.bits .f32 = 32 ∨ (Rect.block (s := S100000x1x256) S1x1x256.size (cc1_transform_3 k1_off2_inb numel1_S1 pf i) h).WholeWords (EltTy.packing .f32)) ∧
  (∀ i : grid1.Coords, ∃ h : (∀ a, (cc1_transform_4 k1_off2_inb numel1_S1 pf i a + 1) * S1x1x256.size a ≤ S100000x1x256.size a), EltTy.bits .f32 = 32 ∨ (Rect.block (s := S100000x1x256) S1x1x256.size (cc1_transform_4 k1_off2_inb numel1_S1 pf i) h).WholeWords (EltTy.packing .f32)) ∧
  (∀ i : grid1.Coords, ∃ h : (∀ a, (cc1_transform_5 k1_off2_inb numel1_S1 pf i a + 1) * S1x1x256.size a ≤ S100000x1x256.size a), EltTy.bits .f32 = 32 ∨ (Rect.block (s := S100000x1x256) S1x1x256.size (cc1_transform_5 k1_off2_inb numel1_S1 pf i) h).WholeWords (EltTy.packing .f32)) ∧
  (∀ i : grid1.Coords, ∃ h : (∀ a, (cc1_transform_6 k1_off2_inb numel1_S1 pf i a + 1) * S1x1x256.size a ≤ S100000x1x256.size a), EltTy.bits .f32 = 32 ∨ (Rect.block (s := S100000x1x256) S1x1x256.size (cc1_transform_6 k1_off2_inb numel1_S1 pf i) h).WholeWords (EltTy.packing .f32)) ∧
  (∀ i : grid1.Coords, ∃ h : (∀ a, (cc1_transform_7 k1_off2_inb numel1_S1 pf i a + 1) * S1x1x256.size a ≤ S100000x1x256.size a), EltTy.bits .f32 = 32 ∨ (Rect.block (s := S100000x1x256) S1x1x256.size (cc1_transform_7 k1_off2_inb numel1_S1 pf i) h).WholeWords (EltTy.packing .f32)) ∧
  (∀ i : grid1.Coords, ∃ h : (∀ a, (cc1_transform_8 k1_off2_inb numel1_S1 pf i a + 1) * S1x1x256.size a ≤ S100000x1x256.size a), EltTy.bits .f32 = 32 ∨ (Rect.block (s := S100000x1x256) S1x1x256.size (cc1_transform_8 k1_off2_inb numel1_S1 pf i) h).WholeWords (EltTy.packing .f32)) ∧
  (∀ i : grid1.Coords, ∃ h : (∀ a, (cc1_transform_9 k1_off2_inb numel1_S1 pf i a + 1) * S1x1x256.size a ≤ S100000x1x256.size a), EltTy.bits .f32 = 32 ∨ (Rect.block (s := S100000x1x256) S1x1x256.size (cc1_transform_9 k1_off2_inb numel1_S1 pf i) h).WholeWords (EltTy.packing .f32)) ∧
  (∀ i : grid1.Coords, ∃ h : (∀ a, (cc1_transform_10 k1_off2_inb numel1_S1 pf i a + 1) * S1x1x256.size a ≤ S100000x1x256.size a), EltTy.bits .f32 = 32 ∨ (Rect.block (s := S100000x1x256) S1x1x256.size (cc1_transform_10 k1_off2_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2 i).elim fun h _ => h a | 11 => hinb1_11 | 12 => hinb1_12 | ⟨_ + 13, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2 i).elim fun _ h => h | 11 => hwx1_11 | 12 => hwx1_12 | ⟨_ + 13, h⟩ => absurd h (Nat.not_lt.2 (Nat.le_add_left _ _))
abbrev spec2_0 : Pipeline.WinSpec sig grid2.rank :=
  Pipeline.WinSpec.ofSpec (Memref.whole main_v0) S1x1x256.size reads2_0 false false 2 stage2_0 sem2_0 nbuf2_0 hstage2_0

abbrev spec2_1 : Pipeline.WinSpec sig grid2.rank :=
  Pipeline.WinSpec.ofSpec (Memref.whole main_v0) S1x1x256.size reads2_1 false false 2 stage2_1 sem2_1 nbuf2_1 hstage2_1

abbrev spec2_2 : Pipeline.WinSpec sig grid2.rank :=
  Pipeline.WinSpec.ofSpec (Memref.whole main_v0) S1x1x256.size reads2_2 false false 2 stage2_2 sem2_2 nbuf2_2 hstage2_2

abbrev spec2_3 : Pipeline.WinSpec sig grid2.rank :=
  Pipeline.WinSpec.ofSpec (Memref.whole main_v0) S1x1x256.size reads2_3 false false 2 stage2_3 sem2_3 nbuf2_3 hstage2_3

abbrev spec2_4 : Pipeline.WinSpec sig grid2.rank :=
  Pipeline.WinSpec.ofSpec (Memref.whole main_v0) S1x1x256.size reads2_4 false false 2 stage2_4 sem2_4 nbuf2_4 hstage2_4

abbrev spec2_5 : Pipeline.WinSpec sig grid2.rank :=
  Pipeline.WinSpec.ofSpec (Memref.whole main_v0) S1x1x256.size reads2_5 false false 2 stage2_5 sem2_5 nbuf2_5 hstage2_5

abbrev spec2_6 : Pipeline.WinSpec sig grid2.rank :=
  Pipeline.WinSpec.ofSpec (Memref.whole main_v0) S1x1x256.size reads2_6 false false 2 stage2_6 sem2_6 nbuf2_6 hstage2_6

abbrev spec2_7 : Pipeline.WinSpec sig grid2.rank :=
  Pipeline.WinSpec.ofSpec (Memref.whole main_v0) S1x1x256.size reads2_7 false false 2 stage2_7 sem2_7 nbuf2_7 hstage2_7

abbrev spec2_8 : Pipeline.WinSpec sig grid2.rank :=
  Pipeline.WinSpec.ofSpec (Memref.whole main_v0) S1x1x256.size reads2_8 false false 2 stage2_8 sem2_8 nbuf2_8 hstage2_8

abbrev spec2_9 : Pipeline.WinSpec sig grid2.rank :=
  Pipeline.WinSpec.ofSpec (Memref.whole main_v0) S1x1x256.size reads2_9 false false 2 stage2_9 sem2_9 nbuf2_9 hstage2_9

abbrev spec2_10 : Pipeline.WinSpec sig grid2.rank :=
  Pipeline.WinSpec.ofSpec (Memref.whole main_v0) S1x1x256.size reads2_10 false false 2 stage2_10 sem2_10 nbuf2_10 hstage2_10

abbrev spec2_11 : Pipeline.WinSpec sig grid2.rank :=
  Pipeline.WinSpec.ofSpec (Memref.whole main_v16_0) S1x1x256.size reads2_11 true false 2 stage2_11 sem2_11 nbuf2_11 hstage2_11

abbrev spec2_12 : Pipeline.WinSpec sig grid2.rank :=
  Pipeline.WinSpec.ofSpec (Memref.whole main_v16_1) S1x1x256.size reads2_12 true false 2 stage2_12 sem2_12 nbuf2_12 hstage2_12

abbrev spec2 : Fin 13 → Pipeline.WinSpec sig grid2.rank := fun | 0 => spec2_0 | 1 => spec2_1 | 2 => spec2_2 | 3 => spec2_3 | 4 => spec2_4 | 5 => spec2_5 | 6 => spec2_6 | 7 => spec2_7 | 8 => spec2_8 | 9 => spec2_9 | 10 => spec2_10 | 11 => spec2_11 | 12 => spec2_12 | ⟨_ + 13, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | 3 => nbuf2_3 | 4 => nbuf2_4 | 5 => nbuf2_5 | 6 => nbuf2_6 | 7 => nbuf2_7 | 8 => nbuf2_8 | 9 => nbuf2_9 | 10 => nbuf2_10 | 11 => nbuf2_11 | 12 => nbuf2_12 | ⟨_ + 13, h⟩ => absurd h (Nat.not_lt.2 (Nat.le_add_left _ _))
abbrev ix2 (pf : pre2.Contents (Elt F)) : (w : Fin 13) → grid2.Coords → Fin (spec2 w).shape.rank → Nat := fun | 0 => cc2_transform_0 k2_off1_inb numel1_S1 pf | 1 => cc2_transform_1 k2_off2_inb numel1_S1 pf | 2 => cc2_transform_2 k2_off2_inb numel1_S1 pf | 3 => cc2_transform_3 k2_off2_inb numel1_S1 pf | 4 => cc2_transform_4 k2_off2_inb numel1_S1 pf | 5 => cc2_transform_5 k2_off2_inb numel1_S1 pf | 6 => cc2_transform_6 k2_off2_inb numel1_S1 pf | 7 => cc2_transform_7 k2_off2_inb numel1_S1 pf | 8 => cc2_transform_8 k2_off2_inb numel1_S1 pf | 9 => cc2_transform_9 k2_off2_inb numel1_S1 pf | 10 => cc2_transform_10 k2_off2_inb numel1_S1 pf | 11 => cc2_transform_11 | 12 => cc2_transform_12 | ⟨_ + 13, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 pf | 3 => hreads2_3 pf | 4 => hreads2_4 pf | 5 => hreads2_5 pf | 6 => hreads2_6 pf | 7 => hreads2_7 pf | 8 => hreads2_8 pf | 9 => hreads2_9 pf | 10 => hreads2_10 pf | 11 => hreads2_11 | 12 => hreads2_12 | ⟨_ + 13, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x256.size a ≤ S100000x1x256.size a), EltTy.bits .f32 = 32 ∨ (Rect.block (s := S100000x1x256) S1x1x256.size (cc2_transform_0 k2_off1_inb numel1_S1 pf i) h).WholeWords (EltTy.packing .f32)) ∧
  (∀ i : grid2.Coords, ∃ h : (∀ a, (cc2_transform_1 k2_off2_inb numel1_S1 pf i a + 1) * S1x1x256.size a ≤ S100000x1x256.size a), EltTy.bits .f32 = 32 ∨ (Rect.block (s := S100000x1x256) S1x1x256.size (cc2_transform_1 k2_off2_inb numel1_S1 pf i) h).WholeWords (EltTy.packing .f32)) ∧
  (∀ i : grid2.Coords, ∃ h : (∀ a, (cc2_transform_2 k2_off2_inb numel1_S1 pf i a + 1) * S1x1x256.size a ≤ S100000x1x256.size a), EltTy.bits .f32 = 32 ∨ (Rect.block (s := S100000x1x256) S1x1x256.size (cc2_transform_2 k2_off2_inb numel1_S1 pf i) h).WholeWords (EltTy.packing .f32)) ∧
  (∀ i : grid2.Coords, ∃ h : (∀ a, (cc2_transform_3 k2_off2_inb numel1_S1 pf i a + 1) * S1x1x256.size a ≤ S100000x1x256.size a), EltTy.bits .f32 = 32 ∨ (Rect.block (s := S100000x1x256) S1x1x256.size (cc2_transform_3 k2_off2_inb numel1_S1 pf i) h).WholeWords (EltTy.packing .f32)) ∧
  (∀ i : grid2.Coords, ∃ h : (∀ a, (cc2_transform_4 k2_off2_inb numel1_S1 pf i a + 1) * S1x1x256.size a ≤ S100000x1x256.size a), EltTy.bits .f32 = 32 ∨ (Rect.block (s := S100000x1x256) S1x1x256.size (cc2_transform_4 k2_off2_inb numel1_S1 pf i) h).WholeWords (EltTy.packing .f32)) ∧
  (∀ i : grid2.Coords, ∃ h : (∀ a, (cc2_transform_5 k2_off2_inb numel1_S1 pf i a + 1) * S1x1x256.size a ≤ S100000x1x256.size a), EltTy.bits .f32 = 32 ∨ (Rect.block (s := S100000x1x256) S1x1x256.size (cc2_transform_5 k2_off2_inb numel1_S1 pf i) h).WholeWords (EltTy.packing .f32)) ∧
  (∀ i : grid2.Coords, ∃ h : (∀ a, (cc2_transform_6 k2_off2_inb numel1_S1 pf i a + 1) * S1x1x256.size a ≤ S100000x1x256.size a), EltTy.bits .f32 = 32 ∨ (Rect.block (s := S100000x1x256) S1x1x256.size (cc2_transform_6 k2_off2_inb numel1_S1 pf i) h).WholeWords (EltTy.packing .f32)) ∧
  (∀ i : grid2.Coords, ∃ h : (∀ a, (cc2_transform_7 k2_off2_inb numel1_S1 pf i a + 1) * S1x1x256.size a ≤ S100000x1x256.size a), EltTy.bits .f32 = 32 ∨ (Rect.block (s := S100000x1x256) S1x1x256.size (cc2_transform_7 k2_off2_inb numel1_S1 pf i) h).WholeWords (EltTy.packing .f32)) ∧
  (∀ i : grid2.Coords, ∃ h : (∀ a, (cc2_transform_8 k2_off2_inb numel1_S1 pf i a + 1) * S1x1x256.size a ≤ S100000x1x256.size a), EltTy.bits .f32 = 32 ∨ (Rect.block (s := S100000x1x256) S1x1x256.size (cc2_transform_8 k2_off2_inb numel1_S1 pf i) h).WholeWords (EltTy.packing .f32)) ∧
  (∀ i : grid2.Coords, ∃ h : (∀ a, (cc2_transform_9 k2_off2_inb numel1_S1 pf i a + 1) * S1x1x256.size a ≤ S100000x1x256.size a), EltTy.bits .f32 = 32 ∨ (Rect.block (s := S100000x1x256) S1x1x256.size (cc2_transform_9 k2_off2_inb numel1_S1 pf i) h).WholeWords (EltTy.packing .f32)) ∧
  (∀ i : grid2.Coords, ∃ h : (∀ a, (cc2_transform_10 k2_off2_inb numel1_S1 pf i a + 1) * S1x1x256.size a ≤ S100000x1x256.size a), EltTy.bits .f32 = 32 ∨ (Rect.block (s := S100000x1x256) S1x1x256.size (cc2_transform_10 k2_off2_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2 i).elim fun h _ => h a | 11 => hinb2_11 | 12 => hinb2_12 | ⟨_ + 13, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2 i).elim fun _ h => h | 11 => hwx2_11 | 12 => hwx2_12 | ⟨_ + 13, h⟩ => absurd h (Nat.not_lt.2 (Nat.le_add_left _ _))
abbrev spec3_0 : Pipeline.WinSpec sig grid3.rank :=
  Pipeline.WinSpec.ofSpec (Memref.whole main_v0) S1x1x256.size reads3_0 false false 2 stage3_0 sem3_0 nbuf3_0 hstage3_0

abbrev spec3_1 : Pipeline.WinSpec sig grid3.rank :=
  Pipeline.WinSpec.ofSpec (Memref.whole main_v0) S1x1x256.size reads3_1 false false 2 stage3_1 sem3_1 nbuf3_1 hstage3_1

abbrev spec3_2 : Pipeline.WinSpec sig grid3.rank :=
  Pipeline.WinSpec.ofSpec (Memref.whole main_v0) S1x1x256.size reads3_2 false false 2 stage3_2 sem3_2 nbuf3_2 hstage3_2

abbrev spec3_3 : Pipeline.WinSpec sig grid3.rank :=
  Pipeline.WinSpec.ofSpec (Memref.whole main_v0) S1x1x256.size reads3_3 false false 2 stage3_3 sem3_3 nbuf3_3 hstage3_3

abbrev spec3_4 : Pipeline.WinSpec sig grid3.rank :=
  Pipeline.WinSpec.ofSpec (Memref.whole main_v0) S1x1x256.size reads3_4 false false 2 stage3_4 sem3_4 nbuf3_4 hstage3_4

abbrev spec3_5 : Pipeline.WinSpec sig grid3.rank :=
  Pipeline.WinSpec.ofSpec (Memref.whole main_v0) S1x1x256.size reads3_5 false false 2 stage3_5 sem3_5 nbuf3_5 hstage3_5

abbrev spec3_6 : Pipeline.WinSpec sig grid3.rank :=
  Pipeline.WinSpec.ofSpec (Memref.whole main_v0) S1x1x256.size reads3_6 false false 2 stage3_6 sem3_6 nbuf3_6 hstage3_6

abbrev spec3_7 : Pipeline.WinSpec sig grid3.rank :=
  Pipeline.WinSpec.ofSpec (Memref.whole main_v0) S1x1x256.size reads3_7 false false 2 stage3_7 sem3_7 nbuf3_7 hstage3_7

abbrev spec3_8 : Pipeline.WinSpec sig grid3.rank :=
  Pipeline.WinSpec.ofSpec (Memref.whole main_v0) S1x1x256.size reads3_8 false false 2 stage3_8 sem3_8 nbuf3_8 hstage3_8

abbrev spec3_9 : Pipeline.WinSpec sig grid3.rank :=
  Pipeline.WinSpec.ofSpec (Memref.whole main_v0) S1x1x256.size reads3_9 false false 2 stage3_9 sem3_9 nbuf3_9 hstage3_9

abbrev spec3_10 : Pipeline.WinSpec sig grid3.rank :=
  Pipeline.WinSpec.ofSpec (Memref.whole main_v0) S1x1x256.size reads3_10 false false 2 stage3_10 sem3_10 nbuf3_10 hstage3_10

abbrev spec3_11 : Pipeline.WinSpec sig grid3.rank :=
  Pipeline.WinSpec.ofSpec (Memref.whole main_v22_0) S1x1x256.size reads3_11 true false 2 stage3_11 sem3_11 nbuf3_11 hstage3_11

abbrev spec3_12 : Pipeline.WinSpec sig grid3.rank :=
  Pipeline.WinSpec.ofSpec (Memref.whole main_v22_1) S1x1x256.size reads3_12 true false 2 stage3_12 sem3_12 nbuf3_12 hstage3_12

abbrev spec3 : Fin 13 → Pipeline.WinSpec sig grid3.rank := fun | 0 => spec3_0 | 1 => spec3_1 | 2 => spec3_2 | 3 => spec3_3 | 4 => spec3_4 | 5 => spec3_5 | 6 => spec3_6 | 7 => spec3_7 | 8 => spec3_8 | 9 => spec3_9 | 10 => spec3_10 | 11 => spec3_11 | 12 => spec3_12 | ⟨_ + 13, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | 3 => nbuf3_3 | 4 => nbuf3_4 | 5 => nbuf3_5 | 6 => nbuf3_6 | 7 => nbuf3_7 | 8 => nbuf3_8 | 9 => nbuf3_9 | 10 => nbuf3_10 | 11 => nbuf3_11 | 12 => nbuf3_12 | ⟨_ + 13, h⟩ => absurd h (Nat.not_lt.2 (Nat.le_add_left _ _))
abbrev ix3 (pf : pre3.Contents (Elt F)) : (w : Fin 13) → grid3.Coords → Fin (spec3 w).shape.rank → Nat := fun | 0 => cc3_transform_0 k3_off1_inb numel1_S1 pf | 1 => cc3_transform_1 k3_off2_inb numel1_S1 pf | 2 => cc3_transform_2 k3_off2_inb numel1_S1 pf | 3 => cc3_transform_3 k3_off2_inb numel1_S1 pf | 4 => cc3_transform_4 k3_off2_inb numel1_S1 pf | 5 => cc3_transform_5 k3_off2_inb numel1_S1 pf | 6 => cc3_transform_6 k3_off2_inb numel1_S1 pf | 7 => cc3_transform_7 k3_off2_inb numel1_S1 pf | 8 => cc3_transform_8 k3_off2_inb numel1_S1 pf | 9 => cc3_transform_9 k3_off2_inb numel1_S1 pf | 10 => cc3_transform_10 k3_off2_inb numel1_S1 pf | 11 => cc3_transform_11 | 12 => cc3_transform_12 | ⟨_ + 13, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 pf | 3 => hreads3_3 pf | 4 => hreads3_4 pf | 5 => hreads3_5 pf | 6 => hreads3_6 pf | 7 => hreads3_7 pf | 8 => hreads3_8 pf | 9 => hreads3_9 pf | 10 => hreads3_10 pf | 11 => hreads3_11 | 12 => hreads3_12 | ⟨_ + 13, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x256.size a ≤ S100000x1x256.size a), EltTy.bits .f32 = 32 ∨ (Rect.block (s := S100000x1x256) S1x1x256.size (cc3_transform_0 k3_off1_inb numel1_S1 pf i) h).WholeWords (EltTy.packing .f32)) ∧
  (∀ i : grid3.Coords, ∃ h : (∀ a, (cc3_transform_1 k3_off2_inb numel1_S1 pf i a + 1) * S1x1x256.size a ≤ S100000x1x256.size a), EltTy.bits .f32 = 32 ∨ (Rect.block (s := S100000x1x256) S1x1x256.size (cc3_transform_1 k3_off2_inb numel1_S1 pf i) h).WholeWords (EltTy.packing .f32)) ∧
  (∀ i : grid3.Coords, ∃ h : (∀ a, (cc3_transform_2 k3_off2_inb numel1_S1 pf i a + 1) * S1x1x256.size a ≤ S100000x1x256.size a), EltTy.bits .f32 = 32 ∨ (Rect.block (s := S100000x1x256) S1x1x256.size (cc3_transform_2 k3_off2_inb numel1_S1 pf i) h).WholeWords (EltTy.packing .f32)) ∧
  (∀ i : grid3.Coords, ∃ h : (∀ a, (cc3_transform_3 k3_off2_inb numel1_S1 pf i a + 1) * S1x1x256.size a ≤ S100000x1x256.size a), EltTy.bits .f32 = 32 ∨ (Rect.block (s := S100000x1x256) S1x1x256.size (cc3_transform_3 k3_off2_inb numel1_S1 pf i) h).WholeWords (EltTy.packing .f32)) ∧
  (∀ i : grid3.Coords, ∃ h : (∀ a, (cc3_transform_4 k3_off2_inb numel1_S1 pf i a + 1) * S1x1x256.size a ≤ S100000x1x256.size a), EltTy.bits .f32 = 32 ∨ (Rect.block (s := S100000x1x256) S1x1x256.size (cc3_transform_4 k3_off2_inb numel1_S1 pf i) h).WholeWords (EltTy.packing .f32)) ∧
  (∀ i : grid3.Coords, ∃ h : (∀ a, (cc3_transform_5 k3_off2_inb numel1_S1 pf i a + 1) * S1x1x256.size a ≤ S100000x1x256.size a), EltTy.bits .f32 = 32 ∨ (Rect.block (s := S100000x1x256) S1x1x256.size (cc3_transform_5 k3_off2_inb numel1_S1 pf i) h).WholeWords (EltTy.packing .f32)) ∧
  (∀ i : grid3.Coords, ∃ h : (∀ a, (cc3_transform_6 k3_off2_inb numel1_S1 pf i a + 1) * S1x1x256.size a ≤ S100000x1x256.size a), EltTy.bits .f32 = 32 ∨ (Rect.block (s := S100000x1x256) S1x1x256.size (cc3_transform_6 k3_off2_inb numel1_S1 pf i) h).WholeWords (EltTy.packing .f32)) ∧
  (∀ i : grid3.Coords, ∃ h : (∀ a, (cc3_transform_7 k3_off2_inb numel1_S1 pf i a + 1) * S1x1x256.size a ≤ S100000x1x256.size a), EltTy.bits .f32 = 32 ∨ (Rect.block (s := S100000x1x256) S1x1x256.size (cc3_transform_7 k3_off2_inb numel1_S1 pf i) h).WholeWords (EltTy.packing .f32)) ∧
  (∀ i : grid3.Coords, ∃ h : (∀ a, (cc3_transform_8 k3_off2_inb numel1_S1 pf i a + 1) * S1x1x256.size a ≤ S100000x1x256.size a), EltTy.bits .f32 = 32 ∨ (Rect.block (s := S100000x1x256) S1x1x256.size (cc3_transform_8 k3_off2_inb numel1_S1 pf i) h).WholeWords (EltTy.packing .f32)) ∧
  (∀ i : grid3.Coords, ∃ h : (∀ a, (cc3_transform_9 k3_off2_inb numel1_S1 pf i a + 1) * S1x1x256.size a ≤ S100000x1x256.size a), EltTy.bits .f32 = 32 ∨ (Rect.block (s := S100000x1x256) S1x1x256.size (cc3_transform_9 k3_off2_inb numel1_S1 pf i) h).WholeWords (EltTy.packing .f32)) ∧
  (∀ i : grid3.Coords, ∃ h : (∀ a, (cc3_transform_10 k3_off2_inb numel1_S1 pf i a + 1) * S1x1x256.size a ≤ S100000x1x256.size a), EltTy.bits .f32 = 32 ∨ (Rect.block (s := S100000x1x256) S1x1x256.size (cc3_transform_10 k3_off2_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2 i).elim fun h _ => h a | 11 => hinb3_11 | 12 => hinb3_12 | ⟨_ + 13, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2 i).elim fun _ h => h | 11 => hwx3_11 | 12 => hwx3_12 | ⟨_ + 13, h⟩ => absurd h (Nat.not_lt.2 (Nat.le_add_left _ _))
abbrev win4_0 : Pipeline.Window sig grid4 :=
  Pipeline.Window.ofSpec (Memref.whole main_arg1) S256x512.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v28) S2048x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v29) S256x2048.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole

variable [Facts]
-- ==== ReferenceIdeal.lean ====
abbrev S100000x256 : Shape := ⟨2, ![100000, 256]⟩
abbrev S256x512 : Shape := ⟨2, ![256, 512]⟩
abbrev S50000 : Shape := ⟨1, ![50000]⟩
abbrev S50000x10 : Shape := ⟨2, ![50000, 10]⟩
abbrev S_ : Shape := ⟨0, ![]⟩
abbrev S50000x10x1 : Shape := ⟨3, ![50000, 10, 1]⟩
abbrev S50000x10x256 : Shape := ⟨3, ![50000, 10, 256]⟩
abbrev S50000x256 : Shape := ⟨2, ![50000, 256]⟩
abbrev S50000x1 : Shape := ⟨2, ![50000, 1]⟩
abbrev S50000x512 : Shape := ⟨2, ![50000, 512]⟩
abbrev S512x50000 : Shape := ⟨2, ![512, 50000]⟩
abbrev S256x50000 : Shape := ⟨2, ![256, 50000]⟩

abbrev nBuf : Space → Nat
  | .hbm => 33
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x512, .f32⟩
  | .hbm, ⟨2, _⟩ => ⟨S50000, .i32⟩
  | .hbm, ⟨3, _⟩ => ⟨S50000x10, .i32⟩
  | .hbm, ⟨4, _⟩ => ⟨S_, .i32⟩
  | .hbm, ⟨5, _⟩ => ⟨S50000x10, .i32⟩
  | .hbm, ⟨6, _⟩ => ⟨S50000x10, .i1⟩
  | .hbm, ⟨7, _⟩ => ⟨S_, .i32⟩
  | .hbm, ⟨8, _⟩ => ⟨S50000x10, .i32⟩
  | .hbm, ⟨9, _⟩ => ⟨S50000x10, .i32⟩
  | .hbm, ⟨10, _⟩ => ⟨S50000x10, .i32⟩
  | .hbm, ⟨11, _⟩ => ⟨S50000x10x1, .i32⟩
  | .hbm, ⟨12, _⟩ => ⟨S50000x10x256, .f32⟩
  | .hbm, ⟨13, _⟩ => ⟨S_, .f32⟩
  | .hbm, ⟨14, _⟩ => ⟨S50000x256, .f32⟩
  | .hbm, ⟨15, _⟩ => ⟨S_, .f32⟩
  | .hbm, ⟨16, _⟩ => ⟨S50000x256, .f32⟩
  | .hbm, ⟨17, _⟩ => ⟨S50000x256, .f32⟩
  | .hbm, ⟨18, _⟩ => ⟨S_, .i32⟩
  | .hbm, ⟨19, _⟩ => ⟨S50000, .i32⟩
  | .hbm, ⟨20, _⟩ => ⟨S50000, .i1⟩
  | .hbm, ⟨21, _⟩ => ⟨S_, .i32⟩
  | .hbm, ⟨22, _⟩ => ⟨S50000, .i32⟩
  | .hbm, ⟨23, _⟩ => ⟨S50000, .i32⟩
  | .hbm, ⟨24, _⟩ => ⟨S50000, .i32⟩
  | .hbm, ⟨25, _⟩ => ⟨S50000x1, .i32⟩
  | .hbm, ⟨26, _⟩ => ⟨S50000x256, .f32⟩
  | .hbm, ⟨27, _⟩ => ⟨S50000x512, .f32⟩
  | .hbm, ⟨28, _⟩ => ⟨S512x50000, .f32⟩
  | .hbm, ⟨29, _⟩ => ⟨S256x50000, .f32⟩
  | .hbm, ⟨30, _⟩ => ⟨S_, .f32⟩
  | .hbm, ⟨31, _⟩ => ⟨S256x50000, .f32⟩
  | .hbm, ⟨32, _⟩ => ⟨S256x50000, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  reducesTo_S50000x10x256_S50000x256_d1 : S50000x10x256.ReducesTo [1] S50000x256
  h_S_ : 0 < S_.numel
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x256_S50000x256_S50000x512_d1 : Shape.Concatenates [S50000x256, S50000x256] S50000x512 1
  transposes_S50000x512_S512x50000_1_0 : S50000x512.Transposes [1, 0] S512x50000
  bcast_S_S256x50000 : S_.BroadcastsInDim S256x50000 (![] : Fin 0 → Fin S256x50000.rank)
  gather_S100000x256_S50000x10x1_S50000x10x256_2_0_n_n_0_2_1256_wf : GatherDims.WF S100000x256 S50000x10x1 S50000x10x256 [2] [0] [] [0] [] 2 ![1, 256]
  gather_S100000x256_S50000x1_S50000x256_1_0_n_n_0_1_1256_wf : GatherDims.WF S100000x256 S50000x1 S50000x256 [1] [0] [] [0] [] 1 ![1, 256]
  dot_S256x512_S512x50000_S256x50000_1_0_0_1_n_n_wf : DotDims.WF S256x512 S512x50000 S256x50000 [1] [0] [0] [1] [] []

variable [Facts₀]

def gather_S100000x256_S50000x10x1_S50000x10x256_2_0_n_n_0_2_1256 : GatherDims S100000x256 S50000x10x1 S50000x10x256 where
  offsetDims := [2]
  collapsedSliceDims := [0]
  operandBatchingDims := []
  startIndicesBatchingDims := []
  startIndexMap := [0]
  indexVectorDim := 2
  sliceSizes := ![1, 256]
  wf := gather_S100000x256_S50000x10x1_S50000x10x256_2_0_n_n_0_2_1256_wf
def gather_S100000x256_S50000x1_S50000x256_1_0_n_n_0_1_1256 : GatherDims S100000x256 S50000x1 S50000x256 where
  offsetDims := [1]
  collapsedSliceDims := [0]
  operandBatchingDims := []
  startIndicesBatchingDims := []
  startIndexMap := [0]
  indexVectorDim := 1
  sliceSizes := ![1, 256]
  wf := gather_S100000x256_S50000x1_S50000x256_1_0_n_n_0_1_1256_wf
def dot_S256x512_S512x50000_S256x50000_1_0_0_1_n_n : DotDims S256x512 S512x50000 S256x50000 where
  lhsContracting := [1]
  rhsContracting := [0]
  lhsNonContracting := [0]
  rhsNonContracting := [1]
  lhsBatch := []
  rhsBatch := []
  wf := dot_S256x512_S512x50000_S256x50000_1_0_0_1_n_n_wf

class Facts : Prop extends Facts₀ where

variable [Facts]
-- ==== Proof.Spec.lean ====
import Idealize.ShloMosaic.PureOps.Ideal
import Idealize.ShloMosaic.Lib.ValueIdx
noncomputable section
open scoped BigOperators
namespace Cert.Spec
open Idealize.ShloMosaic Idealize.ShloMosaic.ValueIdx
def rowOf (w : BitVec 32) : Fin 100000 := ⟨w.toNat % 100000, Nat.mod_lt _ (by decide)⟩
theorem rowOf_val_of_lt {w : BitVec 32} (h : w.toNat < 100000) : (rowOf w).val = w.toNat :=
  Nat.mod_eq_of_lt h
def selfRow (feat : (⟨2, ![100000, 256]⟩ : Shape).Idx → EReal) (nodes : (⟨1, ![50000]⟩ : Shape).Idx → BitVec 32)
    (j : Fin 50000) (k : Fin 256) : EReal :=
  feat (ix2 (rowOf (nodes (ix1 j))) k)
def neighRow (feat : (⟨2, ![100000, 256]⟩ : Shape).Idx → EReal) (neigh : (⟨2, ![50000, 10]⟩ : Shape).Idx → BitVec 32)
    (j : Fin 50000) (k : Fin 256) : EReal :=
  (∑ s : Fin 10, feat (ix2 (rowOf (neigh (ix2 j s))) k)) * ((1 / 10 : ℝ) : EReal)
def comb (feat : (⟨2, ![100000, 256]⟩ : Shape).Idx → EReal) (nodes : (⟨1, ![50000]⟩ : Shape).Idx → BitVec 32)
    (neigh : (⟨2, ![50000, 10]⟩ : Shape).Idx → BitVec 32) (j : Fin 50000) (k : Fin 512) : EReal :=
  if h : k.val < 256 then selfRow feat nodes j ⟨k.val, h⟩
  else neighRow feat neigh j ⟨k.val - 256, by have := k.isLt; omega⟩
def G (feat : (⟨2, ![100000, 256]⟩ : Shape).Idx → EReal) (weight : (⟨2, ![256, 512]⟩ : Shape).Idx → EReal)
    (nodes : (⟨1, ![50000]⟩ : Shape).Idx → BitVec 32) (neigh : (⟨2, ![50000, 10]⟩ : Shape).Idx → BitVec 32) :
    (⟨2, ![256, 50000]⟩ : Shape).Idx → EReal :=
  fun i => max (∑ k : Fin 512, weight (ix2 (i 0) k) * comb feat nodes neigh (i 1) k) 0
structure IdsInRange (nodes : (⟨1, ![50000]⟩ : Shape).Idx → BitVec 32) (neigh : (⟨2, ![50000, 10]⟩ : Shape).Idx → BitVec 32) : Prop where
  nodes_lt : ∀ j, (nodes j).toNat < 100000
  neigh_lt : ∀ j, (neigh j).toNat < 100000
end Cert.Spec
end
-- ==== Proof.PreFacts.lean ====
import proofs.«412514_j386547056896_2_alg».proof.Proof.Gen.Pre_finite_inputs
import proofs.«412514_j386547056896_2_alg».proof.Proof.Spec
import Idealize.ShloMosaic.Lib.ReduceAll
import Idealize.ShloMosaic.Lib.StableHlo.Predicate
import Idealize.ShloMosaic.Lib.ValueIdx
namespace Cert.Pre_finite_inputs.Decode
open Idealize.ShloMosaic Idealize.ShloMosaic.ValueIdx
open Cert.Pre_finite_inputs Cert.Pre_finite_inputs.Gen
instance subsingleton_scalar_idx : Subsingleton S_.Idx := ⟨fun a b => funext fun d => d.elim0⟩
theorem toNat_lt_of_signed_range (w : BitVec 32) (h0 : IntOp.cmpi .sge w 0#32 = 1#1)
    (h1 : IntOp.cmpi .slt w 100000#32 = 1#1) : w.toNat < 100000 := by
  rw [IntOp.cmpi_sge] at h0
  rw [IntOp.cmpi_slt] at h1
  have e0 : (0#32 : BitVec 32).toInt = 0 := by decide
  have e1 : (100000#32 : BitVec 32).toInt = 100000 := by decide
  rw [e0] at h0
  rw [e1] at h1
  rw [BitVec.toInt_eq_toNat_cond] at h0 h1
  split at h0 <;> omega
theorem word_lt_of_range_bit {s : Shape} (hb : S_.BroadcastsInDim s (![] : Fin 0 → Fin s.rank)) (x : IVec s 32) (i : s.Idx)
    (h : andi (cmpi .sge x (broadcastInDim s ![] hb (constantI S_ 32 0#32)))
          (cmpi .slt x (broadcastInDim s ![] hb (constantI S_ 32 100000#32))) i = 1#1) :
    (x i).toNat < 100000 := by
  have h' : IntOp.andi (IntOp.cmpi .sge (x i) 0#32) (IntOp.cmpi .slt (x i) 100000#32) = 1#1 := h
  obtain ⟨hge, hlt⟩ := IntOp.andi_eq_one.1 h'
  exact toNat_lt_of_signed_range (x i) hge hlt
theorem ids_of_pre {F : FTy → Type} [FloatOps F] (a0 : FVec F Cert.Pre_finite_inputs.S100000x256 .f32)
    (a1 : FVec F Cert.Pre_finite_inputs.S256x512 .f32) (a2 : IVec Cert.Pre_finite_inputs.S50000 32)
    (a3 : IVec Cert.Pre_finite_inputs.S50000x10 32)
    (h : Cert.Pre_finite_inputs.fn (F := F) a0 a1 a2 a3 = fun _ => 1#1) : Cert.Spec.IdsInRange a2 a3 := by
  have h0 := congrFun h ValueIdx.ix0
  dsimp only [Cert.Pre_finite_inputs.fn, Cert.Pre_finite_inputs.fn_part1] at h0
  obtain ⟨h012, h3⟩ := IntOp.andi_eq_one.1 h0
  obtain ⟨_, h2⟩ := IntOp.andi_eq_one.1 h012
  refine ⟨fun j => ?_, fun j => ?_⟩
  · exact word_lt_of_range_bit _ a2 j (Host.reduce_andi_all _ _ _ _ _ h2 j)
  · exact word_lt_of_range_bit _ a3 j (Host.reduce_andi_all _ _ _ _ _ h3 j)
end Cert.Pre_finite_inputs.Decode
-- ==== Proof.RefValue.lean ====
import proofs.«412514_j386547056896_2_alg».proof.Proof.Gen.ReferenceIdeal.Read
import proofs.«412514_j386547056896_2_alg».proof.Proof.Spec
import Idealize.ShloMosaic.Lib.ValueIdx
import Idealize.ShloMosaic.Lib.Pipeline.Value
import Idealize.ShloMosaic.PureOps.Ideal.Laws
noncomputable section
open scoped BigOperators
namespace Cert.ReferenceIdeal.RefValue
open Cert.ReferenceIdeal Cert.ReferenceIdeal.Gen Cert.ReferenceIdeal.Read
open Idealize.ShloMosaic Idealize.ShloMosaic.ValueIdx Idealize.ShloMosaic.StableHlo
open Cert.Spec
theorem ofBits_ten : Ideal.ofBits .f32 0x41200000#32 = ((10 : ℝ) : EReal) := by
  simp [Ideal.ofBits, Ideal.ieee, -EReal.coe_mul]; norm_num
theorem toInt_of_lt {w : BitVec 32} (h : w.toNat < 100000) : w.toInt = (w.toNat : Int) := by
  have e := BitVec.toInt_eq_toNat_cond w
  omega
theorem slt_zero_of_lt {w : BitVec 32} (h : w.toNat < 100000) : IntOp.cmpi .slt w 0#32 = 0#1 := by
  have hlt : w.slt 0#32 = false := by
    simp only [BitVec.slt, BitVec.toInt_zero, decide_eq_false_iff_not, Int.not_lt]
    rw [toInt_of_lt h]; omega
  unfold IntOp.cmpi
  simp only [hlt]
  rfl
theorem clamp_of_lt {w : BitVec 32} (h : w.toNat < 100000) : min w.toInt.toNat (100000 - 1) = (rowOf w).val := by
  rw [rowOf_val_of_lt h, toInt_of_lt h]
  simp only [Int.toNat_natCast]
  omega
def clampRow (w : BitVec 32) : Fin 100000 := ⟨min w.toInt.toNat (100000 - 1), by omega⟩
theorem clampRow_of_lt {w : BitVec 32} (h : w.toNat < 100000) : clampRow w = rowOf w :=
  Fin.ext (clamp_of_lt h)
abbrev si16 (i : S50000x256.Idx) : S50000x1.Idx :=
  fun a => match a with | ⟨0, _⟩ => ⟨(i 0).val, (i 0).isLt⟩ | ⟨1, _⟩ => ⟨0, Nat.one_pos⟩
theorem gather16_apply {α : Type} (x : S100000x256.Idx → α) (idx : IVec S50000x1 32) (i : S50000x256.Idx) :
    Host.gather gather_S100000x256_S50000x1_S50000x256_1_0_n_n_0_1_1256 x idx i
      = x (ix2 (clampRow (idx (si16 i))) (i 1)) := by
  unfold Host.gather
  congr 1
  funext a
  refine Fin.ext ?_
  match a with
  | ⟨0, _⟩ =>
    show gather_S100000x256_S50000x1_S50000x256_1_0_n_n_0_1_1256.start i idx 0
        + gather_S100000x256_S50000x1_S50000x256_1_0_n_n_0_1_1256.batchCoord i 0
        + gather_S100000x256_S50000x1_S50000x256_1_0_n_n_0_1_1256.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x256_S50000x1_S50000x256_1_0_n_n_0_1_1256.startIndexMap from List.mem_singleton.mpr rfl)]
    have hsi : gather_S100000x256_S50000x1_S50000x256_1_0_n_n_0_1_1256.siIdx i
        ⟨List.idxOf (0 : Fin 2) gather_S100000x256_S50000x1_S50000x256_1_0_n_n_0_1_1256.startIndexMap,
          List.idxOf_lt_length_iff.2 (List.mem_singleton.mpr rfl)⟩ = si16 i := by
      funext b; refine Fin.ext ?_
      match b with
      | ⟨0, _⟩ => rfl
      | ⟨1, _⟩ => rfl
    rw [hsi]
    rfl
  | ⟨1, _⟩ =>
    show gather_S100000x256_S50000x1_S50000x256_1_0_n_n_0_1_1256.start i idx 1
        + gather_S100000x256_S50000x1_S50000x256_1_0_n_n_0_1_1256.batchCoord i 1
        + gather_S100000x256_S50000x1_S50000x256_1_0_n_n_0_1_1256.offCoord i 1 = _
    rw [GatherDims.batchCoord_eq_zero _ _ _ List.not_mem_nil]
    unfold GatherDims.start
    rw [dif_neg (show ¬ (1 : Fin 2) ∈ gather_S100000x256_S50000x1_S50000x256_1_0_n_n_0_1_1256.startIndexMap by decide)]
    simp only [Nat.add_zero, Nat.zero_add]
    rfl
abbrev si6 (i : S50000x10x256.Idx) : S50000x10x1.Idx :=
  fun a => match a with
    | ⟨0, _⟩ => ⟨(i 0).val, (i 0).isLt⟩ | ⟨1, _⟩ => ⟨(i 1).val, (i 1).isLt⟩ | ⟨2, _⟩ => ⟨0, Nat.one_pos⟩
theorem gather6_apply {α : Type} (x : S100000x256.Idx → α) (idx : IVec S50000x10x1 32) (i : S50000x10x256.Idx) :
    Host.gather gather_S100000x256_S50000x10x1_S50000x10x256_2_0_n_n_0_2_1256 x idx i
      = x (ix2 (clampRow (idx (si6 i))) (i 2)) := by
  unfold Host.gather
  congr 1
  funext a
  refine Fin.ext ?_
  match a with
  | ⟨0, _⟩ =>
    show gather_S100000x256_S50000x10x1_S50000x10x256_2_0_n_n_0_2_1256.start i idx 0
        + gather_S100000x256_S50000x10x1_S50000x10x256_2_0_n_n_0_2_1256.batchCoord i 0
        + gather_S100000x256_S50000x10x1_S50000x10x256_2_0_n_n_0_2_1256.offCoord i 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x256_S50000x10x1_S50000x10x256_2_0_n_n_0_2_1256.startIndexMap from List.mem_singleton.mpr rfl)]
    have hsi : gather_S100000x256_S50000x10x1_S50000x10x256_2_0_n_n_0_2_1256.siIdx i
        ⟨List.idxOf (0 : Fin 2) gather_S100000x256_S50000x10x1_S50000x10x256_2_0_n_n_0_2_1256.startIndexMap,
          List.idxOf_lt_length_iff.2 (List.mem_singleton.mpr rfl)⟩ = si6 i := by
      funext b; refine Fin.ext ?_
      match b with
      | ⟨0, _⟩ => rfl
      | ⟨1, _⟩ => rfl
      | ⟨2, _⟩ => rfl
    rw [hsi]
    rfl
  | ⟨1, _⟩ =>
    show gather_S100000x256_S50000x10x1_S50000x10x256_2_0_n_n_0_2_1256.start i idx 1
        + gather_S100000x256_S50000x10x1_S50000x10x256_2_0_n_n_0_2_1256.batchCoord i 1
        + gather_S100000x256_S50000x10x1_S50000x10x256_2_0_n_n_0_2_1256.offCoord i 1 = _
    rw [GatherDims.batchCoord_eq_zero _ _ _ List.not_mem_nil]
    unfold GatherDims.start
    rw [dif_neg (show ¬ (1 : Fin 2) ∈ gather_S100000x256_S50000x10x1_S50000x10x256_2_0_n_n_0_2_1256.startIndexMap by decide)]
    simp only [Nat.add_zero, Nat.zero_add]
    rfl
theorem v14_apply (x2 : (⟨S50000, .i32⟩ : BufTy).Contents (Elt Ideal)) (h : ∀ j, (x2 j).toNat < 100000) (i : S50000.Idx) :
    val_main_v14 (F := Ideal) x2 i = x2 i := by
  rw [val_main_v14_apply, val_main_v11_apply, val_main_v10_apply, val_main_c_2_apply, slt_zero_of_lt (h i)]
  exact select_zero _ _
theorem v4_apply (x3 : (⟨S50000x10, .i32⟩ : BufTy).Contents (Elt Ideal)) (h : ∀ j, (x3 j).toNat < 100000) (i : S50000x10.Idx) :
    val_main_v4 (F := Ideal) x3 i = x3 i := by
  rw [val_main_v4_apply, val_main_v1_apply, val_main_v0_apply, val_main_c_apply, slt_zero_of_lt (h i)]
  exact select_zero _ _
theorem v16_apply (x0 : (⟨S100000x256, .f32⟩ : BufTy).Contents (Elt Ideal)) (x2 : (⟨S50000, .i32⟩ : BufTy).Contents (Elt Ideal))
    (h : ∀ j, (x2 j).toNat < 100000) (i : S50000x256.Idx) :
    val_main_v16 (F := Ideal) x0 x2 i = selfRow x0 x2 (i 0) (i 1) := by
  unfold val_main_v16
  rw [gather16_apply, val_main_v15_apply, v14_apply x2 h]
  unfold selfRow
  have e : idx_main_v15 (si16 i) = ix1 (i 0) := by
    funext a; match a with | ⟨0, _⟩ => rfl
  rw [e]
  exact congrArg (fun r => x0 (ix2 r (i 1))) (clampRow_of_lt (h _))
theorem v6_apply (x0 : (⟨S100000x256, .f32⟩ : BufTy).Contents (Elt Ideal)) (x3 : (⟨S50000x10, .i32⟩ : BufTy).Contents (Elt Ideal))
    (h : ∀ j, (x3 j).toNat < 100000) (i : S50000x10x256.Idx) :
    val_main_v6 (F := Ideal) x0 x3 i = x0 (ix2 (rowOf (x3 (ix2 (i 0) (i 1)))) (i 2)) := by
  unfold val_main_v6
  rw [gather6_apply, val_main_v5_apply, v4_apply x3 h]
  have e : idx_main_v5 (si6 i) = ix2 (i 0) (i 1) := by
    funext a; match a with | ⟨0, _⟩ => rfl | ⟨1, _⟩ => rfl
  rw [e]
  exact congrArg (fun r => x0 (ix2 r (i 2))) (clampRow_of_lt (h _))
theorem v9_apply (x0 : (⟨S100000x256, .f32⟩ : BufTy).Contents (Elt Ideal)) (x3 : (⟨S50000x10, .i32⟩ : BufTy).Contents (Elt Ideal))
    (h : ∀ j, (x3 j).toNat < 100000) (i : S50000x256.Idx) :
    val_main_v9 (F := Ideal) x0 x3 i = neighRow x0 x3 (i 0) (i 1) := by
  rw [val_main_v9_apply, val_main_v7_apply, val_main_cst_apply, val_main_v8_apply, val_main_cst_1_apply]
  simp only [Ideal.hostDivf_def, Ideal.ofBits_def, Ideal.ofBits_zero_f32, ofBits_ten, zero_add,
    Ideal.div_coe (by norm_num : (10 : ℝ) ≠ 0)]
  unfold neighRow
  congr 1
  refine Finset.sum_congr rfl fun s _ => ?_
  rw [v6_apply x0 x3 h]
  rfl
theorem v17_apply (x0 : (⟨S100000x256, .f32⟩ : BufTy).Contents (Elt Ideal)) (x2 : (⟨S50000, .i32⟩ : BufTy).Contents (Elt Ideal))
    (x3 : (⟨S50000x10, .i32⟩ : BufTy).Contents (Elt Ideal)) (h : IdsInRange x2 x3) (i : S50000x512.Idx) :
    val_main_v17 (F := Ideal) x0 x2 x3 i = comb x0 x2 x3 (i 0) (i 1) := by
  unfold val_main_v17 comb
  by_cases hk : (i 1).val < 256
  · rw [dif_pos hk, concatenate_pair_apply_left (s₁ := S50000x256) (s₂ := S50000x256) 1 _ _ _ i rfl
      (ix2 (n0 := 50000) (n1 := 256) (i 0) ⟨(i 1).val, hk⟩)
      (fun b => match b with | ⟨0, _⟩ => rfl | ⟨1, _⟩ => rfl), v16_apply x0 x2 h.nodes_lt]
  · have hlt : (i 1).val < 512 := (i 1).isLt
    rw [dif_neg hk, concatenate_pair_apply_right (s₁ := S50000x256) (s₂ := S50000x256) 1 _ _ _ i rfl rfl
      (ix2 (n0 := 50000) (n1 := 256) (i 0) ⟨(i 1).val - 256, by omega⟩)
      (fun b => match b with | ⟨0, _⟩ => fun _ => rfl | ⟨1, _⟩ => fun hb => absurd rfl hb)
      (by show (i 1).val - 256 + 256 = (i 1).val; omega), v9_apply x0 x3 h.neigh_lt]
theorem lidx_eq (i : S256x50000.Idx) (k : Fin 512) : lidx_main_v19 i k = ix2 (i 0) k := by
  funext a; match a with | ⟨0, _⟩ => rfl | ⟨1, _⟩ => rfl
theorem ref_eq_G (x0 : (⟨Cert.ReferenceIdeal.S100000x256, .f32⟩ : BufTy).Contents (Elt Ideal))
    (x1 : (⟨Cert.ReferenceIdeal.S256x512, .f32⟩ : BufTy).Contents (Elt Ideal))
    (x2 : (⟨Cert.ReferenceIdeal.S50000, .i32⟩ : BufTy).Contents (Elt Ideal))
    (x3 : (⟨Cert.ReferenceIdeal.S50000x10, .i32⟩ : BufTy).Contents (Elt Ideal)) (h : Cert.Spec.IdsInRange x2 x3) :
    Cert.ReferenceIdeal.Read.val_main_v20 (F := Ideal) x0 x1 x2 x3 = Cert.Spec.G x0 x1 x2 x3 := by
  funext i
  rw [val_main_v20_apply, val_main_v19_apply, val_main_call0_v0_apply, val_main_call0_cst_apply]
  simp only [Ideal.maximumf_def, Ideal.ofBits_def, Ideal.ofBits_zero_f32]
  unfold G
  congr 1
  refine Finset.sum_congr rfl fun k _ => ?_
  rw [val_main_v18_apply, v17_apply x0 x2 x3 h, lidx_eq]
  rfl
end Cert.ReferenceIdeal.RefValue
end
-- ==== Proof.GK.lean ====
import proofs.«412514_j386547056896_2_alg».proof.Proof.Gen.KernelIdeal.Launch
import proofs.«412514_j386547056896_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

abbrev rwB : Rect S1x1x256 := Rect.unit (s := S1x1x256) ![0, 0, 0] S1x1x256.size inb_S1x1x256_S1x1x256_0_0_0

def outSelf (x0 : Vec F S1x1x256 .f32) : Vec F S1x1x256 .f32 :=
  View.canon [⟨rwB, k0_pay2 (View.ld x0 rwB)⟩]

def outMean (x1 x2 x3 x4 x5 x6 x7 x8 x9 x10 : Vec F S1x1x256 .f32) : Vec F S1x1x256 .f32 :=
  View.canon [⟨rwB, k0_pay1 (k0_pay3 (View.ld x1 rwB) (View.ld x2 rwB) (View.ld x3 rwB) (View.ld x4 rwB) (View.ld x5 rwB)
    (View.ld x6 rwB) (View.ld x7 rwB) (View.ld x8 rwB)) (View.ld x9 rwB) (View.ld x10 rwB)⟩]

/-- The share of the feature array given to each of the eleven windows that read it: a chain of halves. -/
def qIn : Fin 13 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right.left
  | ⟨5, _⟩ => fullShare.right.right.right.right.right.left
  | ⟨6, _⟩ => fullShare.right.right.right.right.right.right.left
  | ⟨7, _⟩ => fullShare.right.right.right.right.right.right.right.left
  | ⟨8, _⟩ => fullShare.right.right.right.right.right.right.right.right.left
  | ⟨9, _⟩ => fullShare.right.right.right.right.right.right.right.right.right.left
  | ⟨10, _⟩ => fullShare.right.right.right.right.right.right.right.right.right.right
  | _ => fullShare

theorem coverB (p0 : Vec F S1x1x256 .f32) (y : S1x1x256.Idx) :
    ∃ pc ∈ ([⟨rwB, p0⟩] : List (View.Piece (Elt F) S1x1x256 .f32)), y ∈ pc.1.set :=
  View.cover_of_tiled [⟨rwB, p0⟩] S1x1x256.size (by rfl) y

abbrev gatherK := cc0_gather_kernel (F := F)

set_option maxHeartbeats 2000000 in
theorem sound_gather {κ} (hκ : κ = gatherK (F := F)) (c : Dev nD) (E : Set ℕ) (i : grid0.Coords)
    (arg1 : Memref sig .tc .smem S12500 .i32) (harg1 : arg1.IsWhole) (arg2 : Memref sig .tc .smem S125000 .i32) (harg2 : arg2.IsWhole)
    (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole)
    (x0 x1 x2 x3 x4 x5 x6 x7 x8 x9 x10 : Vec F S1x1x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10
        ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10
            ∗ owns (c : Thread nD τ) arg14 fullShare (outSelf x0)
            ∗ owns (c : Thread nD τ) arg15 fullShare (outMean x1 x2 x3 x4 x5 x6 x7 x8 x9 x10)) -∗ K ⟨⟩))
      ⊢ wp frame (wpE (defs₀ (F := F)) Variants.none c none) E
          (κ i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  subst hκ
  simp only [gatherK, cc0_gather_kernel_eq_skeleton]; unfold cc0_gather_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverB _)
  iexists _; isplitr
  swap; · iexact H12
  ipureintro
  exact View.read_writes_eq_canon _ _ _ (coverB _)

def halves {ℓ : Loc nD τ sig} (I : Finset (Idx ℓ)) (f : Buf (Elt F) ℓ) (R : sProp 𝕄) : ℕ → PosShare TreeShare → sProp 𝕄
  | 0, q => iprop((ℓ ↦[I]{q} f) ∗ R)
  | n + 1, q => iprop((ℓ ↦[I]{q.left} f) ∗ halves I f R n q.right)

/-- A share is its left half and its right half, `n` times over. -/
theorem pointsTo_halves {ℓ : Loc nD τ sig} (I : Finset (Idx ℓ)) (f : Buf (Elt F) ℓ) (R : sProp 𝕄) (n : ℕ) :
    ∀ q : PosShare TreeShare, (iprop((ℓ ↦[I]{q} f) ∗ R) : sProp 𝕄) = halves I f R n q := by
  induction n with
  | zero => intro q; rfl
  | succ n ih =>
    intro q
    have h : (ℓ ↦[I]{q} f : sProp 𝕄) ⊣⊢ iprop((ℓ ↦[I]{q.left} f) ∗ ℓ ↦[I]{q.right} f) :=
      pointsTo_share (PosShare.mem_left_op_right q)
    show _ = iprop((ℓ ↦[I]{q.left} f) ∗ halves I f R n q.right)
    rw [← ih q.right, BI.Entails.antisymm h.1 h.2]
    have h1 : (iprop(((ℓ ↦[I]{q.left} f) ∗ ℓ ↦[I]{q.right} f) ∗ R) : sProp 𝕄) ⊢ iprop((ℓ ↦[I]{q.left} f) ∗ (ℓ ↦[I]{q.right} f) ∗ R) := by
      iintro ⟨⟨H1, H2⟩, H3⟩
      iframe
    have h2 : (iprop((ℓ ↦[I]{q.left} f) ∗ (ℓ ↦[I]{q.right} f) ∗ R) : sProp 𝕄) ⊢ iprop(((ℓ ↦[I]{q.left} f) ∗ ℓ ↦[I]{q.right} f) ∗ R) := by
      iintro ⟨H1, H2, H3⟩
      iframe
    exact BI.equiv_iff.mp ⟨h1, h2⟩

end Cert.KernelIdeal.Hand

end
-- ==== Proof.G0.lean ====
import proofs.«412514_j386547056896_2_alg».proof.Proof.GK

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (a : (pcfg0 (F := F)).Adm)
variable (V : (c : Dev nD) → (b : Ref sig .tc) → Buf (Elt F) ((c : Thread nD τ).loc b))

def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- At point `t` the self output is the node's feature row and the mean output is the sum of its ten neighbours' rows
    times the tenth; the inputs are unchanged. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => iblk0 a V c 4 t
    | ⟨5, _⟩ => iblk0 a V c 5 t
    | ⟨6, _⟩ => iblk0 a V c 6 t
    | ⟨7, _⟩ => iblk0 a V c 7 t
    | ⟨8, _⟩ => iblk0 a V c 8 t
    | ⟨9, _⟩ => iblk0 a V c 9 t
    | ⟨10, _⟩ => iblk0 a V c 10 t
    | ⟨11, _⟩ => outSelf (iblk0 a V c 0 t)
    | ⟨12, _⟩ => outMean (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t)
  Φ _ := iprop(Pipeline.ΦA spec0 c ∗ Pipeline.prefHeld pre0 c (fun _ => fullShare) a.1)
  q := qIn
  owed _ := 0

end Region0

end Cert.KernelIdeal.Hand

end
-- ==== Proof.G0B.lean ====
import proofs.«412514_j386547056896_2_alg».proof.Proof.G0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0

variable (a : (pcfg0 (F := F)).Adm)
variable (V : (c : Dev nD) → (b : Ref sig .tc) → Buf (Elt F) ((c : Thread nD τ).loc b))

theorem after0 (c : Dev nD) (t : Fin (cfg0 a).N) (w : Fin 13) (hw : w.val < 11) :
    (dat0 a V c).after w t = iblk0 a V c w t := by
  fin_cases w <;> first | exact absurd hw (by decide) | rfl

section
attribute [local irreducible] outSelf outMean iblk0
theorem after0_11 (c : Dev nD) (t : Fin (cfg0 a).N) : (dat0 a V c).after 11 t = outSelf (iblk0 a V c 0 t) := rfl
theorem after0_12 (c : Dev nD) (t : Fin (cfg0 a).N) : (dat0 a V c).after 12 t = outMean (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t) := rfl
end

theorem before0 (c : Dev nD) (t : Fin (cfg0 a).N) (w : Fin 13) (hw : w.val < 11) (d) :
    (dat0 a V c).before w t d = iblk0 a V c w t := by
  fin_cases w <;> first
    | exact absurd hw (by decide)
    | exact ((dat0 a V c).before_in_eq_fetched _ rfl (fun _ => rfl) (fun _ _ _ => rfl)
        (fun t => by rw [after0 a V c t _ hw]; unfold Dat.blockOf iblk0; rfl) t d).trans
        (by unfold Dat.fetched Dat.blockOf iblk0; rfl)

theorem cc0_eq : cc0_gather_kernel (F := F) = gatherK := rfl

theorem body_obligation0 (c : Dev nD) : BodyObligation (dat0 (F := F) a V c) (defs₀ (F := F)) Variants.none () Set.univ := fun t => by
  rw [bigSep_W0, bigSep_W0]
  simp (disch := decide) only [before0 a V c t]
  rw [show (dat0 a V c).Φ t.succ = (dat0 a V c).Φ t.castSucc from rfl,
    show (dat0 a V c).owesAt () t.succ = (dat0 a V c).owesAt () t.castSucc from rfl]
  simp (disch := decide) only [after0 a V c t, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq (F := F)) c Set.univ _ _ _ _ _ _ _ _ _ _ _ _ _ _ _ _ _ _ _ _ _ _ _ _ _ _ _ _ _ _ _ (iblk0 a V c 0 t) (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region0

end Cert.KernelIdeal.Hand

end
-- ==== Proof.G0E.lean ====
import proofs.«412514_j386547056896_2_alg».proof.Proof.G0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
variable (a : (pcfg0 (F := F)).Adm)
variable (V : (c : Dev nD) → (b : Ref sig .tc) → Buf (Elt F) ((c : Thread nD τ).loc b))
theorem arrays0_eq (c : Dev nD) (G : (w : Fin (cfg0 a).W) → Buf (Elt F) (((cfg0 a).win w).arr.view.loc (c : Thread nD τ))) :
    (dat0 a V c).arrays G = bigSep Finset.univ fun w : Fin 13 => (((c : Thread nD τ).loc (Pipeline.arrRef spec0 w)) ↦{(dat0 a V c).share w} G w : sProp 𝕄) := by
  unfold Pipeline.Dat.arrays
  exact bigSep_congr fun w _ => by rw [(arr_whole0 w).set_eq_univ]
theorem image0 : Finset.univ.image (Pipeline.arrRef spec0) = {main_v0, main_v4_0, main_v4_1} := by decide
theorem arrBufs0_eq (c : Dev nD) (W : (b : Ref sig .tc) → Buf (Elt F) ((c : Thread nD τ).loc b)) :
    (Pipeline.arrBufs spec0 c W : sProp 𝕄) = iprop((((c : Thread nD τ).loc main_v0) ↦{fullShare} W main_v0)
      ∗ (((c : Thread nD τ).loc main_v4_0) ↦{fullShare} W main_v4_0) ∗ (((c : Thread nD τ).loc main_v4_1) ↦{fullShare} W main_v4_1)) := by
  unfold Pipeline.arrBufs
  rw [image0, bigSep_insert (by decide), bigSep_insert (by decide), bigSep_singleton]
  rfl
include a in
theorem unscoped0_eq (c : Dev nD) (W : (b : Ref sig .tc) → Buf (Elt F) ((c : Thread nD τ).loc b)) :
    (unscopedBufs c W : sProp 𝕄) = iprop(Pipeline.arrBufs spec0 c W
      ∗ Pipeline.prefHeld pre0 c (fun _ => fullShare) (fun k => W (pre0.ref k)) ∗ Pipeline.unscopedRestP pre0 spec0 c W) := by
  have hs : (unscopedBufs c W : sProp 𝕄) = iprop(Pipeline.arrBufs spec0 c W ∗ Pipeline.unscopedRest spec0 c W) :=
    Pipeline.PerCore.unscopedBufs_split₀ (fun _ (_ : Unit) => cfg0 a) () c winFacts₀0.arr_unscoped W
  rw [hs, Pipeline.unscopedRest_split preFacts0 c W]
theorem entry0 (c : Dev nD) (hpf : ∀ k, V c (pre0.ref k) = a.1 k) :
    (unscopedBufs c (V c) : sProp 𝕄) ⊢ iprop((dat0 a V c).arrays ((dat0 a V c).arrAt · 0) ∗ Pipeline.prefHeld pre0 c (fun _ => fullShare) a.1 ∗ Pipeline.unscopedRestP pre0 spec0 c (V c)) := by
  rw [unscoped0_eq a c (V c), show (fun k => V c (pre0.ref k)) = a.1 from funext hpf]
  refine BIClass.sep_mono ?_ .rfl
  rw [arrBufs0_eq, arrays0_eq, bigSep_W0]
  refine (Entails.of_eq (pointsTo_halves Finset.univ (V c main_v0) _ 10 fullShare)).trans ?_
  exact .rfl
theorem exit0 (c : Dev nD) (hpf : ∀ k, V c (pre0.ref k) = a.1 k) (V' : (b : Ref sig .tc) → Buf (Elt F) ((c : Thread nD τ).loc b))
    (h11 : V' main_v4_0 = (dat0 a V c).arrAt 11 (cfg0 a).N) (h12 : V' main_v4_1 = (dat0 a V c).arrAt 12 (cfg0 a).N)
    (hrest : ∀ b, b ≠ main_v4_0 → b ≠ main_v4_1 → V' b = V c b) :
    iprop((dat0 a V c).arrays ((dat0 a V c).arrAt · (cfg0 a).N) ∗ Pipeline.prefHeld pre0 c (fun _ => fullShare) a.1 ∗ Pipeline.unscopedRestP pre0 spec0 c (V c)) ⊢ (unscopedBufs c V' : sProp 𝕄) := by
  have hpre : (fun k => V' (pre0.ref k)) = a.1 := funext fun k => by
    rw [hrest _ (preFacts0.disj k 11) (preFacts0.disj k 12)]; exact hpf k
  have hR : (Pipeline.unscopedRestP pre0 spec0 c V' : sProp 𝕄) = Pipeline.unscopedRestP pre0 spec0 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec0) (Finset.mem_univ (11 : Fin 13))))
      (fun e => hb' (by rw [e]; exact Finset.mem_image_of_mem (Pipeline.arrRef spec0) (Finset.mem_univ (12 : Fin 13))))]
  rw [unscoped0_eq a c V', hpre, hR]
  refine BIClass.sep_mono ?_ .rfl
  rw [arrBufs0_eq, hrest main_v0 (by decide) (by decide), h11, h12]
  refine BIBase.Entails.trans (Entails.of_eq ((arrays0_eq a V c _).trans (bigSep_W0 _))) ?_
  simp (disch := exact rfl) only [(dat0 a V c).arrAt_in]
  refine BIBase.Entails.trans ?_ (Entails.of_eq (pointsTo_halves Finset.univ (V c main_v0) _ 10 fullShare).symm)
  exact .rfl
end Region0

end Cert.KernelIdeal.Hand

end
-- ==== Proof.Common.lean ====
import proofs.«412514_j386547056896_2_alg».proof.Proof.Gen.KernelIdeal.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (UR sig nD τ) ℕ
abbrev 𝒱₀ : Variants := Variants.none
abbrev L : GSem nD τ sig → Finset Unit := fun _ => ∅
abbrev lv : GSem nD τ sig → Unit → ℕ := fun _ _ => 0
abbrev noSem : PEmpty → SemLoc sig := fun k => k.elim
abbrev R (c : Dev nD) : sProp 𝕄 := iprop((∃ r, prngReg c r) ∗ ∃ W, owes (c : Thread nD τ) (0 : CellTallies nD τ sig Unit) W)
abbrev V_of (W : Dev nD → Valuation τ sig (Elt F)) (c : Dev nD) (b : Ref sig .tc) : Buf (Elt F) ((c : Thread nD τ).loc b) := W c b
end Cert.KernelIdeal.Hand
end
-- ==== Proof.G0R.lean ====
import proofs.«412514_j386547056896_2_alg».proof.Proof.G0B
import proofs.«412514_j386547056896_2_alg».proof.Proof.G0E
import proofs.«412514_j386547056896_2_alg».proof.Proof.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region0
variable (a : (pcfg0 (F := F)).Adm) (W W' : Dev nD → Valuation τ sig (Elt F))
abbrev X0 (c : Dev nD) : sProp 𝕄 := iprop(∃ r, prngReg c r)
abbrev Y0 (c : Dev nD) : sProp 𝕄 := iprop((∃ r, prngReg c r) ∗ Pipeline.prefHeld pre0 c (fun _ => fullShare) a.1)
abbrev Z0 (c : Dev nD) : sProp 𝕄 := Pipeline.unscopedRestP pre0 spec0 c (V_of W c)
theorem hentry0 (hpf : ∀ c k, V_of W c (pre0.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat0 a (V_of W) c).arrays ((dat0 a (V_of W) c).arrAt · 0) ∗ Pipeline.prefHeld pre0 c (fun _ => fullShare) a.1
          ∗ (dat0 a (V_of W) c).owesAt () 0 ∗ X0 c ∗ Z0 W c) := by
  have hsplit := entry0 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin0 (c : Dev nD) :
    iprop(X0 c ∗ Pipeline.prefHeld pre0 c (fun _ => fullShare) a.1 ∗ Pipeline.scopedRest (cfg0 a).spec c) ⊢ (dat0 a (V_of W) c).Φ 0 := by
  rw [show (dat0 a (V_of W) c).Φ 0 = iprop(Pipeline.ΦA spec0 c ∗ Pipeline.prefHeld pre0 c (fun _ => fullShare) a.1) from rfl]; unfold Pipeline.ΦA
  iintro ⟨Hp, Hpf, Hr⟩
  iframe
theorem hout0 (c : Dev nD) :
    (dat0 a (V_of W) c).Φ (Fin.last (cfg0 a).N) ⊢ iprop(Y0 a c ∗ Pipeline.ownSems0 noSem c ∗ Pipeline.scopedRest (cfg0 a).spec c) := by
  rw [Pipeline.ownSems0_none, show (dat0 a (V_of W) c).Φ (Fin.last (cfg0 a).N) = iprop(Pipeline.ΦA spec0 c ∗ Pipeline.prefHeld pre0 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit0 (hpf : ∀ c k, V_of W c (pre0.ref k) = a.1 k) (c : Dev nD)
    (h11 : V_of W' c main_v4_0 = (dat0 a (V_of W) c).arrAt 11 (cfg0 a).N) (h12 : V_of W' c main_v4_1 = (dat0 a (V_of W) c).arrAt 12 (cfg0 a).N)
    (hrest : ∀ b : Ref sig .tc, b ≠ main_v4_0 → b ≠ main_v4_1 → V_of W' c b = V_of W c b) :
    iprop((dat0 a (V_of W) c).arrays ((dat0 a (V_of W) c).arrAt · (cfg0 a).N) ∗ (dat0 a (V_of W) c).owesAt () (Fin.last (cfg0 a).N) ∗ Y0 a c ∗ Z0 W c)
      ⊢ |={Set.univ}=> iprop(StableHlo.held (c : Thread nD τ) (Pipeline.ucRefs τ sig) (W' c) ∗ R c) := by
  have hjoin := exit0 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region0

end Cert.KernelIdeal.Hand

end
-- ==== Proof.G1.lean ====
import proofs.«412514_j386547056896_2_alg».proof.Proof.GK

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- At point `t` the self output is the node's feature row and the mean output is the sum of its ten neighbours' rows
    times the tenth; the inputs are unchanged. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => iblk1 a V c 4 t
    | ⟨5, _⟩ => iblk1 a V c 5 t
    | ⟨6, _⟩ => iblk1 a V c 6 t
    | ⟨7, _⟩ => iblk1 a V c 7 t
    | ⟨8, _⟩ => iblk1 a V c 8 t
    | ⟨9, _⟩ => iblk1 a V c 9 t
    | ⟨10, _⟩ => iblk1 a V c 10 t
    | ⟨11, _⟩ => outSelf (iblk1 a V c 0 t)
    | ⟨12, _⟩ => outMean (iblk1 a V c 1 t) (iblk1 a V c 2 t) (iblk1 a V c 3 t) (iblk1 a V c 4 t) (iblk1 a V c 5 t) (iblk1 a V c 6 t) (iblk1 a V c 7 t) (iblk1 a V c 8 t) (iblk1 a V c 9 t) (iblk1 a V c 10 t)
  Φ _ := iprop(Pipeline.ΦA spec1 c ∗ Pipeline.prefHeld pre1 c (fun _ => fullShare) a.1)
  q := qIn
  owed _ := 0

end Region1

end Cert.KernelIdeal.Hand

end
-- ==== Proof.G1B.lean ====
import proofs.«412514_j386547056896_2_alg».proof.Proof.G1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

theorem after1 (c : Dev nD) (t : Fin (cfg1 a).N) (w : Fin 13) (hw : w.val < 11) :
    (dat1 a V c).after w t = iblk1 a V c w t := by
  fin_cases w <;> first | exact absurd hw (by decide) | rfl

section
attribute [local irreducible] outSelf outMean iblk1
theorem after1_11 (c : Dev nD) (t : Fin (cfg1 a).N) : (dat1 a V c).after 11 t = outSelf (iblk1 a V c 0 t) := rfl
theorem after1_12 (c : Dev nD) (t : Fin (cfg1 a).N) : (dat1 a V c).after 12 t = outMean (iblk1 a V c 1 t) (iblk1 a V c 2 t) (iblk1 a V c 3 t) (iblk1 a V c 4 t) (iblk1 a V c 5 t) (iblk1 a V c 6 t) (iblk1 a V c 7 t) (iblk1 a V c 8 t) (iblk1 a V c 9 t) (iblk1 a V c 10 t) := rfl
end

theorem before1 (c : Dev nD) (t : Fin (cfg1 a).N) (w : Fin 13) (hw : w.val < 11) (d) :
    (dat1 a V c).before w t d = iblk1 a V c w t := by
  fin_cases w <;> first
    | exact absurd hw (by decide)
    | exact ((dat1 a V c).before_in_eq_fetched _ rfl (fun _ => rfl) (fun _ _ _ => rfl)
        (fun t => by rw [after1 a V c t _ hw]; unfold Dat.blockOf iblk1; rfl) t d).trans
        (by unfold Dat.fetched Dat.blockOf iblk1; rfl)

theorem cc0_eq_r1 : cc1_gather_kernel (F := F) = gatherK := rfl

theorem body_obligation1 (c : Dev nD) : BodyObligation (dat1 (F := F) a V c) (defs₀ (F := F)) Variants.none () Set.univ := fun t => by
  rw [bigSep_W1, bigSep_W1]
  simp (disch := decide) only [before1 a V c t]
  rw [show (dat1 a V c).Φ t.succ = (dat1 a V c).Φ t.castSucc from rfl,
    show (dat1 a V c).owesAt () t.succ = (dat1 a V c).owesAt () t.castSucc from rfl]
  simp (disch := decide) only [after1 a V c t, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq_r1 (F := F)) c Set.univ _ _ _ _ _ _ _ _ _ _ _ _ _ _ _ _ _ _ _ _ _ _ _ _ _ _ _ _ _ _ _ (iblk1 a V c 0 t) (iblk1 a V c 1 t) (iblk1 a V c 2 t) (iblk1 a V c 3 t) (iblk1 a V c 4 t) (iblk1 a V c 5 t) (iblk1 a V c 6 t) (iblk1 a V c 7 t) (iblk1 a V c 8 t) (iblk1 a V c 9 t) (iblk1 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region1

end Cert.KernelIdeal.Hand

end
-- ==== Proof.G1E.lean ====
import proofs.«412514_j386547056896_2_alg».proof.Proof.G1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1
variable (a : (pcfg1 (F := F)).Adm)
variable (V : (c : Dev nD) → (b : Ref sig .tc) → Buf (Elt F) ((c : Thread nD τ).loc b))
theorem arrays1_eq (c : Dev nD) (G : (w : Fin (cfg1 a).W) → Buf (Elt F) (((cfg1 a).win w).arr.view.loc (c : Thread nD τ))) :
    (dat1 a V c).arrays G = bigSep Finset.univ fun w : Fin 13 => (((c : Thread nD τ).loc (Pipeline.arrRef spec1 w)) ↦{(dat1 a V c).share w} G w : sProp 𝕄) := by
  unfold Pipeline.Dat.arrays
  exact bigSep_congr fun w _ => by rw [(arr_whole1 w).set_eq_univ]
theorem image1 : Finset.univ.image (Pipeline.arrRef spec1) = {main_v0, main_v10_0, main_v10_1} := by decide
theorem arrBufs0_eq_r1 (c : Dev nD) (W : (b : Ref sig .tc) → Buf (Elt F) ((c : Thread nD τ).loc b)) :
    (Pipeline.arrBufs spec1 c W : sProp 𝕄) = iprop((((c : Thread nD τ).loc main_v0) ↦{fullShare} W main_v0)
      ∗ (((c : Thread nD τ).loc main_v10_0) ↦{fullShare} W main_v10_0) ∗ (((c : Thread nD τ).loc main_v10_1) ↦{fullShare} W main_v10_1)) := by
  unfold Pipeline.arrBufs
  rw [image1, bigSep_insert (by decide), bigSep_insert (by decide), bigSep_singleton]
  rfl
include a in
theorem unscoped0_eq_r1 (c : Dev nD) (W : (b : Ref sig .tc) → Buf (Elt F) ((c : Thread nD τ).loc b)) :
    (unscopedBufs c W : sProp 𝕄) = iprop(Pipeline.arrBufs spec1 c W
      ∗ Pipeline.prefHeld pre1 c (fun _ => fullShare) (fun k => W (pre1.ref k)) ∗ Pipeline.unscopedRestP pre1 spec1 c W) := by
  have hs : (unscopedBufs c W : sProp 𝕄) = iprop(Pipeline.arrBufs spec1 c W ∗ Pipeline.unscopedRest spec1 c W) :=
    Pipeline.PerCore.unscopedBufs_split₀ (fun _ (_ : Unit) => cfg1 a) () c winFacts₀1.arr_unscoped W
  rw [hs, Pipeline.unscopedRest_split preFacts1 c W]
theorem entry1 (c : Dev nD) (hpf : ∀ k, V c (pre1.ref k) = a.1 k) :
    (unscopedBufs c (V c) : sProp 𝕄) ⊢ iprop((dat1 a V c).arrays ((dat1 a V c).arrAt · 0) ∗ Pipeline.prefHeld pre1 c (fun _ => fullShare) a.1 ∗ Pipeline.unscopedRestP pre1 spec1 c (V c)) := by
  rw [unscoped0_eq_r1 a c (V c), show (fun k => V c (pre1.ref k)) = a.1 from funext hpf]
  refine BIClass.sep_mono ?_ .rfl
  rw [arrBufs0_eq_r1, arrays1_eq, bigSep_W1]
  refine (Entails.of_eq (pointsTo_halves Finset.univ (V c main_v0) _ 10 fullShare)).trans ?_
  exact .rfl
theorem exit1 (c : Dev nD) (hpf : ∀ k, V c (pre1.ref k) = a.1 k) (V' : (b : Ref sig .tc) → Buf (Elt F) ((c : Thread nD τ).loc b))
    (h11 : V' main_v10_0 = (dat1 a V c).arrAt 11 (cfg1 a).N) (h12 : V' main_v10_1 = (dat1 a V c).arrAt 12 (cfg1 a).N)
    (hrest : ∀ b, b ≠ main_v10_0 → b ≠ main_v10_1 → V' b = V c b) :
    iprop((dat1 a V c).arrays ((dat1 a V c).arrAt · (cfg1 a).N) ∗ Pipeline.prefHeld pre1 c (fun _ => fullShare) a.1 ∗ Pipeline.unscopedRestP pre1 spec1 c (V c)) ⊢ (unscopedBufs c V' : sProp 𝕄) := by
  have hpre : (fun k => V' (pre1.ref k)) = a.1 := funext fun k => by
    rw [hrest _ (preFacts1.disj k 11) (preFacts1.disj k 12)]; exact hpf k
  have hR : (Pipeline.unscopedRestP pre1 spec1 c V' : sProp 𝕄) = Pipeline.unscopedRestP pre1 spec1 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec1) (Finset.mem_univ (11 : Fin 13))))
      (fun e => hb' (by rw [e]; exact Finset.mem_image_of_mem (Pipeline.arrRef spec1) (Finset.mem_univ (12 : Fin 13))))]
  rw [unscoped0_eq_r1 a c V', hpre, hR]
  refine BIClass.sep_mono ?_ .rfl
  rw [arrBufs0_eq_r1, hrest main_v0 (by decide) (by decide), h11, h12]
  refine BIBase.Entails.trans (Entails.of_eq ((arrays1_eq a V c _).trans (bigSep_W1 _))) ?_
  simp (disch := exact rfl) only [(dat1 a V c).arrAt_in]
  refine BIBase.Entails.trans ?_ (Entails.of_eq (pointsTo_halves Finset.univ (V c main_v0) _ 10 fullShare).symm)
  exact .rfl
end Region1

end Cert.KernelIdeal.Hand

end
-- ==== Proof.G1R.lean ====
import proofs.«412514_j386547056896_2_alg».proof.Proof.G1B
import proofs.«412514_j386547056896_2_alg».proof.Proof.G1E
import proofs.«412514_j386547056896_2_alg».proof.Proof.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region1
variable (a : (pcfg1 (F := F)).Adm) (W W' : Dev nD → Valuation τ sig (Elt F))
abbrev X1 (c : Dev nD) : sProp 𝕄 := iprop(∃ r, prngReg c r)
abbrev Y1 (c : Dev nD) : sProp 𝕄 := iprop((∃ r, prngReg c r) ∗ Pipeline.prefHeld pre1 c (fun _ => fullShare) a.1)
abbrev Z1 (c : Dev nD) : sProp 𝕄 := Pipeline.unscopedRestP pre1 spec1 c (V_of W c)
theorem hentry1 (hpf : ∀ c k, V_of W c (pre1.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat1 a (V_of W) c).arrays ((dat1 a (V_of W) c).arrAt · 0) ∗ Pipeline.prefHeld pre1 c (fun _ => fullShare) a.1
          ∗ (dat1 a (V_of W) c).owesAt () 0 ∗ X1 c ∗ Z1 W c) := by
  have hsplit := entry1 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin1 (c : Dev nD) :
    iprop(X1 c ∗ Pipeline.prefHeld pre1 c (fun _ => fullShare) a.1 ∗ Pipeline.scopedRest (cfg1 a).spec c) ⊢ (dat1 a (V_of W) c).Φ 0 := by
  rw [show (dat1 a (V_of W) c).Φ 0 = iprop(Pipeline.ΦA spec1 c ∗ Pipeline.prefHeld pre1 c (fun _ => fullShare) a.1) from rfl]; unfold Pipeline.ΦA
  iintro ⟨Hp, Hpf, Hr⟩
  iframe
theorem hout1 (c : Dev nD) :
    (dat1 a (V_of W) c).Φ (Fin.last (cfg1 a).N) ⊢ iprop(Y1 a c ∗ Pipeline.ownSems0 noSem c ∗ Pipeline.scopedRest (cfg1 a).spec c) := by
  rw [Pipeline.ownSems0_none, show (dat1 a (V_of W) c).Φ (Fin.last (cfg1 a).N) = iprop(Pipeline.ΦA spec1 c ∗ Pipeline.prefHeld pre1 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit1 (hpf : ∀ c k, V_of W c (pre1.ref k) = a.1 k) (c : Dev nD)
    (h11 : V_of W' c main_v10_0 = (dat1 a (V_of W) c).arrAt 11 (cfg1 a).N) (h12 : V_of W' c main_v10_1 = (dat1 a (V_of W) c).arrAt 12 (cfg1 a).N)
    (hrest : ∀ b : Ref sig .tc, b ≠ main_v10_0 → b ≠ main_v10_1 → V_of W' c b = V_of W c b) :
    iprop((dat1 a (V_of W) c).arrays ((dat1 a (V_of W) c).arrAt · (cfg1 a).N) ∗ (dat1 a (V_of W) c).owesAt () (Fin.last (cfg1 a).N) ∗ Y1 a c ∗ Z1 W c)
      ⊢ |={Set.univ}=> iprop(StableHlo.held (c : Thread nD τ) (Pipeline.ucRefs τ sig) (W' c) ∗ R c) := by
  have hjoin := exit1 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region1

end Cert.KernelIdeal.Hand

end
-- ==== Proof.G2.lean ====
import proofs.«412514_j386547056896_2_alg».proof.Proof.GK

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2

variable (a : (pcfg2 (F := F)).Adm)
variable (V : (c : Dev nD) → (b : Ref sig .tc) → Buf (Elt F) ((c : Thread nD τ).loc b))

def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- At point `t` the self output is the node's feature row and the mean output is the sum of its ten neighbours' rows
    times the tenth; the inputs are unchanged. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => iblk2 a V c 1 t
    | ⟨2, _⟩ => iblk2 a V c 2 t
    | ⟨3, _⟩ => iblk2 a V c 3 t
    | ⟨4, _⟩ => iblk2 a V c 4 t
    | ⟨5, _⟩ => iblk2 a V c 5 t
    | ⟨6, _⟩ => iblk2 a V c 6 t
    | ⟨7, _⟩ => iblk2 a V c 7 t
    | ⟨8, _⟩ => iblk2 a V c 8 t
    | ⟨9, _⟩ => iblk2 a V c 9 t
    | ⟨10, _⟩ => iblk2 a V c 10 t
    | ⟨11, _⟩ => outSelf (iblk2 a V c 0 t)
    | ⟨12, _⟩ => outMean (iblk2 a V c 1 t) (iblk2 a V c 2 t) (iblk2 a V c 3 t) (iblk2 a V c 4 t) (iblk2 a V c 5 t) (iblk2 a V c 6 t) (iblk2 a V c 7 t) (iblk2 a V c 8 t) (iblk2 a V c 9 t) (iblk2 a V c 10 t)
  Φ _ := iprop(Pipeline.ΦA spec2 c ∗ Pipeline.prefHeld pre2 c (fun _ => fullShare) a.1)
  q := qIn
  owed _ := 0

end Region2

end Cert.KernelIdeal.Hand

end
-- ==== Proof.G2B.lean ====
import proofs.«412514_j386547056896_2_alg».proof.Proof.G2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2

variable (a : (pcfg2 (F := F)).Adm)
variable (V : (c : Dev nD) → (b : Ref sig .tc) → Buf (Elt F) ((c : Thread nD τ).loc b))

theorem after2 (c : Dev nD) (t : Fin (cfg2 a).N) (w : Fin 13) (hw : w.val < 11) :
    (dat2 a V c).after w t = iblk2 a V c w t := by
  fin_cases w <;> first | exact absurd hw (by decide) | rfl

section
attribute [local irreducible] outSelf outMean iblk2
theorem after2_11 (c : Dev nD) (t : Fin (cfg2 a).N) : (dat2 a V c).after 11 t = outSelf (iblk2 a V c 0 t) := rfl
theorem after2_12 (c : Dev nD) (t : Fin (cfg2 a).N) : (dat2 a V c).after 12 t = outMean (iblk2 a V c 1 t) (iblk2 a V c 2 t) (iblk2 a V c 3 t) (iblk2 a V c 4 t) (iblk2 a V c 5 t) (iblk2 a V c 6 t) (iblk2 a V c 7 t) (iblk2 a V c 8 t) (iblk2 a V c 9 t) (iblk2 a V c 10 t) := rfl
end

theorem before2 (c : Dev nD) (t : Fin (cfg2 a).N) (w : Fin 13) (hw : w.val < 11) (d) :
    (dat2 a V c).before w t d = iblk2 a V c w t := by
  fin_cases w <;> first
    | exact absurd hw (by decide)
    | exact ((dat2 a V c).before_in_eq_fetched _ rfl (fun _ => rfl) (fun _ _ _ => rfl)
        (fun t => by rw [after2 a V c t _ hw]; unfold Dat.blockOf iblk2; rfl) t d).trans
        (by unfold Dat.fetched Dat.blockOf iblk2; rfl)

theorem cc0_eq_r2 : cc2_gather_kernel (F := F) = gatherK := rfl

theorem body_obligation2 (c : Dev nD) : BodyObligation (dat2 (F := F) a V c) (defs₀ (F := F)) Variants.none () Set.univ := fun t => by
  rw [bigSep_W2, bigSep_W2]
  simp (disch := decide) only [before2 a V c t]
  rw [show (dat2 a V c).Φ t.succ = (dat2 a V c).Φ t.castSucc from rfl,
    show (dat2 a V c).owesAt () t.succ = (dat2 a V c).owesAt () t.castSucc from rfl]
  simp (disch := decide) only [after2 a V c t, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq_r2 (F := F)) c Set.univ _ _ _ _ _ _ _ _ _ _ _ _ _ _ _ _ _ _ _ _ _ _ _ _ _ _ _ _ _ _ _ (iblk2 a V c 0 t) (iblk2 a V c 1 t) (iblk2 a V c 2 t) (iblk2 a V c 3 t) (iblk2 a V c 4 t) (iblk2 a V c 5 t) (iblk2 a V c 6 t) (iblk2 a V c 7 t) (iblk2 a V c 8 t) (iblk2 a V c 9 t) (iblk2 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region2

end Cert.KernelIdeal.Hand

end
-- ==== Proof.G2E.lean ====
import proofs.«412514_j386547056896_2_alg».proof.Proof.G2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2
variable (a : (pcfg2 (F := F)).Adm)
variable (V : (c : Dev nD) → (b : Ref sig .tc) → Buf (Elt F) ((c : Thread nD τ).loc b))
theorem arrays2_eq (c : Dev nD) (G : (w : Fin (cfg2 a).W) → Buf (Elt F) (((cfg2 a).win w).arr.view.loc (c : Thread nD τ))) :
    (dat2 a V c).arrays G = bigSep Finset.univ fun w : Fin 13 => (((c : Thread nD τ).loc (Pipeline.arrRef spec2 w)) ↦{(dat2 a V c).share w} G w : sProp 𝕄) := by
  unfold Pipeline.Dat.arrays
  exact bigSep_congr fun w _ => by rw [(arr_whole2 w).set_eq_univ]
theorem image2 : Finset.univ.image (Pipeline.arrRef spec2) = {main_v0, main_v16_0, main_v16_1} := by decide
theorem arrBufs0_eq_r2 (c : Dev nD) (W : (b : Ref sig .tc) → Buf (Elt F) ((c : Thread nD τ).loc b)) :
    (Pipeline.arrBufs spec2 c W : sProp 𝕄) = iprop((((c : Thread nD τ).loc main_v0) ↦{fullShare} W main_v0)
      ∗ (((c : Thread nD τ).loc main_v16_0) ↦{fullShare} W main_v16_0) ∗ (((c : Thread nD τ).loc main_v16_1) ↦{fullShare} W main_v16_1)) := by
  unfold Pipeline.arrBufs
  rw [image2, bigSep_insert (by decide), bigSep_insert (by decide), bigSep_singleton]
  rfl
include a in
theorem unscoped0_eq_r2 (c : Dev nD) (W : (b : Ref sig .tc) → Buf (Elt F) ((c : Thread nD τ).loc b)) :
    (unscopedBufs c W : sProp 𝕄) = iprop(Pipeline.arrBufs spec2 c W
      ∗ Pipeline.prefHeld pre2 c (fun _ => fullShare) (fun k => W (pre2.ref k)) ∗ Pipeline.unscopedRestP pre2 spec2 c W) := by
  have hs : (unscopedBufs c W : sProp 𝕄) = iprop(Pipeline.arrBufs spec2 c W ∗ Pipeline.unscopedRest spec2 c W) :=
    Pipeline.PerCore.unscopedBufs_split₀ (fun _ (_ : Unit) => cfg2 a) () c winFacts₀2.arr_unscoped W
  rw [hs, Pipeline.unscopedRest_split preFacts2 c W]
theorem entry2 (c : Dev nD) (hpf : ∀ k, V c (pre2.ref k) = a.1 k) :
    (unscopedBufs c (V c) : sProp 𝕄) ⊢ iprop((dat2 a V c).arrays ((dat2 a V c).arrAt · 0) ∗ Pipeline.prefHeld pre2 c (fun _ => fullShare) a.1 ∗ Pipeline.unscopedRestP pre2 spec2 c (V c)) := by
  rw [unscoped0_eq_r2 a c (V c), show (fun k => V c (pre2.ref k)) = a.1 from funext hpf]
  refine BIClass.sep_mono ?_ .rfl
  rw [arrBufs0_eq_r2, arrays2_eq, bigSep_W2]
  refine (Entails.of_eq (pointsTo_halves Finset.univ (V c main_v0) _ 10 fullShare)).trans ?_
  exact .rfl
theorem exit2 (c : Dev nD) (hpf : ∀ k, V c (pre2.ref k) = a.1 k) (V' : (b : Ref sig .tc) → Buf (Elt F) ((c : Thread nD τ).loc b))
    (h11 : V' main_v16_0 = (dat2 a V c).arrAt 11 (cfg2 a).N) (h12 : V' main_v16_1 = (dat2 a V c).arrAt 12 (cfg2 a).N)
    (hrest : ∀ b, b ≠ main_v16_0 → b ≠ main_v16_1 → V' b = V c b) :
    iprop((dat2 a V c).arrays ((dat2 a V c).arrAt · (cfg2 a).N) ∗ Pipeline.prefHeld pre2 c (fun _ => fullShare) a.1 ∗ Pipeline.unscopedRestP pre2 spec2 c (V c)) ⊢ (unscopedBufs c V' : sProp 𝕄) := by
  have hpre : (fun k => V' (pre2.ref k)) = a.1 := funext fun k => by
    rw [hrest _ (preFacts2.disj k 11) (preFacts2.disj k 12)]; exact hpf k
  have hR : (Pipeline.unscopedRestP pre2 spec2 c V' : sProp 𝕄) = Pipeline.unscopedRestP pre2 spec2 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec2) (Finset.mem_univ (11 : Fin 13))))
      (fun e => hb' (by rw [e]; exact Finset.mem_image_of_mem (Pipeline.arrRef spec2) (Finset.mem_univ (12 : Fin 13))))]
  rw [unscoped0_eq_r2 a c V', hpre, hR]
  refine BIClass.sep_mono ?_ .rfl
  rw [arrBufs0_eq_r2, hrest main_v0 (by decide) (by decide), h11, h12]
  refine BIBase.Entails.trans (Entails.of_eq ((arrays2_eq a V c _).trans (bigSep_W2 _))) ?_
  simp (disch := exact rfl) only [(dat2 a V c).arrAt_in]
  refine BIBase.Entails.trans ?_ (Entails.of_eq (pointsTo_halves Finset.univ (V c main_v0) _ 10 fullShare).symm)
  exact .rfl
end Region2

end Cert.KernelIdeal.Hand

end
-- ==== Proof.G2R.lean ====
import proofs.«412514_j386547056896_2_alg».proof.Proof.G2B
import proofs.«412514_j386547056896_2_alg».proof.Proof.G2E
import proofs.«412514_j386547056896_2_alg».proof.Proof.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region2
variable (a : (pcfg2 (F := F)).Adm) (W W' : Dev nD → Valuation τ sig (Elt F))
abbrev X2 (c : Dev nD) : sProp 𝕄 := iprop(∃ r, prngReg c r)
abbrev Y2 (c : Dev nD) : sProp 𝕄 := iprop((∃ r, prngReg c r) ∗ Pipeline.prefHeld pre2 c (fun _ => fullShare) a.1)
abbrev Z2 (c : Dev nD) : sProp 𝕄 := Pipeline.unscopedRestP pre2 spec2 c (V_of W c)
theorem hentry2 (hpf : ∀ c k, V_of W c (pre2.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat2 a (V_of W) c).arrays ((dat2 a (V_of W) c).arrAt · 0) ∗ Pipeline.prefHeld pre2 c (fun _ => fullShare) a.1
          ∗ (dat2 a (V_of W) c).owesAt () 0 ∗ X2 c ∗ Z2 W c) := by
  have hsplit := entry2 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin2 (c : Dev nD) :
    iprop(X2 c ∗ Pipeline.prefHeld pre2 c (fun _ => fullShare) a.1 ∗ Pipeline.scopedRest (cfg2 a).spec c) ⊢ (dat2 a (V_of W) c).Φ 0 := by
  rw [show (dat2 a (V_of W) c).Φ 0 = iprop(Pipeline.ΦA spec2 c ∗ Pipeline.prefHeld pre2 c (fun _ => fullShare) a.1) from rfl]; unfold Pipeline.ΦA
  iintro ⟨Hp, Hpf, Hr⟩
  iframe
theorem hout2 (c : Dev nD) :
    (dat2 a (V_of W) c).Φ (Fin.last (cfg2 a).N) ⊢ iprop(Y2 a c ∗ Pipeline.ownSems0 noSem c ∗ Pipeline.scopedRest (cfg2 a).spec c) := by
  rw [Pipeline.ownSems0_none, show (dat2 a (V_of W) c).Φ (Fin.last (cfg2 a).N) = iprop(Pipeline.ΦA spec2 c ∗ Pipeline.prefHeld pre2 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit2 (hpf : ∀ c k, V_of W c (pre2.ref k) = a.1 k) (c : Dev nD)
    (h11 : V_of W' c main_v16_0 = (dat2 a (V_of W) c).arrAt 11 (cfg2 a).N) (h12 : V_of W' c main_v16_1 = (dat2 a (V_of W) c).arrAt 12 (cfg2 a).N)
    (hrest : ∀ b : Ref sig .tc, b ≠ main_v16_0 → b ≠ main_v16_1 → V_of W' c b = V_of W c b) :
    iprop((dat2 a (V_of W) c).arrays ((dat2 a (V_of W) c).arrAt · (cfg2 a).N) ∗ (dat2 a (V_of W) c).owesAt () (Fin.last (cfg2 a).N) ∗ Y2 a c ∗ Z2 W c)
      ⊢ |={Set.univ}=> iprop(StableHlo.held (c : Thread nD τ) (Pipeline.ucRefs τ sig) (W' c) ∗ R c) := by
  have hjoin := exit2 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region2

end Cert.KernelIdeal.Hand

end
-- ==== Proof.G3.lean ====
import proofs.«412514_j386547056896_2_alg».proof.Proof.GK

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region3

variable (a : (pcfg3 (F := F)).Adm)
variable (V : (c : Dev nD) → (b : Ref sig .tc) → Buf (Elt F) ((c : Thread nD τ).loc b))

def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- At point `t` the self output is the node's feature row and the mean output is the sum of its ten neighbours' rows
    times the tenth; the inputs are unchanged. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => iblk3 a V c 3 t
    | ⟨4, _⟩ => iblk3 a V c 4 t
    | ⟨5, _⟩ => iblk3 a V c 5 t
    | ⟨6, _⟩ => iblk3 a V c 6 t
    | ⟨7, _⟩ => iblk3 a V c 7 t
    | ⟨8, _⟩ => iblk3 a V c 8 t
    | ⟨9, _⟩ => iblk3 a V c 9 t
    | ⟨10, _⟩ => iblk3 a V c 10 t
    | ⟨11, _⟩ => outSelf (iblk3 a V c 0 t)
    | ⟨12, _⟩ => outMean (iblk3 a V c 1 t) (iblk3 a V c 2 t) (iblk3 a V c 3 t) (iblk3 a V c 4 t) (iblk3 a V c 5 t) (iblk3 a V c 6 t) (iblk3 a V c 7 t) (iblk3 a V c 8 t) (iblk3 a V c 9 t) (iblk3 a V c 10 t)
  Φ _ := iprop(Pipeline.ΦA spec3 c ∗ Pipeline.prefHeld pre3 c (fun _ => fullShare) a.1)
  q := qIn
  owed _ := 0

end Region3

end Cert.KernelIdeal.Hand

end
-- ==== Proof.G3B.lean ====
import proofs.«412514_j386547056896_2_alg».proof.Proof.G3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region3

variable (a : (pcfg3 (F := F)).Adm)
variable (V : (c : Dev nD) → (b : Ref sig .tc) → Buf (Elt F) ((c : Thread nD τ).loc b))

theorem after3 (c : Dev nD) (t : Fin (cfg3 a).N) (w : Fin 13) (hw : w.val < 11) :
    (dat3 a V c).after w t = iblk3 a V c w t := by
  fin_cases w <;> first | exact absurd hw (by decide) | rfl

section
attribute [local irreducible] outSelf outMean iblk3
theorem after3_11 (c : Dev nD) (t : Fin (cfg3 a).N) : (dat3 a V c).after 11 t = outSelf (iblk3 a V c 0 t) := rfl
theorem after3_12 (c : Dev nD) (t : Fin (cfg3 a).N) : (dat3 a V c).after 12 t = outMean (iblk3 a V c 1 t) (iblk3 a V c 2 t) (iblk3 a V c 3 t) (iblk3 a V c 4 t) (iblk3 a V c 5 t) (iblk3 a V c 6 t) (iblk3 a V c 7 t) (iblk3 a V c 8 t) (iblk3 a V c 9 t) (iblk3 a V c 10 t) := rfl
end

theorem before3 (c : Dev nD) (t : Fin (cfg3 a).N) (w : Fin 13) (hw : w.val < 11) (d) :
    (dat3 a V c).before w t d = iblk3 a V c w t := by
  fin_cases w <;> first
    | exact absurd hw (by decide)
    | exact ((dat3 a V c).before_in_eq_fetched _ rfl (fun _ => rfl) (fun _ _ _ => rfl)
        (fun t => by rw [after3 a V c t _ hw]; unfold Dat.blockOf iblk3; rfl) t d).trans
        (by unfold Dat.fetched Dat.blockOf iblk3; rfl)

theorem cc0_eq_r3 : cc3_gather_kernel (F := F) = gatherK := rfl

theorem body_obligation3 (c : Dev nD) : BodyObligation (dat3 (F := F) a V c) (defs₀ (F := F)) Variants.none () Set.univ := fun t => by
  rw [bigSep_W3, bigSep_W3]
  simp (disch := decide) only [before3 a V c t]
  rw [show (dat3 a V c).Φ t.succ = (dat3 a V c).Φ t.castSucc from rfl,
    show (dat3 a V c).owesAt () t.succ = (dat3 a V c).owesAt () t.castSucc from rfl]
  simp (disch := decide) only [after3 a V c t, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq_r3 (F := F)) c Set.univ _ _ _ _ _ _ _ _ _ _ _ _ _ _ _ _ _ _ _ _ _ _ _ _ _ _ _ _ _ _ _ (iblk3 a V c 0 t) (iblk3 a V c 1 t) (iblk3 a V c 2 t) (iblk3 a V c 3 t) (iblk3 a V c 4 t) (iblk3 a V c 5 t) (iblk3 a V c 6 t) (iblk3 a V c 7 t) (iblk3 a V c 8 t) (iblk3 a V c 9 t) (iblk3 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region3

end Cert.KernelIdeal.Hand

end
-- ==== Proof.G3E.lean ====
import proofs.«412514_j386547056896_2_alg».proof.Proof.G3

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region3
variable (a : (pcfg3 (F := F)).Adm)
variable (V : (c : Dev nD) → (b : Ref sig .tc) → Buf (Elt F) ((c : Thread nD τ).loc b))
theorem arrays3_eq (c : Dev nD) (G : (w : Fin (cfg3 a).W) → Buf (Elt F) (((cfg3 a).win w).arr.view.loc (c : Thread nD τ))) :
    (dat3 a V c).arrays G = bigSep Finset.univ fun w : Fin 13 => (((c : Thread nD τ).loc (Pipeline.arrRef spec3 w)) ↦{(dat3 a V c).share w} G w : sProp 𝕄) := by
  unfold Pipeline.Dat.arrays
  exact bigSep_congr fun w _ => by rw [(arr_whole3 w).set_eq_univ]
theorem image3 : Finset.univ.image (Pipeline.arrRef spec3) = {main_v0, main_v22_0, main_v22_1} := by decide
theorem arrBufs0_eq_r3 (c : Dev nD) (W : (b : Ref sig .tc) → Buf (Elt F) ((c : Thread nD τ).loc b)) :
    (Pipeline.arrBufs spec3 c W : sProp 𝕄) = iprop((((c : Thread nD τ).loc main_v0) ↦{fullShare} W main_v0)
      ∗ (((c : Thread nD τ).loc main_v22_0) ↦{fullShare} W main_v22_0) ∗ (((c : Thread nD τ).loc main_v22_1) ↦{fullShare} W main_v22_1)) := by
  unfold Pipeline.arrBufs
  rw [image3, bigSep_insert (by decide), bigSep_insert (by decide), bigSep_singleton]
  rfl
include a in
theorem unscoped0_eq_r3 (c : Dev nD) (W : (b : Ref sig .tc) → Buf (Elt F) ((c : Thread nD τ).loc b)) :
    (unscopedBufs c W : sProp 𝕄) = iprop(Pipeline.arrBufs spec3 c W
      ∗ Pipeline.prefHeld pre3 c (fun _ => fullShare) (fun k => W (pre3.ref k)) ∗ Pipeline.unscopedRestP pre3 spec3 c W) := by
  have hs : (unscopedBufs c W : sProp 𝕄) = iprop(Pipeline.arrBufs spec3 c W ∗ Pipeline.unscopedRest spec3 c W) :=
    Pipeline.PerCore.unscopedBufs_split₀ (fun _ (_ : Unit) => cfg3 a) () c winFacts₀3.arr_unscoped W
  rw [hs, Pipeline.unscopedRest_split preFacts3 c W]
theorem entry3 (c : Dev nD) (hpf : ∀ k, V c (pre3.ref k) = a.1 k) :
    (unscopedBufs c (V c) : sProp 𝕄) ⊢ iprop((dat3 a V c).arrays ((dat3 a V c).arrAt · 0) ∗ Pipeline.prefHeld pre3 c (fun _ => fullShare) a.1 ∗ Pipeline.unscopedRestP pre3 spec3 c (V c)) := by
  rw [unscoped0_eq_r3 a c (V c), show (fun k => V c (pre3.ref k)) = a.1 from funext hpf]
  refine BIClass.sep_mono ?_ .rfl
  rw [arrBufs0_eq_r3, arrays3_eq, bigSep_W3]
  refine (Entails.of_eq (pointsTo_halves Finset.univ (V c main_v0) _ 10 fullShare)).trans ?_
  exact .rfl
theorem exit3 (c : Dev nD) (hpf : ∀ k, V c (pre3.ref k) = a.1 k) (V' : (b : Ref sig .tc) → Buf (Elt F) ((c : Thread nD τ).loc b))
    (h11 : V' main_v22_0 = (dat3 a V c).arrAt 11 (cfg3 a).N) (h12 : V' main_v22_1 = (dat3 a V c).arrAt 12 (cfg3 a).N)
    (hrest : ∀ b, b ≠ main_v22_0 → b ≠ main_v22_1 → V' b = V c b) :
    iprop((dat3 a V c).arrays ((dat3 a V c).arrAt · (cfg3 a).N) ∗ Pipeline.prefHeld pre3 c (fun _ => fullShare) a.1 ∗ Pipeline.unscopedRestP pre3 spec3 c (V c)) ⊢ (unscopedBufs c V' : sProp 𝕄) := by
  have hpre : (fun k => V' (pre3.ref k)) = a.1 := funext fun k => by
    rw [hrest _ (preFacts3.disj k 11) (preFacts3.disj k 12)]; exact hpf k
  have hR : (Pipeline.unscopedRestP pre3 spec3 c V' : sProp 𝕄) = Pipeline.unscopedRestP pre3 spec3 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec3) (Finset.mem_univ (11 : Fin 13))))
      (fun e => hb' (by rw [e]; exact Finset.mem_image_of_mem (Pipeline.arrRef spec3) (Finset.mem_univ (12 : Fin 13))))]
  rw [unscoped0_eq_r3 a c V', hpre, hR]
  refine BIClass.sep_mono ?_ .rfl
  rw [arrBufs0_eq_r3, hrest main_v0 (by decide) (by decide), h11, h12]
  refine BIBase.Entails.trans (Entails.of_eq ((arrays3_eq a V c _).trans (bigSep_W3 _))) ?_
  simp (disch := exact rfl) only [(dat3 a V c).arrAt_in]
  refine BIBase.Entails.trans ?_ (Entails.of_eq (pointsTo_halves Finset.univ (V c main_v0) _ 10 fullShare).symm)
  exact .rfl
end Region3

end Cert.KernelIdeal.Hand

end
-- ==== Proof.G3R.lean ====
import proofs.«412514_j386547056896_2_alg».proof.Proof.G3B
import proofs.«412514_j386547056896_2_alg».proof.Proof.G3E
import proofs.«412514_j386547056896_2_alg».proof.Proof.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Region3
variable (a : (pcfg3 (F := F)).Adm) (W W' : Dev nD → Valuation τ sig (Elt F))
abbrev X3 (c : Dev nD) : sProp 𝕄 := iprop(∃ r, prngReg c r)
abbrev Y3 (c : Dev nD) : sProp 𝕄 := iprop((∃ r, prngReg c r) ∗ Pipeline.prefHeld pre3 c (fun _ => fullShare) a.1)
abbrev Z3 (c : Dev nD) : sProp 𝕄 := Pipeline.unscopedRestP pre3 spec3 c (V_of W c)
theorem hentry3 (hpf : ∀ c k, V_of W c (pre3.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat3 a (V_of W) c).arrays ((dat3 a (V_of W) c).arrAt · 0) ∗ Pipeline.prefHeld pre3 c (fun _ => fullShare) a.1
          ∗ (dat3 a (V_of W) c).owesAt () 0 ∗ X3 c ∗ Z3 W c) := by
  have hsplit := entry3 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin3 (c : Dev nD) :
    iprop(X3 c ∗ Pipeline.prefHeld pre3 c (fun _ => fullShare) a.1 ∗ Pipeline.scopedRest (cfg3 a).spec c) ⊢ (dat3 a (V_of W) c).Φ 0 := by
  rw [show (dat3 a (V_of W) c).Φ 0 = iprop(Pipeline.ΦA spec3 c ∗ Pipeline.prefHeld pre3 c (fun _ => fullShare) a.1) from rfl]; unfold Pipeline.ΦA
  iintro ⟨Hp, Hpf, Hr⟩
  iframe
theorem hout3 (c : Dev nD) :
    (dat3 a (V_of W) c).Φ (Fin.last (cfg3 a).N) ⊢ iprop(Y3 a c ∗ Pipeline.ownSems0 noSem c ∗ Pipeline.scopedRest (cfg3 a).spec c) := by
  rw [Pipeline.ownSems0_none, show (dat3 a (V_of W) c).Φ (Fin.last (cfg3 a).N) = iprop(Pipeline.ΦA spec3 c ∗ Pipeline.prefHeld pre3 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit3 (hpf : ∀ c k, V_of W c (pre3.ref k) = a.1 k) (c : Dev nD)
    (h11 : V_of W' c main_v22_0 = (dat3 a (V_of W) c).arrAt 11 (cfg3 a).N) (h12 : V_of W' c main_v22_1 = (dat3 a (V_of W) c).arrAt 12 (cfg3 a).N)
    (hrest : ∀ b : Ref sig .tc, b ≠ main_v22_0 → b ≠ main_v22_1 → V_of W' c b = V_of W c b) :
    iprop((dat3 a (V_of W) c).arrays ((dat3 a (V_of W) c).arrAt · (cfg3 a).N) ∗ (dat3 a (V_of W) c).owesAt () (Fin.last (cfg3 a).N) ∗ Y3 a c ∗ Z3 W c)
      ⊢ |={Set.univ}=> iprop(StableHlo.held (c : Thread nD τ) (Pipeline.ucRefs τ sig) (W' c) ∗ R c) := by
  have hjoin := exit3 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region3

end Cert.KernelIdeal.Hand

end
-- ==== Proof.M4.lean ====
import proofs.«412514_j386547056896_2_alg».proof.Proof.Gen.KernelIdeal.Launch
import proofs.«412514_j386547056896_2_alg».proof.Proof.Gen.KernelIdeal.Skeleton
import proofs.«412514_j386547056896_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (UR sig nD τ) ℕ
section Region4
variable (V : (c : Dev nD) → (b : Ref sig .tc) → Buf (Elt F) ((c : Thread nD τ).loc b))
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))
abbrev rw4a : Rect S256x512 := Rect.unit (s := S256x512) ![0, 0] S256x512.size inb_S256x512_S256x512_0_0
abbrev rw4b : Rect S2048x512 := Rect.unit (s := S2048x512) ![0, 0] S2048x512.size inb_S2048x512_S2048x512_0_0
abbrev rw4c : Rect S256x2048 := Rect.unit (s := S256x2048) ![0, 0] S256x2048.size inb_S256x2048_S256x2048_0_0
def out4_2 (x0 : Vec F S256x512 .f32) (x1 : Vec F S2048x512 .f32) : Vec F S256x2048 .f32 :=
  View.canon [⟨rw4c, k4_pay1 (View.ld x0 rw4a) (View.ld x1 rw4b)⟩]
theorem cover4_2 (p0 : Vec F S256x2048 .f32) (y : S256x2048.Idx) :
    ∃ pc ∈ ([⟨rw4c, p0⟩] : List (View.Piece (Elt F) S256x2048 .f32)), y ∈ pc.1.set :=
  View.cover_of_tiled [⟨rw4c, p0⟩] S256x2048.size (by rfl) y
set_option maxHeartbeats 2000000 in
theorem sound_kernel4 (c : Dev nD) (E : Set ℕ) (i : grid4.Coords)
    (arg1 : Memref sig .tc .vmem S256x512 .f32) (harg1 : arg1.IsWhole)
    (arg2 : Memref sig .tc .vmem S2048x512 .f32) (harg2 : arg2.IsWhole)
    (arg3 : Memref sig .tc .vmem S256x2048 .f32) (harg3 : arg3.IsWhole)
    (x0 : Vec F S256x512 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_matmul_relu_kernel i arg1 harg1 arg2 harg2 arg3 harg3) K := by
  simp only [cc4_matmul_relu_kernel_eq_skeleton]; unfold cc4_matmul_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0
theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem body_obligation4 (c : Dev nD) :
    BodyObligation (dat4 (F := F) V c) (defs₀ (F := F)) Variants.none () Set.univ := fun t => by
  rw [bigSep_W4, bigSep_W4]
  show _ ⊢ wp frame _ Set.univ (bodyAt4 t) _
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe
end Region4
end Cert.KernelIdeal.Hand
end
-- ==== Proof.Fold.lean ====
import proofs.«412514_j386547056896_2_alg».proof.Proof.G0B
import proofs.«412514_j386547056896_2_alg».proof.Proof.G1B
import proofs.«412514_j386547056896_2_alg».proof.Proof.G2B
import proofs.«412514_j386547056896_2_alg».proof.Proof.G3B
import proofs.«412514_j386547056896_2_alg».proof.Proof.M4
import proofs.«412514_j386547056896_2_alg».proof.Proof.Gen.KernelIdeal.Regions
import Idealize.ShloMosaic.Lib.StableHlo.Run
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (UR sig nD τ) ℕ
open Idealize.ShloMosaic.StableHlo (after_of_writes_sub devRef_ne_of_ne)
theorem upd2_ne {α : Type} [DecidableEq α] {β : α → Type} (f : ∀ x, β x) {x y r : α} (vx : β x) (vy : β y) (hx : r ≠ x) (hy : r ≠ y) :
    Function.update (Function.update f x vx) y vy r = f r := by
  rw [Function.update_of_ne hy, Function.update_of_ne hx]
theorem upd2_fst {α : Type} [DecidableEq α] {β : α → Type} (f : ∀ x, β x) {x y : α} (vx : β x) (vy : β y) (hxy : x ≠ y) :
    Function.update (Function.update f x vx) y vy x = vx := by
  rw [Function.update_of_ne hxy, Function.update_self]
theorem upd2_snd {α : Type} [DecidableEq α] {β : α → Type} (f : ∀ x, β x) {x y : α} (vx : β x) (vy : β y) :
    Function.update (Function.update f x vx) y vy y = vy := Function.update_self ..
variable (m : (ℓ : Loc nD τ sig) → Buf (Elt F) ℓ)
abbrev W0 (c : Dev nD) : Valuation τ sig (Elt F) := fun b => m (c, b)
def tab0 (c : Dev nD) : pre0.Contents (Elt F) := fun k => StableHlo.after hostOps0 (W0 m c) (Proc.devRef .tc (pre0.ref k))
def tab1 (c : Dev nD) : pre1.Contents (Elt F) := fun k => StableHlo.after hostOps1 (W0 m c) (Proc.devRef .tc (pre1.ref k))
def tab2 (c : Dev nD) : pre2.Contents (Elt F) := fun k => StableHlo.after hostOps2 (W0 m c) (Proc.devRef .tc (pre2.ref k))
def tab3 (c : Dev nD) : pre3.Contents (Elt F) := fun k => StableHlo.after hostOps3 (W0 m c) (Proc.devRef .tc (pre3.ref k))
structure TabsOk : Prop where
  ok0 : ok0 (tab0 m 0)
  ok1 : ok1 (tab1 m 0)
  ok2 : ok2 (tab2 m 0)
  ok3 : ok3 (tab3 m 0)
variable (h : TabsOk m)
def a0 : (pcfg0 (F := F)).Adm := ⟨tab0 m 0, h.ok0⟩
def a1 : (pcfg1 (F := F)).Adm := ⟨tab1 m 0, h.ok1⟩
def a2 : (pcfg2 (F := F)).Adm := ⟨tab2 m 0, h.ok2⟩
def a3 : (pcfg3 (F := F)).Adm := ⟨tab3 m 0, h.ok3⟩
abbrev W1 (c : Dev nD) : Valuation τ sig (Elt F) := StableHlo.after hostOps0 (W0 m c)
abbrev V1 (c : Dev nD) (b : Ref sig .tc) : Buf (Elt F) ((c : Thread nD τ).loc b) := W1 m c b
def W2 (c : Dev nD) : Valuation τ sig (Elt F) :=
  Function.update (Function.update (W1 m c) main_v4_0 ((dat0 (a0 m h) (V1 m) c).arrAt 11 (cfg0 (a0 m h)).N))
    main_v4_1 ((dat0 (a0 m h) (V1 m) c).arrAt 12 (cfg0 (a0 m h)).N)
abbrev V2 (c : Dev nD) (b : Ref sig .tc) : Buf (Elt F) ((c : Thread nD τ).loc b) := W2 m h c b
abbrev W3 (c : Dev nD) : Valuation τ sig (Elt F) := StableHlo.after hostOps1 (W2 m h c)
abbrev V3 (c : Dev nD) (b : Ref sig .tc) : Buf (Elt F) ((c : Thread nD τ).loc b) := W3 m h c b
def W4 (c : Dev nD) : Valuation τ sig (Elt F) :=
  Function.update (Function.update (W3 m h c) main_v10_0 ((dat1 (a1 m h) (V3 m h) c).arrAt 11 (cfg1 (a1 m h)).N))
    main_v10_1 ((dat1 (a1 m h) (V3 m h) c).arrAt 12 (cfg1 (a1 m h)).N)
abbrev V4 (c : Dev nD) (b : Ref sig .tc) : Buf (Elt F) ((c : Thread nD τ).loc b) := W4 m h c b
abbrev W5 (c : Dev nD) : Valuation τ sig (Elt F) := StableHlo.after hostOps2 (W4 m h c)
abbrev V5 (c : Dev nD) (b : Ref sig .tc) : Buf (Elt F) ((c : Thread nD τ).loc b) := W5 m h c b
def W6 (c : Dev nD) : Valuation τ sig (Elt F) :=
  Function.update (Function.update (W5 m h c) main_v16_0 ((dat2 (a2 m h) (V5 m h) c).arrAt 11 (cfg2 (a2 m h)).N))
    main_v16_1 ((dat2 (a2 m h) (V5 m h) c).arrAt 12 (cfg2 (a2 m h)).N)
abbrev V6 (c : Dev nD) (b : Ref sig .tc) : Buf (Elt F) ((c : Thread nD τ).loc b) := W6 m h c b
abbrev W7 (c : Dev nD) : Valuation τ sig (Elt F) := StableHlo.after hostOps3 (W6 m h c)
abbrev V7 (c : Dev nD) (b : Ref sig .tc) : Buf (Elt F) ((c : Thread nD τ).loc b) := W7 m h c b
def W8 (c : Dev nD) : Valuation τ sig (Elt F) :=
  Function.update (Function.update (W7 m h c) main_v22_0 ((dat3 (a3 m h) (V7 m h) c).arrAt 11 (cfg3 (a3 m h)).N))
    main_v22_1 ((dat3 (a3 m h) (V7 m h) c).arrAt 12 (cfg3 (a3 m h)).N)
abbrev V8 (c : Dev nD) (b : Ref sig .tc) : Buf (Elt F) ((c : Thread nD τ).loc b) := W8 m h c b
abbrev W9 (c : Dev nD) : Valuation τ sig (Elt F) := StableHlo.after hostOps4 (W8 m h c)
abbrev W10 (c : Dev nD) : Valuation τ sig (Elt F) := StableHlo.after hostOps4_1 (W9 m h c)
abbrev V10 (c : Dev nD) (b : Ref sig .tc) : Buf (Elt F) ((c : Thread nD τ).loc b) := W10 m h c b
def W11 (c : Dev nD) : Valuation τ sig (Elt F) :=
  Function.update (W10 m h c) main_v29 ((dat4 (V10 m h) c).arrAt 2 cfg4.N)
abbrev V11 (c : Dev nD) (b : Ref sig .tc) : Buf (Elt F) ((c : Thread nD τ).loc b) := W11 m h c b
abbrev W12 (c : Dev nD) : Valuation τ sig (Elt F) := StableHlo.after hostOps5 (W11 m h c)
theorem W2_of (c : Dev nD) (r : Ref sig .tc) (hr : r ∉ ([main_v4_0, main_v4_1] : List (Ref sig .tc))) : W2 m h c r = W1 m c r := by
  unfold W2
  exact upd2_ne _ _ _ (devRef_ne_of_ne (List.ne_of_not_mem_cons hr)) (devRef_ne_of_ne (List.ne_of_not_mem_cons (List.not_mem_of_not_mem_cons hr)))
theorem W4_of (c : Dev nD) (r : Ref sig .tc) (hr : r ∉ ([main_v10_0, main_v10_1] : List (Ref sig .tc))) : W4 m h c r = W3 m h c r := by
  unfold W4
  exact upd2_ne _ _ _ (devRef_ne_of_ne (List.ne_of_not_mem_cons hr)) (devRef_ne_of_ne (List.ne_of_not_mem_cons (List.not_mem_of_not_mem_cons hr)))
theorem W6_of (c : Dev nD) (r : Ref sig .tc) (hr : r ∉ ([main_v16_0, main_v16_1] : List (Ref sig .tc))) : W6 m h c r = W5 m h c r := by
  unfold W6
  exact upd2_ne _ _ _ (devRef_ne_of_ne (List.ne_of_not_mem_cons hr)) (devRef_ne_of_ne (List.ne_of_not_mem_cons (List.not_mem_of_not_mem_cons hr)))
theorem W8_of (c : Dev nD) (r : Ref sig .tc) (hr : r ∉ ([main_v22_0, main_v22_1] : List (Ref sig .tc))) : W8 m h c r = W7 m h c r := by
  unfold W8
  exact upd2_ne _ _ _ (devRef_ne_of_ne (List.ne_of_not_mem_cons hr)) (devRef_ne_of_ne (List.ne_of_not_mem_cons (List.not_mem_of_not_mem_cons hr)))
theorem W11_of (c : Dev nD) (r : Ref sig .tc) (hr : r ∉ ([main_v29] : List (Ref sig .tc))) : W11 m h c r = W10 m h c r := by
  unfold W11
  exact Function.update_of_ne (devRef_ne_of_ne (List.ne_of_not_mem_cons hr)) _ _
theorem W2_out0 (c : Dev nD) : W2 m h c main_v4_0 = (dat0 (a0 m h) (V1 m) c).arrAt 11 (cfg0 (a0 m h)).N := by
  unfold W2
  exact upd2_fst _ _ _ (devRef_ne_of_ne (by decide : main_v4_0 ≠ main_v4_1))
theorem W2_out1 (c : Dev nD) : W2 m h c main_v4_1 = (dat0 (a0 m h) (V1 m) c).arrAt 12 (cfg0 (a0 m h)).N := by
  unfold W2
  exact upd2_snd _ _ _
theorem W4_out0 (c : Dev nD) : W4 m h c main_v10_0 = (dat1 (a1 m h) (V3 m h) c).arrAt 11 (cfg1 (a1 m h)).N := by
  unfold W4
  exact upd2_fst _ _ _ (devRef_ne_of_ne (by decide : main_v10_0 ≠ main_v10_1))
theorem W4_out1 (c : Dev nD) : W4 m h c main_v10_1 = (dat1 (a1 m h) (V3 m h) c).arrAt 12 (cfg1 (a1 m h)).N := by
  unfold W4
  exact upd2_snd _ _ _
theorem W6_out0 (c : Dev nD) : W6 m h c main_v16_0 = (dat2 (a2 m h) (V5 m h) c).arrAt 11 (cfg2 (a2 m h)).N := by
  unfold W6
  exact upd2_fst _ _ _ (devRef_ne_of_ne (by decide : main_v16_0 ≠ main_v16_1))
theorem W6_out1 (c : Dev nD) : W6 m h c main_v16_1 = (dat2 (a2 m h) (V5 m h) c).arrAt 12 (cfg2 (a2 m h)).N := by
  unfold W6
  exact upd2_snd _ _ _
theorem W8_out0 (c : Dev nD) : W8 m h c main_v22_0 = (dat3 (a3 m h) (V7 m h) c).arrAt 11 (cfg3 (a3 m h)).N := by
  unfold W8
  exact upd2_fst _ _ _ (devRef_ne_of_ne (by decide : main_v22_0 ≠ main_v22_1))
theorem W8_out1 (c : Dev nD) : W8 m h c main_v22_1 = (dat3 (a3 m h) (V7 m h) c).arrAt 12 (cfg3 (a3 m h)).N := by
  unfold W8
  exact upd2_snd _ _ _
theorem W11_out (c : Dev nD) : W11 m h c main_v29 = (dat4 (V10 m h) c).arrAt 2 cfg4.N := by
  unfold W11
  exact Function.update_self ..
theorem args_unwritten : ∀ r ∈ ([main_arg0, main_arg1, main_arg2, main_arg3] : List (Ref sig .tc)),
    r ∉ hostOps0_W ∧ r ∉ hostOps1_W ∧ r ∉ hostOps2_W ∧ r ∉ hostOps3_W ∧ r ∉ hostOps4_W ∧ r ∉ hostOps4_1_W ∧ r ∉ hostOps5_W
      ∧ r ∉ ([main_v4_0, main_v4_1] : List (Ref sig .tc)) ∧ r ∉ ([main_v10_0, main_v10_1] : List (Ref sig .tc))
      ∧ r ∉ ([main_v16_0, main_v16_1] : List (Ref sig .tc)) ∧ r ∉ ([main_v22_0, main_v22_1] : List (Ref sig .tc))
      ∧ r ∉ ([main_v29] : List (Ref sig .tc)) := by decide
theorem W8_arg (c : Dev nD) (r : Ref sig .tc) (hr : r ∈ ([main_arg0, main_arg1, main_arg2, main_arg3] : List (Ref sig .tc))) :
    W8 m h c r = m ((c : Thread nD τ).loc r) ∧ W6 m h c r = m ((c : Thread nD τ).loc r) ∧ W4 m h c r = m ((c : Thread nD τ).loc r)
      ∧ W2 m h c r = m ((c : Thread nD τ).loc r) := by
  obtain ⟨h0, h1, h2, h3, -, -, -, g0, g1, g2, g3, -⟩ := args_unwritten r hr
  have e1 : W1 m c r = m ((c : Thread nD τ).loc r) := after_of_writes_sub hostOps0 _ hostOps0_writes h0
  have e2 : W2 m h c r = m ((c : Thread nD τ).loc r) := (W2_of m h c r g0).trans e1
  have e3 : W3 m h c r = m ((c : Thread nD τ).loc r) := (after_of_writes_sub hostOps1 _ hostOps1_writes h1).trans e2
  have e4 : W4 m h c r = m ((c : Thread nD τ).loc r) := (W4_of m h c r g1).trans e3
  have e5 : W5 m h c r = m ((c : Thread nD τ).loc r) := (after_of_writes_sub hostOps2 _ hostOps2_writes h2).trans e4
  have e6 : W6 m h c r = m ((c : Thread nD τ).loc r) := (W6_of m h c r g2).trans e5
  have e7 : W7 m h c r = m ((c : Thread nD τ).loc r) := (after_of_writes_sub hostOps3 _ hostOps3_writes h3).trans e6
  have e8 : W8 m h c r = m ((c : Thread nD τ).loc r) := (W8_of m h c r g3).trans e7
  exact ⟨e8, e6, e4, e2⟩
theorem W12_arg (c : Dev nD) (r : Ref sig .tc) (hr : r ∈ ([main_arg0, main_arg1, main_arg2, main_arg3] : List (Ref sig .tc))) :
    W12 m h c r = m ((c : Thread nD τ).loc r) := by
  obtain ⟨-, -, -, -, h4, h41, h5, -, -, -, -, g4⟩ := args_unwritten r hr
  have e9 : W9 m h c r = m ((c : Thread nD τ).loc r) := (after_of_writes_sub hostOps4 _ hostOps4_writes h4).trans (W8_arg m h c r hr).1
  have e10 : W10 m h c r = m ((c : Thread nD τ).loc r) := (after_of_writes_sub hostOps4_1 _ hostOps4_1_writes h41).trans e9
  have e11 : W11 m h c r = m ((c : Thread nD τ).loc r) := (W11_of m h c r g4).trans e10
  exact (after_of_writes_sub hostOps5 _ hostOps5_writes h5).trans e11
def adm : (p : Fin 5) → (pcfgs (F := F) p).Adm
  | ⟨0, _⟩ => a0 m h
  | ⟨1, _⟩ => a1 m h
  | ⟨2, _⟩ => a2 m h
  | ⟨3, _⟩ => a3 m h
  | ⟨4, _⟩ => cfg4.toPCfg_adm
def pdats : (p : Fin 5) → (c : Dev nD) → Dat τ (Elt F) Unit ℕ (UR sig nD τ) ℕ (Pipeline.pin (pcfgs (F := F)) (adm m h) p) c
  | ⟨0, _⟩ => fun c => dat0 (a0 m h) (V1 m) c
  | ⟨1, _⟩ => fun c => dat1 (a1 m h) (V3 m h) c
  | ⟨2, _⟩ => fun c => dat2 (a2 m h) (V5 m h) c
  | ⟨3, _⟩ => fun c => dat3 (a3 m h) (V7 m h) c
  | ⟨4, _⟩ => fun c => dat4 (V10 m h) c
end Cert.KernelIdeal.Hand
end
-- ==== Proof.Regs.lean ====
import proofs.«412514_j386547056896_2_alg».proof.Proof.G0R
import proofs.«412514_j386547056896_2_alg».proof.Proof.G1R
import proofs.«412514_j386547056896_2_alg».proof.Proof.G2R
import proofs.«412514_j386547056896_2_alg».proof.Proof.G3R
import proofs.«412514_j386547056896_2_alg».proof.Proof.Fold
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (UR sig nD τ) ℕ
open Idealize.ShloMosaic.StableHlo (after_of_writes_sub devRef_ne_of_ne)
variable (m : (ℓ : Loc nD τ sig) → Buf (Elt F) ℓ) (h : TabsOk m)
theorem dev0 (c : Dev nD) : c = 0 := Subsingleton.elim _ _
theorem hpf0 (c : Dev nD) (k : Fin pre0.K) : V_of (W1 m) c (pre0.ref k) = (a0 m h).1 k := by
  rw [dev0 c]; rfl
theorem hpf1 (c : Dev nD) (k : Fin pre1.K) : V_of (W3 m h) c (pre1.ref k) = (a1 m h).1 k := by
  rw [dev0 c]
  show StableHlo.after hostOps1 _ (Proc.devRef .tc (pre1.ref k)) = StableHlo.after hostOps1 (W0 m 0) (Proc.devRef .tc (pre1.ref k))
  have e2 : W2 m h 0 (Proc.devRef .tc main_arg2) = W0 m 0 (Proc.devRef .tc main_arg2) := (W8_arg m h 0 main_arg2 (by decide)).2.2.2
  have e3 : W2 m h 0 (Proc.devRef .tc main_arg3) = W0 m 0 (Proc.devRef .tc main_arg3) := (W8_arg m h 0 main_arg3 (by decide)).2.2.2
  match k with
  | ⟨0, _⟩ =>
    show StableHlo.after hostOps1 _ (Proc.devRef .tc main_v7) = StableHlo.after hostOps1 (W0 m 0) (Proc.devRef .tc main_v7)
    dsimp only [hostOps1]
    after_results
    rw [e2]
  | ⟨1, _⟩ =>
    show StableHlo.after hostOps1 _ (Proc.devRef .tc main_v9) = StableHlo.after hostOps1 (W0 m 0) (Proc.devRef .tc main_v9)
    dsimp only [hostOps1]
    after_results
    rw [e3]
theorem hpf2 (c : Dev nD) (k : Fin pre2.K) : V_of (W5 m h) c (pre2.ref k) = (a2 m h).1 k := by
  rw [dev0 c]
  show StableHlo.after hostOps2 _ (Proc.devRef .tc (pre2.ref k)) = StableHlo.after hostOps2 (W0 m 0) (Proc.devRef .tc (pre2.ref k))
  have e2 : W4 m h 0 (Proc.devRef .tc main_arg2) = W0 m 0 (Proc.devRef .tc main_arg2) := (W8_arg m h 0 main_arg2 (by decide)).2.2.1
  have e3 : W4 m h 0 (Proc.devRef .tc main_arg3) = W0 m 0 (Proc.devRef .tc main_arg3) := (W8_arg m h 0 main_arg3 (by decide)).2.2.1
  match k with
  | ⟨0, _⟩ =>
    show StableHlo.after hostOps2 _ (Proc.devRef .tc main_v13) = StableHlo.after hostOps2 (W0 m 0) (Proc.devRef .tc main_v13)
    dsimp only [hostOps2]
    after_results
    rw [e2]
  | ⟨1, _⟩ =>
    show StableHlo.after hostOps2 _ (Proc.devRef .tc main_v15) = StableHlo.after hostOps2 (W0 m 0) (Proc.devRef .tc main_v15)
    dsimp only [hostOps2]
    after_results
    rw [e3]
theorem hpf3 (c : Dev nD) (k : Fin pre3.K) : V_of (W7 m h) c (pre3.ref k) = (a3 m h).1 k := by
  rw [dev0 c]
  show StableHlo.after hostOps3 _ (Proc.devRef .tc (pre3.ref k)) = StableHlo.after hostOps3 (W0 m 0) (Proc.devRef .tc (pre3.ref k))
  have e2 : W6 m h 0 (Proc.devRef .tc main_arg2) = W0 m 0 (Proc.devRef .tc main_arg2) := (W8_arg m h 0 main_arg2 (by decide)).2.1
  have e3 : W6 m h 0 (Proc.devRef .tc main_arg3) = W0 m 0 (Proc.devRef .tc main_arg3) := (W8_arg m h 0 main_arg3 (by decide)).2.1
  match k with
  | ⟨0, _⟩ =>
    show StableHlo.after hostOps3 _ (Proc.devRef .tc main_v19) = StableHlo.after hostOps3 (W0 m 0) (Proc.devRef .tc main_v19)
    dsimp only [hostOps3]
    after_results
    rw [e2]
  | ⟨1, _⟩ =>
    show StableHlo.after hostOps3 _ (Proc.devRef .tc main_v21) = StableHlo.after hostOps3 (W0 m 0) (Proc.devRef .tc main_v21)
    dsimp only [hostOps3]
    after_results
    rw [e3]
def reg0 : Pipeline.RegionSeg (pcfgs (F := F)) (adm m h) (pdats m h) () defs₀ 𝒱₀ L lv 0 where
  win := winFacts₀0
  block_pos := block_pos0
  stage_whole := stage_whole0
  K := PEmpty
  osem := noSem
  ho := Pipeline.OwnSemFacts.none _
  hbody c := (body_obligation0 (a0 m h) (V_of (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m h c) ∗ R c)
  X c := X0 c
  Y c := Y0 (a0 m h) c
  Z c := Z0 (W1 m) c
  hentry c := hentry0 (a0 m h) (W1 m) (hpf0 m h) c
  hin c := hin0 (a0 m h) (W1 m) c
  hout c := hout0 (a0 m h) (W1 m) c
  hexit c := hexit0 (a0 m h) (W1 m) (W2 m h) (hpf0 m h) c (W2_out0 m h c) (W2_out1 m h c)
    (fun b h0 h1 => W2_of m h c b (by simp only [List.mem_cons, List.not_mem_nil, or_false, not_or]; exact ⟨h0, h1⟩))
def reg1 : Pipeline.RegionSeg (pcfgs (F := F)) (adm m h) (pdats m h) () defs₀ 𝒱₀ L lv 1 where
  win := winFacts₀1
  block_pos := block_pos1
  stage_whole := stage_whole1
  K := PEmpty
  osem := noSem
  ho := Pipeline.OwnSemFacts.none _
  hbody c := (body_obligation1 (a1 m h) (V_of (W3 m h)) c).loose
  hwaits := Pipeline.hwaits_of_owed_zero _ _ _ _ L lv 1 fun _ _ => rfl
  pre c := iprop(StableHlo.held (c : Thread nD τ) (Pipeline.ucRefs τ sig) (W3 m h c) ∗ R c)
  post c := iprop(StableHlo.held (c : Thread nD τ) (Pipeline.ucRefs τ sig) (W4 m h c) ∗ R c)
  X c := X1 c
  Y c := Y1 (a1 m h) c
  Z c := Z1 (W3 m h) c
  hentry c := hentry1 (a1 m h) (W3 m h) (hpf1 m h) c
  hin c := hin1 (a1 m h) (W3 m h) c
  hout c := hout1 (a1 m h) (W3 m h) c
  hexit c := hexit1 (a1 m h) (W3 m h) (W4 m h) (hpf1 m h) c (W4_out0 m h c) (W4_out1 m h c)
    (fun b h0 h1 => W4_of m h c b (by simp only [List.mem_cons, List.not_mem_nil, or_false, not_or]; exact ⟨h0, h1⟩))
def reg2 : Pipeline.RegionSeg (pcfgs (F := F)) (adm m h) (pdats m h) () defs₀ 𝒱₀ L lv 2 where
  win := winFacts₀2
  block_pos := block_pos2
  stage_whole := stage_whole2
  K := PEmpty
  osem := noSem
  ho := Pipeline.OwnSemFacts.none _
  hbody c := (body_obligation2 (a2 m h) (V_of (W5 m h)) c).loose
  hwaits := Pipeline.hwaits_of_owed_zero _ _ _ _ L lv 2 fun _ _ => rfl
  pre c := iprop(StableHlo.held (c : Thread nD τ) (Pipeline.ucRefs τ sig) (W5 m h c) ∗ R c)
  post c := iprop(StableHlo.held (c : Thread nD τ) (Pipeline.ucRefs τ sig) (W6 m h c) ∗ R c)
  X c := X2 c
  Y c := Y2 (a2 m h) c
  Z c := Z2 (W5 m h) c
  hentry c := hentry2 (a2 m h) (W5 m h) (hpf2 m h) c
  hin c := hin2 (a2 m h) (W5 m h) c
  hout c := hout2 (a2 m h) (W5 m h) c
  hexit c := hexit2 (a2 m h) (W5 m h) (W6 m h) (hpf2 m h) c (W6_out0 m h c) (W6_out1 m h c)
    (fun b h0 h1 => W6_of m h c b (by simp only [List.mem_cons, List.not_mem_nil, or_false, not_or]; exact ⟨h0, h1⟩))
def reg3 : Pipeline.RegionSeg (pcfgs (F := F)) (adm m h) (pdats m h) () defs₀ 𝒱₀ L lv 3 where
  win := winFacts₀3
  block_pos := block_pos3
  stage_whole := stage_whole3
  K := PEmpty
  osem := noSem
  ho := Pipeline.OwnSemFacts.none _
  hbody c := (body_obligation3 (a3 m h) (V_of (W7 m h)) c).loose
  hwaits := Pipeline.hwaits_of_owed_zero _ _ _ _ L lv 3 fun _ _ => rfl
  pre c := iprop(StableHlo.held (c : Thread nD τ) (Pipeline.ucRefs τ sig) (W7 m h c) ∗ R c)
  post c := iprop(StableHlo.held (c : Thread nD τ) (Pipeline.ucRefs τ sig) (W8 m h c) ∗ R c)
  X c := X3 c
  Y c := Y3 (a3 m h) c
  Z c := Z3 (W7 m h) c
  hentry c := hentry3 (a3 m h) (W7 m h) (hpf3 m h) c
  hin c := hin3 (a3 m h) (W7 m h) c
  hout c := hout3 (a3 m h) (W7 m h) c
  hexit c := hexit3 (a3 m h) (W7 m h) (W8 m h) (hpf3 m h) c (W8_out0 m h c) (W8_out1 m h c)
    (fun b h0 h1 => W8_of m h c b (by simp only [List.mem_cons, List.not_mem_nil, or_false, not_or]; exact ⟨h0, h1⟩))
theorem hF4 (c : Dev nD) (w : Fin cfg4.W) : (dat4 (V10 m h) c).arrAt w cfg4.N = V11 m h c (Pipeline.arrRef spec4 w) := by
  match w with
  | ⟨0, _⟩ => exact ((dat4 (V10 m h) c).arrAt_in 0 rfl _).trans ((A_eq4 (V10 m h) c 0).trans (W11_of m h c main_arg1 (by decide)).symm)
  | ⟨1, _⟩ => exact ((dat4 (V10 m h) c).arrAt_in 1 rfl _).trans ((A_eq4 (V10 m h) c 1).trans (W11_of m h c main_v28 (by decide)).symm)
  | ⟨2, _⟩ => exact (W11_out m h c).symm
theorem hrest4 (c : Dev nD) : ∀ b, b ∉ Finset.univ.image (Pipeline.arrRef spec4) → V11 m h c b = V10 m h c b :=
  fun b hb => W11_of m h c b (by
    simp only [List.mem_cons, List.not_mem_nil, or_false]
    exact fun e => hb (Finset.mem_image.mpr ⟨2, Finset.mem_univ _, e.symm⟩))
set_option backward.isDefEq.respectTransparency.types false in
def reg4 : Pipeline.RegionSeg (pcfgs (F := F)) (adm m h) (pdats m h) () defs₀ 𝒱₀ L lv 4 where
  win := winFacts4.to₀
  block_pos := block_pos4
  stage_whole := stage_whole4
  K := PEmpty
  osem := noSem
  ho := Pipeline.OwnSemFacts.none _
  hbody c := (body_obligation4 (V10 m h) c).loose
  hwaits := Pipeline.hwaits_of_owed_zero _ _ _ _ L lv 4 fun _ _ => rfl
  pre c := iprop(StableHlo.held (c : Thread nD τ) (Pipeline.ucRefs τ sig) (W10 m h c) ∗ R c)
  post c := iprop(StableHlo.held (c : Thread nD τ) (Pipeline.ucRefs τ sig) (W11 m h c) ∗ R c)
  X c := iprop(∃ r, prngReg c r)
  Y c := iprop(∃ r, prngReg c r)
  Z c := Pipeline.unscopedRest (Ix := Unit) (Name := ℕ) (U := UR sig nD τ) (Lvl := ℕ) spec4 c (V10 m h c)
  hentry c := by
    rw [Pipeline.ownSems0_none]
    have hsplit := Pipeline.arrays_of_unscopedBufs (p := 4) (pcfgs (F := F)) (adm m h) (pdats m h) winFacts4 arr_whole4 c
      ((pdats m h 4 c).share_full fun _ => rfl) (V10 m h c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m h 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m h 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m h) (Ix := Unit) (Name := ℕ) (U := UR sig nD τ) (Lvl := ℕ)
      winFacts4 arr_whole4 c (pdats m h) ((pdats m h 4 c).share_full fun _ => rfl)
      (V10 m h c) (V11 m h c) ((pdats m h 4 c).arrAt · cfg4.N) (hF4 m h c) (hrest4 m h c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO
end Cert.KernelIdeal.Hand
end
-- ==== Proof.Run.lean ====
import proofs.«412514_j386547056896_2_alg».proof.Proof.Regs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (UR sig nD τ) ℕ
open Idealize.ShloMosaic.StableHlo (after_of_writes_sub devRef_ne_of_ne)
variable (m : (ℓ : Loc nD τ sig) → Buf (Elt F) ℓ) (h : TabsOk m) (ρ : Dev nD → PrngReg)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op ho => Pipeline.sub_ucRefs op ((List.forall_iff_forall_mem.mp hsub) op ho))
    (fun op ho => (List.forall_iff_forall_mem.mp hfresh) op ho) W R
abbrev segs : List (Pipeline.Seg (pcfgs (F := F)) (adm m h) (pdats m h) () defs₀ 𝒱₀ L lv) :=
  [ .host (hseg hostOps0 hostOps0_sub hostOps0_fresh (W0 m)),
    .region (reg0 m h),
    .host (hseg hostOps1 hostOps1_sub hostOps1_fresh (W2 m h)),
    .region (reg1 m h),
    .host (hseg hostOps2 hostOps2_sub hostOps2_fresh (W4 m h)),
    .region (reg2 m h),
    .host (hseg hostOps3 hostOps3_sub hostOps3_fresh (W6 m h)),
    .region (reg3 m h),
    .host (hseg hostOps4 hostOps4_sub hostOps4_fresh (W8 m h)),
    .host (hseg hostOps4_1 hostOps4_1_sub hostOps4_1_fresh (W9 m h)),
    .region (reg4 m h),
    .host (hseg hostOps5 hostOps5_sub hostOps5_fresh (W11 m h)) ]
theorem mem_uc (b : Ref sig .tc) (hb : ¬ (Proc.devRef .tc b : DevRef τ sig).isScoped) : Proc.devRef .tc b ∈ Pipeline.ucRefs τ sig :=
  Finset.mem_filter.mpr ⟨StableHlo.devRef_mem_tcRefs b, hb⟩
abbrev Tₙ (c : Dev nD) : sProp 𝕄 := iprop(StableHlo.held (c : Thread nD τ) (Pipeline.ucRefs τ sig) (W12 m h c) ∗ ∃ r, prngReg c r)
set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m h c b) :=
  Pipeline.θ_run_regions_kit (pcfgs (F := F)) (adm m h) (pdats m h) () (cellOf_inj (adm m h)) emb₁ defs₀ 𝒱₀ L lv m ρ main (segs m h)
    (fun c Q => by
      rewrite [main_chain c, Pipeline.Seg.run_eq_chain,
        show (segs m h).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m h)) (cellOf_inj (adm m h))) (Pipeline.launchToks (Pipeline.pin (pcfgs (F := F)) (adm m h)) (cellOf_inj (adm m h))))
    (hu₀ := by
      iintro Hu; imodintro
      isplitl [Hu]
      · iapply (show (ownU (initOf (Pipeline.cells (Pipeline.pin (pcfgs (F := F)) (adm m h)) (cellOf_inj (adm m h))) (Pipeline.launchToks (Pipeline.pin (pcfgs (F := F)) (adm m h)) (cellOf_inj (adm m h)))) : sProp 𝕄)
            ⊢ BI.own (emb₁ (initOf (Pipeline.cells (Pipeline.pin (pcfgs (F := F)) (adm m h)) (cellOf_inj (adm m h))) (Pipeline.launchToks (Pipeline.pin (pcfgs (F := F)) (adm m h)) (cellOf_inj (adm m h))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m h)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W12 m h c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m h c b)
    (hfin := fun c s' => by
      iintro ⟨⟨Hh, -⟩, HSI⟩
      unfold StableHlo.held
      imodintro
      iapply (pointsTo_read_all (Pipeline.ucRefs τ sig) (fun b => (((c : Thread nD τ)).1, b)) (W12 m h c) s')
      isplitl [Hh] <;> iassumption)
    (hQ := fun s hs c => hs c)
end Cert.KernelIdeal.Hand
end
-- ==== Proof.Tabs.lean ====
import proofs.«412514_j386547056896_2_alg».proof.Proof.Fold
import proofs.«412514_j386547056896_2_alg».proof.Proof.Spec
import Idealize.ShloMosaic.Lib.StableHlo.Run
import Idealize.ShloMosaic.Lib.ValueIdx
import Idealize.ShloMosaic.Lib.Pipeline.Value
import Idealize.ShloMosaic.Lib.ValueLayout
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
theorem row_block_inb (w : BitVec 32) (hw : w.toNat < 100000) (a : Fin 3) :
    ((![w.toNat, 0, 0] : Fin 3 → Nat) a + 1) * S1x1x256.size a ≤ S100000x1x256.size a := by
  match a with
  | ⟨0, _⟩ => show (w.toNat + 1) * 1 ≤ 100000; omega
  | ⟨1, _⟩ => show (0 + 1) * 1 ≤ 1; omega
  | ⟨2, _⟩ => show (0 + 1) * 256 ≤ 256; omega
theorem ok0_of_lt (pf : pre0.Contents (Elt F))
    (h0 : ∀ x, ((pf 0 : S12500.Idx → BitVec 32) x).toNat < 100000)
    (h1 : ∀ x, ((pf 1 : S125000.Idx → BitVec 32) x).toNat < 100000) : ok0 pf := by
  unfold ok0
  refine ⟨?_, ?_, ?_, ?_, ?_, ?_, ?_, ?_, ?_, ?_, ?_⟩ <;>
    exact fun i => ⟨fun a => row_block_inb _ (by first | exact h0 _ | exact h1 _) a, Or.inl rfl⟩
theorem ok1_of_lt (pf : pre1.Contents (Elt F))
    (h0 : ∀ x, ((pf 0 : S12500.Idx → BitVec 32) x).toNat < 100000)
    (h1 : ∀ x, ((pf 1 : S125000.Idx → BitVec 32) x).toNat < 100000) : ok1 pf := by
  unfold ok1
  refine ⟨?_, ?_, ?_, ?_, ?_, ?_, ?_, ?_, ?_, ?_, ?_⟩ <;>
    exact fun i => ⟨fun a => row_block_inb _ (by first | exact h0 _ | exact h1 _) a, Or.inl rfl⟩
theorem ok2_of_lt (pf : pre2.Contents (Elt F))
    (h0 : ∀ x, ((pf 0 : S12500.Idx → BitVec 32) x).toNat < 100000)
    (h1 : ∀ x, ((pf 1 : S125000.Idx → BitVec 32) x).toNat < 100000) : ok2 pf := by
  unfold ok2
  refine ⟨?_, ?_, ?_, ?_, ?_, ?_, ?_, ?_, ?_, ?_, ?_⟩ <;>
    exact fun i => ⟨fun a => row_block_inb _ (by first | exact h0 _ | exact h1 _) a, Or.inl rfl⟩
theorem ok3_of_lt (pf : pre3.Contents (Elt F))
    (h0 : ∀ x, ((pf 0 : S12500.Idx → BitVec 32) x).toNat < 100000)
    (h1 : ∀ x, ((pf 1 : S125000.Idx → BitVec 32) x).toNat < 100000) : ok3 pf := by
  unfold ok3
  refine ⟨?_, ?_, ?_, ?_, ?_, ?_, ?_, ?_, ?_, ?_, ?_⟩ <;>
    exact fun i => ⟨fun a => row_block_inb _ (by first | exact h0 _ | exact h1 _) a, Or.inl rfl⟩
variable (m : (ℓ : Loc nD τ sig) → Buf (Elt F) ℓ)
theorem tab0_nodes (c : Dev nD) (t : Fin 12500) :
    (tab0 m c 0 : S12500.Idx → BitVec 32) (ValueIdx.ix1 t)
      = (m ((c : Thread nD τ).loc main_arg2) : S50000.Idx → BitVec 32) (ValueIdx.ix1 ⟨t.val, by omega⟩) := by
  have e : (tab0 m c 0 : S12500.Idx → BitVec 32)
      = extractStridedSlice S12500 ![0] (m ((c : Thread nD τ).loc main_arg2) : S50000.Idx → BitVec 32) slices_S50000_S12500_0 := by
    show StableHlo.after hostOps0 (W0 m c) (Proc.devRef .tc main_v1) = _
    dsimp only [hostOps0]
    after_results
  rw [e]
  refine extractStridedSlice_apply _ _ _ _ _ fun a => ?_
  match a with
  | ⟨0, _⟩ => show t.val = 0 + t.val; omega
theorem tab0_neigh (c : Dev nD) (u : Fin 125000) :
    (tab0 m c 1 : S125000.Idx → BitVec 32) (ValueIdx.ix1 u)
      = (m ((c : Thread nD τ).loc main_arg3) : S50000x10.Idx → BitVec 32) (ValueIdx.ix2 ⟨u.val / 10, by omega⟩ ⟨u.val % 10, by omega⟩) := by
  have e : (tab0 m c 1 : S125000.Idx → BitVec 32)
      = shapeCast S125000 (extractStridedSlice S12500x10 ![0, 0] (m ((c : Thread nD τ).loc main_arg3) : S50000x10.Idx → BitVec 32) slices_S50000x10_S12500x10_0_0)
          shapeCasts_S12500x10_S125000 := by
    show StableHlo.after hostOps0 (W0 m c) (Proc.devRef .tc main_v3) = _
    dsimp only [hostOps0]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show u.val / 10 = 0 + u.val / 10; omega
    | ⟨1, _⟩ => show u.val % 10 = 0 + u.val % 10; omega
theorem tab1_nodes (c : Dev nD) (t : Fin 12500) :
    (tab1 m c 0 : S12500.Idx → BitVec 32) (ValueIdx.ix1 t)
      = (m ((c : Thread nD τ).loc main_arg2) : S50000.Idx → BitVec 32) (ValueIdx.ix1 ⟨12500 + t.val, by omega⟩) := by
  have e : (tab1 m c 0 : S12500.Idx → BitVec 32)
      = extractStridedSlice S12500 ![12500] (m ((c : Thread nD τ).loc main_arg2) : S50000.Idx → BitVec 32) slices_S50000_S12500_12500 := by
    show StableHlo.after hostOps1 (W0 m c) (Proc.devRef .tc main_v7) = _
    dsimp only [hostOps1]
    after_results
  rw [e]
  refine extractStridedSlice_apply _ _ _ _ _ fun a => ?_
  match a with
  | ⟨0, _⟩ => show 12500 + t.val = 12500 + t.val; omega
theorem tab1_neigh (c : Dev nD) (u : Fin 125000) :
    (tab1 m c 1 : S125000.Idx → BitVec 32) (ValueIdx.ix1 u)
      = (m ((c : Thread nD τ).loc main_arg3) : S50000x10.Idx → BitVec 32) (ValueIdx.ix2 ⟨12500 + u.val / 10, by omega⟩ ⟨u.val % 10, by omega⟩) := by
  have e : (tab1 m c 1 : S125000.Idx → BitVec 32)
      = shapeCast S125000 (extractStridedSlice S12500x10 ![12500, 0] (m ((c : Thread nD τ).loc main_arg3) : S50000x10.Idx → BitVec 32) slices_S50000x10_S12500x10_12500_0)
          shapeCasts_S12500x10_S125000 := by
    show StableHlo.after hostOps1 (W0 m c) (Proc.devRef .tc main_v9) = _
    dsimp only [hostOps1]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show 12500 + u.val / 10 = 12500 + u.val / 10; omega
    | ⟨1, _⟩ => show u.val % 10 = 0 + u.val % 10; omega
theorem tab2_nodes (c : Dev nD) (t : Fin 12500) :
    (tab2 m c 0 : S12500.Idx → BitVec 32) (ValueIdx.ix1 t)
      = (m ((c : Thread nD τ).loc main_arg2) : S50000.Idx → BitVec 32) (ValueIdx.ix1 ⟨25000 + t.val, by omega⟩) := by
  have e : (tab2 m c 0 : S12500.Idx → BitVec 32)
      = extractStridedSlice S12500 ![25000] (m ((c : Thread nD τ).loc main_arg2) : S50000.Idx → BitVec 32) slices_S50000_S12500_25000 := by
    show StableHlo.after hostOps2 (W0 m c) (Proc.devRef .tc main_v13) = _
    dsimp only [hostOps2]
    after_results
  rw [e]
  refine extractStridedSlice_apply _ _ _ _ _ fun a => ?_
  match a with
  | ⟨0, _⟩ => show 25000 + t.val = 25000 + t.val; omega
theorem tab2_neigh (c : Dev nD) (u : Fin 125000) :
    (tab2 m c 1 : S125000.Idx → BitVec 32) (ValueIdx.ix1 u)
      = (m ((c : Thread nD τ).loc main_arg3) : S50000x10.Idx → BitVec 32) (ValueIdx.ix2 ⟨25000 + u.val / 10, by omega⟩ ⟨u.val % 10, by omega⟩) := by
  have e : (tab2 m c 1 : S125000.Idx → BitVec 32)
      = shapeCast S125000 (extractStridedSlice S12500x10 ![25000, 0] (m ((c : Thread nD τ).loc main_arg3) : S50000x10.Idx → BitVec 32) slices_S50000x10_S12500x10_25000_0)
          shapeCasts_S12500x10_S125000 := by
    show StableHlo.after hostOps2 (W0 m c) (Proc.devRef .tc main_v15) = _
    dsimp only [hostOps2]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show 25000 + u.val / 10 = 25000 + u.val / 10; omega
    | ⟨1, _⟩ => show u.val % 10 = 0 + u.val % 10; omega
theorem tab3_nodes (c : Dev nD) (t : Fin 12500) :
    (tab3 m c 0 : S12500.Idx → BitVec 32) (ValueIdx.ix1 t)
      = (m ((c : Thread nD τ).loc main_arg2) : S50000.Idx → BitVec 32) (ValueIdx.ix1 ⟨37500 + t.val, by omega⟩) := by
  have e : (tab3 m c 0 : S12500.Idx → BitVec 32)
      = extractStridedSlice S12500 ![37500] (m ((c : Thread nD τ).loc main_arg2) : S50000.Idx → BitVec 32) slices_S50000_S12500_37500 := by
    show StableHlo.after hostOps3 (W0 m c) (Proc.devRef .tc main_v19) = _
    dsimp only [hostOps3]
    after_results
  rw [e]
  refine extractStridedSlice_apply _ _ _ _ _ fun a => ?_
  match a with
  | ⟨0, _⟩ => show 37500 + t.val = 37500 + t.val; omega
theorem tab3_neigh (c : Dev nD) (u : Fin 125000) :
    (tab3 m c 1 : S125000.Idx → BitVec 32) (ValueIdx.ix1 u)
      = (m ((c : Thread nD τ).loc main_arg3) : S50000x10.Idx → BitVec 32) (ValueIdx.ix2 ⟨37500 + u.val / 10, by omega⟩ ⟨u.val % 10, by omega⟩) := by
  have e : (tab3 m c 1 : S125000.Idx → BitVec 32)
      = shapeCast S125000 (extractStridedSlice S12500x10 ![37500, 0] (m ((c : Thread nD τ).loc main_arg3) : S50000x10.Idx → BitVec 32) slices_S50000x10_S12500x10_37500_0)
          shapeCasts_S12500x10_S125000 := by
    show StableHlo.after hostOps3 (W0 m c) (Proc.devRef .tc main_v21) = _
    dsimp only [hostOps3]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show 37500 + u.val / 10 = 37500 + u.val / 10; omega
    | ⟨1, _⟩ => show u.val % 10 = 0 + u.val % 10; omega
theorem tabsOk_of_ids
    (hids : Cert.Spec.IdsInRange (m (((0 : Dev nD) : Thread nD τ).loc main_arg2)) (m (((0 : Dev nD) : Thread nD τ).loc main_arg3))) :
    TabsOk m := by
  refine ⟨ok0_of_lt _ (fun (x : S12500.Idx) => ?_) (fun (x : S125000.Idx) => ?_), ok1_of_lt _ (fun (x : S12500.Idx) => ?_) (fun (x : S125000.Idx) => ?_),
    ok2_of_lt _ (fun (x : S12500.Idx) => ?_) (fun (x : S125000.Idx) => ?_), ok3_of_lt _ (fun (x : S12500.Idx) => ?_) (fun (x : S125000.Idx) => ?_)⟩ <;>
    (obtain ⟨t, rfl⟩ : ∃ t, x = ValueIdx.ix1 t := ⟨x 0, ValueIdx.eq_ix1 x⟩
     simp only [tab0_nodes, tab0_neigh, tab1_nodes, tab1_neigh, tab2_nodes, tab2_neigh, tab3_nodes, tab3_neigh]
     first | exact hids.nodes_lt _ | exact hids.neigh_lt _)
end Cert.KernelIdeal.Hand
end
-- ==== Proof.M4V.lean ====
import proofs.«412514_j386547056896_2_alg».proof.Proof.M4
import proofs.«412514_j386547056896_2_alg».proof.Proof.Gen.KernelIdeal.Points
import Idealize.ShloMosaic.Lib.Pipeline.Value
import Idealize.ShloMosaic.Lib.ValueIdx
import Idealize.ShloMosaic.PureOps.Ideal.Laws
set_option maxRecDepth 16384
noncomputable section
namespace Cert.KernelIdeal.Hand
open Idealize.ShloMosaic Idealize.ShloMosaic.TcCoe Idealize.SL.Sem
open Idealize.ShloMosaic.Pipeline (Dat Cfg Window)
open Cert.KernelIdeal Cert.KernelIdeal.Gen
section Value4
theorem hz4 : (![0, 0] : Fin 2 → Nat) = fun _ => 0 := funext fun a => by fin_cases a <;> rfl
theorem lhs_mm4_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide), dif_pos (show (0 : Fin S256x512.rank) ∈ dot_S256x512_S2048x512_S256x2048_1_1_0_0_n_n.lhsNonContracting by decide)]
  rfl
theorem lhs_mm4_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q
theorem rhs_mm4_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide), dif_pos (show (0 : Fin S2048x512.rank) ∈ dot_S256x512_S2048x512_S256x2048_1_1_0_0_n_n.rhsNonContracting by decide)]
  rfl
theorem rhs_mm4_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q
theorem mm4_apply (a : FVec Ideal S256x512 .bf16) (b : FVec Ideal S2048x512 .bf16) (p : Fin 256) (q : Fin 2048) :
    FloatOps.matmul dot_S256x512_S2048x512_S256x2048_1_1_0_0_n_n none a b (constant S256x2048 .f32 0x00000000#32) (ValueIdx.ix2 p q)
      = ∑ k : Fin 512, a (ValueIdx.ix2 p k) * b (ValueIdx.ix2 q k) := by
  rw [Ideal.matmul_constant_zero_apply, ← Equiv.sum_comp (ValueIdx.contrEquiv1 dot_S256x512_S2048x512_S256x2048_1_1_0_0_n_n 512 rfl rfl).symm]
  refine Finset.sum_congr rfl fun k _ => ?_
  have hk := ValueIdx.contrEquiv1_symm_val dot_S256x512_S2048x512_S256x2048_1_1_0_0_n_n 512 rfl rfl k
  have el : dot_S256x512_S2048x512_S256x2048_1_1_0_0_n_n.lhsIdx (ValueIdx.ix2 p q) ((ValueIdx.contrEquiv1 dot_S256x512_S2048x512_S256x2048_1_1_0_0_n_n 512 rfl rfl).symm k) = ValueIdx.ix2 p k := funext fun a => Fin.ext (by
    match a with
    | ⟨0, _⟩ => exact lhs_mm4_0 _ _
    | ⟨1, _⟩ => exact (lhs_mm4_1 _ _).trans hk)
  have er : dot_S256x512_S2048x512_S256x2048_1_1_0_0_n_n.rhsIdx (ValueIdx.ix2 p q) ((ValueIdx.contrEquiv1 dot_S256x512_S2048x512_S256x2048_1_1_0_0_n_n 512 rfl rfl).symm k) = ValueIdx.ix2 q k := funext fun a => Fin.ext (by
    match a with
    | ⟨0, _⟩ => exact rhs_mm4_0 _ _
    | ⟨1, _⟩ => exact (rhs_mm4_1 _ _).trans hk)
  rw [el, er]
theorem pay4_apply (x0 : Vec Ideal S256x512 .f32) (x1 : Vec Ideal S2048x512 .f32) (p : Fin 256) (q : Fin 2048) :
    k4_pay1 (F := Ideal) x0 x1 (ValueIdx.ix2 p q) = max (∑ k : Fin 512, x0 (ValueIdx.ix2 p k) * x1 (ValueIdx.ix2 q k)) 0 := by
  unfold k4_pay1
  rw [ValueIdx.maximumf_apply, ValueIdx.broadcast_apply, shapeCast_self]
  rw [show (FloatOps.ofBits (F := Ideal) .f32 0x00000000#32) = 0 from Ideal.ofBits_zero_f32]
  exact congrArg (max · 0) (mm4_apply _ _ p q)
variable (V : (c : Dev nD) → (b : Ref sig .tc) → Buf (Elt Ideal) ((c : Thread nD τ).loc b))
abbrev G4 (W : S256x512.Idx → EReal) (X : S51200x512.Idx → EReal) : S256x51200.Idx → EReal :=
  fun j => max (∑ k : Fin 512, W (ValueIdx.ix2 (j 0) k) * X (ValueIdx.ix2 (j 1) k)) 0
theorem G4_of_factors (W : S256x512.Idx → EReal) (X : S51200x512.Idx → EReal)
    (x0 : S256x512.Idx → EReal) (x1 : S2048x512.Idx → EReal) (y : S256x2048.Idx) (i : S256x51200.Idx)
    (h0 : ∀ k : Fin 512, x0 (ValueIdx.ix2 (y 0) k) = W (ValueIdx.ix2 (i 0) k))
    (h1 : ∀ k : Fin 512, x1 (ValueIdx.ix2 (y 1) k) = X (ValueIdx.ix2 (i 1) k)) :
    max (∑ k : Fin 512, x0 (ValueIdx.ix2 (y 0) k) * x1 (ValueIdx.ix2 (y 1) k)) 0 = G4 W X i :=
  congrArg (max · 0) (Finset.sum_congr rfl fun k _ => by rw [h0 k, h1 k])
theorem idx_facts4 : ∀ t : Fin cfg4.N, win4_0.index t (0 : Fin 2) = 0 ∧ win4_0.index t (1 : Fin 2) = 0
    ∧ win4_1.index t (0 : Fin 2) = t.val ∧ win4_1.index t (1 : Fin 2) = 0
    ∧ win4_2.index t (0 : Fin 2) = 0 ∧ win4_2.index t (1 : Fin 2) = t.val :=
  (by decide +kernel : ∀ t : Fin grid4.N, _)
theorem flushed4_eq (c : Dev nD) (t : Fin cfg4.N) :
    (dat4 (F := Ideal) V c).flushed 2 t
      = ((cfg4.win 2).blk t).view.read (Elt Ideal) (G4 (V c main_arg1) (V c main_v28)) := by
  show (cfg4.win 2).cut (grid4.coords t) ((dat4 V c).after 2 t) = _
  rw [after4_2]
  unfold out4_2
  rw [View.canon_unit_zero hz4]
  simp only [View.ld_unit_zero (S := S256x512) hz4, View.ld_unit_zero (S := S2048x512) hz4]
  obtain ⟨e0, e1, e2, e3, e4, e5⟩ := idx_facts4 t
  funext (y : S256x2048.Idx)
  refine (congrArg (k4_pay1 (F := Ideal) (iblk4 V c 0 t) (iblk4 V c 1 t)) (ValueIdx.eq_ix2 y)).trans ?_
  refine (pay4_apply _ _ (y 0) (y 1)).trans
    (G4_of_factors (V c main_arg1) (V c main_v28) _ _ y (((cfg4.win 2).blk t).view.emb y) (fun k => ?_) (fun k => ?_))
  · show (V c main_arg1 : S256x512.Idx → EReal) (((cfg4.win 0).blk t).view.emb (ValueIdx.ix2 (y 0) k)) = _
    refine congrArg (V c main_arg1 : S256x512.Idx → EReal) (funext fun a => Fin.ext ?_)
    match a with
    | ⟨0, _⟩ => show win4_0.index t (0 : Fin 2) * 256 + 1 * (y 0).val = win4_2.index t (0 : Fin 2) * 256 + 1 * (y 0).val; omega
    | ⟨1, _⟩ => show win4_0.index t (1 : Fin 2) * 512 + 1 * k.val = k.val; omega
  · show (V c main_v28 : S51200x512.Idx → EReal) (((cfg4.win 1).blk t).view.emb (ValueIdx.ix2 (y 1) k)) = _
    refine congrArg (V c main_v28 : S51200x512.Idx → EReal) (funext fun a => Fin.ext ?_)
    match a with
    | ⟨0, _⟩ => show win4_1.index t (0 : Fin 2) * 2048 + 1 * (y 1).val = win4_2.index t (1 : Fin 2) * 2048 + 1 * (y 1).val; omega
    | ⟨1, _⟩ => show win4_1.index t (1 : Fin 2) * 512 + 1 * k.val = k.val; omega
theorem mem_blk4 (t : Fin cfg4.N) (i : S256x51200.Idx) :
    i ∈ ((cfg4.win 2).blk t).view.set ↔ ∀ a : Fin 2, win4_2.index t a * S256x2048.size a ≤ (i a).val
      ∧ (i a).val < win4_2.index t a * S256x2048.size a + S256x2048.size a := by
  show i ∈ ((View.whole main_v29).slice (win4_2.rect t)).set ↔ _
  rw [View.set_slice_whole, Rect.mem_set_unit]
  exact Iff.rfl
theorem cover4 (i : S256x51200.Idx) :
    ∃ t : Fin cfg4.N, (cfg4.win 2).flush t = true ∧ i ∈ ((cfg4.win 2).blk t).view.set := by
  have hi0 : (i 0).val < 256 := (i 0).isLt
  have hi1 : (i 1).val < 51200 := (i 1).isLt
  have hN : (i 1).val / 2048 < cfg4.N := by show _ < grid4.N; rw [N_4]; omega
  obtain ⟨t, ht⟩ : ∃ t : Fin cfg4.N, t.val = (i 1).val / 2048 := ⟨⟨(i 1).val / 2048, hN⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 256 ≤ (i 0).val ∧ (i 0).val < win4_2.index t (0 : Fin 2) * 256 + 256; omega
  | ⟨1, _⟩ => show win4_2.index t (1 : Fin 2) * 2048 ≤ (i 1).val ∧ (i 1).val < win4_2.index t (1 : Fin 2) * 2048 + 2048; omega
theorem out_val4 (c : Dev nD) :
    (dat4 (F := Ideal) V c).arrAt 2 cfg4.N = G4 (V c main_arg1) (V c main_v28) :=
  (dat4 (F := Ideal) V c).arrAt_eq_of_cover 2 (G4 (V c main_arg1) (V c main_v28)) (fun t _ => flushed4_eq V c t) cover4
theorem out_val4_of (c : Dev nD) (W : S256x512.Idx → EReal) (X : S51200x512.Idx → EReal)
    (hW : V c main_arg1 = W) (hX : V c main_v28 = X) :
    (dat4 (F := Ideal) V c).arrAt 2 cfg4.N
      = fun j : S256x51200.Idx => max (∑ k : Fin 512, W (ValueIdx.ix2 (j 0) k) * X (ValueIdx.ix2 (j 1) k)) 0 := by
  subst hW hX
  exact out_val4 V c
end Value4
end Cert.KernelIdeal.Hand
end
-- ==== Proof.GV.lean ====
import proofs.«412514_j386547056896_2_alg».proof.Proof.GK
import proofs.«412514_j386547056896_2_alg».proof.Proof.Spec
import Idealize.ShloMosaic.Lib.Pipeline.Value
import Idealize.ShloMosaic.Lib.ValueIdx
import Idealize.ShloMosaic.PureOps.Ideal.Laws
import Idealize.ShloMosaic.PureOps.IdealRules

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open scoped BigOperators

theorem inv_10_val : Named.named (F := Ideal) Cert.KernelIdeal.κ "inv_10" (φ := .f32) 0x3DCCCCCD#32 = ((1 / 10 : ℝ) : EReal) :=
  IdealRules.named_const.ideal_named_scalar _ _ _ _ rfl

theorem nbr_off (n : Nat) (hn : n < 12500) (k : BitVec 32) (hk : k.toNat < 10) :
    (Scalar.indexCast (Scalar.addi (Scalar.muli (BitVec.ofNat 32 n) 10#32) k)).toNat = 10 * n + k.toNat := by
  show (BitVec.ofNat 32 n * 10#32 + k).toNat = _
  rw [BitVec.toNat_add, BitVec.toNat_mul, BitVec.toNat_ofNat]
  show (n % 2 ^ 32 * 10 % 2 ^ 32 + k.toNat) % 2 ^ 32 = _
  omega

theorem row_idx (z : S100000x1x256.Idx) (idx : Fin 3 → Nat) (w : BitVec 32) (hw : w.toNat < 100000) (y : S1x1x256.Idx)
    (hidx : idx = ![w.toNat, 0, 0]) (hz : ∀ d : Fin 3, (z d).val = idx d * S1x1x256.size d + 1 * (y d).val) :
    z = ValueIdx.ix3 (Cert.Spec.rowOf w) (y 1) (y 2) := by
  subst hidx
  funext d
  apply Fin.ext
  match d with
  | ⟨0, _⟩ =>
    have h := hz 0
    have hy : (y 0).val < 1 := (y 0).isLt
    show (z 0).val = (Cert.Spec.rowOf w).val
    rw [Cert.Spec.rowOf_val_of_lt hw, h]
    show w.toNat * 1 + 1 * (y 0).val = w.toNat
    omega
  | ⟨1, _⟩ =>
    have h := hz 1
    show (z 1).val = (y 1).val
    rw [h]
    show 0 * 1 + 1 * (y 1).val = (y 1).val
    omega
  | ⟨2, _⟩ =>
    have h := hz 2
    show (z 2).val = (y 2).val
    rw [h]
    show 0 * 256 + 1 * (y 2).val = (y 2).val
    omega

theorem out_idx (z : S12500x1x256.Idx) (idx : Fin 3 → Nat) (n : Fin 12500) (y : S1x1x256.Idx)
    (hidx : idx = ![n.val, 0, 0]) (hz : ∀ d : Fin 3, (z d).val = idx d * S1x1x256.size d + 1 * (y d).val) :
    z = ValueIdx.ix3 n (y 1) (y 2) := by
  subst hidx
  funext d
  apply Fin.ext
  match d with
  | ⟨0, _⟩ =>
    have h := hz 0
    have hy : (y 0).val < 1 := (y 0).isLt
    show (z 0).val = n.val
    rw [h]
    show n.val * 1 + 1 * (y 0).val = n.val
    omega
  | ⟨1, _⟩ =>
    have h := hz 1
    show (z 1).val = (y 1).val
    rw [h]
    show 0 * 1 + 1 * (y 1).val = (y 1).val
    omega
  | ⟨2, _⟩ =>
    have h := hz 2
    show (z 2).val = (y 2).val
    rw [h]
    show 0 * 256 + 1 * (y 2).val = (y 2).val
    omega

theorem sum_fin10 (f : Fin 10 → EReal) :
    ∑ s : Fin 10, f s = f 0 + f 1 + f 2 + f 3 + f 4 + f 5 + f 6 + f 7 + f 8 + f 9 := by
  rw [Fin.sum_univ_castSucc, Fin.sum_univ_castSucc, Fin.sum_univ_eight]; rfl

theorem hz3 : (![0, 0, 0] : Fin 3 → Nat) = fun _ => 0 := funext fun d => by fin_cases d <;> rfl

theorem outSelf_eq (x : Vec Ideal S1x1x256 .f32) : outSelf x = x := by
  unfold outSelf
  rw [View.canon_unit_zero hz3, View.ld_unit_zero (S := S1x1x256) hz3]
  exact shapeCast_self _ _

theorem outMean_eq (x1 x2 x3 x4 x5 x6 x7 x8 x9 x10 : Vec Ideal S1x1x256 .f32) :
    outMean x1 x2 x3 x4 x5 x6 x7 x8 x9 x10
      = fun y => (x1 y + x2 y + x3 y + x4 y + x5 y + x6 y + x7 y + x8 y + x9 y + x10 y) * ((1 / 10 : ℝ) : EReal) := by
  unfold outMean
  rw [View.canon_unit_zero hz3]
  simp only [View.ld_unit_zero (S := S1x1x256) hz3]
  unfold k0_pay1 k0_pay3
  simp only [shapeCast_self]
  funext y
  simp only [ValueIdx.mulf_apply, ValueIdx.addf_apply, ValueIdx.broadcast_apply, inv_10_val]

theorem word_lt (f : Fin 3 → Nat) (w : BitVec 32) (e : f = ![w.toNat, 0, 0])
    (h : ∀ d, (f d + 1) * S1x1x256.size d ≤ S100000x1x256.size d) : w.toNat < 100000 := by
  subst e
  have h0 : (w.toNat + 1) * 1 ≤ 100000 := h 0
  omega

theorem mean_congr {x1 x2 x3 x4 x5 x6 x7 x8 x9 x10 z1 z2 z3 z4 z5 z6 z7 z8 z9 z10 : EReal}
    (h1 : x1 = z1) (h2 : x2 = z2) (h3 : x3 = z3) (h4 : x4 = z4) (h5 : x5 = z5) (h6 : x6 = z6) (h7 : x7 = z7)
    (h8 : x8 = z8) (h9 : x9 = z9) (h10 : x10 = z10) (k : EReal) :
    (x1 + x2 + x3 + x4 + x5 + x6 + x7 + x8 + x9 + x10) * k = (z1 + z2 + z3 + z4 + z5 + z6 + z7 + z8 + z9 + z10) * k := by
  rw [h1, h2, h3, h4, h5, h6, h7, h8, h9, h10]

end Cert.KernelIdeal.Hand

end
-- ==== Proof.G0V.lean ====
import proofs.«412514_j386547056896_2_alg».proof.Proof.G0B
import proofs.«412514_j386547056896_2_alg».proof.Proof.GV

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open scoped BigOperators

theorem coords0_val (t : Fin grid0.N) : ((grid0.coords t) 0).val = t.val := by
  have ht : t.val < 12500 := t.isLt
  show t.val / grid0.stride 0 % 12500 = t.val
  have hs : grid0.stride 0 = 1 := by decide
  rw [hs, Nat.div_one, Nat.mod_eq_of_lt ht]

def nodeWord {F : FTy → Type} (pf : pre0.Contents (Elt F)) (i : grid0.Coords) : BitVec 32 :=
  (pf 0 : S12500.Idx → BitVec 32) (ValueIdx.ix1 (i 0))

def nbrWord {F : FTy → Type} (pf : pre0.Contents (Elt F)) (i : grid0.Coords) (s : Fin 10) : BitVec 32 :=
  (pf 1 : S125000.Idx → BitVec 32) (ValueIdx.ix1 ⟨10 * (i 0).val + s.val, by
    have h1 : (i 0).val < 12500 := (i 0).isLt
    have h2 : s.val < 10 := s.isLt
    omega⟩)

theorem tr_node {F : FTy → Type} (pf : pre0.Contents (Elt F)) (i : grid0.Coords) :
    cc0_transform_0 k0_off1_inb numel1_S1 pf i = ![(nodeWord pf i).toNat, 0, 0] := by
  have hi : (i 0).val < 12500 := (i 0).isLt
  have e : (BitVec.ofNat 32 (i 0).val).toNat = (i 0).val := by rw [BitVec.toNat_ofNat]; omega
  unfold cc0_transform_0 nodeWord
  funext d
  match d with
  | ⟨0, _⟩ =>
    show ((pf 0 : S12500.Idx → BitVec 32) _).toNat = ((pf 0 : S12500.Idx → BitVec 32) (ValueIdx.ix1 (i 0))).toNat
    refine congrArg (fun x => ((pf 0 : S12500.Idx → BitVec 32) x).toNat) ?_
    funext d'
    match d' with
    | ⟨0, _⟩ => exact Fin.ext (by show (BitVec.ofNat 32 (i 0).val).toNat + 1 * 0 = (i 0).val; omega)
  | ⟨1, _⟩ => rfl
  | ⟨2, _⟩ => rfl

theorem tr_nbrs {F : FTy → Type} (pf : pre0.Contents (Elt F)) (i : grid0.Coords) :
    cc0_transform_1 k0_off2_inb numel1_S1 pf i = ![(nbrWord pf i 0).toNat, 0, 0]
    ∧ cc0_transform_2 k0_off2_inb numel1_S1 pf i = ![(nbrWord pf i 1).toNat, 0, 0]
    ∧ cc0_transform_3 k0_off2_inb numel1_S1 pf i = ![(nbrWord pf i 2).toNat, 0, 0]
    ∧ cc0_transform_4 k0_off2_inb numel1_S1 pf i = ![(nbrWord pf i 3).toNat, 0, 0]
    ∧ cc0_transform_5 k0_off2_inb numel1_S1 pf i = ![(nbrWord pf i 4).toNat, 0, 0]
    ∧ cc0_transform_6 k0_off2_inb numel1_S1 pf i = ![(nbrWord pf i 5).toNat, 0, 0]
    ∧ cc0_transform_7 k0_off2_inb numel1_S1 pf i = ![(nbrWord pf i 6).toNat, 0, 0]
    ∧ cc0_transform_8 k0_off2_inb numel1_S1 pf i = ![(nbrWord pf i 7).toNat, 0, 0]
    ∧ cc0_transform_9 k0_off2_inb numel1_S1 pf i = ![(nbrWord pf i 8).toNat, 0, 0]
    ∧ cc0_transform_10 k0_off2_inb numel1_S1 pf i = ![(nbrWord pf i 9).toNat, 0, 0] := by
  have hi : (i 0).val < 12500 := (i 0).isLt
  unfold cc0_transform_1 cc0_transform_2 cc0_transform_3 cc0_transform_4 cc0_transform_5 cc0_transform_6 cc0_transform_7
    cc0_transform_8 cc0_transform_9 cc0_transform_10 nbrWord
  refine ⟨?_, ?_, ?_, ?_, ?_, ?_, ?_, ?_, ?_, ?_⟩ <;>
  · funext d
    match d with
    | ⟨0, _⟩ =>
      show ((pf 1 : S125000.Idx → BitVec 32) _).toNat = ((pf 1 : S125000.Idx → BitVec 32) _).toNat
      refine congrArg (fun x => ((pf 1 : S125000.Idx → BitVec 32) x).toNat) ?_
      funext d'
      match d' with
      | ⟨0, _⟩ => exact Fin.ext ((Nat.add_zero _).trans (nbr_off (i 0).val hi _ (by decide)))
    | ⟨1, _⟩ => rfl
    | ⟨2, _⟩ => rfl

section Region0

variable (a : (pcfg0 (F := Ideal)).Adm)
variable (V : (c : Dev nD) → (b : Ref sig .tc) → Buf (Elt Ideal) ((c : Thread nD τ).loc b))

theorem index_self (t : Fin (cfg0 a).N) : ((cfg0 a).win 11).index t = ![t.val, 0, 0] := by
  show cc0_transform_11 (grid0.coords t) = _
  unfold cc0_transform_11
  have ht : t.val < 12500 := t.isLt
  have e : (BitVec.ofNat 32 ((grid0.coords t) 0).val).toNat = t.val := by
    rw [coords0_val, BitVec.toNat_ofNat]; omega
  funext d
  match d with
  | ⟨0, _⟩ => exact e
  | ⟨1, _⟩ => rfl
  | ⟨2, _⟩ => rfl

theorem index_mean (t : Fin (cfg0 a).N) : ((cfg0 a).win 12).index t = ![t.val, 0, 0] := index_self a t

theorem flush_self (t : Fin (cfg0 a).N) : ((cfg0 a).win 11).flush t = true := by
  unfold Window.flush
  have hout : ((cfg0 a).win 11).isOut = true := rfl
  have ht : t.val < grid0.N := t.isLt
  rw [hout, Bool.true_and]
  by_cases h : t.val + 1 = grid0.N
  · simp [h]
  · have h' : t.val + 1 < grid0.N := by omega
    rw [Bool.or_eq_true]; right
    rw [decide_eq_true_eq]
    refine ⟨h', fun e => ?_⟩
    rw [index_self, index_self] at e
    have := congrFun e 0
    simp at this

theorem flush_mean (t : Fin (cfg0 a).N) : ((cfg0 a).win 12).flush t = true := flush_self a t

theorem node_lt (i : grid0.Coords) : (nodeWord a.1 i).toNat < 100000 := by
  have hok : ok0 a.1 := a.2
  exact word_lt _ _ (tr_node a.1 i) (hok.1 i).fst

theorem nbr_lt (i : grid0.Coords) (s : Fin 10) : (nbrWord a.1 i s).toNat < 100000 := by
  have hok : ok0 a.1 := a.2
  obtain ⟨-, o1, o2, o3, o4, o5, o6, o7, o8, o9, o10⟩ := hok
  obtain ⟨e1, e2, e3, e4, e5, e6, e7, e8, e9, e10⟩ := tr_nbrs a.1 i
  fin_cases s
  · exact word_lt _ _ e1 (o1 i).fst
  · exact word_lt _ _ e2 (o2 i).fst
  · exact word_lt _ _ e3 (o3 i).fst
  · exact word_lt _ _ e4 (o4 i).fst
  · exact word_lt _ _ e5 (o5 i).fst
  · exact word_lt _ _ e6 (o6 i).fst
  · exact word_lt _ _ e7 (o7 i).fst
  · exact word_lt _ _ e8 (o8 i).fst
  · exact word_lt _ _ e9 (o9 i).fst
  · exact word_lt _ _ e10 (o10 i).fst

abbrev rowAt (c : Dev nD) (w : BitVec 32) (y : S1x1x256.Idx) : EReal :=
  (V c main_v0 : S100000x1x256.Idx → EReal) (ValueIdx.ix3 (Cert.Spec.rowOf w) (y 1) (y 2))

theorem rowRead (c : Dev nD) {z : S100000x1x256.Idx} {idx : Fin 3 → Nat} (wd : BitVec 32) (hw : wd.toNat < 100000) (y : S1x1x256.Idx)
    (hidx : idx = ![wd.toNat, 0, 0]) (hz : ∀ d : Fin 3, (z d).val = idx d * S1x1x256.size d + 1 * (y d).val) :
    (V c main_v0 : S100000x1x256.Idx → EReal) z = rowAt V c wd y :=
  congrArg (V c main_v0 : S100000x1x256.Idx → EReal) (row_idx z idx wd hw y hidx hz)

/-- Every input block is the feature row its table word names. -/
theorem iblk_rows (c : Dev nD) (t : Fin (cfg0 a).N) (y : S1x1x256.Idx) :
    (iblk0 a V c 0 t : S1x1x256.Idx → EReal) y = rowAt V c (nodeWord a.1 (grid0.coords t)) y
    ∧ (iblk0 a V c 1 t : S1x1x256.Idx → EReal) y = rowAt V c (nbrWord a.1 (grid0.coords t) 0) y
    ∧ (iblk0 a V c 2 t : S1x1x256.Idx → EReal) y = rowAt V c (nbrWord a.1 (grid0.coords t) 1) y
    ∧ (iblk0 a V c 3 t : S1x1x256.Idx → EReal) y = rowAt V c (nbrWord a.1 (grid0.coords t) 2) y
    ∧ (iblk0 a V c 4 t : S1x1x256.Idx → EReal) y = rowAt V c (nbrWord a.1 (grid0.coords t) 3) y
    ∧ (iblk0 a V c 5 t : S1x1x256.Idx → EReal) y = rowAt V c (nbrWord a.1 (grid0.coords t) 4) y
    ∧ (iblk0 a V c 6 t : S1x1x256.Idx → EReal) y = rowAt V c (nbrWord a.1 (grid0.coords t) 5) y
    ∧ (iblk0 a V c 7 t : S1x1x256.Idx → EReal) y = rowAt V c (nbrWord a.1 (grid0.coords t) 6) y
    ∧ (iblk0 a V c 8 t : S1x1x256.Idx → EReal) y = rowAt V c (nbrWord a.1 (grid0.coords t) 7) y
    ∧ (iblk0 a V c 9 t : S1x1x256.Idx → EReal) y = rowAt V c (nbrWord a.1 (grid0.coords t) 8) y
    ∧ (iblk0 a V c 10 t : S1x1x256.Idx → EReal) y = rowAt V c (nbrWord a.1 (grid0.coords t) 9) y := by
  obtain ⟨e1, e2, e3, e4, e5, e6, e7, e8, e9, e10⟩ := tr_nbrs a.1 (grid0.coords t)
  exact ⟨rowRead V c _ (node_lt a _) y (tr_node a.1 _) (fun d => rfl),
    rowRead V c _ (nbr_lt a _ 0) y e1 (fun d => rfl), rowRead V c _ (nbr_lt a _ 1) y e2 (fun d => rfl),
    rowRead V c _ (nbr_lt a _ 2) y e3 (fun d => rfl), rowRead V c _ (nbr_lt a _ 3) y e4 (fun d => rfl),
    rowRead V c _ (nbr_lt a _ 4) y e5 (fun d => rfl), rowRead V c _ (nbr_lt a _ 5) y e6 (fun d => rfl),
    rowRead V c _ (nbr_lt a _ 6) y e7 (fun d => rfl), rowRead V c _ (nbr_lt a _ 7) y e8 (fun d => rfl),
    rowRead V c _ (nbr_lt a _ 8) y e9 (fun d => rfl), rowRead V c _ (nbr_lt a _ 9) y e10 (fun d => rfl)⟩

def selfArr (c : Dev nD) : S12500x1x256.Idx → EReal := fun j =>
  (V c main_v0 : S100000x1x256.Idx → EReal)
    (ValueIdx.ix3 (Cert.Spec.rowOf ((a.1 0 : S12500.Idx → BitVec 32) (ValueIdx.ix1 (j 0)))) (j 1) (j 2))

def meanArr (c : Dev nD) : S12500x1x256.Idx → EReal := fun j =>
  ((∑ s : Fin 10, (V c main_v0 : S100000x1x256.Idx → EReal)
    (ValueIdx.ix3 (Cert.Spec.rowOf ((a.1 1 : S125000.Idx → BitVec 32) (ValueIdx.ix1 ⟨10 * (j 0).val + s.val, by
      have h1 : (j 0).val < 12500 := (j 0).isLt
      have h2 : s.val < 10 := s.isLt
      omega⟩))) (j 1) (j 2))) : EReal) * ((1 / 10 : ℝ) : EReal)

theorem nodeWord_at (t : Fin (cfg0 a).N) :
    nodeWord a.1 (grid0.coords t) = (a.1 0 : S12500.Idx → BitVec 32) (ValueIdx.ix1 (⟨t.val, t.isLt⟩ : Fin 12500)) := by
  unfold nodeWord
  refine congrArg (a.1 0 : S12500.Idx → BitVec 32) ?_
  funext d
  match d with
  | ⟨0, _⟩ => exact Fin.ext (coords0_val t)

theorem nbrWord_at (t : Fin (cfg0 a).N) (s : Fin 10) :
    nbrWord a.1 (grid0.coords t) s = (a.1 1 : S125000.Idx → BitVec 32) (ValueIdx.ix1 ⟨10 * t.val + s.val, by
      have h1 : t.val < 12500 := t.isLt
      have h2 : s.val < 10 := s.isLt
      omega⟩) := by
  unfold nbrWord
  refine congrArg (a.1 1 : S125000.Idx → BitVec 32) ?_
  funext d
  match d with
  | ⟨0, _⟩ => exact Fin.ext (by show 10 * ((grid0.coords t) 0).val + s.val = 10 * t.val + s.val; rw [coords0_val])

theorem flushed_self (c : Dev nD) (t : Fin (cfg0 a).N) :
    (dat0 a V c).flushed 11 t = (((cfg0 a).win 11).blk t).view.read (Elt Ideal) (selfArr a V c) := by
  show ((cfg0 a).win 11).cut (grid0.coords t) ((dat0 a V c).after 11 t) = _
  have h := outSelf_eq (iblk0 a V c 0 t)
  rw [after0_11, h]
  refine funext fun (y : S1x1x256.Idx) => ?_
  refine (iblk_rows a V c t y).1.trans ?_
  show _ = selfArr a V c ((((cfg0 a).win 11).blk t).view.emb y)
  rw [out_idx ((((cfg0 a).win 11).blk t).view.emb y) _ ⟨t.val, t.isLt⟩ y (index_self a t) (fun d => rfl), nodeWord_at]
  rfl

theorem flushed_mean (c : Dev nD) (t : Fin (cfg0 a).N) :
    (dat0 a V c).flushed 12 t = (((cfg0 a).win 12).blk t).view.read (Elt Ideal) (meanArr a V c) := by
  show ((cfg0 a).win 12).cut (grid0.coords t) ((dat0 a V c).after 12 t) = _
  have h := outMean_eq (iblk0 a V c 1 t) (iblk0 a V c 2 t) (iblk0 a V c 3 t) (iblk0 a V c 4 t) (iblk0 a V c 5 t)
    (iblk0 a V c 6 t) (iblk0 a V c 7 t) (iblk0 a V c 8 t) (iblk0 a V c 9 t) (iblk0 a V c 10 t)
  rw [after0_12, h]
  refine funext fun (y : S1x1x256.Idx) => ?_
  obtain ⟨-, r1, r2, r3, r4, r5, r6, r7, r8, r9, r10⟩ := iblk_rows a V c t y
  refine (mean_congr r1 r2 r3 r4 r5 r6 r7 r8 r9 r10 _).trans ?_
  show _ = meanArr a V c ((((cfg0 a).win 12).blk t).view.emb y)
  rw [out_idx ((((cfg0 a).win 12).blk t).view.emb y) _ ⟨t.val, t.isLt⟩ y (index_mean a t) (fun d => rfl)]
  unfold meanArr
  rw [sum_fin10]
  simp only [nbrWord_at]

theorem cover_self (i : S12500x1x256.Idx) :
    ∃ t : Fin (cfg0 a).N, ((cfg0 a).win 11).flush t = true ∧ i ∈ (((cfg0 a).win 11).blk t).view.set := by
  have h0 : (i 0).val < 12500 := (i 0).isLt
  let t : Fin (cfg0 a).N := ⟨(i 0).val, h0⟩
  let y : S1x1x256.Idx := ValueIdx.ix3 (0 : Fin 1) (i 1) (i 2)
  have e : (((cfg0 a).win 11).blk t).view.emb y = i :=
    (out_idx _ _ ⟨(i 0).val, h0⟩ y (index_self a t) (fun d => rfl)).trans (ValueIdx.eq_ix3 i).symm
  have hm := (((cfg0 a).win 11).blk t).view.emb_mem_set y
  rw [e] at hm
  exact ⟨t, flush_self a t, hm⟩

theorem cover_mean (i : S12500x1x256.Idx) :
    ∃ t : Fin (cfg0 a).N, ((cfg0 a).win 12).flush t = true ∧ i ∈ (((cfg0 a).win 12).blk t).view.set := cover_self a i

theorem out11_val0 (c : Dev nD) (X : S100000x1x256.Idx → EReal) (hX : V c main_v0 = X) (ids : S12500.Idx → BitVec 32) (hids : a.1 0 = ids) :
    (dat0 (F := Ideal) a V c).arrAt 11 (cfg0 a).N
      = (fun j : S12500x1x256.Idx => X (ValueIdx.ix3 (Cert.Spec.rowOf (ids (ValueIdx.ix1 (j 0)))) (j 1) (j 2))) := by
  subst hX hids
  exact (dat0 a V c).arrAt_eq_of_cover 11 (selfArr a V c) (fun t _ => flushed_self a V c t) (cover_self a)

theorem out12_val0 (c : Dev nD) (X : S100000x1x256.Idx → EReal) (hX : V c main_v0 = X) (ids : S125000.Idx → BitVec 32) (hids : a.1 1 = ids) :
    (dat0 (F := Ideal) a V c).arrAt 12 (cfg0 a).N
      = (fun j : S12500x1x256.Idx => (∑ s : Fin 10, X (ValueIdx.ix3 (Cert.Spec.rowOf (ids (ValueIdx.ix1 ⟨10 * (j 0).val + s.val, by
          have h1 : (j 0).val < 12500 := (j 0).isLt
          have h2 : s.val < 10 := s.isLt
          omega⟩))) (j 1) (j 2))) * ((1 / 10 : ℝ) : EReal)) := by
  subst hX hids
  exact (dat0 a V c).arrAt_eq_of_cover 12 (meanArr a V c) (fun t _ => flushed_mean a V c t) (cover_mean a)

end Region0

end Cert.KernelIdeal.Hand

end
-- ==== Proof.G1V.lean ====
import proofs.«412514_j386547056896_2_alg».proof.Proof.G1B
import proofs.«412514_j386547056896_2_alg».proof.Proof.GV

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open scoped BigOperators

theorem coords0_val_r1 (t : Fin grid1.N) : ((grid1.coords t) 0).val = t.val := by
  have ht : t.val < 12500 := t.isLt
  show t.val / grid1.stride 0 % 12500 = t.val
  have hs : grid1.stride 0 = 1 := by decide
  rw [hs, Nat.div_one, Nat.mod_eq_of_lt ht]

def nodeWord_r1 {F : FTy → Type} (pf : pre1.Contents (Elt F)) (i : grid1.Coords) : BitVec 32 :=
  (pf 0 : S12500.Idx → BitVec 32) (ValueIdx.ix1 (i 0))

def nbrWord_r1 {F : FTy → Type} (pf : pre1.Contents (Elt F)) (i : grid1.Coords) (s : Fin 10) : BitVec 32 :=
  (pf 1 : S125000.Idx → BitVec 32) (ValueIdx.ix1 ⟨10 * (i 0).val + s.val, by
    have h1 : (i 0).val < 12500 := (i 0).isLt
    have h2 : s.val < 10 := s.isLt
    omega⟩)

theorem tr_node_r1 {F : FTy → Type} (pf : pre1.Contents (Elt F)) (i : grid1.Coords) :
    cc1_transform_0 k0_off1_inb numel1_S1 pf i = ![(nodeWord_r1 pf i).toNat, 0, 0] := by
  have hi : (i 0).val < 12500 := (i 0).isLt
  have e : (BitVec.ofNat 32 (i 0).val).toNat = (i 0).val := by rw [BitVec.toNat_ofNat]; omega
  unfold cc1_transform_0 nodeWord_r1
  funext d
  match d with
  | ⟨0, _⟩ =>
    show ((pf 0 : S12500.Idx → BitVec 32) _).toNat = ((pf 0 : S12500.Idx → BitVec 32) (ValueIdx.ix1 (i 0))).toNat
    refine congrArg (fun x => ((pf 0 : S12500.Idx → BitVec 32) x).toNat) ?_
    funext d'
    match d' with
    | ⟨0, _⟩ => exact Fin.ext (by show (BitVec.ofNat 32 (i 0).val).toNat + 1 * 0 = (i 0).val; omega)
  | ⟨1, _⟩ => rfl
  | ⟨2, _⟩ => rfl

theorem tr_nbrs_r1 {F : FTy → Type} (pf : pre1.Contents (Elt F)) (i : grid1.Coords) :
    cc1_transform_1 k0_off2_inb numel1_S1 pf i = ![(nbrWord_r1 pf i 0).toNat, 0, 0]
    ∧ cc1_transform_2 k0_off2_inb numel1_S1 pf i = ![(nbrWord_r1 pf i 1).toNat, 0, 0]
    ∧ cc1_transform_3 k0_off2_inb numel1_S1 pf i = ![(nbrWord_r1 pf i 2).toNat, 0, 0]
    ∧ cc1_transform_4 k0_off2_inb numel1_S1 pf i = ![(nbrWord_r1 pf i 3).toNat, 0, 0]
    ∧ cc1_transform_5 k0_off2_inb numel1_S1 pf i = ![(nbrWord_r1 pf i 4).toNat, 0, 0]
    ∧ cc1_transform_6 k0_off2_inb numel1_S1 pf i = ![(nbrWord_r1 pf i 5).toNat, 0, 0]
    ∧ cc1_transform_7 k0_off2_inb numel1_S1 pf i = ![(nbrWord_r1 pf i 6).toNat, 0, 0]
    ∧ cc1_transform_8 k0_off2_inb numel1_S1 pf i = ![(nbrWord_r1 pf i 7).toNat, 0, 0]
    ∧ cc1_transform_9 k0_off2_inb numel1_S1 pf i = ![(nbrWord_r1 pf i 8).toNat, 0, 0]
    ∧ cc1_transform_10 k0_off2_inb numel1_S1 pf i = ![(nbrWord_r1 pf i 9).toNat, 0, 0] := by
  have hi : (i 0).val < 12500 := (i 0).isLt
  unfold cc1_transform_1 cc1_transform_2 cc1_transform_3 cc1_transform_4 cc1_transform_5 cc1_transform_6 cc1_transform_7
    cc1_transform_8 cc1_transform_9 cc1_transform_10 nbrWord_r1
  refine ⟨?_, ?_, ?_, ?_, ?_, ?_, ?_, ?_, ?_, ?_⟩ <;>
  · funext d
    match d with
    | ⟨0, _⟩ =>
      show ((pf 1 : S125000.Idx → BitVec 32) _).toNat = ((pf 1 : S125000.Idx → BitVec 32) _).toNat
      refine congrArg (fun x => ((pf 1 : S125000.Idx → BitVec 32) x).toNat) ?_
      funext d'
      match d' with
      | ⟨0, _⟩ => exact Fin.ext ((Nat.add_zero _).trans (nbr_off (i 0).val hi _ (by decide)))
    | ⟨1, _⟩ => rfl
    | ⟨2, _⟩ => rfl

section Region1

variable (a : (pcfg1 (F := Ideal)).Adm)
variable (V : (c : Dev nD) → (b : Ref sig .tc) → Buf (Elt Ideal) ((c : Thread nD τ).loc b))

theorem index_self_r1 (t : Fin (cfg1 a).N) : ((cfg1 a).win 11).index t = ![t.val, 0, 0] := by
  show cc1_transform_11 (grid1.coords t) = _
  unfold cc1_transform_11
  have ht : t.val < 12500 := t.isLt
  have e : (BitVec.ofNat 32 ((grid1.coords t) 0).val).toNat = t.val := by
    rw [coords0_val_r1, BitVec.toNat_ofNat]; omega
  funext d
  match d with
  | ⟨0, _⟩ => exact e
  | ⟨1, _⟩ => rfl
  | ⟨2, _⟩ => rfl

theorem index_mean_r1 (t : Fin (cfg1 a).N) : ((cfg1 a).win 12).index t = ![t.val, 0, 0] := index_self_r1 a t

theorem flush_self_r1 (t : Fin (cfg1 a).N) : ((cfg1 a).win 11).flush t = true := by
  unfold Window.flush
  have hout : ((cfg1 a).win 11).isOut = true := rfl
  have ht : t.val < grid1.N := t.isLt
  rw [hout, Bool.true_and]
  by_cases h : t.val + 1 = grid1.N
  · simp [h]
  · have h' : t.val + 1 < grid1.N := by omega
    rw [Bool.or_eq_true]; right
    rw [decide_eq_true_eq]
    refine ⟨h', fun e => ?_⟩
    rw [index_self_r1, index_self_r1] at e
    have := congrFun e 0
    simp at this

theorem flush_mean_r1 (t : Fin (cfg1 a).N) : ((cfg1 a).win 12).flush t = true := flush_self_r1 a t

theorem node_lt_r1 (i : grid1.Coords) : (nodeWord_r1 a.1 i).toNat < 100000 := by
  have hok : ok1 a.1 := a.2
  exact word_lt _ _ (tr_node_r1 a.1 i) (hok.1 i).fst

theorem nbr_lt_r1 (i : grid1.Coords) (s : Fin 10) : (nbrWord_r1 a.1 i s).toNat < 100000 := by
  have hok : ok1 a.1 := a.2
  obtain ⟨-, o1, o2, o3, o4, o5, o6, o7, o8, o9, o10⟩ := hok
  obtain ⟨e1, e2, e3, e4, e5, e6, e7, e8, e9, e10⟩ := tr_nbrs_r1 a.1 i
  fin_cases s
  · exact word_lt _ _ e1 (o1 i).fst
  · exact word_lt _ _ e2 (o2 i).fst
  · exact word_lt _ _ e3 (o3 i).fst
  · exact word_lt _ _ e4 (o4 i).fst
  · exact word_lt _ _ e5 (o5 i).fst
  · exact word_lt _ _ e6 (o6 i).fst
  · exact word_lt _ _ e7 (o7 i).fst
  · exact word_lt _ _ e8 (o8 i).fst
  · exact word_lt _ _ e9 (o9 i).fst
  · exact word_lt _ _ e10 (o10 i).fst

abbrev rowAt_r1 (c : Dev nD) (w : BitVec 32) (y : S1x1x256.Idx) : EReal :=
  (V c main_v0 : S100000x1x256.Idx → EReal) (ValueIdx.ix3 (Cert.Spec.rowOf w) (y 1) (y 2))

theorem rowRead_r1 (c : Dev nD) {z : S100000x1x256.Idx} {idx : Fin 3 → Nat} (wd : BitVec 32) (hw : wd.toNat < 100000) (y : S1x1x256.Idx)
    (hidx : idx = ![wd.toNat, 0, 0]) (hz : ∀ d : Fin 3, (z d).val = idx d * S1x1x256.size d + 1 * (y d).val) :
    (V c main_v0 : S100000x1x256.Idx → EReal) z = rowAt_r1 V c wd y :=
  congrArg (V c main_v0 : S100000x1x256.Idx → EReal) (row_idx z idx wd hw y hidx hz)

/-- Every input block is the feature row its table word names. -/
theorem iblk_rows_r1 (c : Dev nD) (t : Fin (cfg1 a).N) (y : S1x1x256.Idx) :
    (iblk1 a V c 0 t : S1x1x256.Idx → EReal) y = rowAt_r1 V c (nodeWord_r1 a.1 (grid1.coords t)) y
    ∧ (iblk1 a V c 1 t : S1x1x256.Idx → EReal) y = rowAt_r1 V c (nbrWord_r1 a.1 (grid1.coords t) 0) y
    ∧ (iblk1 a V c 2 t : S1x1x256.Idx → EReal) y = rowAt_r1 V c (nbrWord_r1 a.1 (grid1.coords t) 1) y
    ∧ (iblk1 a V c 3 t : S1x1x256.Idx → EReal) y = rowAt_r1 V c (nbrWord_r1 a.1 (grid1.coords t) 2) y
    ∧ (iblk1 a V c 4 t : S1x1x256.Idx → EReal) y = rowAt_r1 V c (nbrWord_r1 a.1 (grid1.coords t) 3) y
    ∧ (iblk1 a V c 5 t : S1x1x256.Idx → EReal) y = rowAt_r1 V c (nbrWord_r1 a.1 (grid1.coords t) 4) y
    ∧ (iblk1 a V c 6 t : S1x1x256.Idx → EReal) y = rowAt_r1 V c (nbrWord_r1 a.1 (grid1.coords t) 5) y
    ∧ (iblk1 a V c 7 t : S1x1x256.Idx → EReal) y = rowAt_r1 V c (nbrWord_r1 a.1 (grid1.coords t) 6) y
    ∧ (iblk1 a V c 8 t : S1x1x256.Idx → EReal) y = rowAt_r1 V c (nbrWord_r1 a.1 (grid1.coords t) 7) y
    ∧ (iblk1 a V c 9 t : S1x1x256.Idx → EReal) y = rowAt_r1 V c (nbrWord_r1 a.1 (grid1.coords t) 8) y
    ∧ (iblk1 a V c 10 t : S1x1x256.Idx → EReal) y = rowAt_r1 V c (nbrWord_r1 a.1 (grid1.coords t) 9) y := by
  obtain ⟨e1, e2, e3, e4, e5, e6, e7, e8, e9, e10⟩ := tr_nbrs_r1 a.1 (grid1.coords t)
  exact ⟨rowRead_r1 V c _ (node_lt_r1 a _) y (tr_node_r1 a.1 _) (fun d => rfl),
    rowRead_r1 V c _ (nbr_lt_r1 a _ 0) y e1 (fun d => rfl), rowRead_r1 V c _ (nbr_lt_r1 a _ 1) y e2 (fun d => rfl),
    rowRead_r1 V c _ (nbr_lt_r1 a _ 2) y e3 (fun d => rfl), rowRead_r1 V c _ (nbr_lt_r1 a _ 3) y e4 (fun d => rfl),
    rowRead_r1 V c _ (nbr_lt_r1 a _ 4) y e5 (fun d => rfl), rowRead_r1 V c _ (nbr_lt_r1 a _ 5) y e6 (fun d => rfl),
    rowRead_r1 V c _ (nbr_lt_r1 a _ 6) y e7 (fun d => rfl), rowRead_r1 V c _ (nbr_lt_r1 a _ 7) y e8 (fun d => rfl),
    rowRead_r1 V c _ (nbr_lt_r1 a _ 8) y e9 (fun d => rfl), rowRead_r1 V c _ (nbr_lt_r1 a _ 9) y e10 (fun d => rfl)⟩

def selfArr_r1 (c : Dev nD) : S12500x1x256.Idx → EReal := fun j =>
  (V c main_v0 : S100000x1x256.Idx → EReal)
    (ValueIdx.ix3 (Cert.Spec.rowOf ((a.1 0 : S12500.Idx → BitVec 32) (ValueIdx.ix1 (j 0)))) (j 1) (j 2))

def meanArr_r1 (c : Dev nD) : S12500x1x256.Idx → EReal := fun j =>
  ((∑ s : Fin 10, (V c main_v0 : S100000x1x256.Idx → EReal)
    (ValueIdx.ix3 (Cert.Spec.rowOf ((a.1 1 : S125000.Idx → BitVec 32) (ValueIdx.ix1 ⟨10 * (j 0).val + s.val, by
      have h1 : (j 0).val < 12500 := (j 0).isLt
      have h2 : s.val < 10 := s.isLt
      omega⟩))) (j 1) (j 2))) : EReal) * ((1 / 10 : ℝ) : EReal)

theorem nodeWord_at_r1 (t : Fin (cfg1 a).N) :
    nodeWord_r1 a.1 (grid1.coords t) = (a.1 0 : S12500.Idx → BitVec 32) (ValueIdx.ix1 (⟨t.val, t.isLt⟩ : Fin 12500)) := by
  unfold nodeWord_r1
  refine congrArg (a.1 0 : S12500.Idx → BitVec 32) ?_
  funext d
  match d with
  | ⟨0, _⟩ => exact Fin.ext (coords0_val_r1 t)

theorem nbrWord_at_r1 (t : Fin (cfg1 a).N) (s : Fin 10) :
    nbrWord_r1 a.1 (grid1.coords t) s = (a.1 1 : S125000.Idx → BitVec 32) (ValueIdx.ix1 ⟨10 * t.val + s.val, by
      have h1 : t.val < 12500 := t.isLt
      have h2 : s.val < 10 := s.isLt
      omega⟩) := by
  unfold nbrWord_r1
  refine congrArg (a.1 1 : S125000.Idx → BitVec 32) ?_
  funext d
  match d with
  | ⟨0, _⟩ => exact Fin.ext (by show 10 * ((grid1.coords t) 0).val + s.val = 10 * t.val + s.val; rw [coords0_val_r1])

theorem flushed_self_r1 (c : Dev nD) (t : Fin (cfg1 a).N) :
    (dat1 a V c).flushed 11 t = (((cfg1 a).win 11).blk t).view.read (Elt Ideal) (selfArr_r1 a V c) := by
  show ((cfg1 a).win 11).cut (grid1.coords t) ((dat1 a V c).after 11 t) = _
  have h := outSelf_eq (iblk1 a V c 0 t)
  rw [after1_11, h]
  refine funext fun (y : S1x1x256.Idx) => ?_
  refine (iblk_rows_r1 a V c t y).1.trans ?_
  show _ = selfArr_r1 a V c ((((cfg1 a).win 11).blk t).view.emb y)
  rw [out_idx ((((cfg1 a).win 11).blk t).view.emb y) _ ⟨t.val, t.isLt⟩ y (index_self_r1 a t) (fun d => rfl), nodeWord_at_r1]
  rfl

theorem flushed_mean_r1 (c : Dev nD) (t : Fin (cfg1 a).N) :
    (dat1 a V c).flushed 12 t = (((cfg1 a).win 12).blk t).view.read (Elt Ideal) (meanArr_r1 a V c) := by
  show ((cfg1 a).win 12).cut (grid1.coords t) ((dat1 a V c).after 12 t) = _
  have h := outMean_eq (iblk1 a V c 1 t) (iblk1 a V c 2 t) (iblk1 a V c 3 t) (iblk1 a V c 4 t) (iblk1 a V c 5 t)
    (iblk1 a V c 6 t) (iblk1 a V c 7 t) (iblk1 a V c 8 t) (iblk1 a V c 9 t) (iblk1 a V c 10 t)
  rw [after1_12, h]
  refine funext fun (y : S1x1x256.Idx) => ?_
  obtain ⟨-, r1, r2, r3, r4, r5, r6, r7, r8, r9, r10⟩ := iblk_rows_r1 a V c t y
  refine (mean_congr r1 r2 r3 r4 r5 r6 r7 r8 r9 r10 _).trans ?_
  show _ = meanArr_r1 a V c ((((cfg1 a).win 12).blk t).view.emb y)
  rw [out_idx ((((cfg1 a).win 12).blk t).view.emb y) _ ⟨t.val, t.isLt⟩ y (index_mean_r1 a t) (fun d => rfl)]
  unfold meanArr_r1
  rw [sum_fin10]
  simp only [nbrWord_at_r1]

theorem cover_self_r1 (i : S12500x1x256.Idx) :
    ∃ t : Fin (cfg1 a).N, ((cfg1 a).win 11).flush t = true ∧ i ∈ (((cfg1 a).win 11).blk t).view.set := by
  have h0 : (i 0).val < 12500 := (i 0).isLt
  let t : Fin (cfg1 a).N := ⟨(i 0).val, h0⟩
  let y : S1x1x256.Idx := ValueIdx.ix3 (0 : Fin 1) (i 1) (i 2)
  have e : (((cfg1 a).win 11).blk t).view.emb y = i :=
    (out_idx _ _ ⟨(i 0).val, h0⟩ y (index_self_r1 a t) (fun d => rfl)).trans (ValueIdx.eq_ix3 i).symm
  have hm := (((cfg1 a).win 11).blk t).view.emb_mem_set y
  rw [e] at hm
  exact ⟨t, flush_self_r1 a t, hm⟩

theorem cover_mean_r1 (i : S12500x1x256.Idx) :
    ∃ t : Fin (cfg1 a).N, ((cfg1 a).win 12).flush t = true ∧ i ∈ (((cfg1 a).win 12).blk t).view.set := cover_self_r1 a i

theorem out11_val1 (c : Dev nD) (X : S100000x1x256.Idx → EReal) (hX : V c main_v0 = X) (ids : S12500.Idx → BitVec 32) (hids : a.1 0 = ids) :
    (dat1 (F := Ideal) a V c).arrAt 11 (cfg1 a).N
      = (fun j : S12500x1x256.Idx => X (ValueIdx.ix3 (Cert.Spec.rowOf (ids (ValueIdx.ix1 (j 0)))) (j 1) (j 2))) := by
  subst hX hids
  exact (dat1 a V c).arrAt_eq_of_cover 11 (selfArr_r1 a V c) (fun t _ => flushed_self_r1 a V c t) (cover_self_r1 a)

theorem out12_val1 (c : Dev nD) (X : S100000x1x256.Idx → EReal) (hX : V c main_v0 = X) (ids : S125000.Idx → BitVec 32) (hids : a.1 1 = ids) :
    (dat1 (F := Ideal) a V c).arrAt 12 (cfg1 a).N
      = (fun j : S12500x1x256.Idx => (∑ s : Fin 10, X (ValueIdx.ix3 (Cert.Spec.rowOf (ids (ValueIdx.ix1 ⟨10 * (j 0).val + s.val, by
          have h1 : (j 0).val < 12500 := (j 0).isLt
          have h2 : s.val < 10 := s.isLt
          omega⟩))) (j 1) (j 2))) * ((1 / 10 : ℝ) : EReal)) := by
  subst hX hids
  exact (dat1 a V c).arrAt_eq_of_cover 12 (meanArr_r1 a V c) (fun t _ => flushed_mean_r1 a V c t) (cover_mean_r1 a)

end Region1

end Cert.KernelIdeal.Hand

end
-- ==== Proof.G2V.lean ====
import proofs.«412514_j386547056896_2_alg».proof.Proof.G2B
import proofs.«412514_j386547056896_2_alg».proof.Proof.GV

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open scoped BigOperators

theorem coords0_val_r2 (t : Fin grid2.N) : ((grid2.coords t) 0).val = t.val := by
  have ht : t.val < 12500 := t.isLt
  show t.val / grid2.stride 0 % 12500 = t.val
  have hs : grid2.stride 0 = 1 := by decide
  rw [hs, Nat.div_one, Nat.mod_eq_of_lt ht]

def nodeWord_r2 {F : FTy → Type} (pf : pre2.Contents (Elt F)) (i : grid2.Coords) : BitVec 32 :=
  (pf 0 : S12500.Idx → BitVec 32) (ValueIdx.ix1 (i 0))

def nbrWord_r2 {F : FTy → Type} (pf : pre2.Contents (Elt F)) (i : grid2.Coords) (s : Fin 10) : BitVec 32 :=
  (pf 1 : S125000.Idx → BitVec 32) (ValueIdx.ix1 ⟨10 * (i 0).val + s.val, by
    have h1 : (i 0).val < 12500 := (i 0).isLt
    have h2 : s.val < 10 := s.isLt
    omega⟩)

theorem tr_node_r2 {F : FTy → Type} (pf : pre2.Contents (Elt F)) (i : grid2.Coords) :
    cc2_transform_0 k0_off1_inb numel1_S1 pf i = ![(nodeWord_r2 pf i).toNat, 0, 0] := by
  have hi : (i 0).val < 12500 := (i 0).isLt
  have e : (BitVec.ofNat 32 (i 0).val).toNat = (i 0).val := by rw [BitVec.toNat_ofNat]; omega
  unfold cc2_transform_0 nodeWord_r2
  funext d
  match d with
  | ⟨0, _⟩ =>
    show ((pf 0 : S12500.Idx → BitVec 32) _).toNat = ((pf 0 : S12500.Idx → BitVec 32) (ValueIdx.ix1 (i 0))).toNat
    refine congrArg (fun x => ((pf 0 : S12500.Idx → BitVec 32) x).toNat) ?_
    funext d'
    match d' with
    | ⟨0, _⟩ => exact Fin.ext (by show (BitVec.ofNat 32 (i 0).val).toNat + 1 * 0 = (i 0).val; omega)
  | ⟨1, _⟩ => rfl
  | ⟨2, _⟩ => rfl

theorem tr_nbrs_r2 {F : FTy → Type} (pf : pre2.Contents (Elt F)) (i : grid2.Coords) :
    cc2_transform_1 k0_off2_inb numel1_S1 pf i = ![(nbrWord_r2 pf i 0).toNat, 0, 0]
    ∧ cc2_transform_2 k0_off2_inb numel1_S1 pf i = ![(nbrWord_r2 pf i 1).toNat, 0, 0]
    ∧ cc2_transform_3 k0_off2_inb numel1_S1 pf i = ![(nbrWord_r2 pf i 2).toNat, 0, 0]
    ∧ cc2_transform_4 k0_off2_inb numel1_S1 pf i = ![(nbrWord_r2 pf i 3).toNat, 0, 0]
    ∧ cc2_transform_5 k0_off2_inb numel1_S1 pf i = ![(nbrWord_r2 pf i 4).toNat, 0, 0]
    ∧ cc2_transform_6 k0_off2_inb numel1_S1 pf i = ![(nbrWord_r2 pf i 5).toNat, 0, 0]
    ∧ cc2_transform_7 k0_off2_inb numel1_S1 pf i = ![(nbrWord_r2 pf i 6).toNat, 0, 0]
    ∧ cc2_transform_8 k0_off2_inb numel1_S1 pf i = ![(nbrWord_r2 pf i 7).toNat, 0, 0]
    ∧ cc2_transform_9 k0_off2_inb numel1_S1 pf i = ![(nbrWord_r2 pf i 8).toNat, 0, 0]
    ∧ cc2_transform_10 k0_off2_inb numel1_S1 pf i = ![(nbrWord_r2 pf i 9).toNat, 0, 0] := by
  have hi : (i 0).val < 12500 := (i 0).isLt
  unfold cc2_transform_1 cc2_transform_2 cc2_transform_3 cc2_transform_4 cc2_transform_5 cc2_transform_6 cc2_transform_7
    cc2_transform_8 cc2_transform_9 cc2_transform_10 nbrWord_r2
  refine ⟨?_, ?_, ?_, ?_, ?_, ?_, ?_, ?_, ?_, ?_⟩ <;>
  · funext d
    match d with
    | ⟨0, _⟩ =>
      show ((pf 1 : S125000.Idx → BitVec 32) _).toNat = ((pf 1 : S125000.Idx → BitVec 32) _).toNat
      refine congrArg (fun x => ((pf 1 : S125000.Idx → BitVec 32) x).toNat) ?_
      funext d'
      match d' with
      | ⟨0, _⟩ => exact Fin.ext ((Nat.add_zero _).trans (nbr_off (i 0).val hi _ (by decide)))
    | ⟨1, _⟩ => rfl
    | ⟨2, _⟩ => rfl

section Region2

variable (a : (pcfg2 (F := Ideal)).Adm)
variable (V : (c : Dev nD) → (b : Ref sig .tc) → Buf (Elt Ideal) ((c : Thread nD τ).loc b))

theorem index_self_r2 (t : Fin (cfg2 a).N) : ((cfg2 a).win 11).index t = ![t.val, 0, 0] := by
  show cc2_transform_11 (grid2.coords t) = _
  unfold cc2_transform_11
  have ht : t.val < 12500 := t.isLt
  have e : (BitVec.ofNat 32 ((grid2.coords t) 0).val).toNat = t.val := by
    rw [coords0_val_r2, BitVec.toNat_ofNat]; omega
  funext d
  match d with
  | ⟨0, _⟩ => exact e
  | ⟨1, _⟩ => rfl
  | ⟨2, _⟩ => rfl

theorem index_mean_r2 (t : Fin (cfg2 a).N) : ((cfg2 a).win 12).index t = ![t.val, 0, 0] := index_self_r2 a t

theorem flush_self_r2 (t : Fin (cfg2 a).N) : ((cfg2 a).win 11).flush t = true := by
  unfold Window.flush
  have hout : ((cfg2 a).win 11).isOut = true := rfl
  have ht : t.val < grid2.N := t.isLt
  rw [hout, Bool.true_and]
  by_cases h : t.val + 1 = grid2.N
  · simp [h]
  · have h' : t.val + 1 < grid2.N := by omega
    rw [Bool.or_eq_true]; right
    rw [decide_eq_true_eq]
    refine ⟨h', fun e => ?_⟩
    rw [index_self_r2, index_self_r2] at e
    have := congrFun e 0
    simp at this

theorem flush_mean_r2 (t : Fin (cfg2 a).N) : ((cfg2 a).win 12).flush t = true := flush_self_r2 a t

theorem node_lt_r2 (i : grid2.Coords) : (nodeWord_r2 a.1 i).toNat < 100000 := by
  have hok : ok2 a.1 := a.2
  exact word_lt _ _ (tr_node_r2 a.1 i) (hok.1 i).fst

theorem nbr_lt_r2 (i : grid2.Coords) (s : Fin 10) : (nbrWord_r2 a.1 i s).toNat < 100000 := by
  have hok : ok2 a.1 := a.2
  obtain ⟨-, o1, o2, o3, o4, o5, o6, o7, o8, o9, o10⟩ := hok
  obtain ⟨e1, e2, e3, e4, e5, e6, e7, e8, e9, e10⟩ := tr_nbrs_r2 a.1 i
  fin_cases s
  · exact word_lt _ _ e1 (o1 i).fst
  · exact word_lt _ _ e2 (o2 i).fst
  · exact word_lt _ _ e3 (o3 i).fst
  · exact word_lt _ _ e4 (o4 i).fst
  · exact word_lt _ _ e5 (o5 i).fst
  · exact word_lt _ _ e6 (o6 i).fst
  · exact word_lt _ _ e7 (o7 i).fst
  · exact word_lt _ _ e8 (o8 i).fst
  · exact word_lt _ _ e9 (o9 i).fst
  · exact word_lt _ _ e10 (o10 i).fst

abbrev rowAt_r2 (c : Dev nD) (w : BitVec 32) (y : S1x1x256.Idx) : EReal :=
  (V c main_v0 : S100000x1x256.Idx → EReal) (ValueIdx.ix3 (Cert.Spec.rowOf w) (y 1) (y 2))

theorem rowRead_r2 (c : Dev nD) {z : S100000x1x256.Idx} {idx : Fin 3 → Nat} (wd : BitVec 32) (hw : wd.toNat < 100000) (y : S1x1x256.Idx)
    (hidx : idx = ![wd.toNat, 0, 0]) (hz : ∀ d : Fin 3, (z d).val = idx d * S1x1x256.size d + 1 * (y d).val) :
    (V c main_v0 : S100000x1x256.Idx → EReal) z = rowAt_r2 V c wd y :=
  congrArg (V c main_v0 : S100000x1x256.Idx → EReal) (row_idx z idx wd hw y hidx hz)

/-- Every input block is the feature row its table word names. -/
theorem iblk_rows_r2 (c : Dev nD) (t : Fin (cfg2 a).N) (y : S1x1x256.Idx) :
    (iblk2 a V c 0 t : S1x1x256.Idx → EReal) y = rowAt_r2 V c (nodeWord_r2 a.1 (grid2.coords t)) y
    ∧ (iblk2 a V c 1 t : S1x1x256.Idx → EReal) y = rowAt_r2 V c (nbrWord_r2 a.1 (grid2.coords t) 0) y
    ∧ (iblk2 a V c 2 t : S1x1x256.Idx → EReal) y = rowAt_r2 V c (nbrWord_r2 a.1 (grid2.coords t) 1) y
    ∧ (iblk2 a V c 3 t : S1x1x256.Idx → EReal) y = rowAt_r2 V c (nbrWord_r2 a.1 (grid2.coords t) 2) y
    ∧ (iblk2 a V c 4 t : S1x1x256.Idx → EReal) y = rowAt_r2 V c (nbrWord_r2 a.1 (grid2.coords t) 3) y
    ∧ (iblk2 a V c 5 t : S1x1x256.Idx → EReal) y = rowAt_r2 V c (nbrWord_r2 a.1 (grid2.coords t) 4) y
    ∧ (iblk2 a V c 6 t : S1x1x256.Idx → EReal) y = rowAt_r2 V c (nbrWord_r2 a.1 (grid2.coords t) 5) y
    ∧ (iblk2 a V c 7 t : S1x1x256.Idx → EReal) y = rowAt_r2 V c (nbrWord_r2 a.1 (grid2.coords t) 6) y
    ∧ (iblk2 a V c 8 t : S1x1x256.Idx → EReal) y = rowAt_r2 V c (nbrWord_r2 a.1 (grid2.coords t) 7) y
    ∧ (iblk2 a V c 9 t : S1x1x256.Idx → EReal) y = rowAt_r2 V c (nbrWord_r2 a.1 (grid2.coords t) 8) y
    ∧ (iblk2 a V c 10 t : S1x1x256.Idx → EReal) y = rowAt_r2 V c (nbrWord_r2 a.1 (grid2.coords t) 9) y := by
  obtain ⟨e1, e2, e3, e4, e5, e6, e7, e8, e9, e10⟩ := tr_nbrs_r2 a.1 (grid2.coords t)
  exact ⟨rowRead_r2 V c _ (node_lt_r2 a _) y (tr_node_r2 a.1 _) (fun d => rfl),
    rowRead_r2 V c _ (nbr_lt_r2 a _ 0) y e1 (fun d => rfl), rowRead_r2 V c _ (nbr_lt_r2 a _ 1) y e2 (fun d => rfl),
    rowRead_r2 V c _ (nbr_lt_r2 a _ 2) y e3 (fun d => rfl), rowRead_r2 V c _ (nbr_lt_r2 a _ 3) y e4 (fun d => rfl),
    rowRead_r2 V c _ (nbr_lt_r2 a _ 4) y e5 (fun d => rfl), rowRead_r2 V c _ (nbr_lt_r2 a _ 5) y e6 (fun d => rfl),
    rowRead_r2 V c _ (nbr_lt_r2 a _ 6) y e7 (fun d => rfl), rowRead_r2 V c _ (nbr_lt_r2 a _ 7) y e8 (fun d => rfl),
    rowRead_r2 V c _ (nbr_lt_r2 a _ 8) y e9 (fun d => rfl), rowRead_r2 V c _ (nbr_lt_r2 a _ 9) y e10 (fun d => rfl)⟩

def selfArr_r2 (c : Dev nD) : S12500x1x256.Idx → EReal := fun j =>
  (V c main_v0 : S100000x1x256.Idx → EReal)
    (ValueIdx.ix3 (Cert.Spec.rowOf ((a.1 0 : S12500.Idx → BitVec 32) (ValueIdx.ix1 (j 0)))) (j 1) (j 2))

def meanArr_r2 (c : Dev nD) : S12500x1x256.Idx → EReal := fun j =>
  ((∑ s : Fin 10, (V c main_v0 : S100000x1x256.Idx → EReal)
    (ValueIdx.ix3 (Cert.Spec.rowOf ((a.1 1 : S125000.Idx → BitVec 32) (ValueIdx.ix1 ⟨10 * (j 0).val + s.val, by
      have h1 : (j 0).val < 12500 := (j 0).isLt
      have h2 : s.val < 10 := s.isLt
      omega⟩))) (j 1) (j 2))) : EReal) * ((1 / 10 : ℝ) : EReal)

theorem nodeWord_at_r2 (t : Fin (cfg2 a).N) :
    nodeWord_r2 a.1 (grid2.coords t) = (a.1 0 : S12500.Idx → BitVec 32) (ValueIdx.ix1 (⟨t.val, t.isLt⟩ : Fin 12500)) := by
  unfold nodeWord_r2
  refine congrArg (a.1 0 : S12500.Idx → BitVec 32) ?_
  funext d
  match d with
  | ⟨0, _⟩ => exact Fin.ext (coords0_val_r2 t)

theorem nbrWord_at_r2 (t : Fin (cfg2 a).N) (s : Fin 10) :
    nbrWord_r2 a.1 (grid2.coords t) s = (a.1 1 : S125000.Idx → BitVec 32) (ValueIdx.ix1 ⟨10 * t.val + s.val, by
      have h1 : t.val < 12500 := t.isLt
      have h2 : s.val < 10 := s.isLt
      omega⟩) := by
  unfold nbrWord_r2
  refine congrArg (a.1 1 : S125000.Idx → BitVec 32) ?_
  funext d
  match d with
  | ⟨0, _⟩ => exact Fin.ext (by show 10 * ((grid2.coords t) 0).val + s.val = 10 * t.val + s.val; rw [coords0_val_r2])

theorem flushed_self_r2 (c : Dev nD) (t : Fin (cfg2 a).N) :
    (dat2 a V c).flushed 11 t = (((cfg2 a).win 11).blk t).view.read (Elt Ideal) (selfArr_r2 a V c) := by
  show ((cfg2 a).win 11).cut (grid2.coords t) ((dat2 a V c).after 11 t) = _
  have h := outSelf_eq (iblk2 a V c 0 t)
  rw [after2_11, h]
  refine funext fun (y : S1x1x256.Idx) => ?_
  refine (iblk_rows_r2 a V c t y).1.trans ?_
  show _ = selfArr_r2 a V c ((((cfg2 a).win 11).blk t).view.emb y)
  rw [out_idx ((((cfg2 a).win 11).blk t).view.emb y) _ ⟨t.val, t.isLt⟩ y (index_self_r2 a t) (fun d => rfl), nodeWord_at_r2]
  rfl

theorem flushed_mean_r2 (c : Dev nD) (t : Fin (cfg2 a).N) :
    (dat2 a V c).flushed 12 t = (((cfg2 a).win 12).blk t).view.read (Elt Ideal) (meanArr_r2 a V c) := by
  show ((cfg2 a).win 12).cut (grid2.coords t) ((dat2 a V c).after 12 t) = _
  have h := outMean_eq (iblk2 a V c 1 t) (iblk2 a V c 2 t) (iblk2 a V c 3 t) (iblk2 a V c 4 t) (iblk2 a V c 5 t)
    (iblk2 a V c 6 t) (iblk2 a V c 7 t) (iblk2 a V c 8 t) (iblk2 a V c 9 t) (iblk2 a V c 10 t)
  rw [after2_12, h]
  refine funext fun (y : S1x1x256.Idx) => ?_
  obtain ⟨-, r1, r2, r3, r4, r5, r6, r7, r8, r9, r10⟩ := iblk_rows_r2 a V c t y
  refine (mean_congr r1 r2 r3 r4 r5 r6 r7 r8 r9 r10 _).trans ?_
  show _ = meanArr_r2 a V c ((((cfg2 a).win 12).blk t).view.emb y)
  rw [out_idx ((((cfg2 a).win 12).blk t).view.emb y) _ ⟨t.val, t.isLt⟩ y (index_mean_r2 a t) (fun d => rfl)]
  unfold meanArr_r2
  rw [sum_fin10]
  simp only [nbrWord_at_r2]

theorem cover_self_r2 (i : S12500x1x256.Idx) :
    ∃ t : Fin (cfg2 a).N, ((cfg2 a).win 11).flush t = true ∧ i ∈ (((cfg2 a).win 11).blk t).view.set := by
  have h0 : (i 0).val < 12500 := (i 0).isLt
  let t : Fin (cfg2 a).N := ⟨(i 0).val, h0⟩
  let y : S1x1x256.Idx := ValueIdx.ix3 (0 : Fin 1) (i 1) (i 2)
  have e : (((cfg2 a).win 11).blk t).view.emb y = i :=
    (out_idx _ _ ⟨(i 0).val, h0⟩ y (index_self_r2 a t) (fun d => rfl)).trans (ValueIdx.eq_ix3 i).symm
  have hm := (((cfg2 a).win 11).blk t).view.emb_mem_set y
  rw [e] at hm
  exact ⟨t, flush_self_r2 a t, hm⟩

theorem cover_mean_r2 (i : S12500x1x256.Idx) :
    ∃ t : Fin (cfg2 a).N, ((cfg2 a).win 12).flush t = true ∧ i ∈ (((cfg2 a).win 12).blk t).view.set := cover_self_r2 a i

theorem out11_val2 (c : Dev nD) (X : S100000x1x256.Idx → EReal) (hX : V c main_v0 = X) (ids : S12500.Idx → BitVec 32) (hids : a.1 0 = ids) :
    (dat2 (F := Ideal) a V c).arrAt 11 (cfg2 a).N
      = (fun j : S12500x1x256.Idx => X (ValueIdx.ix3 (Cert.Spec.rowOf (ids (ValueIdx.ix1 (j 0)))) (j 1) (j 2))) := by
  subst hX hids
  exact (dat2 a V c).arrAt_eq_of_cover 11 (selfArr_r2 a V c) (fun t _ => flushed_self_r2 a V c t) (cover_self_r2 a)

theorem out12_val2 (c : Dev nD) (X : S100000x1x256.Idx → EReal) (hX : V c main_v0 = X) (ids : S125000.Idx → BitVec 32) (hids : a.1 1 = ids) :
    (dat2 (F := Ideal) a V c).arrAt 12 (cfg2 a).N
      = (fun j : S12500x1x256.Idx => (∑ s : Fin 10, X (ValueIdx.ix3 (Cert.Spec.rowOf (ids (ValueIdx.ix1 ⟨10 * (j 0).val + s.val, by
          have h1 : (j 0).val < 12500 := (j 0).isLt
          have h2 : s.val < 10 := s.isLt
          omega⟩))) (j 1) (j 2))) * ((1 / 10 : ℝ) : EReal)) := by
  subst hX hids
  exact (dat2 a V c).arrAt_eq_of_cover 12 (meanArr_r2 a V c) (fun t _ => flushed_mean_r2 a V c t) (cover_mean_r2 a)

end Region2

end Cert.KernelIdeal.Hand

end
-- ==== Proof.G3V.lean ====
import proofs.«412514_j386547056896_2_alg».proof.Proof.G3B
import proofs.«412514_j386547056896_2_alg».proof.Proof.GV

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen
open scoped BigOperators

theorem coords0_val_r3 (t : Fin grid3.N) : ((grid3.coords t) 0).val = t.val := by
  have ht : t.val < 12500 := t.isLt
  show t.val / grid3.stride 0 % 12500 = t.val
  have hs : grid3.stride 0 = 1 := by decide
  rw [hs, Nat.div_one, Nat.mod_eq_of_lt ht]

def nodeWord_r3 {F : FTy → Type} (pf : pre3.Contents (Elt F)) (i : grid3.Coords) : BitVec 32 :=
  (pf 0 : S12500.Idx → BitVec 32) (ValueIdx.ix1 (i 0))

def nbrWord_r3 {F : FTy → Type} (pf : pre3.Contents (Elt F)) (i : grid3.Coords) (s : Fin 10) : BitVec 32 :=
  (pf 1 : S125000.Idx → BitVec 32) (ValueIdx.ix1 ⟨10 * (i 0).val + s.val, by
    have h1 : (i 0).val < 12500 := (i 0).isLt
    have h2 : s.val < 10 := s.isLt
    omega⟩)

theorem tr_node_r3 {F : FTy → Type} (pf : pre3.Contents (Elt F)) (i : grid3.Coords) :
    cc3_transform_0 k0_off1_inb numel1_S1 pf i = ![(nodeWord_r3 pf i).toNat, 0, 0] := by
  have hi : (i 0).val < 12500 := (i 0).isLt
  have e : (BitVec.ofNat 32 (i 0).val).toNat = (i 0).val := by rw [BitVec.toNat_ofNat]; omega
  unfold cc3_transform_0 nodeWord_r3
  funext d
  match d with
  | ⟨0, _⟩ =>
    show ((pf 0 : S12500.Idx → BitVec 32) _).toNat = ((pf 0 : S12500.Idx → BitVec 32) (ValueIdx.ix1 (i 0))).toNat
    refine congrArg (fun x => ((pf 0 : S12500.Idx → BitVec 32) x).toNat) ?_
    funext d'
    match d' with
    | ⟨0, _⟩ => exact Fin.ext (by show (BitVec.ofNat 32 (i 0).val).toNat + 1 * 0 = (i 0).val; omega)
  | ⟨1, _⟩ => rfl
  | ⟨2, _⟩ => rfl

theorem tr_nbrs_r3 {F : FTy → Type} (pf : pre3.Contents (Elt F)) (i : grid3.Coords) :
    cc3_transform_1 k0_off2_inb numel1_S1 pf i = ![(nbrWord_r3 pf i 0).toNat, 0, 0]
    ∧ cc3_transform_2 k0_off2_inb numel1_S1 pf i = ![(nbrWord_r3 pf i 1).toNat, 0, 0]
    ∧ cc3_transform_3 k0_off2_inb numel1_S1 pf i = ![(nbrWord_r3 pf i 2).toNat, 0, 0]
    ∧ cc3_transform_4 k0_off2_inb numel1_S1 pf i = ![(nbrWord_r3 pf i 3).toNat, 0, 0]
    ∧ cc3_transform_5 k0_off2_inb numel1_S1 pf i = ![(nbrWord_r3 pf i 4).toNat, 0, 0]
    ∧ cc3_transform_6 k0_off2_inb numel1_S1 pf i = ![(nbrWord_r3 pf i 5).toNat, 0, 0]
    ∧ cc3_transform_7 k0_off2_inb numel1_S1 pf i = ![(nbrWord_r3 pf i 6).toNat, 0, 0]
    ∧ cc3_transform_8 k0_off2_inb numel1_S1 pf i = ![(nbrWord_r3 pf i 7).toNat, 0, 0]
    ∧ cc3_transform_9 k0_off2_inb numel1_S1 pf i = ![(nbrWord_r3 pf i 8).toNat, 0, 0]
    ∧ cc3_transform_10 k0_off2_inb numel1_S1 pf i = ![(nbrWord_r3 pf i 9).toNat, 0, 0] := by
  have hi : (i 0).val < 12500 := (i 0).isLt
  unfold cc3_transform_1 cc3_transform_2 cc3_transform_3 cc3_transform_4 cc3_transform_5 cc3_transform_6 cc3_transform_7
    cc3_transform_8 cc3_transform_9 cc3_transform_10 nbrWord_r3
  refine ⟨?_, ?_, ?_, ?_, ?_, ?_, ?_, ?_, ?_, ?_⟩ <;>
  · funext d
    match d with
    | ⟨0, _⟩ =>
      show ((pf 1 : S125000.Idx → BitVec 32) _).toNat = ((pf 1 : S125000.Idx → BitVec 32) _).toNat
      refine congrArg (fun x => ((pf 1 : S125000.Idx → BitVec 32) x).toNat) ?_
      funext d'
      match d' with
      | ⟨0, _⟩ => exact Fin.ext ((Nat.add_zero _).trans (nbr_off (i 0).val hi _ (by decide)))
    | ⟨1, _⟩ => rfl
    | ⟨2, _⟩ => rfl

section Region3

variable (a : (pcfg3 (F := Ideal)).Adm)
variable (V : (c : Dev nD) → (b : Ref sig .tc) → Buf (Elt Ideal) ((c : Thread nD τ).loc b))

theorem index_self_r3 (t : Fin (cfg3 a).N) : ((cfg3 a).win 11).index t = ![t.val, 0, 0] := by
  show cc3_transform_11 (grid3.coords t) = _
  unfold cc3_transform_11
  have ht : t.val < 12500 := t.isLt
  have e : (BitVec.ofNat 32 ((grid3.coords t) 0).val).toNat = t.val := by
    rw [coords0_val_r3, BitVec.toNat_ofNat]; omega
  funext d
  match d with
  | ⟨0, _⟩ => exact e
  | ⟨1, _⟩ => rfl
  | ⟨2, _⟩ => rfl

theorem index_mean_r3 (t : Fin (cfg3 a).N) : ((cfg3 a).win 12).index t = ![t.val, 0, 0] := index_self_r3 a t

theorem flush_self_r3 (t : Fin (cfg3 a).N) : ((cfg3 a).win 11).flush t = true := by
  unfold Window.flush
  have hout : ((cfg3 a).win 11).isOut = true := rfl
  have ht : t.val < grid3.N := t.isLt
  rw [hout, Bool.true_and]
  by_cases h : t.val + 1 = grid3.N
  · simp [h]
  · have h' : t.val + 1 < grid3.N := by omega
    rw [Bool.or_eq_true]; right
    rw [decide_eq_true_eq]
    refine ⟨h', fun e => ?_⟩
    rw [index_self_r3, index_self_r3] at e
    have := congrFun e 0
    simp at this

theorem flush_mean_r3 (t : Fin (cfg3 a).N) : ((cfg3 a).win 12).flush t = true := flush_self_r3 a t

theorem node_lt_r3 (i : grid3.Coords) : (nodeWord_r3 a.1 i).toNat < 100000 := by
  have hok : ok3 a.1 := a.2
  exact word_lt _ _ (tr_node_r3 a.1 i) (hok.1 i).fst

theorem nbr_lt_r3 (i : grid3.Coords) (s : Fin 10) : (nbrWord_r3 a.1 i s).toNat < 100000 := by
  have hok : ok3 a.1 := a.2
  obtain ⟨-, o1, o2, o3, o4, o5, o6, o7, o8, o9, o10⟩ := hok
  obtain ⟨e1, e2, e3, e4, e5, e6, e7, e8, e9, e10⟩ := tr_nbrs_r3 a.1 i
  fin_cases s
  · exact word_lt _ _ e1 (o1 i).fst
  · exact word_lt _ _ e2 (o2 i).fst
  · exact word_lt _ _ e3 (o3 i).fst
  · exact word_lt _ _ e4 (o4 i).fst
  · exact word_lt _ _ e5 (o5 i).fst
  · exact word_lt _ _ e6 (o6 i).fst
  · exact word_lt _ _ e7 (o7 i).fst
  · exact word_lt _ _ e8 (o8 i).fst
  · exact word_lt _ _ e9 (o9 i).fst
  · exact word_lt _ _ e10 (o10 i).fst

abbrev rowAt_r3 (c : Dev nD) (w : BitVec 32) (y : S1x1x256.Idx) : EReal :=
  (V c main_v0 : S100000x1x256.Idx → EReal) (ValueIdx.ix3 (Cert.Spec.rowOf w) (y 1) (y 2))

theorem rowRead_r3 (c : Dev nD) {z : S100000x1x256.Idx} {idx : Fin 3 → Nat} (wd : BitVec 32) (hw : wd.toNat < 100000) (y : S1x1x256.Idx)
    (hidx : idx = ![wd.toNat, 0, 0]) (hz : ∀ d : Fin 3, (z d).val = idx d * S1x1x256.size d + 1 * (y d).val) :
    (V c main_v0 : S100000x1x256.Idx → EReal) z = rowAt_r3 V c wd y :=
  congrArg (V c main_v0 : S100000x1x256.Idx → EReal) (row_idx z idx wd hw y hidx hz)

/-- Every input block is the feature row its table word names. -/
theorem iblk_rows_r3 (c : Dev nD) (t : Fin (cfg3 a).N) (y : S1x1x256.Idx) :
    (iblk3 a V c 0 t : S1x1x256.Idx → EReal) y = rowAt_r3 V c (nodeWord_r3 a.1 (grid3.coords t)) y
    ∧ (iblk3 a V c 1 t : S1x1x256.Idx → EReal) y = rowAt_r3 V c (nbrWord_r3 a.1 (grid3.coords t) 0) y
    ∧ (iblk3 a V c 2 t : S1x1x256.Idx → EReal) y = rowAt_r3 V c (nbrWord_r3 a.1 (grid3.coords t) 1) y
    ∧ (iblk3 a V c 3 t : S1x1x256.Idx → EReal) y = rowAt_r3 V c (nbrWord_r3 a.1 (grid3.coords t) 2) y
    ∧ (iblk3 a V c 4 t : S1x1x256.Idx → EReal) y = rowAt_r3 V c (nbrWord_r3 a.1 (grid3.coords t) 3) y
    ∧ (iblk3 a V c 5 t : S1x1x256.Idx → EReal) y = rowAt_r3 V c (nbrWord_r3 a.1 (grid3.coords t) 4) y
    ∧ (iblk3 a V c 6 t : S1x1x256.Idx → EReal) y = rowAt_r3 V c (nbrWord_r3 a.1 (grid3.coords t) 5) y
    ∧ (iblk3 a V c 7 t : S1x1x256.Idx → EReal) y = rowAt_r3 V c (nbrWord_r3 a.1 (grid3.coords t) 6) y
    ∧ (iblk3 a V c 8 t : S1x1x256.Idx → EReal) y = rowAt_r3 V c (nbrWord_r3 a.1 (grid3.coords t) 7) y
    ∧ (iblk3 a V c 9 t : S1x1x256.Idx → EReal) y = rowAt_r3 V c (nbrWord_r3 a.1 (grid3.coords t) 8) y
    ∧ (iblk3 a V c 10 t : S1x1x256.Idx → EReal) y = rowAt_r3 V c (nbrWord_r3 a.1 (grid3.coords t) 9) y := by
  obtain ⟨e1, e2, e3, e4, e5, e6, e7, e8, e9, e10⟩ := tr_nbrs_r3 a.1 (grid3.coords t)
  exact ⟨rowRead_r3 V c _ (node_lt_r3 a _) y (tr_node_r3 a.1 _) (fun d => rfl),
    rowRead_r3 V c _ (nbr_lt_r3 a _ 0) y e1 (fun d => rfl), rowRead_r3 V c _ (nbr_lt_r3 a _ 1) y e2 (fun d => rfl),
    rowRead_r3 V c _ (nbr_lt_r3 a _ 2) y e3 (fun d => rfl), rowRead_r3 V c _ (nbr_lt_r3 a _ 3) y e4 (fun d => rfl),
    rowRead_r3 V c _ (nbr_lt_r3 a _ 4) y e5 (fun d => rfl), rowRead_r3 V c _ (nbr_lt_r3 a _ 5) y e6 (fun d => rfl),
    rowRead_r3 V c _ (nbr_lt_r3 a _ 6) y e7 (fun d => rfl), rowRead_r3 V c _ (nbr_lt_r3 a _ 7) y e8 (fun d => rfl),
    rowRead_r3 V c _ (nbr_lt_r3 a _ 8) y e9 (fun d => rfl), rowRead_r3 V c _ (nbr_lt_r3 a _ 9) y e10 (fun d => rfl)⟩

def selfArr_r3 (c : Dev nD) : S12500x1x256.Idx → EReal := fun j =>
  (V c main_v0 : S100000x1x256.Idx → EReal)
    (ValueIdx.ix3 (Cert.Spec.rowOf ((a.1 0 : S12500.Idx → BitVec 32) (ValueIdx.ix1 (j 0)))) (j 1) (j 2))

def meanArr_r3 (c : Dev nD) : S12500x1x256.Idx → EReal := fun j =>
  ((∑ s : Fin 10, (V c main_v0 : S100000x1x256.Idx → EReal)
    (ValueIdx.ix3 (Cert.Spec.rowOf ((a.1 1 : S125000.Idx → BitVec 32) (ValueIdx.ix1 ⟨10 * (j 0).val + s.val, by
      have h1 : (j 0).val < 12500 := (j 0).isLt
      have h2 : s.val < 10 := s.isLt
      omega⟩))) (j 1) (j 2))) : EReal) * ((1 / 10 : ℝ) : EReal)

theorem nodeWord_at_r3 (t : Fin (cfg3 a).N) :
    nodeWord_r3 a.1 (grid3.coords t) = (a.1 0 : S12500.Idx → BitVec 32) (ValueIdx.ix1 (⟨t.val, t.isLt⟩ : Fin 12500)) := by
  unfold nodeWord_r3
  refine congrArg (a.1 0 : S12500.Idx → BitVec 32) ?_
  funext d
  match d with
  | ⟨0, _⟩ => exact Fin.ext (coords0_val_r3 t)

theorem nbrWord_at_r3 (t : Fin (cfg3 a).N) (s : Fin 10) :
    nbrWord_r3 a.1 (grid3.coords t) s = (a.1 1 : S125000.Idx → BitVec 32) (ValueIdx.ix1 ⟨10 * t.val + s.val, by
      have h1 : t.val < 12500 := t.isLt
      have h2 : s.val < 10 := s.isLt
      omega⟩) := by
  unfold nbrWord_r3
  refine congrArg (a.1 1 : S125000.Idx → BitVec 32) ?_
  funext d
  match d with
  | ⟨0, _⟩ => exact Fin.ext (by show 10 * ((grid3.coords t) 0).val + s.val = 10 * t.val + s.val; rw [coords0_val_r3])

theorem flushed_self_r3 (c : Dev nD) (t : Fin (cfg3 a).N) :
    (dat3 a V c).flushed 11 t = (((cfg3 a).win 11).blk t).view.read (Elt Ideal) (selfArr_r3 a V c) := by
  show ((cfg3 a).win 11).cut (grid3.coords t) ((dat3 a V c).after 11 t) = _
  have h := outSelf_eq (iblk3 a V c 0 t)
  rw [after3_11, h]
  refine funext fun (y : S1x1x256.Idx) => ?_
  refine (iblk_rows_r3 a V c t y).1.trans ?_
  show _ = selfArr_r3 a V c ((((cfg3 a).win 11).blk t).view.emb y)
  rw [out_idx ((((cfg3 a).win 11).blk t).view.emb y) _ ⟨t.val, t.isLt⟩ y (index_self_r3 a t) (fun d => rfl), nodeWord_at_r3]
  rfl

theorem flushed_mean_r3 (c : Dev nD) (t : Fin (cfg3 a).N) :
    (dat3 a V c).flushed 12 t = (((cfg3 a).win 12).blk t).view.read (Elt Ideal) (meanArr_r3 a V c) := by
  show ((cfg3 a).win 12).cut (grid3.coords t) ((dat3 a V c).after 12 t) = _
  have h := outMean_eq (iblk3 a V c 1 t) (iblk3 a V c 2 t) (iblk3 a V c 3 t) (iblk3 a V c 4 t) (iblk3 a V c 5 t)
    (iblk3 a V c 6 t) (iblk3 a V c 7 t) (iblk3 a V c 8 t) (iblk3 a V c 9 t) (iblk3 a V c 10 t)
  rw [after3_12, h]
  refine funext fun (y : S1x1x256.Idx) => ?_
  obtain ⟨-, r1, r2, r3, r4, r5, r6, r7, r8, r9, r10⟩ := iblk_rows_r3 a V c t y
  refine (mean_congr r1 r2 r3 r4 r5 r6 r7 r8 r9 r10 _).trans ?_
  show _ = meanArr_r3 a V c ((((cfg3 a).win 12).blk t).view.emb y)
  rw [out_idx ((((cfg3 a).win 12).blk t).view.emb y) _ ⟨t.val, t.isLt⟩ y (index_mean_r3 a t) (fun d => rfl)]
  unfold meanArr_r3
  rw [sum_fin10]
  simp only [nbrWord_at_r3]

theorem cover_self_r3 (i : S12500x1x256.Idx) :
    ∃ t : Fin (cfg3 a).N, ((cfg3 a).win 11).flush t = true ∧ i ∈ (((cfg3 a).win 11).blk t).view.set := by
  have h0 : (i 0).val < 12500 := (i 0).isLt
  let t : Fin (cfg3 a).N := ⟨(i 0).val, h0⟩
  let y : S1x1x256.Idx := ValueIdx.ix3 (0 : Fin 1) (i 1) (i 2)
  have e : (((cfg3 a).win 11).blk t).view.emb y = i :=
    (out_idx _ _ ⟨(i 0).val, h0⟩ y (index_self_r3 a t) (fun d => rfl)).trans (ValueIdx.eq_ix3 i).symm
  have hm := (((cfg3 a).win 11).blk t).view.emb_mem_set y
  rw [e] at hm
  exact ⟨t, flush_self_r3 a t, hm⟩

theorem cover_mean_r3 (i : S12500x1x256.Idx) :
    ∃ t : Fin (cfg3 a).N, ((cfg3 a).win 12).flush t = true ∧ i ∈ (((cfg3 a).win 12).blk t).view.set := cover_self_r3 a i

theorem out11_val3 (c : Dev nD) (X : S100000x1x256.Idx → EReal) (hX : V c main_v0 = X) (ids : S12500.Idx → BitVec 32) (hids : a.1 0 = ids) :
    (dat3 (F := Ideal) a V c).arrAt 11 (cfg3 a).N
      = (fun j : S12500x1x256.Idx => X (ValueIdx.ix3 (Cert.Spec.rowOf (ids (ValueIdx.ix1 (j 0)))) (j 1) (j 2))) := by
  subst hX hids
  exact (dat3 a V c).arrAt_eq_of_cover 11 (selfArr_r3 a V c) (fun t _ => flushed_self_r3 a V c t) (cover_self_r3 a)

theorem out12_val3 (c : Dev nD) (X : S100000x1x256.Idx → EReal) (hX : V c main_v0 = X) (ids : S125000.Idx → BitVec 32) (hids : a.1 1 = ids) :
    (dat3 (F := Ideal) a V c).arrAt 12 (cfg3 a).N
      = (fun j : S12500x1x256.Idx => (∑ s : Fin 10, X (ValueIdx.ix3 (Cert.Spec.rowOf (ids (ValueIdx.ix1 ⟨10 * (j 0).val + s.val, by
          have h1 : (j 0).val < 12500 := (j 0).isLt
          have h2 : s.val < 10 := s.isLt
          omega⟩))) (j 1) (j 2))) * ((1 / 10 : ℝ) : EReal)) := by
  subst hX hids
  exact (dat3 a V c).arrAt_eq_of_cover 12 (meanArr_r3 a V c) (fun t _ => flushed_mean_r3 a V c t) (cover_mean_r3 a)

end Region3

end Cert.KernelIdeal.Hand

end
-- ==== Proof.KerValue.lean ====
import proofs.«412514_j386547056896_2_alg».proof.Proof.Fold
import proofs.«412514_j386547056896_2_alg».proof.Proof.Spec
import proofs.«412514_j386547056896_2_alg».proof.Proof.Tabs
import proofs.«412514_j386547056896_2_alg».proof.Proof.M4V
import proofs.«412514_j386547056896_2_alg».proof.Proof.G0V
import proofs.«412514_j386547056896_2_alg».proof.Proof.G1V
import proofs.«412514_j386547056896_2_alg».proof.Proof.G2V
import proofs.«412514_j386547056896_2_alg».proof.Proof.G3V
import Idealize.ShloMosaic.Lib.ValueLayout
import Idealize.ShloMosaic.Lib.KernelVsHost
set_option maxRecDepth 16384
noncomputable section
namespace Cert.KernelIdeal.Hand
open Idealize.ShloMosaic Idealize.ShloMosaic.TcCoe Idealize.ShloMosaic.Tactic
open Idealize.ShloMosaic.ValueIdx
open Cert.KernelIdeal Cert.KernelIdeal.Gen
open Idealize.ShloMosaic.StableHlo (after_of_writes_sub devRef_ne_of_ne)
open scoped BigOperators
variable (m : (ℓ : Loc nD τ sig) → Buf (Elt Ideal) ℓ)
macro "results_more" : tactic =>
  `(tactic| repeat (first
      | rw [StableHlo.nullary_result] | rw [StableHlo.unary_result] | rw [StableHlo.binary_result]
      | rw [StableHlo.reshape_result] | rw [StableHlo.nary_result]
      | (rw [StableHlo.nullary_result_ne]; rotate_left; decide)
      | (rw [StableHlo.unary_result_ne]; rotate_left; decide)
      | (rw [StableHlo.binary_result_ne]; rotate_left; decide)
      | (rw [StableHlo.reshape_result_ne]; rotate_left; decide)
      | (rw [StableHlo.nary_result_ne]; rotate_left; decide)))
abbrev featA (c : Dev nD) : S100000x256.Idx → EReal := m ((c : Thread nD τ).loc main_arg0)
abbrev weightA (c : Dev nD) : S256x512.Idx → EReal := m ((c : Thread nD τ).loc main_arg1)
abbrev nodesA (c : Dev nD) : S50000.Idx → BitVec 32 := m ((c : Thread nD τ).loc main_arg2)
abbrev neighA (c : Dev nD) : S50000x10.Idx → BitVec 32 := m ((c : Thread nD τ).loc main_arg3)
abbrev feat3 (c : Dev nD) : S100000x1x256.Idx → EReal :=
  shapeCast S100000x1x256 (featA m c) shapeCasts_S100000x256_S100000x1x256
theorem feat3_apply (c : Dev nD) (r : Fin 100000) (u : Fin 1) (k : Fin 256) :
    feat3 m c (ValueIdx.ix3 r u k) = featA m c (ValueIdx.ix2 r k) :=
  shapeCast_apply _ _ _ _ (by
    have hu : u.val = 0 := by omega
    rw [Shape.rowMajor_val_three, Shape.rowMajor_val_two]
    show r.val * 256 + k.val = (r.val * 1 + u.val) * 256 + k.val
    rw [hu]; omega)
theorem W1_v0 (c : Dev nD) : W1 m c main_v0 = feat3 m c := by
  dsimp only [W1, W0, hostOps0]
  after_results
  rfl
variable (h : TabsOk m)
theorem W3_v0 (c : Dev nD) : W3 m h c main_v0 = feat3 m c :=
  ((after_of_writes_sub hostOps1 _ hostOps1_writes (by decide)).trans (W2_of m h c main_v0 (by decide))).trans (W1_v0 m c)
theorem W5_v0 (c : Dev nD) : W5 m h c main_v0 = feat3 m c :=
  ((after_of_writes_sub hostOps2 _ hostOps2_writes (by decide)).trans (W4_of m h c main_v0 (by decide))).trans (W3_v0 m h c)
theorem W7_v0 (c : Dev nD) : W7 m h c main_v0 = feat3 m c :=
  ((after_of_writes_sub hostOps3 _ hostOps3_writes (by decide)).trans (W6_of m h c main_v0 (by decide))).trans (W5_v0 m h c)
def selfChunk (feat : S100000x256.Idx → EReal) (ids : S12500.Idx → BitVec 32) (t : Fin 12500) (k : Fin 256) : EReal :=
  feat (ValueIdx.ix2 (Cert.Spec.rowOf (ids (ValueIdx.ix1 t))) k)
def meanChunk (feat : S100000x256.Idx → EReal) (ids : S125000.Idx → BitVec 32) (t : Fin 12500) (k : Fin 256) : EReal :=
  (∑ s : Fin 10, feat (ValueIdx.ix2 (Cert.Spec.rowOf (ids (ValueIdx.ix1 ⟨10 * t.val + s.val, by have := t.isLt; have := s.isLt; omega⟩))) k))
    * ((1 / 10 : ℝ) : EReal)
def selfM (feat : S100000x256.Idx → EReal) (ids : S12500.Idx → BitVec 32) : S12500x256.Idx → EReal :=
  fun i => selfChunk feat ids (i 0) (i 1)
def meanM (feat : S100000x256.Idx → EReal) (ids : S125000.Idx → BitVec 32) : S12500x256.Idx → EReal :=
  fun i => meanChunk feat ids (i 0) (i 1)
theorem dropMid_apply (Y : S12500x1x256.Idx → EReal) (t : Fin 12500) (k : Fin 256) :
    shapeCast S12500x256 Y shapeCasts_S12500x1x256_S12500x256 (ValueIdx.ix2 t k) = Y (ValueIdx.ix3 t (0 : Fin 1) k) :=
  shapeCast_apply _ _ _ _ (by
    rw [Shape.rowMajor_val_three, Shape.rowMajor_val_two]
    show (t.val * 1 + 0) * 256 + k.val = t.val * 256 + k.val
    omega)
theorem dropMid_self (c : Dev nD) (ids : S12500.Idx → BitVec 32) :
    shapeCast S12500x256 (fun j : S12500x1x256.Idx => feat3 m c (ValueIdx.ix3 (Cert.Spec.rowOf (ids (ValueIdx.ix1 (j 0)))) (j 1) (j 2)))
      shapeCasts_S12500x1x256_S12500x256 = selfM (featA m c) ids := by
  funext i
  obtain ⟨t, k, rfl⟩ : ∃ (t : Fin 12500) (k : Fin 256), i = ValueIdx.ix2 t k := ⟨i 0, i 1, ValueIdx.eq_ix2 i⟩
  rw [dropMid_apply]
  exact feat3_apply m c _ _ _
theorem dropMid_mean (c : Dev nD) (ids : S125000.Idx → BitVec 32) :
    shapeCast S12500x256 (fun j : S12500x1x256.Idx => (∑ s : Fin 10, feat3 m c (ValueIdx.ix3 (Cert.Spec.rowOf (ids (ValueIdx.ix1 ⟨10 * (j 0).val + s.val, by have : (j 0).val < 12500 := (j 0).isLt; have := s.isLt; omega⟩))) (j 1) (j 2))) * ((1 / 10 : ℝ) : EReal))
      shapeCasts_S12500x1x256_S12500x256 = meanM (featA m c) ids := by
  funext i
  obtain ⟨t, k, rfl⟩ : ∃ (t : Fin 12500) (k : Fin 256), i = ValueIdx.ix2 t k := ⟨i 0, i 1, ValueIdx.eq_ix2 i⟩
  rw [dropMid_apply]
  show (∑ s : Fin 10, feat3 m c (ValueIdx.ix3 _ (0 : Fin 1) k)) * _ = (∑ s : Fin 10, featA m c (ValueIdx.ix2 _ k)) * _
  congr 1
  exact Finset.sum_congr rfl fun s _ => feat3_apply m c _ _ _
theorem W3_v5 (c : Dev nD) : W3 m h c main_v5 = selfM (featA m c) (tab0 m 0 0) := by
  have e : W3 m h c main_v5 = shapeCast S12500x256 (W2 m h c main_v4_0) shapeCasts_S12500x1x256_S12500x256 := by
    dsimp only [W3, hostOps1]; after_results; rfl
  rw [e, W2_out0, out11_val0 (a0 m h) (V1 m) c (feat3 m c) (W1_v0 m c) (tab0 m 0 0) rfl]
  exact dropMid_self m c _
theorem W3_v6 (c : Dev nD) : W3 m h c main_v6 = meanM (featA m c) (tab0 m 0 1) := by
  have e : W3 m h c main_v6 = shapeCast S12500x256 (W2 m h c main_v4_1) shapeCasts_S12500x1x256_S12500x256 := by
    dsimp only [W3, hostOps1]; after_results; rfl
  rw [e, W2_out1, out12_val0 (a0 m h) (V1 m) c (feat3 m c) (W1_v0 m c) (tab0 m 0 1) rfl]
  exact dropMid_mean m c _
theorem W5_v11 (c : Dev nD) : W5 m h c main_v11 = selfM (featA m c) (tab1 m 0 0) := by
  have e : W5 m h c main_v11 = shapeCast S12500x256 (W4 m h c main_v10_0) shapeCasts_S12500x1x256_S12500x256 := by
    dsimp only [W5, hostOps2]; after_results; rfl
  rw [e, W4_out0, out11_val1 (a1 m h) (V3 m h) c (feat3 m c) (W3_v0 m h c) (tab1 m 0 0) rfl]
  exact dropMid_self m c _
theorem W5_v12 (c : Dev nD) : W5 m h c main_v12 = meanM (featA m c) (tab1 m 0 1) := by
  have e : W5 m h c main_v12 = shapeCast S12500x256 (W4 m h c main_v10_1) shapeCasts_S12500x1x256_S12500x256 := by
    dsimp only [W5, hostOps2]; after_results; rfl
  rw [e, W4_out1, out12_val1 (a1 m h) (V3 m h) c (feat3 m c) (W3_v0 m h c) (tab1 m 0 1) rfl]
  exact dropMid_mean m c _
theorem W7_v17 (c : Dev nD) : W7 m h c main_v17 = selfM (featA m c) (tab2 m 0 0) := by
  have e : W7 m h c main_v17 = shapeCast S12500x256 (W6 m h c main_v16_0) shapeCasts_S12500x1x256_S12500x256 := by
    dsimp only [W7, hostOps3]; after_results; rfl
  rw [e, W6_out0, out11_val2 (a2 m h) (V5 m h) c (feat3 m c) (W5_v0 m h c) (tab2 m 0 0) rfl]
  exact dropMid_self m c _
theorem W7_v18 (c : Dev nD) : W7 m h c main_v18 = meanM (featA m c) (tab2 m 0 1) := by
  have e : W7 m h c main_v18 = shapeCast S12500x256 (W6 m h c main_v16_1) shapeCasts_S12500x1x256_S12500x256 := by
    dsimp only [W7, hostOps3]; after_results; rfl
  rw [e, W6_out1, out12_val2 (a2 m h) (V5 m h) c (feat3 m c) (W5_v0 m h c) (tab2 m 0 1) rfl]
  exact dropMid_mean m c _
theorem W8_v22_0 (c : Dev nD) :
    shapeCast S12500x256 (W8 m h c main_v22_0) shapeCasts_S12500x1x256_S12500x256 = selfM (featA m c) (tab3 m 0 0) := by
  rw [W8_out0, out11_val3 (a3 m h) (V7 m h) c (feat3 m c) (W7_v0 m h c) (tab3 m 0 0) rfl]
  exact dropMid_self m c _
theorem W8_v22_1 (c : Dev nD) :
    shapeCast S12500x256 (W8 m h c main_v22_1) shapeCasts_S12500x1x256_S12500x256 = meanM (featA m c) (tab3 m 0 1) := by
  rw [W8_out1, out12_val3 (a3 m h) (V7 m h) c (feat3 m c) (W7_v0 m h c) (tab3 m 0 1) rfl]
  exact dropMid_mean m c _
theorem W8_of_W7 (c : Dev nD) (r : Ref sig .tc) (h8 : r ∉ ([main_v22_0, main_v22_1] : List (Ref sig .tc))) :
    W8 m h c r = W7 m h c r := W8_of m h c r h8
theorem W8_of_W5 (c : Dev nD) (r : Ref sig .tc) (h6 : r ∉ ([main_v16_0, main_v16_1] : List (Ref sig .tc))) (h7 : r ∉ hostOps3_W)
    (h8 : r ∉ ([main_v22_0, main_v22_1] : List (Ref sig .tc))) : W8 m h c r = W5 m h c r :=
  (W8_of m h c r h8).trans ((after_of_writes_sub hostOps3 _ hostOps3_writes h7).trans (W6_of m h c r h6))
theorem W8_of_W3 (c : Dev nD) (r : Ref sig .tc) (h4 : r ∉ ([main_v10_0, main_v10_1] : List (Ref sig .tc))) (h5 : r ∉ hostOps2_W)
    (h6 : r ∉ ([main_v16_0, main_v16_1] : List (Ref sig .tc))) (h7 : r ∉ hostOps3_W)
    (h8 : r ∉ ([main_v22_0, main_v22_1] : List (Ref sig .tc))) : W8 m h c r = W3 m h c r :=
  (W8_of_W5 m h c r h6 h7 h8).trans ((after_of_writes_sub hostOps2 _ hostOps2_writes h5).trans (W4_of m h c r h4))
def combM (s0 s1 s2 s3 n0 n1 n2 n3 : S12500x256.Idx → EReal) : S50000x512.Idx → EReal :=
  concatenate S50000x512 1
    [⟨S50000x256, concatenate S50000x256 0 [⟨S12500x256, s0⟩, ⟨S12500x256, s1⟩, ⟨S12500x256, s2⟩, ⟨S12500x256, s3⟩]
        concatenates_S12500x256_S12500x256_S12500x256_S12500x256_S50000x256_d0⟩,
     ⟨S50000x256, concatenate S50000x256 0 [⟨S12500x256, n0⟩, ⟨S12500x256, n1⟩, ⟨S12500x256, n2⟩, ⟨S12500x256, n3⟩]
        concatenates_S12500x256_S12500x256_S12500x256_S12500x256_S50000x256_d0⟩]
    concatenates_S50000x256_S50000x256_S50000x512_d1
theorem W9_v27_raw (c : Dev nD) :
    W9 m h c main_v27 = combM (W8 m h c main_v5) (W8 m h c main_v11) (W8 m h c main_v17)
        (shapeCast S12500x256 (W8 m h c main_v22_0) shapeCasts_S12500x1x256_S12500x256)
        (W8 m h c main_v6) (W8 m h c main_v12) (W8 m h c main_v18)
        (shapeCast S12500x256 (W8 m h c main_v22_1) shapeCasts_S12500x1x256_S12500x256) := by
  dsimp only [W9, hostOps4]
  after_results
  simp only [Matrix.cons_val]
  results_more
  simp only [Matrix.cons_val]
  results_more
  rfl
theorem W9_v27 (c : Dev nD) :
    W9 m h c main_v27 = combM (selfM (featA m c) (tab0 m 0 0)) (selfM (featA m c) (tab1 m 0 0)) (selfM (featA m c) (tab2 m 0 0))
        (selfM (featA m c) (tab3 m 0 0)) (meanM (featA m c) (tab0 m 0 1)) (meanM (featA m c) (tab1 m 0 1))
        (meanM (featA m c) (tab2 m 0 1)) (meanM (featA m c) (tab3 m 0 1)) := by
  rw [W9_v27_raw, W8_v22_0, W8_v22_1,
    W8_of_W3 m h c main_v5 (by decide) (by decide) (by decide) (by decide) (by decide), W3_v5,
    W8_of_W3 m h c main_v6 (by decide) (by decide) (by decide) (by decide) (by decide), W3_v6,
    W8_of_W5 m h c main_v11 (by decide) (by decide) (by decide), W5_v11,
    W8_of_W5 m h c main_v12 (by decide) (by decide) (by decide), W5_v12,
    W8_of_W7 m h c main_v17 (by decide), W7_v17, W8_of_W7 m h c main_v18 (by decide), W7_v18]
section OneDevice
theorem selfM_tab0 (t : Fin 12500) (k : Fin 256) (j : Fin 50000) (hj : j.val = t.val) :
    selfM (featA m 0) (tab0 m 0 0) (ValueIdx.ix2 t k) = Cert.Spec.selfRow (featA m 0) (nodesA m 0) j k := by
  obtain rfl : j = ⟨t.val, by clear hj; omega⟩ := Fin.ext hj
  show featA m 0 (ValueIdx.ix2 (Cert.Spec.rowOf (tab0 m 0 0 (ValueIdx.ix1 t))) k) = _
  rw [tab0_nodes m 0 t]
  rfl
theorem meanM_tab0 (t : Fin 12500) (k : Fin 256) (j : Fin 50000) (hj : j.val = t.val) :
    meanM (featA m 0) (tab0 m 0 1) (ValueIdx.ix2 t k) = Cert.Spec.neighRow (featA m 0) (neighA m 0) j k := by
  obtain rfl : j = ⟨t.val, by clear hj; omega⟩ := Fin.ext hj
  show (∑ s : Fin 10, featA m 0 (ValueIdx.ix2 (Cert.Spec.rowOf (tab0 m 0 1 (ValueIdx.ix1 ⟨10 * t.val + s.val, _⟩))) k)) * _
    = (∑ s : Fin 10, featA m 0 (ValueIdx.ix2 (Cert.Spec.rowOf (neighA m 0 (ValueIdx.ix2 _ s))) k)) * _
  congr 1
  refine Finset.sum_congr rfl fun s _ => ?_
  rw [tab0_neigh m 0]
  have ha : (⟨(⟨10 * t.val + s.val, by have := t.isLt; have := s.isLt; omega⟩ : Fin 125000).val / 10, by have := t.isLt; have := s.isLt; show (10 * t.val + s.val) / 10 < 50000; omega⟩ : Fin 50000)
      = ⟨t.val, by omega⟩ := Fin.ext (by have := s.isLt; show (10 * t.val + s.val) / 10 = t.val; omega)
  have hb : (⟨(⟨10 * t.val + s.val, by have := t.isLt; have := s.isLt; omega⟩ : Fin 125000).val % 10, by omega⟩ : Fin 10) = s :=
    Fin.ext (by have := s.isLt; show (10 * t.val + s.val) % 10 = s.val; omega)
  rw [ha, hb]
theorem selfM_tab1 (t : Fin 12500) (k : Fin 256) (j : Fin 50000) (hj : j.val = 12500 + t.val) :
    selfM (featA m 0) (tab1 m 0 0) (ValueIdx.ix2 t k) = Cert.Spec.selfRow (featA m 0) (nodesA m 0) j k := by
  obtain rfl : j = ⟨12500 + t.val, by clear hj; omega⟩ := Fin.ext hj
  show featA m 0 (ValueIdx.ix2 (Cert.Spec.rowOf (tab1 m 0 0 (ValueIdx.ix1 t))) k) = _
  rw [tab1_nodes m 0 t]
  rfl
theorem meanM_tab1 (t : Fin 12500) (k : Fin 256) (j : Fin 50000) (hj : j.val = 12500 + t.val) :
    meanM (featA m 0) (tab1 m 0 1) (ValueIdx.ix2 t k) = Cert.Spec.neighRow (featA m 0) (neighA m 0) j k := by
  obtain rfl : j = ⟨12500 + t.val, by clear hj; omega⟩ := Fin.ext hj
  show (∑ s : Fin 10, featA m 0 (ValueIdx.ix2 (Cert.Spec.rowOf (tab1 m 0 1 (ValueIdx.ix1 ⟨10 * t.val + s.val, _⟩))) k)) * _
    = (∑ s : Fin 10, featA m 0 (ValueIdx.ix2 (Cert.Spec.rowOf (neighA m 0 (ValueIdx.ix2 _ s))) k)) * _
  congr 1
  refine Finset.sum_congr rfl fun s _ => ?_
  rw [tab1_neigh m 0]
  have ha : (⟨12500 + (⟨10 * t.val + s.val, by have := t.isLt; have := s.isLt; omega⟩ : Fin 125000).val / 10, by have := t.isLt; have := s.isLt; show 12500 + (10 * t.val + s.val) / 10 < 50000; omega⟩ : Fin 50000)
      = ⟨12500 + t.val, by omega⟩ := Fin.ext (by have := s.isLt; show 12500 + (10 * t.val + s.val) / 10 = 12500 + t.val; omega)
  have hb : (⟨(⟨10 * t.val + s.val, by have := t.isLt; have := s.isLt; omega⟩ : Fin 125000).val % 10, by omega⟩ : Fin 10) = s :=
    Fin.ext (by have := s.isLt; show (10 * t.val + s.val) % 10 = s.val; omega)
  rw [ha, hb]
theorem selfM_tab2 (t : Fin 12500) (k : Fin 256) (j : Fin 50000) (hj : j.val = 25000 + t.val) :
    selfM (featA m 0) (tab2 m 0 0) (ValueIdx.ix2 t k) = Cert.Spec.selfRow (featA m 0) (nodesA m 0) j k := by
  obtain rfl : j = ⟨25000 + t.val, by clear hj; omega⟩ := Fin.ext hj
  show featA m 0 (ValueIdx.ix2 (Cert.Spec.rowOf (tab2 m 0 0 (ValueIdx.ix1 t))) k) = _
  rw [tab2_nodes m 0 t]
  rfl
theorem meanM_tab2 (t : Fin 12500) (k : Fin 256) (j : Fin 50000) (hj : j.val = 25000 + t.val) :
    meanM (featA m 0) (tab2 m 0 1) (ValueIdx.ix2 t k) = Cert.Spec.neighRow (featA m 0) (neighA m 0) j k := by
  obtain rfl : j = ⟨25000 + t.val, by clear hj; omega⟩ := Fin.ext hj
  show (∑ s : Fin 10, featA m 0 (ValueIdx.ix2 (Cert.Spec.rowOf (tab2 m 0 1 (ValueIdx.ix1 ⟨10 * t.val + s.val, _⟩))) k)) * _
    = (∑ s : Fin 10, featA m 0 (ValueIdx.ix2 (Cert.Spec.rowOf (neighA m 0 (ValueIdx.ix2 _ s))) k)) * _
  congr 1
  refine Finset.sum_congr rfl fun s _ => ?_
  rw [tab2_neigh m 0]
  have ha : (⟨25000 + (⟨10 * t.val + s.val, by have := t.isLt; have := s.isLt; omega⟩ : Fin 125000).val / 10, by have := t.isLt; have := s.isLt; show 25000 + (10 * t.val + s.val) / 10 < 50000; omega⟩ : Fin 50000)
      = ⟨25000 + t.val, by omega⟩ := Fin.ext (by have := s.isLt; show 25000 + (10 * t.val + s.val) / 10 = 25000 + t.val; omega)
  have hb : (⟨(⟨10 * t.val + s.val, by have := t.isLt; have := s.isLt; omega⟩ : Fin 125000).val % 10, by omega⟩ : Fin 10) = s :=
    Fin.ext (by have := s.isLt; show (10 * t.val + s.val) % 10 = s.val; omega)
  rw [ha, hb]
theorem selfM_tab3 (t : Fin 12500) (k : Fin 256) (j : Fin 50000) (hj : j.val = 37500 + t.val) :
    selfM (featA m 0) (tab3 m 0 0) (ValueIdx.ix2 t k) = Cert.Spec.selfRow (featA m 0) (nodesA m 0) j k := by
  obtain rfl : j = ⟨37500 + t.val, by clear hj; omega⟩ := Fin.ext hj
  show featA m 0 (ValueIdx.ix2 (Cert.Spec.rowOf (tab3 m 0 0 (ValueIdx.ix1 t))) k) = _
  rw [tab3_nodes m 0 t]
  rfl
theorem meanM_tab3 (t : Fin 12500) (k : Fin 256) (j : Fin 50000) (hj : j.val = 37500 + t.val) :
    meanM (featA m 0) (tab3 m 0 1) (ValueIdx.ix2 t k) = Cert.Spec.neighRow (featA m 0) (neighA m 0) j k := by
  obtain rfl : j = ⟨37500 + t.val, by clear hj; omega⟩ := Fin.ext hj
  show (∑ s : Fin 10, featA m 0 (ValueIdx.ix2 (Cert.Spec.rowOf (tab3 m 0 1 (ValueIdx.ix1 ⟨10 * t.val + s.val, _⟩))) k)) * _
    = (∑ s : Fin 10, featA m 0 (ValueIdx.ix2 (Cert.Spec.rowOf (neighA m 0 (ValueIdx.ix2 _ s))) k)) * _
  congr 1
  refine Finset.sum_congr rfl fun s _ => ?_
  rw [tab3_neigh m 0]
  have ha : (⟨37500 + (⟨10 * t.val + s.val, by have := t.isLt; have := s.isLt; omega⟩ : Fin 125000).val / 10, by have := t.isLt; have := s.isLt; show 37500 + (10 * t.val + s.val) / 10 < 50000; omega⟩ : Fin 50000)
      = ⟨37500 + t.val, by omega⟩ := Fin.ext (by have := s.isLt; show 37500 + (10 * t.val + s.val) / 10 = 37500 + t.val; omega)
  have hb : (⟨(⟨10 * t.val + s.val, by have := t.isLt; have := s.isLt; omega⟩ : Fin 125000).val % 10, by omega⟩ : Fin 10) = s :=
    Fin.ext (by have := s.isLt; show (10 * t.val + s.val) % 10 = s.val; omega)
  rw [ha, hb]
end OneDevice
theorem rows4_apply (x0 x1 x2 x3 : S12500x256.Idx → EReal) (r : Fin 4) (t : Fin 12500) (k : Fin 256) (j : Fin 50000)
    (hj : j.val = 12500 * r.val + t.val) :
    concatenate S50000x256 0 [⟨S12500x256, x0⟩, ⟨S12500x256, x1⟩, ⟨S12500x256, x2⟩, ⟨S12500x256, x3⟩]
      concatenates_S12500x256_S12500x256_S12500x256_S12500x256_S50000x256_d0 (ValueIdx.ix2 j k)
      = (![x0, x1, x2, x3] r) (ValueIdx.ix2 t k) := by
  have hi : ∀ b : Fin S12500x256.rank, b.cast (rfl : S12500x256.rank = S50000x256.rank) ≠ (0 : Fin S50000x256.rank) →
      ((ValueIdx.ix2 t k : S12500x256.Idx) b).val = ((ValueIdx.ix2 j k : S50000x256.Idx) (b.cast rfl)).val := fun b hb => by
    match b with
    | ⟨0, _⟩ => exact absurd rfl hb
    | ⟨1, _⟩ => rfl
  match r with
  | ⟨0, _⟩ =>
    exact concatenate_apply_piece (t := S50000x256) 0
      [⟨S12500x256, x0⟩, ⟨S12500x256, x1⟩, ⟨S12500x256, x2⟩, ⟨S12500x256, x3⟩]
      concatenates_S12500x256_S12500x256_S12500x256_S12500x256_S50000x256_d0 (ValueIdx.ix2 j k)
      0 (by show (0 : ℕ) < 4; omega) S12500x256 x0 rfl rfl 0
      (by simp only [List.take_succ_cons, List.take_zero, List.map_cons, List.map_nil, List.sum_cons, List.sum_nil] <;> decide)
      (ValueIdx.ix2 t k) hi
      (by show 0 + t.val = j.val; have : j.val = 12500 * 0 + t.val := hj; omega)
  | ⟨1, _⟩ =>
    exact concatenate_apply_piece (t := S50000x256) 0
      [⟨S12500x256, x0⟩, ⟨S12500x256, x1⟩, ⟨S12500x256, x2⟩, ⟨S12500x256, x3⟩]
      concatenates_S12500x256_S12500x256_S12500x256_S12500x256_S50000x256_d0 (ValueIdx.ix2 j k)
      1 (by show (1 : ℕ) < 4; omega) S12500x256 x1 rfl rfl 12500
      (by simp only [List.take_succ_cons, List.take_zero, List.map_cons, List.map_nil, List.sum_cons, List.sum_nil] <;> decide)
      (ValueIdx.ix2 t k) hi
      (by show 12500 + t.val = j.val; have : j.val = 12500 * 1 + t.val := hj; omega)
  | ⟨2, _⟩ =>
    exact concatenate_apply_piece (t := S50000x256) 0
      [⟨S12500x256, x0⟩, ⟨S12500x256, x1⟩, ⟨S12500x256, x2⟩, ⟨S12500x256, x3⟩]
      concatenates_S12500x256_S12500x256_S12500x256_S12500x256_S50000x256_d0 (ValueIdx.ix2 j k)
      2 (by show (2 : ℕ) < 4; omega) S12500x256 x2 rfl rfl 25000
      (by simp only [List.take_succ_cons, List.take_zero, List.map_cons, List.map_nil, List.sum_cons, List.sum_nil] <;> decide)
      (ValueIdx.ix2 t k) hi
      (by show 25000 + t.val = j.val; have : j.val = 12500 * 2 + t.val := hj; omega)
  | ⟨3, _⟩ =>
    exact concatenate_apply_piece (t := S50000x256) 0
      [⟨S12500x256, x0⟩, ⟨S12500x256, x1⟩, ⟨S12500x256, x2⟩, ⟨S12500x256, x3⟩]
      concatenates_S12500x256_S12500x256_S12500x256_S12500x256_S50000x256_d0 (ValueIdx.ix2 j k)
      3 (by show (3 : ℕ) < 4; omega) S12500x256 x3 rfl rfl 37500
      (by simp only [List.take_succ_cons, List.take_zero, List.map_cons, List.map_nil, List.sum_cons, List.sum_nil] <;> decide)
      (ValueIdx.ix2 t k) hi
      (by show 37500 + t.val = j.val; have : j.val = 12500 * 3 + t.val := hj; omega)
theorem combM_apply_self (s0 s1 s2 s3 n0 n1 n2 n3 : S12500x256.Idx → EReal) (r : Fin 4) (t : Fin 12500) (j : Fin 50000)
    (hj : j.val = 12500 * r.val + t.val) (k : Fin 512) (hk : k.val < 256) :
    combM s0 s1 s2 s3 n0 n1 n2 n3 (ValueIdx.ix2 j k) = (![s0, s1, s2, s3] r) (ValueIdx.ix2 t (⟨k.val, hk⟩ : Fin 256)) := by
  unfold combM
  refine (concatenate_pair_apply_left (t := S50000x512) (s₁ := S50000x256) (s₂ := S50000x256) 1 _ _ _ (ValueIdx.ix2 j k) rfl
    (ValueIdx.ix2 j (⟨k.val, hk⟩ : Fin 256)) fun b => ?_).trans (rows4_apply s0 s1 s2 s3 r t _ j hj)
  match b with
  | ⟨0, _⟩ => rfl
  | ⟨1, _⟩ => rfl
theorem combM_apply_mean (s0 s1 s2 s3 n0 n1 n2 n3 : S12500x256.Idx → EReal) (r : Fin 4) (t : Fin 12500) (j : Fin 50000)
    (hj : j.val = 12500 * r.val + t.val) (k : Fin 512) (hk : ¬k.val < 256) :
    combM s0 s1 s2 s3 n0 n1 n2 n3 (ValueIdx.ix2 j k)
      = (![n0, n1, n2, n3] r) (ValueIdx.ix2 t (⟨k.val - 256, by have := k.isLt; omega⟩ : Fin 256)) := by
  unfold combM
  refine (concatenate_pair_apply_right (t := S50000x512) (s₁ := S50000x256) (s₂ := S50000x256) 1 _ _ _ (ValueIdx.ix2 j k) rfl rfl
    (ValueIdx.ix2 j (⟨k.val - 256, by have := k.isLt; omega⟩ : Fin 256)) (fun b hb => ?_) ?_).trans
    (rows4_apply n0 n1 n2 n3 r t _ j hj)
  · match b with
    | ⟨0, _⟩ => rfl
    | ⟨1, _⟩ => exact absurd rfl hb
  · show (k.val - 256) + 256 = k.val
    omega
theorem combM_entry (j : Fin 50000) (k : Fin 512) :
    combM (selfM (featA m 0) (tab0 m 0 0)) (selfM (featA m 0) (tab1 m 0 0)) (selfM (featA m 0) (tab2 m 0 0))
        (selfM (featA m 0) (tab3 m 0 0)) (meanM (featA m 0) (tab0 m 0 1)) (meanM (featA m 0) (tab1 m 0 1))
        (meanM (featA m 0) (tab2 m 0 1)) (meanM (featA m 0) (tab3 m 0 1)) (ValueIdx.ix2 j k)
      = Cert.Spec.comb (featA m 0) (nodesA m 0) (neighA m 0) j k := by
  have hjlt := j.isLt
  unfold Cert.Spec.comb
  by_cases hk : k.val < 256
  · rw [dif_pos hk]
    by_cases h0 : j.val < 12500
    · rw [combM_apply_self _ _ _ _ _ _ _ _ (0 : Fin 4) ⟨j.val, h0⟩ j (by show j.val = 12500 * 0 + j.val; omega) k hk]
      exact selfM_tab0 m ⟨j.val, h0⟩ ⟨k.val, hk⟩ j rfl
    by_cases h1 : j.val < 25000
    · rw [combM_apply_self _ _ _ _ _ _ _ _ (1 : Fin 4) ⟨j.val - 12500, by omega⟩ j (by show j.val = 12500 * 1 + (j.val - 12500); omega) k hk]
      exact selfM_tab1 m ⟨j.val - 12500, by omega⟩ ⟨k.val, hk⟩ j (by show j.val = 12500 + (j.val - 12500); omega)
    by_cases h2 : j.val < 37500
    · rw [combM_apply_self _ _ _ _ _ _ _ _ (2 : Fin 4) ⟨j.val - 25000, by omega⟩ j (by show j.val = 12500 * 2 + (j.val - 25000); omega) k hk]
      exact selfM_tab2 m ⟨j.val - 25000, by omega⟩ ⟨k.val, hk⟩ j (by show j.val = 25000 + (j.val - 25000); omega)
    · rw [combM_apply_self _ _ _ _ _ _ _ _ (3 : Fin 4) ⟨j.val - 37500, by omega⟩ j (by show j.val = 12500 * 3 + (j.val - 37500); omega) k hk]
      exact selfM_tab3 m ⟨j.val - 37500, by omega⟩ ⟨k.val, hk⟩ j (by show j.val = 37500 + (j.val - 37500); omega)
  · rw [dif_neg hk]
    have hklt := k.isLt
    by_cases h0 : j.val < 12500
    · rw [combM_apply_mean _ _ _ _ _ _ _ _ (0 : Fin 4) ⟨j.val, h0⟩ j (by show j.val = 12500 * 0 + j.val; omega) k hk]
      exact meanM_tab0 m ⟨j.val, h0⟩ ⟨k.val - 256, by omega⟩ j rfl
    by_cases h1 : j.val < 25000
    · rw [combM_apply_mean _ _ _ _ _ _ _ _ (1 : Fin 4) ⟨j.val - 12500, by omega⟩ j (by show j.val = 12500 * 1 + (j.val - 12500); omega) k hk]
      exact meanM_tab1 m ⟨j.val - 12500, by omega⟩ ⟨k.val - 256, by omega⟩ j (by show j.val = 12500 + (j.val - 12500); omega)
    by_cases h2 : j.val < 37500
    · rw [combM_apply_mean _ _ _ _ _ _ _ _ (2 : Fin 4) ⟨j.val - 25000, by omega⟩ j (by show j.val = 12500 * 2 + (j.val - 25000); omega) k hk]
      exact meanM_tab2 m ⟨j.val - 25000, by omega⟩ ⟨k.val - 256, by omega⟩ j (by show j.val = 25000 + (j.val - 25000); omega)
    · rw [combM_apply_mean _ _ _ _ _ _ _ _ (3 : Fin 4) ⟨j.val - 37500, by omega⟩ j (by show j.val = 12500 * 3 + (j.val - 37500); omega) k hk]
      exact meanM_tab3 m ⟨j.val - 37500, by omega⟩ ⟨k.val - 256, by omega⟩ j (by show j.val = 37500 + (j.val - 37500); omega)
theorem W10_v28 (c : Dev nD) :
    W10 m h c main_v28 = pad S51200x512 ![0, 0] ![1200, 0] ![0, 0] (W9 m h c main_v27) (W10 m h c main_call0_v0)
      pads_S50000x512_S51200x512_012000_000 h_S_ := by
  dsimp only [W10, hostOps4_1]
  after_results
  rfl
theorem W10_v28_apply (c : Dev nD) (j : Fin 50000) (k : Fin 512) :
    (W10 m h c main_v28 : S51200x512.Idx → EReal) (ValueIdx.ix2 (⟨j.val, by omega⟩ : Fin 51200) k)
      = (W9 m h c main_v27 : S50000x512.Idx → EReal) (ValueIdx.ix2 j k) := by
  rw [W10_v28]
  refine pad_apply_of_inside _ _ _ _ _ _ _ _ (ValueIdx.ix2 j k) fun a => ?_
  match a with
  | ⟨0, _⟩ => show j.val = 0 + j.val * (0 + 1); omega
  | ⟨1, _⟩ => show k.val = 0 + k.val * (0 + 1); omega
theorem W10_arg1 (c : Dev nD) : W10 m h c main_arg1 = weightA m c :=
  (after_of_writes_sub hostOps4_1 _ hostOps4_1_writes (by decide)).trans
    ((after_of_writes_sub hostOps4 _ hostOps4_writes (by decide)).trans (W8_arg m h c main_arg1 (by decide)).1)
theorem W11_v29 (c : Dev nD) : W11 m h c main_v29 = G4 (weightA m c) (W10 m h c main_v28) := by
  rw [W11_out]
  exact out_val4_of (V10 m h) c _ _ (W10_arg1 m h c) rfl
theorem W12_v30 (c : Dev nD) :
    W12 m h c main_v30 = extractStridedSlice S256x50000 ![0, 0] (W11 m h c main_v29) slices_S256x51200_S256x50000_0_0 := by
  dsimp only [W12, hostOps5]
  after_results
theorem kernel_value (m : (ℓ : Loc nD τ sig) → Buf (Elt Ideal) ℓ) (h : TabsOk m) (c : Dev nD) :
    (W12 m h c main_v30 : S256x50000.Idx → EReal)
      = Cert.Spec.G (m ((c : Thread nD τ).loc main_arg0)) (m ((c : Thread nD τ).loc main_arg1))
          (m ((c : Thread nD τ).loc main_arg2)) (m ((c : Thread nD τ).loc main_arg3)) := by
  obtain rfl : c = 0 := Subsingleton.elim _ _
  funext idx
  obtain ⟨i, j, rfl⟩ : ∃ (i : Fin 256) (j : Fin 50000), idx = ValueIdx.ix2 i j := ⟨idx 0, idx 1, ValueIdx.eq_ix2 idx⟩
  rw [W12_v30]
  refine (slice2_axis1_apply 0 _ _ i j (⟨j.val, by omega⟩ : Fin 51200) (by show j.val = 0 + j.val; omega)).trans ?_
  rw [W11_v29]
  show max (∑ k : Fin 512, weightA m 0 (ValueIdx.ix2 i k) * (W10 m h 0 main_v28 : S51200x512.Idx → EReal) (ValueIdx.ix2 (⟨j.val, _⟩ : Fin 51200) k)) 0
    = max (∑ k : Fin 512, weightA m 0 (ValueIdx.ix2 i k) * Cert.Spec.comb (featA m 0) (nodesA m 0) (neighA m 0) j k) 0
  congr 1
  refine Finset.sum_congr rfl fun k _ => ?_
  congr 1
  rw [W10_v28_apply, W9_v27]
  exact combM_entry m j k
end Cert.KernelIdeal.Hand
end
-- ==== Proof.Bits.GK.lean ====
import proofs.«412514_j386547056896_2_alg».proof.Proof.Gen.Kernel.Launch
import proofs.«412514_j386547056896_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

abbrev rwB : Rect S1x1x256 := Rect.unit (s := S1x1x256) ![0, 0, 0] S1x1x256.size inb_S1x1x256_S1x1x256_0_0_0

def outSelf (x0 : Vec F S1x1x256 .f32) : Vec F S1x1x256 .f32 :=
  View.canon [⟨rwB, k0_pay2 (View.ld x0 rwB)⟩]

def outMean (x1 x2 x3 x4 x5 x6 x7 x8 x9 x10 : Vec F S1x1x256 .f32) : Vec F S1x1x256 .f32 :=
  View.canon [⟨rwB, k0_pay1 (k0_pay3 (View.ld x1 rwB) (View.ld x2 rwB) (View.ld x3 rwB) (View.ld x4 rwB) (View.ld x5 rwB)
    (View.ld x6 rwB) (View.ld x7 rwB) (View.ld x8 rwB)) (View.ld x9 rwB) (View.ld x10 rwB)⟩]

/-- The share of the feature array given to each of the eleven windows that read it: a chain of halves. -/
def qIn : Fin 13 → PosShare TreeShare
  | ⟨0, _⟩ => fullShare.left
  | ⟨1, _⟩ => fullShare.right.left
  | ⟨2, _⟩ => fullShare.right.right.left
  | ⟨3, _⟩ => fullShare.right.right.right.left
  | ⟨4, _⟩ => fullShare.right.right.right.right.left
  | ⟨5, _⟩ => fullShare.right.right.right.right.right.left
  | ⟨6, _⟩ => fullShare.right.right.right.right.right.right.left
  | ⟨7, _⟩ => fullShare.right.right.right.right.right.right.right.left
  | ⟨8, _⟩ => fullShare.right.right.right.right.right.right.right.right.left
  | ⟨9, _⟩ => fullShare.right.right.right.right.right.right.right.right.right.left
  | ⟨10, _⟩ => fullShare.right.right.right.right.right.right.right.right.right.right
  | _ => fullShare

theorem coverB (p0 : Vec F S1x1x256 .f32) (y : S1x1x256.Idx) :
    ∃ pc ∈ ([⟨rwB, p0⟩] : List (View.Piece (Elt F) S1x1x256 .f32)), y ∈ pc.1.set :=
  View.cover_of_tiled [⟨rwB, p0⟩] S1x1x256.size (by rfl) y

abbrev gatherK := cc0_gather_kernel (F := F)

set_option maxHeartbeats 2000000 in
theorem sound_gather {κ} (hκ : κ = gatherK (F := F)) (c : Dev nD) (E : Set ℕ) (i : grid0.Coords)
    (arg1 : Memref sig .tc .smem S12500 .i32) (harg1 : arg1.IsWhole) (arg2 : Memref sig .tc .smem S125000 .i32) (harg2 : arg2.IsWhole)
    (arg3 : Memref sig .tc .vmem S1x1x256 .f32) (harg3 : arg3.IsWhole) (arg4 : Memref sig .tc .vmem S1x1x256 .f32) (harg4 : arg4.IsWhole) (arg5 : Memref sig .tc .vmem S1x1x256 .f32) (harg5 : arg5.IsWhole) (arg6 : Memref sig .tc .vmem S1x1x256 .f32) (harg6 : arg6.IsWhole) (arg7 : Memref sig .tc .vmem S1x1x256 .f32) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S1x1x256 .f32) (harg12 : arg12.IsWhole) (arg13 : Memref sig .tc .vmem S1x1x256 .f32) (harg13 : arg13.IsWhole) (arg14 : Memref sig .tc .vmem S1x1x256 .f32) (harg14 : arg14.IsWhole) (arg15 : Memref sig .tc .vmem S1x1x256 .f32) (harg15 : arg15.IsWhole)
    (x0 x1 x2 x3 x4 x5 x6 x7 x8 x9 x10 : Vec F S1x1x256 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10
        ∗ (∃ d, owns (c : Thread nD τ) arg14 fullShare d) ∗ (∃ d, owns (c : Thread nD τ) arg15 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10
            ∗ owns (c : Thread nD τ) arg14 fullShare (outSelf x0)
            ∗ owns (c : Thread nD τ) arg15 fullShare (outMean x1 x2 x3 x4 x5 x6 x7 x8 x9 x10)) -∗ K ⟨⟩))
      ⊢ wp frame (wpE (defs₀ (F := F)) Variants.none c none) E
          (κ i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  subst hκ
  simp only [gatherK, cc0_gather_kernel_eq_skeleton]; unfold cc0_gather_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (coverB _)
  iexists _; isplitr
  swap; · iexact H12
  ipureintro
  exact View.read_writes_eq_canon _ _ _ (coverB _)

def halves {ℓ : Loc nD τ sig} (I : Finset (Idx ℓ)) (f : Buf (Elt F) ℓ) (R : sProp 𝕄) : ℕ → PosShare TreeShare → sProp 𝕄
  | 0, q => iprop((ℓ ↦[I]{q} f) ∗ R)
  | n + 1, q => iprop((ℓ ↦[I]{q.left} f) ∗ halves I f R n q.right)

/-- A share is its left half and its right half, `n` times over. -/
theorem pointsTo_halves {ℓ : Loc nD τ sig} (I : Finset (Idx ℓ)) (f : Buf (Elt F) ℓ) (R : sProp 𝕄) (n : ℕ) :
    ∀ q : PosShare TreeShare, (iprop((ℓ ↦[I]{q} f) ∗ R) : sProp 𝕄) = halves I f R n q := by
  induction n with
  | zero => intro q; rfl
  | succ n ih =>
    intro q
    have h : (ℓ ↦[I]{q} f : sProp 𝕄) ⊣⊢ iprop((ℓ ↦[I]{q.left} f) ∗ ℓ ↦[I]{q.right} f) :=
      pointsTo_share (PosShare.mem_left_op_right q)
    show _ = iprop((ℓ ↦[I]{q.left} f) ∗ halves I f R n q.right)
    rw [← ih q.right, BI.Entails.antisymm h.1 h.2]
    have h1 : (iprop(((ℓ ↦[I]{q.left} f) ∗ ℓ ↦[I]{q.right} f) ∗ R) : sProp 𝕄) ⊢ iprop((ℓ ↦[I]{q.left} f) ∗ (ℓ ↦[I]{q.right} f) ∗ R) := by
      iintro ⟨⟨H1, H2⟩, H3⟩
      iframe
    have h2 : (iprop((ℓ ↦[I]{q.left} f) ∗ (ℓ ↦[I]{q.right} f) ∗ R) : sProp 𝕄) ⊢ iprop(((ℓ ↦[I]{q.left} f) ∗ ℓ ↦[I]{q.right} f) ∗ R) := by
      iintro ⟨H1, H2, H3⟩
      iframe
    exact BI.equiv_iff.mp ⟨h1, h2⟩

end Cert.Kernel.Hand

end
-- ==== Proof.Bits.G0.lean ====
import proofs.«412514_j386547056896_2_alg».proof.Proof.Bits.GK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (a : (pcfg0 (F := F)).Adm)
variable (V : (c : Dev nD) → (b : Ref sig .tc) → Buf (Elt F) ((c : Thread nD τ).loc b))

def iblk0 (c : Dev nD) (w : Fin (cfg0 a).W) (t : Fin (cfg0 a).N) :
    (((cfg0 a).win w).xblock ((cfg0 a).grid.coords t)).Idx → Elt F ((cfg0 a).win w).elt :=
  (((cfg0 a).win w).blk t).view.read (Elt F) (V c (Pipeline.arrRef spec0 w))

/-- At point `t` the self output is the node's feature row and the mean output is the sum of its ten neighbours' rows
    times the tenth; the inputs are unchanged. -/
def dat0 (c : Dev nD) : Dat τ (Elt F) Unit ℕ (UR sig nD τ) ℕ (cfg0 a) c where
  A w := V c (Pipeline.arrRef spec0 w)
  after w t := match w with
    | ⟨0, _⟩ => iblk0 a V c 0 t
    | ⟨1, _⟩ => iblk0 a V c 1 t
    | ⟨2, _⟩ => iblk0 a V c 2 t
    | ⟨3, _⟩ => iblk0 a V c 3 t
    | ⟨4, _⟩ => iblk0 a V c 4 t
    | ⟨5, _⟩ => iblk0 a V c 5 t
    | ⟨6, _⟩ => iblk0 a V c 6 t
    | ⟨7, _⟩ => iblk0 a V c 7 t
    | ⟨8, _⟩ => iblk0 a V c 8 t
    | ⟨9, _⟩ => iblk0 a V c 9 t
    | ⟨10, _⟩ => iblk0 a V c 10 t
    | ⟨11, _⟩ => outSelf (iblk0 a V c 0 t)
    | ⟨12, _⟩ => outMean (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t)
  Φ _ := iprop(Pipeline.ΦA spec0 c ∗ Pipeline.prefHeld pre0 c (fun _ => fullShare) a.1)
  q := qIn
  owed _ := 0

end Region0

end Cert.Kernel.Hand

end
-- ==== Proof.Bits.G0B.lean ====
import proofs.«412514_j386547056896_2_alg».proof.Proof.Bits.G0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (a : (pcfg0 (F := F)).Adm)
variable (V : (c : Dev nD) → (b : Ref sig .tc) → Buf (Elt F) ((c : Thread nD τ).loc b))

theorem after0 (c : Dev nD) (t : Fin (cfg0 a).N) (w : Fin 13) (hw : w.val < 11) :
    (dat0 a V c).after w t = iblk0 a V c w t := by
  fin_cases w <;> first | exact absurd hw (by decide) | rfl

section
attribute [local irreducible] outSelf outMean iblk0
theorem after0_11 (c : Dev nD) (t : Fin (cfg0 a).N) : (dat0 a V c).after 11 t = outSelf (iblk0 a V c 0 t) := rfl
theorem after0_12 (c : Dev nD) (t : Fin (cfg0 a).N) : (dat0 a V c).after 12 t = outMean (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t) := rfl
end

theorem before0 (c : Dev nD) (t : Fin (cfg0 a).N) (w : Fin 13) (hw : w.val < 11) (d) :
    (dat0 a V c).before w t d = iblk0 a V c w t := by
  fin_cases w <;> first
    | exact absurd hw (by decide)
    | exact ((dat0 a V c).before_in_eq_fetched _ rfl (fun _ => rfl) (fun _ _ _ => rfl)
        (fun t => by rw [after0 a V c t _ hw]; unfold Dat.blockOf iblk0; rfl) t d).trans
        (by unfold Dat.fetched Dat.blockOf iblk0; rfl)

theorem cc0_eq : cc0_gather_kernel (F := F) = gatherK := rfl

theorem body_obligation0 (c : Dev nD) : BodyObligation (dat0 (F := F) a V c) (defs₀ (F := F)) Variants.none () Set.univ := fun t => by
  rw [bigSep_W0, bigSep_W0]
  simp (disch := decide) only [before0 a V c t]
  rw [show (dat0 a V c).Φ t.succ = (dat0 a V c).Φ t.castSucc from rfl,
    show (dat0 a V c).owesAt () t.succ = (dat0 a V c).owesAt () t.castSucc from rfl]
  simp (disch := decide) only [after0 a V c t, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq (F := F)) c Set.univ _ _ _ _ _ _ _ _ _ _ _ _ _ _ _ _ _ _ _ _ _ _ _ _ _ _ _ _ _ _ _ (iblk0 a V c 0 t) (iblk0 a V c 1 t) (iblk0 a V c 2 t) (iblk0 a V c 3 t) (iblk0 a V c 4 t) (iblk0 a V c 5 t) (iblk0 a V c 6 t) (iblk0 a V c 7 t) (iblk0 a V c 8 t) (iblk0 a V c 9 t) (iblk0 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region0

end Cert.Kernel.Hand

end
-- ==== Proof.Bits.G0E.lean ====
import proofs.«412514_j386547056896_2_alg».proof.Proof.Bits.G0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (a : (pcfg0 (F := F)).Adm)
variable (V : (c : Dev nD) → (b : Ref sig .tc) → Buf (Elt F) ((c : Thread nD τ).loc b))
theorem arrays0_eq (c : Dev nD) (G : (w : Fin (cfg0 a).W) → Buf (Elt F) (((cfg0 a).win w).arr.view.loc (c : Thread nD τ))) :
    (dat0 a V c).arrays G = bigSep Finset.univ fun w : Fin 13 => (((c : Thread nD τ).loc (Pipeline.arrRef spec0 w)) ↦{(dat0 a V c).share w} G w : sProp 𝕄) := by
  unfold Pipeline.Dat.arrays
  exact bigSep_congr fun w _ => by rw [(arr_whole0 w).set_eq_univ]
theorem image0 : Finset.univ.image (Pipeline.arrRef spec0) = {main_v0, main_v4_0, main_v4_1} := by decide
theorem arrBufs0_eq (c : Dev nD) (W : (b : Ref sig .tc) → Buf (Elt F) ((c : Thread nD τ).loc b)) :
    (Pipeline.arrBufs spec0 c W : sProp 𝕄) = iprop((((c : Thread nD τ).loc main_v0) ↦{fullShare} W main_v0)
      ∗ (((c : Thread nD τ).loc main_v4_0) ↦{fullShare} W main_v4_0) ∗ (((c : Thread nD τ).loc main_v4_1) ↦{fullShare} W main_v4_1)) := by
  unfold Pipeline.arrBufs
  rw [image0, bigSep_insert (by decide), bigSep_insert (by decide), bigSep_singleton]
  rfl
include a in
theorem unscoped0_eq (c : Dev nD) (W : (b : Ref sig .tc) → Buf (Elt F) ((c : Thread nD τ).loc b)) :
    (unscopedBufs c W : sProp 𝕄) = iprop(Pipeline.arrBufs spec0 c W
      ∗ Pipeline.prefHeld pre0 c (fun _ => fullShare) (fun k => W (pre0.ref k)) ∗ Pipeline.unscopedRestP pre0 spec0 c W) := by
  have hs : (unscopedBufs c W : sProp 𝕄) = iprop(Pipeline.arrBufs spec0 c W ∗ Pipeline.unscopedRest spec0 c W) :=
    Pipeline.PerCore.unscopedBufs_split₀ (fun _ (_ : Unit) => cfg0 a) () c winFacts₀0.arr_unscoped W
  rw [hs, Pipeline.unscopedRest_split preFacts0 c W]
theorem entry0 (c : Dev nD) (hpf : ∀ k, V c (pre0.ref k) = a.1 k) :
    (unscopedBufs c (V c) : sProp 𝕄) ⊢ iprop((dat0 a V c).arrays ((dat0 a V c).arrAt · 0) ∗ Pipeline.prefHeld pre0 c (fun _ => fullShare) a.1 ∗ Pipeline.unscopedRestP pre0 spec0 c (V c)) := by
  rw [unscoped0_eq a c (V c), show (fun k => V c (pre0.ref k)) = a.1 from funext hpf]
  refine BIClass.sep_mono ?_ .rfl
  rw [arrBufs0_eq, arrays0_eq, bigSep_W0]
  refine (Entails.of_eq (pointsTo_halves Finset.univ (V c main_v0) _ 10 fullShare)).trans ?_
  exact .rfl
theorem exit0 (c : Dev nD) (hpf : ∀ k, V c (pre0.ref k) = a.1 k) (V' : (b : Ref sig .tc) → Buf (Elt F) ((c : Thread nD τ).loc b))
    (h11 : V' main_v4_0 = (dat0 a V c).arrAt 11 (cfg0 a).N) (h12 : V' main_v4_1 = (dat0 a V c).arrAt 12 (cfg0 a).N)
    (hrest : ∀ b, b ≠ main_v4_0 → b ≠ main_v4_1 → V' b = V c b) :
    iprop((dat0 a V c).arrays ((dat0 a V c).arrAt · (cfg0 a).N) ∗ Pipeline.prefHeld pre0 c (fun _ => fullShare) a.1 ∗ Pipeline.unscopedRestP pre0 spec0 c (V c)) ⊢ (unscopedBufs c V' : sProp 𝕄) := by
  have hpre : (fun k => V' (pre0.ref k)) = a.1 := funext fun k => by
    rw [hrest _ (preFacts0.disj k 11) (preFacts0.disj k 12)]; exact hpf k
  have hR : (Pipeline.unscopedRestP pre0 spec0 c V' : sProp 𝕄) = Pipeline.unscopedRestP pre0 spec0 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec0) (Finset.mem_univ (11 : Fin 13))))
      (fun e => hb' (by rw [e]; exact Finset.mem_image_of_mem (Pipeline.arrRef spec0) (Finset.mem_univ (12 : Fin 13))))]
  rw [unscoped0_eq a c V', hpre, hR]
  refine BIClass.sep_mono ?_ .rfl
  rw [arrBufs0_eq, hrest main_v0 (by decide) (by decide), h11, h12]
  refine BIBase.Entails.trans (Entails.of_eq ((arrays0_eq a V c _).trans (bigSep_W0 _))) ?_
  simp (disch := exact rfl) only [(dat0 a V c).arrAt_in]
  refine BIBase.Entails.trans ?_ (Entails.of_eq (pointsTo_halves Finset.univ (V c main_v0) _ 10 fullShare).symm)
  exact .rfl
end Region0

end Cert.Kernel.Hand

end
-- ==== Proof.Bits.Common.lean ====
import proofs.«412514_j386547056896_2_alg».proof.Proof.Gen.Kernel.Launch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
abbrev 𝒱₀ : Variants := Variants.none
abbrev L : GSem nD τ sig → Finset Unit := fun _ => ∅
abbrev lv : GSem nD τ sig → Unit → ℕ := fun _ _ => 0
abbrev noSem : PEmpty → SemLoc sig := fun k => k.elim
abbrev R (c : Dev nD) : sProp 𝕄 := iprop((∃ r, prngReg c r) ∗ ∃ W, owes (c : Thread nD τ) (0 : CellTallies nD τ sig Unit) W)
abbrev V_of (W : Dev nD → Valuation τ sig (Elt F)) (c : Dev nD) (b : Ref sig .tc) : Buf (Elt F) ((c : Thread nD τ).loc b) := W c b
end Cert.Kernel.Hand
end
-- ==== Proof.Bits.G0R.lean ====
import proofs.«412514_j386547056896_2_alg».proof.Proof.Bits.G0B
import proofs.«412514_j386547056896_2_alg».proof.Proof.Bits.G0E
import proofs.«412514_j386547056896_2_alg».proof.Proof.Bits.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (a : (pcfg0 (F := F)).Adm) (W W' : Dev nD → Valuation τ sig (Elt F))
abbrev X0 (c : Dev nD) : sProp 𝕄 := iprop(∃ r, prngReg c r)
abbrev Y0 (c : Dev nD) : sProp 𝕄 := iprop((∃ r, prngReg c r) ∗ Pipeline.prefHeld pre0 c (fun _ => fullShare) a.1)
abbrev Z0 (c : Dev nD) : sProp 𝕄 := Pipeline.unscopedRestP pre0 spec0 c (V_of W c)
theorem hentry0 (hpf : ∀ c k, V_of W c (pre0.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat0 a (V_of W) c).arrays ((dat0 a (V_of W) c).arrAt · 0) ∗ Pipeline.prefHeld pre0 c (fun _ => fullShare) a.1
          ∗ (dat0 a (V_of W) c).owesAt () 0 ∗ X0 c ∗ Z0 W c) := by
  have hsplit := entry0 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin0 (c : Dev nD) :
    iprop(X0 c ∗ Pipeline.prefHeld pre0 c (fun _ => fullShare) a.1 ∗ Pipeline.scopedRest (cfg0 a).spec c) ⊢ (dat0 a (V_of W) c).Φ 0 := by
  rw [show (dat0 a (V_of W) c).Φ 0 = iprop(Pipeline.ΦA spec0 c ∗ Pipeline.prefHeld pre0 c (fun _ => fullShare) a.1) from rfl]; unfold Pipeline.ΦA
  iintro ⟨Hp, Hpf, Hr⟩
  iframe
theorem hout0 (c : Dev nD) :
    (dat0 a (V_of W) c).Φ (Fin.last (cfg0 a).N) ⊢ iprop(Y0 a c ∗ Pipeline.ownSems0 noSem c ∗ Pipeline.scopedRest (cfg0 a).spec c) := by
  rw [Pipeline.ownSems0_none, show (dat0 a (V_of W) c).Φ (Fin.last (cfg0 a).N) = iprop(Pipeline.ΦA spec0 c ∗ Pipeline.prefHeld pre0 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit0 (hpf : ∀ c k, V_of W c (pre0.ref k) = a.1 k) (c : Dev nD)
    (h11 : V_of W' c main_v4_0 = (dat0 a (V_of W) c).arrAt 11 (cfg0 a).N) (h12 : V_of W' c main_v4_1 = (dat0 a (V_of W) c).arrAt 12 (cfg0 a).N)
    (hrest : ∀ b : Ref sig .tc, b ≠ main_v4_0 → b ≠ main_v4_1 → V_of W' c b = V_of W c b) :
    iprop((dat0 a (V_of W) c).arrays ((dat0 a (V_of W) c).arrAt · (cfg0 a).N) ∗ (dat0 a (V_of W) c).owesAt () (Fin.last (cfg0 a).N) ∗ Y0 a c ∗ Z0 W c)
      ⊢ |={Set.univ}=> iprop(StableHlo.held (c : Thread nD τ) (Pipeline.ucRefs τ sig) (W' c) ∗ R c) := by
  have hjoin := exit0 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region0

end Cert.Kernel.Hand

end
-- ==== Proof.Bits.G1.lean ====
import proofs.«412514_j386547056896_2_alg».proof.Proof.Bits.GK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

def iblk1 (c : Dev nD) (w : Fin (cfg1 a).W) (t : Fin (cfg1 a).N) :
    (((cfg1 a).win w).xblock ((cfg1 a).grid.coords t)).Idx → Elt F ((cfg1 a).win w).elt :=
  (((cfg1 a).win w).blk t).view.read (Elt F) (V c (Pipeline.arrRef spec1 w))

/-- At point `t` the self output is the node's feature row and the mean output is the sum of its ten neighbours' rows
    times the tenth; the inputs are unchanged. -/
def dat1 (c : Dev nD) : Dat τ (Elt F) Unit ℕ (UR sig nD τ) ℕ (cfg1 a) c where
  A w := V c (Pipeline.arrRef spec1 w)
  after w t := match w with
    | ⟨0, _⟩ => iblk1 a V c 0 t
    | ⟨1, _⟩ => iblk1 a V c 1 t
    | ⟨2, _⟩ => iblk1 a V c 2 t
    | ⟨3, _⟩ => iblk1 a V c 3 t
    | ⟨4, _⟩ => iblk1 a V c 4 t
    | ⟨5, _⟩ => iblk1 a V c 5 t
    | ⟨6, _⟩ => iblk1 a V c 6 t
    | ⟨7, _⟩ => iblk1 a V c 7 t
    | ⟨8, _⟩ => iblk1 a V c 8 t
    | ⟨9, _⟩ => iblk1 a V c 9 t
    | ⟨10, _⟩ => iblk1 a V c 10 t
    | ⟨11, _⟩ => outSelf (iblk1 a V c 0 t)
    | ⟨12, _⟩ => outMean (iblk1 a V c 1 t) (iblk1 a V c 2 t) (iblk1 a V c 3 t) (iblk1 a V c 4 t) (iblk1 a V c 5 t) (iblk1 a V c 6 t) (iblk1 a V c 7 t) (iblk1 a V c 8 t) (iblk1 a V c 9 t) (iblk1 a V c 10 t)
  Φ _ := iprop(Pipeline.ΦA spec1 c ∗ Pipeline.prefHeld pre1 c (fun _ => fullShare) a.1)
  q := qIn
  owed _ := 0

end Region1

end Cert.Kernel.Hand

end
-- ==== Proof.Bits.G1B.lean ====
import proofs.«412514_j386547056896_2_alg».proof.Proof.Bits.G1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (a : (pcfg1 (F := F)).Adm)
variable (V : (c : Dev nD) → (b : Ref sig .tc) → Buf (Elt F) ((c : Thread nD τ).loc b))

theorem after1 (c : Dev nD) (t : Fin (cfg1 a).N) (w : Fin 13) (hw : w.val < 11) :
    (dat1 a V c).after w t = iblk1 a V c w t := by
  fin_cases w <;> first | exact absurd hw (by decide) | rfl

section
attribute [local irreducible] outSelf outMean iblk1
theorem after1_11 (c : Dev nD) (t : Fin (cfg1 a).N) : (dat1 a V c).after 11 t = outSelf (iblk1 a V c 0 t) := rfl
theorem after1_12 (c : Dev nD) (t : Fin (cfg1 a).N) : (dat1 a V c).after 12 t = outMean (iblk1 a V c 1 t) (iblk1 a V c 2 t) (iblk1 a V c 3 t) (iblk1 a V c 4 t) (iblk1 a V c 5 t) (iblk1 a V c 6 t) (iblk1 a V c 7 t) (iblk1 a V c 8 t) (iblk1 a V c 9 t) (iblk1 a V c 10 t) := rfl
end

theorem before1 (c : Dev nD) (t : Fin (cfg1 a).N) (w : Fin 13) (hw : w.val < 11) (d) :
    (dat1 a V c).before w t d = iblk1 a V c w t := by
  fin_cases w <;> first
    | exact absurd hw (by decide)
    | exact ((dat1 a V c).before_in_eq_fetched _ rfl (fun _ => rfl) (fun _ _ _ => rfl)
        (fun t => by rw [after1 a V c t _ hw]; unfold Dat.blockOf iblk1; rfl) t d).trans
        (by unfold Dat.fetched Dat.blockOf iblk1; rfl)

theorem cc0_eq_r1 : cc1_gather_kernel (F := F) = gatherK := rfl

theorem body_obligation1 (c : Dev nD) : BodyObligation (dat1 (F := F) a V c) (defs₀ (F := F)) Variants.none () Set.univ := fun t => by
  rw [bigSep_W1, bigSep_W1]
  simp (disch := decide) only [before1 a V c t]
  rw [show (dat1 a V c).Φ t.succ = (dat1 a V c).Φ t.castSucc from rfl,
    show (dat1 a V c).owesAt () t.succ = (dat1 a V c).owesAt () t.castSucc from rfl]
  simp (disch := decide) only [after1 a V c t, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq_r1 (F := F)) c Set.univ _ _ _ _ _ _ _ _ _ _ _ _ _ _ _ _ _ _ _ _ _ _ _ _ _ _ _ _ _ _ _ (iblk1 a V c 0 t) (iblk1 a V c 1 t) (iblk1 a V c 2 t) (iblk1 a V c 3 t) (iblk1 a V c 4 t) (iblk1 a V c 5 t) (iblk1 a V c 6 t) (iblk1 a V c 7 t) (iblk1 a V c 8 t) (iblk1 a V c 9 t) (iblk1 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region1

end Cert.Kernel.Hand

end
-- ==== Proof.Bits.G1E.lean ====
import proofs.«412514_j386547056896_2_alg».proof.Proof.Bits.G1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (a : (pcfg1 (F := F)).Adm)
variable (V : (c : Dev nD) → (b : Ref sig .tc) → Buf (Elt F) ((c : Thread nD τ).loc b))
theorem arrays1_eq (c : Dev nD) (G : (w : Fin (cfg1 a).W) → Buf (Elt F) (((cfg1 a).win w).arr.view.loc (c : Thread nD τ))) :
    (dat1 a V c).arrays G = bigSep Finset.univ fun w : Fin 13 => (((c : Thread nD τ).loc (Pipeline.arrRef spec1 w)) ↦{(dat1 a V c).share w} G w : sProp 𝕄) := by
  unfold Pipeline.Dat.arrays
  exact bigSep_congr fun w _ => by rw [(arr_whole1 w).set_eq_univ]
theorem image1 : Finset.univ.image (Pipeline.arrRef spec1) = {main_v0, main_v10_0, main_v10_1} := by decide
theorem arrBufs0_eq_r1 (c : Dev nD) (W : (b : Ref sig .tc) → Buf (Elt F) ((c : Thread nD τ).loc b)) :
    (Pipeline.arrBufs spec1 c W : sProp 𝕄) = iprop((((c : Thread nD τ).loc main_v0) ↦{fullShare} W main_v0)
      ∗ (((c : Thread nD τ).loc main_v10_0) ↦{fullShare} W main_v10_0) ∗ (((c : Thread nD τ).loc main_v10_1) ↦{fullShare} W main_v10_1)) := by
  unfold Pipeline.arrBufs
  rw [image1, bigSep_insert (by decide), bigSep_insert (by decide), bigSep_singleton]
  rfl
include a in
theorem unscoped0_eq_r1 (c : Dev nD) (W : (b : Ref sig .tc) → Buf (Elt F) ((c : Thread nD τ).loc b)) :
    (unscopedBufs c W : sProp 𝕄) = iprop(Pipeline.arrBufs spec1 c W
      ∗ Pipeline.prefHeld pre1 c (fun _ => fullShare) (fun k => W (pre1.ref k)) ∗ Pipeline.unscopedRestP pre1 spec1 c W) := by
  have hs : (unscopedBufs c W : sProp 𝕄) = iprop(Pipeline.arrBufs spec1 c W ∗ Pipeline.unscopedRest spec1 c W) :=
    Pipeline.PerCore.unscopedBufs_split₀ (fun _ (_ : Unit) => cfg1 a) () c winFacts₀1.arr_unscoped W
  rw [hs, Pipeline.unscopedRest_split preFacts1 c W]
theorem entry1 (c : Dev nD) (hpf : ∀ k, V c (pre1.ref k) = a.1 k) :
    (unscopedBufs c (V c) : sProp 𝕄) ⊢ iprop((dat1 a V c).arrays ((dat1 a V c).arrAt · 0) ∗ Pipeline.prefHeld pre1 c (fun _ => fullShare) a.1 ∗ Pipeline.unscopedRestP pre1 spec1 c (V c)) := by
  rw [unscoped0_eq_r1 a c (V c), show (fun k => V c (pre1.ref k)) = a.1 from funext hpf]
  refine BIClass.sep_mono ?_ .rfl
  rw [arrBufs0_eq_r1, arrays1_eq, bigSep_W1]
  refine (Entails.of_eq (pointsTo_halves Finset.univ (V c main_v0) _ 10 fullShare)).trans ?_
  exact .rfl
theorem exit1 (c : Dev nD) (hpf : ∀ k, V c (pre1.ref k) = a.1 k) (V' : (b : Ref sig .tc) → Buf (Elt F) ((c : Thread nD τ).loc b))
    (h11 : V' main_v10_0 = (dat1 a V c).arrAt 11 (cfg1 a).N) (h12 : V' main_v10_1 = (dat1 a V c).arrAt 12 (cfg1 a).N)
    (hrest : ∀ b, b ≠ main_v10_0 → b ≠ main_v10_1 → V' b = V c b) :
    iprop((dat1 a V c).arrays ((dat1 a V c).arrAt · (cfg1 a).N) ∗ Pipeline.prefHeld pre1 c (fun _ => fullShare) a.1 ∗ Pipeline.unscopedRestP pre1 spec1 c (V c)) ⊢ (unscopedBufs c V' : sProp 𝕄) := by
  have hpre : (fun k => V' (pre1.ref k)) = a.1 := funext fun k => by
    rw [hrest _ (preFacts1.disj k 11) (preFacts1.disj k 12)]; exact hpf k
  have hR : (Pipeline.unscopedRestP pre1 spec1 c V' : sProp 𝕄) = Pipeline.unscopedRestP pre1 spec1 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec1) (Finset.mem_univ (11 : Fin 13))))
      (fun e => hb' (by rw [e]; exact Finset.mem_image_of_mem (Pipeline.arrRef spec1) (Finset.mem_univ (12 : Fin 13))))]
  rw [unscoped0_eq_r1 a c V', hpre, hR]
  refine BIClass.sep_mono ?_ .rfl
  rw [arrBufs0_eq_r1, hrest main_v0 (by decide) (by decide), h11, h12]
  refine BIBase.Entails.trans (Entails.of_eq ((arrays1_eq a V c _).trans (bigSep_W1 _))) ?_
  simp (disch := exact rfl) only [(dat1 a V c).arrAt_in]
  refine BIBase.Entails.trans ?_ (Entails.of_eq (pointsTo_halves Finset.univ (V c main_v0) _ 10 fullShare).symm)
  exact .rfl
end Region1

end Cert.Kernel.Hand

end
-- ==== Proof.Bits.G1R.lean ====
import proofs.«412514_j386547056896_2_alg».proof.Proof.Bits.G1B
import proofs.«412514_j386547056896_2_alg».proof.Proof.Bits.G1E
import proofs.«412514_j386547056896_2_alg».proof.Proof.Bits.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (a : (pcfg1 (F := F)).Adm) (W W' : Dev nD → Valuation τ sig (Elt F))
abbrev X1 (c : Dev nD) : sProp 𝕄 := iprop(∃ r, prngReg c r)
abbrev Y1 (c : Dev nD) : sProp 𝕄 := iprop((∃ r, prngReg c r) ∗ Pipeline.prefHeld pre1 c (fun _ => fullShare) a.1)
abbrev Z1 (c : Dev nD) : sProp 𝕄 := Pipeline.unscopedRestP pre1 spec1 c (V_of W c)
theorem hentry1 (hpf : ∀ c k, V_of W c (pre1.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat1 a (V_of W) c).arrays ((dat1 a (V_of W) c).arrAt · 0) ∗ Pipeline.prefHeld pre1 c (fun _ => fullShare) a.1
          ∗ (dat1 a (V_of W) c).owesAt () 0 ∗ X1 c ∗ Z1 W c) := by
  have hsplit := entry1 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin1 (c : Dev nD) :
    iprop(X1 c ∗ Pipeline.prefHeld pre1 c (fun _ => fullShare) a.1 ∗ Pipeline.scopedRest (cfg1 a).spec c) ⊢ (dat1 a (V_of W) c).Φ 0 := by
  rw [show (dat1 a (V_of W) c).Φ 0 = iprop(Pipeline.ΦA spec1 c ∗ Pipeline.prefHeld pre1 c (fun _ => fullShare) a.1) from rfl]; unfold Pipeline.ΦA
  iintro ⟨Hp, Hpf, Hr⟩
  iframe
theorem hout1 (c : Dev nD) :
    (dat1 a (V_of W) c).Φ (Fin.last (cfg1 a).N) ⊢ iprop(Y1 a c ∗ Pipeline.ownSems0 noSem c ∗ Pipeline.scopedRest (cfg1 a).spec c) := by
  rw [Pipeline.ownSems0_none, show (dat1 a (V_of W) c).Φ (Fin.last (cfg1 a).N) = iprop(Pipeline.ΦA spec1 c ∗ Pipeline.prefHeld pre1 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit1 (hpf : ∀ c k, V_of W c (pre1.ref k) = a.1 k) (c : Dev nD)
    (h11 : V_of W' c main_v10_0 = (dat1 a (V_of W) c).arrAt 11 (cfg1 a).N) (h12 : V_of W' c main_v10_1 = (dat1 a (V_of W) c).arrAt 12 (cfg1 a).N)
    (hrest : ∀ b : Ref sig .tc, b ≠ main_v10_0 → b ≠ main_v10_1 → V_of W' c b = V_of W c b) :
    iprop((dat1 a (V_of W) c).arrays ((dat1 a (V_of W) c).arrAt · (cfg1 a).N) ∗ (dat1 a (V_of W) c).owesAt () (Fin.last (cfg1 a).N) ∗ Y1 a c ∗ Z1 W c)
      ⊢ |={Set.univ}=> iprop(StableHlo.held (c : Thread nD τ) (Pipeline.ucRefs τ sig) (W' c) ∗ R c) := by
  have hjoin := exit1 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region1

end Cert.Kernel.Hand

end
-- ==== Proof.Bits.G2.lean ====
import proofs.«412514_j386547056896_2_alg».proof.Proof.Bits.GK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (a : (pcfg2 (F := F)).Adm)
variable (V : (c : Dev nD) → (b : Ref sig .tc) → Buf (Elt F) ((c : Thread nD τ).loc b))

def iblk2 (c : Dev nD) (w : Fin (cfg2 a).W) (t : Fin (cfg2 a).N) :
    (((cfg2 a).win w).xblock ((cfg2 a).grid.coords t)).Idx → Elt F ((cfg2 a).win w).elt :=
  (((cfg2 a).win w).blk t).view.read (Elt F) (V c (Pipeline.arrRef spec2 w))

/-- At point `t` the self output is the node's feature row and the mean output is the sum of its ten neighbours' rows
    times the tenth; the inputs are unchanged. -/
def dat2 (c : Dev nD) : Dat τ (Elt F) Unit ℕ (UR sig nD τ) ℕ (cfg2 a) c where
  A w := V c (Pipeline.arrRef spec2 w)
  after w t := match w with
    | ⟨0, _⟩ => iblk2 a V c 0 t
    | ⟨1, _⟩ => iblk2 a V c 1 t
    | ⟨2, _⟩ => iblk2 a V c 2 t
    | ⟨3, _⟩ => iblk2 a V c 3 t
    | ⟨4, _⟩ => iblk2 a V c 4 t
    | ⟨5, _⟩ => iblk2 a V c 5 t
    | ⟨6, _⟩ => iblk2 a V c 6 t
    | ⟨7, _⟩ => iblk2 a V c 7 t
    | ⟨8, _⟩ => iblk2 a V c 8 t
    | ⟨9, _⟩ => iblk2 a V c 9 t
    | ⟨10, _⟩ => iblk2 a V c 10 t
    | ⟨11, _⟩ => outSelf (iblk2 a V c 0 t)
    | ⟨12, _⟩ => outMean (iblk2 a V c 1 t) (iblk2 a V c 2 t) (iblk2 a V c 3 t) (iblk2 a V c 4 t) (iblk2 a V c 5 t) (iblk2 a V c 6 t) (iblk2 a V c 7 t) (iblk2 a V c 8 t) (iblk2 a V c 9 t) (iblk2 a V c 10 t)
  Φ _ := iprop(Pipeline.ΦA spec2 c ∗ Pipeline.prefHeld pre2 c (fun _ => fullShare) a.1)
  q := qIn
  owed _ := 0

end Region2

end Cert.Kernel.Hand

end
-- ==== Proof.Bits.G2B.lean ====
import proofs.«412514_j386547056896_2_alg».proof.Proof.Bits.G2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2

variable (a : (pcfg2 (F := F)).Adm)
variable (V : (c : Dev nD) → (b : Ref sig .tc) → Buf (Elt F) ((c : Thread nD τ).loc b))

theorem after2 (c : Dev nD) (t : Fin (cfg2 a).N) (w : Fin 13) (hw : w.val < 11) :
    (dat2 a V c).after w t = iblk2 a V c w t := by
  fin_cases w <;> first | exact absurd hw (by decide) | rfl

section
attribute [local irreducible] outSelf outMean iblk2
theorem after2_11 (c : Dev nD) (t : Fin (cfg2 a).N) : (dat2 a V c).after 11 t = outSelf (iblk2 a V c 0 t) := rfl
theorem after2_12 (c : Dev nD) (t : Fin (cfg2 a).N) : (dat2 a V c).after 12 t = outMean (iblk2 a V c 1 t) (iblk2 a V c 2 t) (iblk2 a V c 3 t) (iblk2 a V c 4 t) (iblk2 a V c 5 t) (iblk2 a V c 6 t) (iblk2 a V c 7 t) (iblk2 a V c 8 t) (iblk2 a V c 9 t) (iblk2 a V c 10 t) := rfl
end

theorem before2 (c : Dev nD) (t : Fin (cfg2 a).N) (w : Fin 13) (hw : w.val < 11) (d) :
    (dat2 a V c).before w t d = iblk2 a V c w t := by
  fin_cases w <;> first
    | exact absurd hw (by decide)
    | exact ((dat2 a V c).before_in_eq_fetched _ rfl (fun _ => rfl) (fun _ _ _ => rfl)
        (fun t => by rw [after2 a V c t _ hw]; unfold Dat.blockOf iblk2; rfl) t d).trans
        (by unfold Dat.fetched Dat.blockOf iblk2; rfl)

theorem cc0_eq_r2 : cc2_gather_kernel (F := F) = gatherK := rfl

theorem body_obligation2 (c : Dev nD) : BodyObligation (dat2 (F := F) a V c) (defs₀ (F := F)) Variants.none () Set.univ := fun t => by
  rw [bigSep_W2, bigSep_W2]
  simp (disch := decide) only [before2 a V c t]
  rw [show (dat2 a V c).Φ t.succ = (dat2 a V c).Φ t.castSucc from rfl,
    show (dat2 a V c).owesAt () t.succ = (dat2 a V c).owesAt () t.castSucc from rfl]
  simp (disch := decide) only [after2 a V c t, after2_11, after2_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq_r2 (F := F)) c Set.univ _ _ _ _ _ _ _ _ _ _ _ _ _ _ _ _ _ _ _ _ _ _ _ _ _ _ _ _ _ _ _ (iblk2 a V c 0 t) (iblk2 a V c 1 t) (iblk2 a V c 2 t) (iblk2 a V c 3 t) (iblk2 a V c 4 t) (iblk2 a V c 5 t) (iblk2 a V c 6 t) (iblk2 a V c 7 t) (iblk2 a V c 8 t) (iblk2 a V c 9 t) (iblk2 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region2

end Cert.Kernel.Hand

end
-- ==== Proof.Bits.G2E.lean ====
import proofs.«412514_j386547056896_2_alg».proof.Proof.Bits.G2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (a : (pcfg2 (F := F)).Adm)
variable (V : (c : Dev nD) → (b : Ref sig .tc) → Buf (Elt F) ((c : Thread nD τ).loc b))
theorem arrays2_eq (c : Dev nD) (G : (w : Fin (cfg2 a).W) → Buf (Elt F) (((cfg2 a).win w).arr.view.loc (c : Thread nD τ))) :
    (dat2 a V c).arrays G = bigSep Finset.univ fun w : Fin 13 => (((c : Thread nD τ).loc (Pipeline.arrRef spec2 w)) ↦{(dat2 a V c).share w} G w : sProp 𝕄) := by
  unfold Pipeline.Dat.arrays
  exact bigSep_congr fun w _ => by rw [(arr_whole2 w).set_eq_univ]
theorem image2 : Finset.univ.image (Pipeline.arrRef spec2) = {main_v0, main_v16_0, main_v16_1} := by decide
theorem arrBufs0_eq_r2 (c : Dev nD) (W : (b : Ref sig .tc) → Buf (Elt F) ((c : Thread nD τ).loc b)) :
    (Pipeline.arrBufs spec2 c W : sProp 𝕄) = iprop((((c : Thread nD τ).loc main_v0) ↦{fullShare} W main_v0)
      ∗ (((c : Thread nD τ).loc main_v16_0) ↦{fullShare} W main_v16_0) ∗ (((c : Thread nD τ).loc main_v16_1) ↦{fullShare} W main_v16_1)) := by
  unfold Pipeline.arrBufs
  rw [image2, bigSep_insert (by decide), bigSep_insert (by decide), bigSep_singleton]
  rfl
include a in
theorem unscoped0_eq_r2 (c : Dev nD) (W : (b : Ref sig .tc) → Buf (Elt F) ((c : Thread nD τ).loc b)) :
    (unscopedBufs c W : sProp 𝕄) = iprop(Pipeline.arrBufs spec2 c W
      ∗ Pipeline.prefHeld pre2 c (fun _ => fullShare) (fun k => W (pre2.ref k)) ∗ Pipeline.unscopedRestP pre2 spec2 c W) := by
  have hs : (unscopedBufs c W : sProp 𝕄) = iprop(Pipeline.arrBufs spec2 c W ∗ Pipeline.unscopedRest spec2 c W) :=
    Pipeline.PerCore.unscopedBufs_split₀ (fun _ (_ : Unit) => cfg2 a) () c winFacts₀2.arr_unscoped W
  rw [hs, Pipeline.unscopedRest_split preFacts2 c W]
theorem entry2 (c : Dev nD) (hpf : ∀ k, V c (pre2.ref k) = a.1 k) :
    (unscopedBufs c (V c) : sProp 𝕄) ⊢ iprop((dat2 a V c).arrays ((dat2 a V c).arrAt · 0) ∗ Pipeline.prefHeld pre2 c (fun _ => fullShare) a.1 ∗ Pipeline.unscopedRestP pre2 spec2 c (V c)) := by
  rw [unscoped0_eq_r2 a c (V c), show (fun k => V c (pre2.ref k)) = a.1 from funext hpf]
  refine BIClass.sep_mono ?_ .rfl
  rw [arrBufs0_eq_r2, arrays2_eq, bigSep_W2]
  refine (Entails.of_eq (pointsTo_halves Finset.univ (V c main_v0) _ 10 fullShare)).trans ?_
  exact .rfl
theorem exit2 (c : Dev nD) (hpf : ∀ k, V c (pre2.ref k) = a.1 k) (V' : (b : Ref sig .tc) → Buf (Elt F) ((c : Thread nD τ).loc b))
    (h11 : V' main_v16_0 = (dat2 a V c).arrAt 11 (cfg2 a).N) (h12 : V' main_v16_1 = (dat2 a V c).arrAt 12 (cfg2 a).N)
    (hrest : ∀ b, b ≠ main_v16_0 → b ≠ main_v16_1 → V' b = V c b) :
    iprop((dat2 a V c).arrays ((dat2 a V c).arrAt · (cfg2 a).N) ∗ Pipeline.prefHeld pre2 c (fun _ => fullShare) a.1 ∗ Pipeline.unscopedRestP pre2 spec2 c (V c)) ⊢ (unscopedBufs c V' : sProp 𝕄) := by
  have hpre : (fun k => V' (pre2.ref k)) = a.1 := funext fun k => by
    rw [hrest _ (preFacts2.disj k 11) (preFacts2.disj k 12)]; exact hpf k
  have hR : (Pipeline.unscopedRestP pre2 spec2 c V' : sProp 𝕄) = Pipeline.unscopedRestP pre2 spec2 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec2) (Finset.mem_univ (11 : Fin 13))))
      (fun e => hb' (by rw [e]; exact Finset.mem_image_of_mem (Pipeline.arrRef spec2) (Finset.mem_univ (12 : Fin 13))))]
  rw [unscoped0_eq_r2 a c V', hpre, hR]
  refine BIClass.sep_mono ?_ .rfl
  rw [arrBufs0_eq_r2, hrest main_v0 (by decide) (by decide), h11, h12]
  refine BIBase.Entails.trans (Entails.of_eq ((arrays2_eq a V c _).trans (bigSep_W2 _))) ?_
  simp (disch := exact rfl) only [(dat2 a V c).arrAt_in]
  refine BIBase.Entails.trans ?_ (Entails.of_eq (pointsTo_halves Finset.univ (V c main_v0) _ 10 fullShare).symm)
  exact .rfl
end Region2

end Cert.Kernel.Hand

end
-- ==== Proof.Bits.G2R.lean ====
import proofs.«412514_j386547056896_2_alg».proof.Proof.Bits.G2B
import proofs.«412514_j386547056896_2_alg».proof.Proof.Bits.G2E
import proofs.«412514_j386547056896_2_alg».proof.Proof.Bits.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region2
variable (a : (pcfg2 (F := F)).Adm) (W W' : Dev nD → Valuation τ sig (Elt F))
abbrev X2 (c : Dev nD) : sProp 𝕄 := iprop(∃ r, prngReg c r)
abbrev Y2 (c : Dev nD) : sProp 𝕄 := iprop((∃ r, prngReg c r) ∗ Pipeline.prefHeld pre2 c (fun _ => fullShare) a.1)
abbrev Z2 (c : Dev nD) : sProp 𝕄 := Pipeline.unscopedRestP pre2 spec2 c (V_of W c)
theorem hentry2 (hpf : ∀ c k, V_of W c (pre2.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat2 a (V_of W) c).arrays ((dat2 a (V_of W) c).arrAt · 0) ∗ Pipeline.prefHeld pre2 c (fun _ => fullShare) a.1
          ∗ (dat2 a (V_of W) c).owesAt () 0 ∗ X2 c ∗ Z2 W c) := by
  have hsplit := entry2 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin2 (c : Dev nD) :
    iprop(X2 c ∗ Pipeline.prefHeld pre2 c (fun _ => fullShare) a.1 ∗ Pipeline.scopedRest (cfg2 a).spec c) ⊢ (dat2 a (V_of W) c).Φ 0 := by
  rw [show (dat2 a (V_of W) c).Φ 0 = iprop(Pipeline.ΦA spec2 c ∗ Pipeline.prefHeld pre2 c (fun _ => fullShare) a.1) from rfl]; unfold Pipeline.ΦA
  iintro ⟨Hp, Hpf, Hr⟩
  iframe
theorem hout2 (c : Dev nD) :
    (dat2 a (V_of W) c).Φ (Fin.last (cfg2 a).N) ⊢ iprop(Y2 a c ∗ Pipeline.ownSems0 noSem c ∗ Pipeline.scopedRest (cfg2 a).spec c) := by
  rw [Pipeline.ownSems0_none, show (dat2 a (V_of W) c).Φ (Fin.last (cfg2 a).N) = iprop(Pipeline.ΦA spec2 c ∗ Pipeline.prefHeld pre2 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit2 (hpf : ∀ c k, V_of W c (pre2.ref k) = a.1 k) (c : Dev nD)
    (h11 : V_of W' c main_v16_0 = (dat2 a (V_of W) c).arrAt 11 (cfg2 a).N) (h12 : V_of W' c main_v16_1 = (dat2 a (V_of W) c).arrAt 12 (cfg2 a).N)
    (hrest : ∀ b : Ref sig .tc, b ≠ main_v16_0 → b ≠ main_v16_1 → V_of W' c b = V_of W c b) :
    iprop((dat2 a (V_of W) c).arrays ((dat2 a (V_of W) c).arrAt · (cfg2 a).N) ∗ (dat2 a (V_of W) c).owesAt () (Fin.last (cfg2 a).N) ∗ Y2 a c ∗ Z2 W c)
      ⊢ |={Set.univ}=> iprop(StableHlo.held (c : Thread nD τ) (Pipeline.ucRefs τ sig) (W' c) ∗ R c) := by
  have hjoin := exit2 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region2

end Cert.Kernel.Hand

end
-- ==== Proof.Bits.G3.lean ====
import proofs.«412514_j386547056896_2_alg».proof.Proof.Bits.GK

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3

variable (a : (pcfg3 (F := F)).Adm)
variable (V : (c : Dev nD) → (b : Ref sig .tc) → Buf (Elt F) ((c : Thread nD τ).loc b))

def iblk3 (c : Dev nD) (w : Fin (cfg3 a).W) (t : Fin (cfg3 a).N) :
    (((cfg3 a).win w).xblock ((cfg3 a).grid.coords t)).Idx → Elt F ((cfg3 a).win w).elt :=
  (((cfg3 a).win w).blk t).view.read (Elt F) (V c (Pipeline.arrRef spec3 w))

/-- At point `t` the self output is the node's feature row and the mean output is the sum of its ten neighbours' rows
    times the tenth; the inputs are unchanged. -/
def dat3 (c : Dev nD) : Dat τ (Elt F) Unit ℕ (UR sig nD τ) ℕ (cfg3 a) c where
  A w := V c (Pipeline.arrRef spec3 w)
  after w t := match w with
    | ⟨0, _⟩ => iblk3 a V c 0 t
    | ⟨1, _⟩ => iblk3 a V c 1 t
    | ⟨2, _⟩ => iblk3 a V c 2 t
    | ⟨3, _⟩ => iblk3 a V c 3 t
    | ⟨4, _⟩ => iblk3 a V c 4 t
    | ⟨5, _⟩ => iblk3 a V c 5 t
    | ⟨6, _⟩ => iblk3 a V c 6 t
    | ⟨7, _⟩ => iblk3 a V c 7 t
    | ⟨8, _⟩ => iblk3 a V c 8 t
    | ⟨9, _⟩ => iblk3 a V c 9 t
    | ⟨10, _⟩ => iblk3 a V c 10 t
    | ⟨11, _⟩ => outSelf (iblk3 a V c 0 t)
    | ⟨12, _⟩ => outMean (iblk3 a V c 1 t) (iblk3 a V c 2 t) (iblk3 a V c 3 t) (iblk3 a V c 4 t) (iblk3 a V c 5 t) (iblk3 a V c 6 t) (iblk3 a V c 7 t) (iblk3 a V c 8 t) (iblk3 a V c 9 t) (iblk3 a V c 10 t)
  Φ _ := iprop(Pipeline.ΦA spec3 c ∗ Pipeline.prefHeld pre3 c (fun _ => fullShare) a.1)
  q := qIn
  owed _ := 0

end Region3

end Cert.Kernel.Hand

end
-- ==== Proof.Bits.G3B.lean ====
import proofs.«412514_j386547056896_2_alg».proof.Proof.Bits.G3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3

variable (a : (pcfg3 (F := F)).Adm)
variable (V : (c : Dev nD) → (b : Ref sig .tc) → Buf (Elt F) ((c : Thread nD τ).loc b))

theorem after3 (c : Dev nD) (t : Fin (cfg3 a).N) (w : Fin 13) (hw : w.val < 11) :
    (dat3 a V c).after w t = iblk3 a V c w t := by
  fin_cases w <;> first | exact absurd hw (by decide) | rfl

section
attribute [local irreducible] outSelf outMean iblk3
theorem after3_11 (c : Dev nD) (t : Fin (cfg3 a).N) : (dat3 a V c).after 11 t = outSelf (iblk3 a V c 0 t) := rfl
theorem after3_12 (c : Dev nD) (t : Fin (cfg3 a).N) : (dat3 a V c).after 12 t = outMean (iblk3 a V c 1 t) (iblk3 a V c 2 t) (iblk3 a V c 3 t) (iblk3 a V c 4 t) (iblk3 a V c 5 t) (iblk3 a V c 6 t) (iblk3 a V c 7 t) (iblk3 a V c 8 t) (iblk3 a V c 9 t) (iblk3 a V c 10 t) := rfl
end

theorem before3 (c : Dev nD) (t : Fin (cfg3 a).N) (w : Fin 13) (hw : w.val < 11) (d) :
    (dat3 a V c).before w t d = iblk3 a V c w t := by
  fin_cases w <;> first
    | exact absurd hw (by decide)
    | exact ((dat3 a V c).before_in_eq_fetched _ rfl (fun _ => rfl) (fun _ _ _ => rfl)
        (fun t => by rw [after3 a V c t _ hw]; unfold Dat.blockOf iblk3; rfl) t d).trans
        (by unfold Dat.fetched Dat.blockOf iblk3; rfl)

theorem cc0_eq_r3 : cc3_gather_kernel (F := F) = gatherK := rfl

theorem body_obligation3 (c : Dev nD) : BodyObligation (dat3 (F := F) a V c) (defs₀ (F := F)) Variants.none () Set.univ := fun t => by
  rw [bigSep_W3, bigSep_W3]
  simp (disch := decide) only [before3 a V c t]
  rw [show (dat3 a V c).Φ t.succ = (dat3 a V c).Φ t.castSucc from rfl,
    show (dat3 a V c).owesAt () t.succ = (dat3 a V c).owesAt () t.castSucc from rfl]
  simp (disch := decide) only [after3 a V c t, after3_11, after3_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_gather (cc0_eq_r3 (F := F)) c Set.univ _ _ _ _ _ _ _ _ _ _ _ _ _ _ _ _ _ _ _ _ _ _ _ _ _ _ _ _ _ _ _ (iblk3 a V c 0 t) (iblk3 a V c 1 t) (iblk3 a V c 2 t) (iblk3 a V c 3 t) (iblk3 a V c 4 t) (iblk3 a V c 5 t) (iblk3 a V c 6 t) (iblk3 a V c 7 t) (iblk3 a V c 8 t) (iblk3 a V c 9 t) (iblk3 a V c 10 t) _)
  iframe H0 H1 H2 H3 H4 H5 H6 H7 H8 H9 H10
  isplitl [H11]; · iexists _; iexact H11
  isplitl [H12]; · iexists _; iexact H12
  iintro ⟨H0, H1, H2, H3, H4, H5, H6, H7, H8, H9, H10, H11, H12⟩
  iframe

end Region3

end Cert.Kernel.Hand

end
-- ==== Proof.Bits.G3E.lean ====
import proofs.«412514_j386547056896_2_alg».proof.Proof.Bits.G3

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3
variable (a : (pcfg3 (F := F)).Adm)
variable (V : (c : Dev nD) → (b : Ref sig .tc) → Buf (Elt F) ((c : Thread nD τ).loc b))
theorem arrays3_eq (c : Dev nD) (G : (w : Fin (cfg3 a).W) → Buf (Elt F) (((cfg3 a).win w).arr.view.loc (c : Thread nD τ))) :
    (dat3 a V c).arrays G = bigSep Finset.univ fun w : Fin 13 => (((c : Thread nD τ).loc (Pipeline.arrRef spec3 w)) ↦{(dat3 a V c).share w} G w : sProp 𝕄) := by
  unfold Pipeline.Dat.arrays
  exact bigSep_congr fun w _ => by rw [(arr_whole3 w).set_eq_univ]
theorem image3 : Finset.univ.image (Pipeline.arrRef spec3) = {main_v0, main_v22_0, main_v22_1} := by decide
theorem arrBufs0_eq_r3 (c : Dev nD) (W : (b : Ref sig .tc) → Buf (Elt F) ((c : Thread nD τ).loc b)) :
    (Pipeline.arrBufs spec3 c W : sProp 𝕄) = iprop((((c : Thread nD τ).loc main_v0) ↦{fullShare} W main_v0)
      ∗ (((c : Thread nD τ).loc main_v22_0) ↦{fullShare} W main_v22_0) ∗ (((c : Thread nD τ).loc main_v22_1) ↦{fullShare} W main_v22_1)) := by
  unfold Pipeline.arrBufs
  rw [image3, bigSep_insert (by decide), bigSep_insert (by decide), bigSep_singleton]
  rfl
include a in
theorem unscoped0_eq_r3 (c : Dev nD) (W : (b : Ref sig .tc) → Buf (Elt F) ((c : Thread nD τ).loc b)) :
    (unscopedBufs c W : sProp 𝕄) = iprop(Pipeline.arrBufs spec3 c W
      ∗ Pipeline.prefHeld pre3 c (fun _ => fullShare) (fun k => W (pre3.ref k)) ∗ Pipeline.unscopedRestP pre3 spec3 c W) := by
  have hs : (unscopedBufs c W : sProp 𝕄) = iprop(Pipeline.arrBufs spec3 c W ∗ Pipeline.unscopedRest spec3 c W) :=
    Pipeline.PerCore.unscopedBufs_split₀ (fun _ (_ : Unit) => cfg3 a) () c winFacts₀3.arr_unscoped W
  rw [hs, Pipeline.unscopedRest_split preFacts3 c W]
theorem entry3 (c : Dev nD) (hpf : ∀ k, V c (pre3.ref k) = a.1 k) :
    (unscopedBufs c (V c) : sProp 𝕄) ⊢ iprop((dat3 a V c).arrays ((dat3 a V c).arrAt · 0) ∗ Pipeline.prefHeld pre3 c (fun _ => fullShare) a.1 ∗ Pipeline.unscopedRestP pre3 spec3 c (V c)) := by
  rw [unscoped0_eq_r3 a c (V c), show (fun k => V c (pre3.ref k)) = a.1 from funext hpf]
  refine BIClass.sep_mono ?_ .rfl
  rw [arrBufs0_eq_r3, arrays3_eq, bigSep_W3]
  refine (Entails.of_eq (pointsTo_halves Finset.univ (V c main_v0) _ 10 fullShare)).trans ?_
  exact .rfl
theorem exit3 (c : Dev nD) (hpf : ∀ k, V c (pre3.ref k) = a.1 k) (V' : (b : Ref sig .tc) → Buf (Elt F) ((c : Thread nD τ).loc b))
    (h11 : V' main_v22_0 = (dat3 a V c).arrAt 11 (cfg3 a).N) (h12 : V' main_v22_1 = (dat3 a V c).arrAt 12 (cfg3 a).N)
    (hrest : ∀ b, b ≠ main_v22_0 → b ≠ main_v22_1 → V' b = V c b) :
    iprop((dat3 a V c).arrays ((dat3 a V c).arrAt · (cfg3 a).N) ∗ Pipeline.prefHeld pre3 c (fun _ => fullShare) a.1 ∗ Pipeline.unscopedRestP pre3 spec3 c (V c)) ⊢ (unscopedBufs c V' : sProp 𝕄) := by
  have hpre : (fun k => V' (pre3.ref k)) = a.1 := funext fun k => by
    rw [hrest _ (preFacts3.disj k 11) (preFacts3.disj k 12)]; exact hpf k
  have hR : (Pipeline.unscopedRestP pre3 spec3 c V' : sProp 𝕄) = Pipeline.unscopedRestP pre3 spec3 c (V c) := by
    unfold Pipeline.unscopedRestP
    refine bigSep_congr fun b hb => ?_
    have hb' := (Finset.mem_sdiff.mp (Finset.mem_sdiff.mp hb).1).2
    rw [hrest b (fun e => hb' (by rw [e]; exact Finset.mem_image_of_mem (Pipeline.arrRef spec3) (Finset.mem_univ (11 : Fin 13))))
      (fun e => hb' (by rw [e]; exact Finset.mem_image_of_mem (Pipeline.arrRef spec3) (Finset.mem_univ (12 : Fin 13))))]
  rw [unscoped0_eq_r3 a c V', hpre, hR]
  refine BIClass.sep_mono ?_ .rfl
  rw [arrBufs0_eq_r3, hrest main_v0 (by decide) (by decide), h11, h12]
  refine BIBase.Entails.trans (Entails.of_eq ((arrays3_eq a V c _).trans (bigSep_W3 _))) ?_
  simp (disch := exact rfl) only [(dat3 a V c).arrAt_in]
  refine BIBase.Entails.trans ?_ (Entails.of_eq (pointsTo_halves Finset.univ (V c main_v0) _ 10 fullShare).symm)
  exact .rfl
end Region3

end Cert.Kernel.Hand

end
-- ==== Proof.Bits.G3R.lean ====
import proofs.«412514_j386547056896_2_alg».proof.Proof.Bits.G3B
import proofs.«412514_j386547056896_2_alg».proof.Proof.Bits.G3E
import proofs.«412514_j386547056896_2_alg».proof.Proof.Bits.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region3
variable (a : (pcfg3 (F := F)).Adm) (W W' : Dev nD → Valuation τ sig (Elt F))
abbrev X3 (c : Dev nD) : sProp 𝕄 := iprop(∃ r, prngReg c r)
abbrev Y3 (c : Dev nD) : sProp 𝕄 := iprop((∃ r, prngReg c r) ∗ Pipeline.prefHeld pre3 c (fun _ => fullShare) a.1)
abbrev Z3 (c : Dev nD) : sProp 𝕄 := Pipeline.unscopedRestP pre3 spec3 c (V_of W c)
theorem hentry3 (hpf : ∀ c k, V_of W c (pre3.ref k) = a.1 k) (c : Dev nD) :
    iprop((StableHlo.held (c : Thread nD τ) (Pipeline.ucRefs τ sig) (W c) ∗ R c) ∗ Pipeline.ownSems0 noSem c ∗ levAts L lv)
      ⊢ |={Set.univ}=> iprop((dat3 a (V_of W) c).arrays ((dat3 a (V_of W) c).arrAt · 0) ∗ Pipeline.prefHeld pre3 c (fun _ => fullShare) a.1
          ∗ (dat3 a (V_of W) c).owesAt () 0 ∗ X3 c ∗ Z3 W c) := by
  have hsplit := entry3 a (V_of W) c (hpf c)
  rw [Pipeline.unscopedBufs_held] at hsplit
  iintro ⟨⟨Hub, Hp, HO⟩, -, -⟩
  ihave H := hsplit $$ Hub
  icases H with ⟨Ha, Hpf, Hrest⟩
  imodintro
  iframe Ha Hpf Hp Hrest
  unfold Pipeline.Dat.owesAt Pipeline.owesWithin
  icases HO with ⟨%Wd, HO⟩; iexists Wd; isplitr; · ipureintro; exact fun _ _ => Or.inl trivial
  iexact HO
theorem hin3 (c : Dev nD) :
    iprop(X3 c ∗ Pipeline.prefHeld pre3 c (fun _ => fullShare) a.1 ∗ Pipeline.scopedRest (cfg3 a).spec c) ⊢ (dat3 a (V_of W) c).Φ 0 := by
  rw [show (dat3 a (V_of W) c).Φ 0 = iprop(Pipeline.ΦA spec3 c ∗ Pipeline.prefHeld pre3 c (fun _ => fullShare) a.1) from rfl]; unfold Pipeline.ΦA
  iintro ⟨Hp, Hpf, Hr⟩
  iframe
theorem hout3 (c : Dev nD) :
    (dat3 a (V_of W) c).Φ (Fin.last (cfg3 a).N) ⊢ iprop(Y3 a c ∗ Pipeline.ownSems0 noSem c ∗ Pipeline.scopedRest (cfg3 a).spec c) := by
  rw [Pipeline.ownSems0_none, show (dat3 a (V_of W) c).Φ (Fin.last (cfg3 a).N) = iprop(Pipeline.ΦA spec3 c ∗ Pipeline.prefHeld pre3 c (fun _ => fullShare) a.1) from rfl]; unfold Pipeline.ΦA
  iintro ⟨⟨Hr, Hp⟩, Hpf⟩
  isplitl [Hp Hpf]
  · isplitl [Hp]; · iexact Hp
    iexact Hpf
  isplitr; · iempintro
  iexact Hr
theorem hexit3 (hpf : ∀ c k, V_of W c (pre3.ref k) = a.1 k) (c : Dev nD)
    (h11 : V_of W' c main_v22_0 = (dat3 a (V_of W) c).arrAt 11 (cfg3 a).N) (h12 : V_of W' c main_v22_1 = (dat3 a (V_of W) c).arrAt 12 (cfg3 a).N)
    (hrest : ∀ b : Ref sig .tc, b ≠ main_v22_0 → b ≠ main_v22_1 → V_of W' c b = V_of W c b) :
    iprop((dat3 a (V_of W) c).arrays ((dat3 a (V_of W) c).arrAt · (cfg3 a).N) ∗ (dat3 a (V_of W) c).owesAt () (Fin.last (cfg3 a).N) ∗ Y3 a c ∗ Z3 W c)
      ⊢ |={Set.univ}=> iprop(StableHlo.held (c : Thread nD τ) (Pipeline.ucRefs τ sig) (W' c) ∗ R c) := by
  have hjoin := exit3 a (V_of W) c (hpf c) (V_of W' c) h11 h12 hrest
  rw [Pipeline.unscopedBufs_held] at hjoin
  iintro ⟨Ha, HO, ⟨Hp, Hpf⟩, Hrest⟩
  imodintro
  isplitl [Ha Hpf Hrest]
  · iapply hjoin
    iframe
  isplitl [Hp]; · iexact Hp
  unfold Pipeline.Dat.owesAt Pipeline.owesWithin
  icases HO with ⟨%Wd, -, HO⟩; iexists Wd; iexact HO
end Region3

end Cert.Kernel.Hand

end
-- ==== Proof.Bits.M4.lean ====
import proofs.«412514_j386547056896_2_alg».proof.Proof.Gen.Kernel.Launch
import proofs.«412514_j386547056896_2_alg».proof.Proof.Gen.Kernel.Skeleton
import proofs.«412514_j386547056896_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
section Region4
variable (V : (c : Dev nD) → (b : Ref sig .tc) → Buf (Elt F) ((c : Thread nD τ).loc b))
def iblk4 (c : Dev nD) (w : Fin cfg4.W) (t : Fin cfg4.N) :
    ((cfg4.win w).xblock (cfg4.grid.coords t)).Idx → Elt F (cfg4.win w).elt :=
  ((cfg4.win w).blk t).view.read (Elt F) (V c (Pipeline.arrRef spec4 w))
abbrev rw4a : Rect S256x512 := Rect.unit (s := S256x512) ![0, 0] S256x512.size inb_S256x512_S256x512_0_0
abbrev rw4b : Rect S2048x512 := Rect.unit (s := S2048x512) ![0, 0] S2048x512.size inb_S2048x512_S2048x512_0_0
abbrev rw4c : Rect S256x2048 := Rect.unit (s := S256x2048) ![0, 0] S256x2048.size inb_S256x2048_S256x2048_0_0
def out4_2 (x0 : Vec F S256x512 .f32) (x1 : Vec F S2048x512 .f32) : Vec F S256x2048 .f32 :=
  View.canon [⟨rw4c, k4_pay1 (View.ld x0 rw4a) (View.ld x1 rw4b)⟩]
theorem cover4_2 (p0 : Vec F S256x2048 .f32) (y : S256x2048.Idx) :
    ∃ pc ∈ ([⟨rw4c, p0⟩] : List (View.Piece (Elt F) S256x2048 .f32)), y ∈ pc.1.set :=
  View.cover_of_tiled [⟨rw4c, p0⟩] S256x2048.size (by rfl) y
set_option maxHeartbeats 2000000 in
theorem sound_kernel4 (c : Dev nD) (E : Set ℕ) (i : grid4.Coords)
    (arg1 : Memref sig .tc .vmem S256x512 .f32) (harg1 : arg1.IsWhole)
    (arg2 : Memref sig .tc .vmem S2048x512 .f32) (harg2 : arg2.IsWhole)
    (arg3 : Memref sig .tc .vmem S256x2048 .f32) (harg3 : arg3.IsWhole)
    (x0 : Vec F S256x512 .f32) (x1 : Vec F S2048x512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out4_2 x0 x1)) -∗ K ⟨⟩))
      ⊢ wp frame (wpE (defs₀ (F := F)) Variants.none c none) E (cc4_matmul_relu_kernel i arg1 harg1 arg2 harg2 arg3 harg3) K := by
  simp only [cc4_matmul_relu_kernel_eq_skeleton]; unfold cc4_matmul_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover4_2 _)
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0
theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) :
    (dat4 V c).after 2 t = out4_2 (iblk4 V c 0 t) (iblk4 V c 1 t) := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem body_obligation4 (c : Dev nD) :
    BodyObligation (dat4 (F := F) V c) (defs₀ (F := F)) Variants.none () Set.univ := fun t => by
  rw [bigSep_W4, bigSep_W4]
  show _ ⊢ wp frame _ Set.univ (bodyAt4 t) _
  simp only [before4_0, before4_1]
  rw [show (dat4 V c).Φ t.succ = (dat4 V c).Φ t.castSucc from rfl,
    show (dat4 V c).owesAt () t.succ = (dat4 V c).owesAt () t.castSucc from rfl,
    after4_0, after4_1, after4_2]
  iintro ⟨HΦ, Ho, ⟨%d0, H0⟩, ⟨%d1, H1⟩, ⟨%d2, H2⟩⟩
  iapply (sound_kernel4 c Set.univ _ _ _ _ _ _ _ (iblk4 V c 0 t) (iblk4 V c 1 t) _)
  iframe H0 H1
  isplitl [H2]; · iexists _; iexact H2
  iintro ⟨H0, H1, H2⟩
  iframe
end Region4
end Cert.Kernel.Hand
end
-- ==== Proof.Bits.Fold.lean ====
import proofs.«412514_j386547056896_2_alg».proof.Proof.Bits.G0B
import proofs.«412514_j386547056896_2_alg».proof.Proof.Bits.G1B
import proofs.«412514_j386547056896_2_alg».proof.Proof.Bits.G2B
import proofs.«412514_j386547056896_2_alg».proof.Proof.Bits.G3B
import proofs.«412514_j386547056896_2_alg».proof.Proof.Bits.M4
import proofs.«412514_j386547056896_2_alg».proof.Proof.Gen.Kernel.Regions
import Idealize.ShloMosaic.Lib.StableHlo.Run
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
open Idealize.ShloMosaic.StableHlo (after_of_writes_sub devRef_ne_of_ne)
theorem upd2_ne {α : Type} [DecidableEq α] {β : α → Type} (f : ∀ x, β x) {x y r : α} (vx : β x) (vy : β y) (hx : r ≠ x) (hy : r ≠ y) :
    Function.update (Function.update f x vx) y vy r = f r := by
  rw [Function.update_of_ne hy, Function.update_of_ne hx]
theorem upd2_fst {α : Type} [DecidableEq α] {β : α → Type} (f : ∀ x, β x) {x y : α} (vx : β x) (vy : β y) (hxy : x ≠ y) :
    Function.update (Function.update f x vx) y vy x = vx := by
  rw [Function.update_of_ne hxy, Function.update_self]
theorem upd2_snd {α : Type} [DecidableEq α] {β : α → Type} (f : ∀ x, β x) {x y : α} (vx : β x) (vy : β y) :
    Function.update (Function.update f x vx) y vy y = vy := Function.update_self ..
variable (m : (ℓ : Loc nD τ sig) → Buf (Elt F) ℓ)
abbrev W0 (c : Dev nD) : Valuation τ sig (Elt F) := fun b => m (c, b)
def tab0 (c : Dev nD) : pre0.Contents (Elt F) := fun k => StableHlo.after hostOps0 (W0 m c) (Proc.devRef .tc (pre0.ref k))
def tab1 (c : Dev nD) : pre1.Contents (Elt F) := fun k => StableHlo.after hostOps1 (W0 m c) (Proc.devRef .tc (pre1.ref k))
def tab2 (c : Dev nD) : pre2.Contents (Elt F) := fun k => StableHlo.after hostOps2 (W0 m c) (Proc.devRef .tc (pre2.ref k))
def tab3 (c : Dev nD) : pre3.Contents (Elt F) := fun k => StableHlo.after hostOps3 (W0 m c) (Proc.devRef .tc (pre3.ref k))
structure TabsOk : Prop where
  ok0 : ok0 (tab0 m 0)
  ok1 : ok1 (tab1 m 0)
  ok2 : ok2 (tab2 m 0)
  ok3 : ok3 (tab3 m 0)
variable (h : TabsOk m)
def a0 : (pcfg0 (F := F)).Adm := ⟨tab0 m 0, h.ok0⟩
def a1 : (pcfg1 (F := F)).Adm := ⟨tab1 m 0, h.ok1⟩
def a2 : (pcfg2 (F := F)).Adm := ⟨tab2 m 0, h.ok2⟩
def a3 : (pcfg3 (F := F)).Adm := ⟨tab3 m 0, h.ok3⟩
abbrev W1 (c : Dev nD) : Valuation τ sig (Elt F) := StableHlo.after hostOps0 (W0 m c)
abbrev V1 (c : Dev nD) (b : Ref sig .tc) : Buf (Elt F) ((c : Thread nD τ).loc b) := W1 m c b
def W2 (c : Dev nD) : Valuation τ sig (Elt F) :=
  Function.update (Function.update (W1 m c) main_v4_0 ((dat0 (a0 m h) (V1 m) c).arrAt 11 (cfg0 (a0 m h)).N))
    main_v4_1 ((dat0 (a0 m h) (V1 m) c).arrAt 12 (cfg0 (a0 m h)).N)
abbrev V2 (c : Dev nD) (b : Ref sig .tc) : Buf (Elt F) ((c : Thread nD τ).loc b) := W2 m h c b
abbrev W3 (c : Dev nD) : Valuation τ sig (Elt F) := StableHlo.after hostOps1 (W2 m h c)
abbrev V3 (c : Dev nD) (b : Ref sig .tc) : Buf (Elt F) ((c : Thread nD τ).loc b) := W3 m h c b
def W4 (c : Dev nD) : Valuation τ sig (Elt F) :=
  Function.update (Function.update (W3 m h c) main_v10_0 ((dat1 (a1 m h) (V3 m h) c).arrAt 11 (cfg1 (a1 m h)).N))
    main_v10_1 ((dat1 (a1 m h) (V3 m h) c).arrAt 12 (cfg1 (a1 m h)).N)
abbrev V4 (c : Dev nD) (b : Ref sig .tc) : Buf (Elt F) ((c : Thread nD τ).loc b) := W4 m h c b
abbrev W5 (c : Dev nD) : Valuation τ sig (Elt F) := StableHlo.after hostOps2 (W4 m h c)
abbrev V5 (c : Dev nD) (b : Ref sig .tc) : Buf (Elt F) ((c : Thread nD τ).loc b) := W5 m h c b
def W6 (c : Dev nD) : Valuation τ sig (Elt F) :=
  Function.update (Function.update (W5 m h c) main_v16_0 ((dat2 (a2 m h) (V5 m h) c).arrAt 11 (cfg2 (a2 m h)).N))
    main_v16_1 ((dat2 (a2 m h) (V5 m h) c).arrAt 12 (cfg2 (a2 m h)).N)
abbrev V6 (c : Dev nD) (b : Ref sig .tc) : Buf (Elt F) ((c : Thread nD τ).loc b) := W6 m h c b
abbrev W7 (c : Dev nD) : Valuation τ sig (Elt F) := StableHlo.after hostOps3 (W6 m h c)
abbrev V7 (c : Dev nD) (b : Ref sig .tc) : Buf (Elt F) ((c : Thread nD τ).loc b) := W7 m h c b
def W8 (c : Dev nD) : Valuation τ sig (Elt F) :=
  Function.update (Function.update (W7 m h c) main_v22_0 ((dat3 (a3 m h) (V7 m h) c).arrAt 11 (cfg3 (a3 m h)).N))
    main_v22_1 ((dat3 (a3 m h) (V7 m h) c).arrAt 12 (cfg3 (a3 m h)).N)
abbrev V8 (c : Dev nD) (b : Ref sig .tc) : Buf (Elt F) ((c : Thread nD τ).loc b) := W8 m h c b
abbrev W9 (c : Dev nD) : Valuation τ sig (Elt F) := StableHlo.after hostOps4 (W8 m h c)
abbrev W10 (c : Dev nD) : Valuation τ sig (Elt F) := StableHlo.after hostOps4_1 (W9 m h c)
abbrev V10 (c : Dev nD) (b : Ref sig .tc) : Buf (Elt F) ((c : Thread nD τ).loc b) := W10 m h c b
def W11 (c : Dev nD) : Valuation τ sig (Elt F) :=
  Function.update (W10 m h c) main_v29 ((dat4 (V10 m h) c).arrAt 2 cfg4.N)
abbrev V11 (c : Dev nD) (b : Ref sig .tc) : Buf (Elt F) ((c : Thread nD τ).loc b) := W11 m h c b
abbrev W12 (c : Dev nD) : Valuation τ sig (Elt F) := StableHlo.after hostOps5 (W11 m h c)
theorem W2_of (c : Dev nD) (r : Ref sig .tc) (hr : r ∉ ([main_v4_0, main_v4_1] : List (Ref sig .tc))) : W2 m h c r = W1 m c r := by
  unfold W2
  exact upd2_ne _ _ _ (devRef_ne_of_ne (List.ne_of_not_mem_cons hr)) (devRef_ne_of_ne (List.ne_of_not_mem_cons (List.not_mem_of_not_mem_cons hr)))
theorem W4_of (c : Dev nD) (r : Ref sig .tc) (hr : r ∉ ([main_v10_0, main_v10_1] : List (Ref sig .tc))) : W4 m h c r = W3 m h c r := by
  unfold W4
  exact upd2_ne _ _ _ (devRef_ne_of_ne (List.ne_of_not_mem_cons hr)) (devRef_ne_of_ne (List.ne_of_not_mem_cons (List.not_mem_of_not_mem_cons hr)))
theorem W6_of (c : Dev nD) (r : Ref sig .tc) (hr : r ∉ ([main_v16_0, main_v16_1] : List (Ref sig .tc))) : W6 m h c r = W5 m h c r := by
  unfold W6
  exact upd2_ne _ _ _ (devRef_ne_of_ne (List.ne_of_not_mem_cons hr)) (devRef_ne_of_ne (List.ne_of_not_mem_cons (List.not_mem_of_not_mem_cons hr)))
theorem W8_of (c : Dev nD) (r : Ref sig .tc) (hr : r ∉ ([main_v22_0, main_v22_1] : List (Ref sig .tc))) : W8 m h c r = W7 m h c r := by
  unfold W8
  exact upd2_ne _ _ _ (devRef_ne_of_ne (List.ne_of_not_mem_cons hr)) (devRef_ne_of_ne (List.ne_of_not_mem_cons (List.not_mem_of_not_mem_cons hr)))
theorem W11_of (c : Dev nD) (r : Ref sig .tc) (hr : r ∉ ([main_v29] : List (Ref sig .tc))) : W11 m h c r = W10 m h c r := by
  unfold W11
  exact Function.update_of_ne (devRef_ne_of_ne (List.ne_of_not_mem_cons hr)) _ _
theorem W2_out0 (c : Dev nD) : W2 m h c main_v4_0 = (dat0 (a0 m h) (V1 m) c).arrAt 11 (cfg0 (a0 m h)).N := by
  unfold W2
  exact upd2_fst _ _ _ (devRef_ne_of_ne (by decide : main_v4_0 ≠ main_v4_1))
theorem W2_out1 (c : Dev nD) : W2 m h c main_v4_1 = (dat0 (a0 m h) (V1 m) c).arrAt 12 (cfg0 (a0 m h)).N := by
  unfold W2
  exact upd2_snd _ _ _
theorem W4_out0 (c : Dev nD) : W4 m h c main_v10_0 = (dat1 (a1 m h) (V3 m h) c).arrAt 11 (cfg1 (a1 m h)).N := by
  unfold W4
  exact upd2_fst _ _ _ (devRef_ne_of_ne (by decide : main_v10_0 ≠ main_v10_1))
theorem W4_out1 (c : Dev nD) : W4 m h c main_v10_1 = (dat1 (a1 m h) (V3 m h) c).arrAt 12 (cfg1 (a1 m h)).N := by
  unfold W4
  exact upd2_snd _ _ _
theorem W6_out0 (c : Dev nD) : W6 m h c main_v16_0 = (dat2 (a2 m h) (V5 m h) c).arrAt 11 (cfg2 (a2 m h)).N := by
  unfold W6
  exact upd2_fst _ _ _ (devRef_ne_of_ne (by decide : main_v16_0 ≠ main_v16_1))
theorem W6_out1 (c : Dev nD) : W6 m h c main_v16_1 = (dat2 (a2 m h) (V5 m h) c).arrAt 12 (cfg2 (a2 m h)).N := by
  unfold W6
  exact upd2_snd _ _ _
theorem W8_out0 (c : Dev nD) : W8 m h c main_v22_0 = (dat3 (a3 m h) (V7 m h) c).arrAt 11 (cfg3 (a3 m h)).N := by
  unfold W8
  exact upd2_fst _ _ _ (devRef_ne_of_ne (by decide : main_v22_0 ≠ main_v22_1))
theorem W8_out1 (c : Dev nD) : W8 m h c main_v22_1 = (dat3 (a3 m h) (V7 m h) c).arrAt 12 (cfg3 (a3 m h)).N := by
  unfold W8
  exact upd2_snd _ _ _
theorem W11_out (c : Dev nD) : W11 m h c main_v29 = (dat4 (V10 m h) c).arrAt 2 cfg4.N := by
  unfold W11
  exact Function.update_self ..
theorem args_unwritten : ∀ r ∈ ([main_arg0, main_arg1, main_arg2, main_arg3] : List (Ref sig .tc)),
    r ∉ hostOps0_W ∧ r ∉ hostOps1_W ∧ r ∉ hostOps2_W ∧ r ∉ hostOps3_W ∧ r ∉ hostOps4_W ∧ r ∉ hostOps4_1_W ∧ r ∉ hostOps5_W
      ∧ r ∉ ([main_v4_0, main_v4_1] : List (Ref sig .tc)) ∧ r ∉ ([main_v10_0, main_v10_1] : List (Ref sig .tc))
      ∧ r ∉ ([main_v16_0, main_v16_1] : List (Ref sig .tc)) ∧ r ∉ ([main_v22_0, main_v22_1] : List (Ref sig .tc))
      ∧ r ∉ ([main_v29] : List (Ref sig .tc)) := by decide
theorem W8_arg (c : Dev nD) (r : Ref sig .tc) (hr : r ∈ ([main_arg0, main_arg1, main_arg2, main_arg3] : List (Ref sig .tc))) :
    W8 m h c r = m ((c : Thread nD τ).loc r) ∧ W6 m h c r = m ((c : Thread nD τ).loc r) ∧ W4 m h c r = m ((c : Thread nD τ).loc r)
      ∧ W2 m h c r = m ((c : Thread nD τ).loc r) := by
  obtain ⟨h0, h1, h2, h3, -, -, -, g0, g1, g2, g3, -⟩ := args_unwritten r hr
  have e1 : W1 m c r = m ((c : Thread nD τ).loc r) := after_of_writes_sub hostOps0 _ hostOps0_writes h0
  have e2 : W2 m h c r = m ((c : Thread nD τ).loc r) := (W2_of m h c r g0).trans e1
  have e3 : W3 m h c r = m ((c : Thread nD τ).loc r) := (after_of_writes_sub hostOps1 _ hostOps1_writes h1).trans e2
  have e4 : W4 m h c r = m ((c : Thread nD τ).loc r) := (W4_of m h c r g1).trans e3
  have e5 : W5 m h c r = m ((c : Thread nD τ).loc r) := (after_of_writes_sub hostOps2 _ hostOps2_writes h2).trans e4
  have e6 : W6 m h c r = m ((c : Thread nD τ).loc r) := (W6_of m h c r g2).trans e5
  have e7 : W7 m h c r = m ((c : Thread nD τ).loc r) := (after_of_writes_sub hostOps3 _ hostOps3_writes h3).trans e6
  have e8 : W8 m h c r = m ((c : Thread nD τ).loc r) := (W8_of m h c r g3).trans e7
  exact ⟨e8, e6, e4, e2⟩
theorem W12_arg (c : Dev nD) (r : Ref sig .tc) (hr : r ∈ ([main_arg0, main_arg1, main_arg2, main_arg3] : List (Ref sig .tc))) :
    W12 m h c r = m ((c : Thread nD τ).loc r) := by
  obtain ⟨-, -, -, -, h4, h41, h5, -, -, -, -, g4⟩ := args_unwritten r hr
  have e9 : W9 m h c r = m ((c : Thread nD τ).loc r) := (after_of_writes_sub hostOps4 _ hostOps4_writes h4).trans (W8_arg m h c r hr).1
  have e10 : W10 m h c r = m ((c : Thread nD τ).loc r) := (after_of_writes_sub hostOps4_1 _ hostOps4_1_writes h41).trans e9
  have e11 : W11 m h c r = m ((c : Thread nD τ).loc r) := (W11_of m h c r g4).trans e10
  exact (after_of_writes_sub hostOps5 _ hostOps5_writes h5).trans e11
def adm : (p : Fin 5) → (pcfgs (F := F) p).Adm
  | ⟨0, _⟩ => a0 m h
  | ⟨1, _⟩ => a1 m h
  | ⟨2, _⟩ => a2 m h
  | ⟨3, _⟩ => a3 m h
  | ⟨4, _⟩ => cfg4.toPCfg_adm
def pdats : (p : Fin 5) → (c : Dev nD) → Dat τ (Elt F) Unit ℕ (UR sig nD τ) ℕ (Pipeline.pin (pcfgs (F := F)) (adm m h) p) c
  | ⟨0, _⟩ => fun c => dat0 (a0 m h) (V1 m) c
  | ⟨1, _⟩ => fun c => dat1 (a1 m h) (V3 m h) c
  | ⟨2, _⟩ => fun c => dat2 (a2 m h) (V5 m h) c
  | ⟨3, _⟩ => fun c => dat3 (a3 m h) (V7 m h) c
  | ⟨4, _⟩ => fun c => dat4 (V10 m h) c
end Cert.Kernel.Hand
end
-- ==== Proof.Bits.Regs.lean ====
import proofs.«412514_j386547056896_2_alg».proof.Proof.Bits.G0R
import proofs.«412514_j386547056896_2_alg».proof.Proof.Bits.G1R
import proofs.«412514_j386547056896_2_alg».proof.Proof.Bits.G2R
import proofs.«412514_j386547056896_2_alg».proof.Proof.Bits.G3R
import proofs.«412514_j386547056896_2_alg».proof.Proof.Bits.Fold
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
open Idealize.ShloMosaic.StableHlo (after_of_writes_sub devRef_ne_of_ne)
variable (m : (ℓ : Loc nD τ sig) → Buf (Elt F) ℓ) (h : TabsOk m)
theorem dev0 (c : Dev nD) : c = 0 := Subsingleton.elim _ _
theorem hpf0 (c : Dev nD) (k : Fin pre0.K) : V_of (W1 m) c (pre0.ref k) = (a0 m h).1 k := by
  rw [dev0 c]; rfl
theorem hpf1 (c : Dev nD) (k : Fin pre1.K) : V_of (W3 m h) c (pre1.ref k) = (a1 m h).1 k := by
  rw [dev0 c]
  show StableHlo.after hostOps1 _ (Proc.devRef .tc (pre1.ref k)) = StableHlo.after hostOps1 (W0 m 0) (Proc.devRef .tc (pre1.ref k))
  have e2 : W2 m h 0 (Proc.devRef .tc main_arg2) = W0 m 0 (Proc.devRef .tc main_arg2) := (W8_arg m h 0 main_arg2 (by decide)).2.2.2
  have e3 : W2 m h 0 (Proc.devRef .tc main_arg3) = W0 m 0 (Proc.devRef .tc main_arg3) := (W8_arg m h 0 main_arg3 (by decide)).2.2.2
  match k with
  | ⟨0, _⟩ =>
    show StableHlo.after hostOps1 _ (Proc.devRef .tc main_v7) = StableHlo.after hostOps1 (W0 m 0) (Proc.devRef .tc main_v7)
    dsimp only [hostOps1]
    after_results
    rw [e2]
  | ⟨1, _⟩ =>
    show StableHlo.after hostOps1 _ (Proc.devRef .tc main_v9) = StableHlo.after hostOps1 (W0 m 0) (Proc.devRef .tc main_v9)
    dsimp only [hostOps1]
    after_results
    rw [e3]
theorem hpf2 (c : Dev nD) (k : Fin pre2.K) : V_of (W5 m h) c (pre2.ref k) = (a2 m h).1 k := by
  rw [dev0 c]
  show StableHlo.after hostOps2 _ (Proc.devRef .tc (pre2.ref k)) = StableHlo.after hostOps2 (W0 m 0) (Proc.devRef .tc (pre2.ref k))
  have e2 : W4 m h 0 (Proc.devRef .tc main_arg2) = W0 m 0 (Proc.devRef .tc main_arg2) := (W8_arg m h 0 main_arg2 (by decide)).2.2.1
  have e3 : W4 m h 0 (Proc.devRef .tc main_arg3) = W0 m 0 (Proc.devRef .tc main_arg3) := (W8_arg m h 0 main_arg3 (by decide)).2.2.1
  match k with
  | ⟨0, _⟩ =>
    show StableHlo.after hostOps2 _ (Proc.devRef .tc main_v13) = StableHlo.after hostOps2 (W0 m 0) (Proc.devRef .tc main_v13)
    dsimp only [hostOps2]
    after_results
    rw [e2]
  | ⟨1, _⟩ =>
    show StableHlo.after hostOps2 _ (Proc.devRef .tc main_v15) = StableHlo.after hostOps2 (W0 m 0) (Proc.devRef .tc main_v15)
    dsimp only [hostOps2]
    after_results
    rw [e3]
theorem hpf3 (c : Dev nD) (k : Fin pre3.K) : V_of (W7 m h) c (pre3.ref k) = (a3 m h).1 k := by
  rw [dev0 c]
  show StableHlo.after hostOps3 _ (Proc.devRef .tc (pre3.ref k)) = StableHlo.after hostOps3 (W0 m 0) (Proc.devRef .tc (pre3.ref k))
  have e2 : W6 m h 0 (Proc.devRef .tc main_arg2) = W0 m 0 (Proc.devRef .tc main_arg2) := (W8_arg m h 0 main_arg2 (by decide)).2.1
  have e3 : W6 m h 0 (Proc.devRef .tc main_arg3) = W0 m 0 (Proc.devRef .tc main_arg3) := (W8_arg m h 0 main_arg3 (by decide)).2.1
  match k with
  | ⟨0, _⟩ =>
    show StableHlo.after hostOps3 _ (Proc.devRef .tc main_v19) = StableHlo.after hostOps3 (W0 m 0) (Proc.devRef .tc main_v19)
    dsimp only [hostOps3]
    after_results
    rw [e2]
  | ⟨1, _⟩ =>
    show StableHlo.after hostOps3 _ (Proc.devRef .tc main_v21) = StableHlo.after hostOps3 (W0 m 0) (Proc.devRef .tc main_v21)
    dsimp only [hostOps3]
    after_results
    rw [e3]
def reg0 : Pipeline.RegionSeg (pcfgs (F := F)) (adm m h) (pdats m h) () defs₀ 𝒱₀ L lv 0 where
  win := winFacts₀0
  block_pos := block_pos0
  stage_whole := stage_whole0
  K := PEmpty
  osem := noSem
  ho := Pipeline.OwnSemFacts.none _
  hbody c := (body_obligation0 (a0 m h) (V_of (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m h c) ∗ R c)
  X c := X0 c
  Y c := Y0 (a0 m h) c
  Z c := Z0 (W1 m) c
  hentry c := hentry0 (a0 m h) (W1 m) (hpf0 m h) c
  hin c := hin0 (a0 m h) (W1 m) c
  hout c := hout0 (a0 m h) (W1 m) c
  hexit c := hexit0 (a0 m h) (W1 m) (W2 m h) (hpf0 m h) c (W2_out0 m h c) (W2_out1 m h c)
    (fun b h0 h1 => W2_of m h c b (by simp only [List.mem_cons, List.not_mem_nil, or_false, not_or]; exact ⟨h0, h1⟩))
def reg1 : Pipeline.RegionSeg (pcfgs (F := F)) (adm m h) (pdats m h) () defs₀ 𝒱₀ L lv 1 where
  win := winFacts₀1
  block_pos := block_pos1
  stage_whole := stage_whole1
  K := PEmpty
  osem := noSem
  ho := Pipeline.OwnSemFacts.none _
  hbody c := (body_obligation1 (a1 m h) (V_of (W3 m h)) c).loose
  hwaits := Pipeline.hwaits_of_owed_zero _ _ _ _ L lv 1 fun _ _ => rfl
  pre c := iprop(StableHlo.held (c : Thread nD τ) (Pipeline.ucRefs τ sig) (W3 m h c) ∗ R c)
  post c := iprop(StableHlo.held (c : Thread nD τ) (Pipeline.ucRefs τ sig) (W4 m h c) ∗ R c)
  X c := X1 c
  Y c := Y1 (a1 m h) c
  Z c := Z1 (W3 m h) c
  hentry c := hentry1 (a1 m h) (W3 m h) (hpf1 m h) c
  hin c := hin1 (a1 m h) (W3 m h) c
  hout c := hout1 (a1 m h) (W3 m h) c
  hexit c := hexit1 (a1 m h) (W3 m h) (W4 m h) (hpf1 m h) c (W4_out0 m h c) (W4_out1 m h c)
    (fun b h0 h1 => W4_of m h c b (by simp only [List.mem_cons, List.not_mem_nil, or_false, not_or]; exact ⟨h0, h1⟩))
def reg2 : Pipeline.RegionSeg (pcfgs (F := F)) (adm m h) (pdats m h) () defs₀ 𝒱₀ L lv 2 where
  win := winFacts₀2
  block_pos := block_pos2
  stage_whole := stage_whole2
  K := PEmpty
  osem := noSem
  ho := Pipeline.OwnSemFacts.none _
  hbody c := (body_obligation2 (a2 m h) (V_of (W5 m h)) c).loose
  hwaits := Pipeline.hwaits_of_owed_zero _ _ _ _ L lv 2 fun _ _ => rfl
  pre c := iprop(StableHlo.held (c : Thread nD τ) (Pipeline.ucRefs τ sig) (W5 m h c) ∗ R c)
  post c := iprop(StableHlo.held (c : Thread nD τ) (Pipeline.ucRefs τ sig) (W6 m h c) ∗ R c)
  X c := X2 c
  Y c := Y2 (a2 m h) c
  Z c := Z2 (W5 m h) c
  hentry c := hentry2 (a2 m h) (W5 m h) (hpf2 m h) c
  hin c := hin2 (a2 m h) (W5 m h) c
  hout c := hout2 (a2 m h) (W5 m h) c
  hexit c := hexit2 (a2 m h) (W5 m h) (W6 m h) (hpf2 m h) c (W6_out0 m h c) (W6_out1 m h c)
    (fun b h0 h1 => W6_of m h c b (by simp only [List.mem_cons, List.not_mem_nil, or_false, not_or]; exact ⟨h0, h1⟩))
def reg3 : Pipeline.RegionSeg (pcfgs (F := F)) (adm m h) (pdats m h) () defs₀ 𝒱₀ L lv 3 where
  win := winFacts₀3
  block_pos := block_pos3
  stage_whole := stage_whole3
  K := PEmpty
  osem := noSem
  ho := Pipeline.OwnSemFacts.none _
  hbody c := (body_obligation3 (a3 m h) (V_of (W7 m h)) c).loose
  hwaits := Pipeline.hwaits_of_owed_zero _ _ _ _ L lv 3 fun _ _ => rfl
  pre c := iprop(StableHlo.held (c : Thread nD τ) (Pipeline.ucRefs τ sig) (W7 m h c) ∗ R c)
  post c := iprop(StableHlo.held (c : Thread nD τ) (Pipeline.ucRefs τ sig) (W8 m h c) ∗ R c)
  X c := X3 c
  Y c := Y3 (a3 m h) c
  Z c := Z3 (W7 m h) c
  hentry c := hentry3 (a3 m h) (W7 m h) (hpf3 m h) c
  hin c := hin3 (a3 m h) (W7 m h) c
  hout c := hout3 (a3 m h) (W7 m h) c
  hexit c := hexit3 (a3 m h) (W7 m h) (W8 m h) (hpf3 m h) c (W8_out0 m h c) (W8_out1 m h c)
    (fun b h0 h1 => W8_of m h c b (by simp only [List.mem_cons, List.not_mem_nil, or_false, not_or]; exact ⟨h0, h1⟩))
theorem hF4 (c : Dev nD) (w : Fin cfg4.W) : (dat4 (V10 m h) c).arrAt w cfg4.N = V11 m h c (Pipeline.arrRef spec4 w) := by
  match w with
  | ⟨0, _⟩ => exact ((dat4 (V10 m h) c).arrAt_in 0 rfl _).trans ((A_eq4 (V10 m h) c 0).trans (W11_of m h c main_arg1 (by decide)).symm)
  | ⟨1, _⟩ => exact ((dat4 (V10 m h) c).arrAt_in 1 rfl _).trans ((A_eq4 (V10 m h) c 1).trans (W11_of m h c main_v28 (by decide)).symm)
  | ⟨2, _⟩ => exact (W11_out m h c).symm
theorem hrest4 (c : Dev nD) : ∀ b, b ∉ Finset.univ.image (Pipeline.arrRef spec4) → V11 m h c b = V10 m h c b :=
  fun b hb => W11_of m h c b (by
    simp only [List.mem_cons, List.not_mem_nil, or_false]
    exact fun e => hb (Finset.mem_image.mpr ⟨2, Finset.mem_univ _, e.symm⟩))
set_option backward.isDefEq.respectTransparency.types false in
def reg4 : Pipeline.RegionSeg (pcfgs (F := F)) (adm m h) (pdats m h) () defs₀ 𝒱₀ L lv 4 where
  win := winFacts4.to₀
  block_pos := block_pos4
  stage_whole := stage_whole4
  K := PEmpty
  osem := noSem
  ho := Pipeline.OwnSemFacts.none _
  hbody c := (body_obligation4 (V10 m h) c).loose
  hwaits := Pipeline.hwaits_of_owed_zero _ _ _ _ L lv 4 fun _ _ => rfl
  pre c := iprop(StableHlo.held (c : Thread nD τ) (Pipeline.ucRefs τ sig) (W10 m h c) ∗ R c)
  post c := iprop(StableHlo.held (c : Thread nD τ) (Pipeline.ucRefs τ sig) (W11 m h c) ∗ R c)
  X c := iprop(∃ r, prngReg c r)
  Y c := iprop(∃ r, prngReg c r)
  Z c := Pipeline.unscopedRest (Ix := Unit) (Name := ℕ) (U := UR sig nD τ) (Lvl := ℕ) spec4 c (V10 m h c)
  hentry c := by
    rw [Pipeline.ownSems0_none]
    have hsplit := Pipeline.arrays_of_unscopedBufs (p := 4) (pcfgs (F := F)) (adm m h) (pdats m h) winFacts4 arr_whole4 c
      ((pdats m h 4 c).share_full fun _ => rfl) (V10 m h c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%Wd, HO⟩; iexists Wd; isplitr; · ipureintro; exact fun _ _ => Or.inl trivial
      iexact HO
    isplitl [Hp]; · iexact Hp
    iexact Hrest
  hin c := by
    rw [show (pdats m h 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m h 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m h) (Ix := Unit) (Name := ℕ) (U := UR sig nD τ) (Lvl := ℕ)
      winFacts4 arr_whole4 c (pdats m h) ((pdats m h 4 c).share_full fun _ => rfl)
      (V10 m h c) (V11 m h c) ((pdats m h 4 c).arrAt · cfg4.N) (hF4 m h c) (hrest4 m h c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%Wd, -, HO⟩; iexists Wd; iexact HO
end Cert.Kernel.Hand
end
-- ==== Proof.Bits.Run.lean ====
import proofs.«412514_j386547056896_2_alg».proof.Proof.Bits.Regs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
open Idealize.ShloMosaic.StableHlo (after_of_writes_sub devRef_ne_of_ne)
variable (m : (ℓ : Loc nD τ sig) → Buf (Elt F) ℓ) (h : TabsOk m) (ρ : Dev nD → PrngReg)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op ho => Pipeline.sub_ucRefs op ((List.forall_iff_forall_mem.mp hsub) op ho))
    (fun op ho => (List.forall_iff_forall_mem.mp hfresh) op ho) W R
abbrev segs : List (Pipeline.Seg (pcfgs (F := F)) (adm m h) (pdats m h) () defs₀ 𝒱₀ L lv) :=
  [ .host (hseg hostOps0 hostOps0_sub hostOps0_fresh (W0 m)),
    .region (reg0 m h),
    .host (hseg hostOps1 hostOps1_sub hostOps1_fresh (W2 m h)),
    .region (reg1 m h),
    .host (hseg hostOps2 hostOps2_sub hostOps2_fresh (W4 m h)),
    .region (reg2 m h),
    .host (hseg hostOps3 hostOps3_sub hostOps3_fresh (W6 m h)),
    .region (reg3 m h),
    .host (hseg hostOps4 hostOps4_sub hostOps4_fresh (W8 m h)),
    .host (hseg hostOps4_1 hostOps4_1_sub hostOps4_1_fresh (W9 m h)),
    .region (reg4 m h),
    .host (hseg hostOps5 hostOps5_sub hostOps5_fresh (W11 m h)) ]
theorem mem_uc (b : Ref sig .tc) (hb : ¬ (Proc.devRef .tc b : DevRef τ sig).isScoped) : Proc.devRef .tc b ∈ Pipeline.ucRefs τ sig :=
  Finset.mem_filter.mpr ⟨StableHlo.devRef_mem_tcRefs b, hb⟩
abbrev Tₙ (c : Dev nD) : sProp 𝕄 := iprop(StableHlo.held (c : Thread nD τ) (Pipeline.ucRefs τ sig) (W12 m h c) ∗ ∃ r, prngReg c r)
set_option backward.isDefEq.respectTransparency.types false in
theorem run_main : θ_run defs (onTc (τ := τ) (main (F := F))) ⟨m, fun _ => 0, ρ⟩ (fun r => ∀ c : Dev nD,
      ∀ b ∈ Pipeline.ucRefs τ sig, r.2.mem (((c : Thread nD τ)).1, b) = W12 m h c b) :=
  Pipeline.θ_run_regions_kit (pcfgs (F := F)) (adm m h) (pdats m h) () (cellOf_inj (adm m h)) emb₁ defs₀ 𝒱₀ L lv m ρ main (segs m h)
    (fun c Q => by
      rewrite [main_chain c, Pipeline.Seg.run_eq_chain,
        show (segs m h).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          StableHlo.seq hostOps4_1,
          Prog.lift (.customCall (Pipeline.entry 4) ()),
          StableHlo.seq hostOps5 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m h)) (cellOf_inj (adm m h))) (Pipeline.launchToks (Pipeline.pin (pcfgs (F := F)) (adm m h)) (cellOf_inj (adm m h))))
    (hu₀ := by
      iintro Hu; imodintro
      isplitl [Hu]
      · iapply (show (ownU (initOf (Pipeline.cells (Pipeline.pin (pcfgs (F := F)) (adm m h)) (cellOf_inj (adm m h))) (Pipeline.launchToks (Pipeline.pin (pcfgs (F := F)) (adm m h)) (cellOf_inj (adm m h)))) : sProp 𝕄)
            ⊢ BI.own (emb₁ (initOf (Pipeline.cells (Pipeline.pin (pcfgs (F := F)) (adm m h)) (cellOf_inj (adm m h))) (Pipeline.launchToks (Pipeline.pin (pcfgs (F := F)) (adm m h)) (cellOf_inj (adm m h))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m h)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun _ => .rfl, fun c => by
        show iprop(StableHlo.held (c : Thread nD τ) (Pipeline.ucRefs τ sig) (W12 m h c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m h c b)
    (hfin := fun c s' => by
      iintro ⟨⟨Hh, -⟩, HSI⟩
      unfold StableHlo.held
      imodintro
      iapply (pointsTo_read_all (Pipeline.ucRefs τ sig) (fun b => (((c : Thread nD τ)).1, b)) (W12 m h c) s')
      isplitl [Hh] <;> iassumption)
    (hQ := fun s hs c => hs c)
end Cert.Kernel.Hand
end
-- ==== Proof.Bits.Tabs.lean ====
import proofs.«412514_j386547056896_2_alg».proof.Proof.Bits.Fold
import proofs.«412514_j386547056896_2_alg».proof.Proof.Spec
import Idealize.ShloMosaic.Lib.StableHlo.Run
import Idealize.ShloMosaic.Lib.ValueIdx
import Idealize.ShloMosaic.Lib.Pipeline.Value
import Idealize.ShloMosaic.Lib.ValueLayout
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
theorem row_block_inb (w : BitVec 32) (hw : w.toNat < 100000) (a : Fin 3) :
    ((![w.toNat, 0, 0] : Fin 3 → Nat) a + 1) * S1x1x256.size a ≤ S100000x1x256.size a := by
  match a with
  | ⟨0, _⟩ => show (w.toNat + 1) * 1 ≤ 100000; omega
  | ⟨1, _⟩ => show (0 + 1) * 1 ≤ 1; omega
  | ⟨2, _⟩ => show (0 + 1) * 256 ≤ 256; omega
theorem ok0_of_lt (pf : pre0.Contents (Elt F))
    (h0 : ∀ x, ((pf 0 : S12500.Idx → BitVec 32) x).toNat < 100000)
    (h1 : ∀ x, ((pf 1 : S125000.Idx → BitVec 32) x).toNat < 100000) : ok0 pf := by
  unfold ok0
  refine ⟨?_, ?_, ?_, ?_, ?_, ?_, ?_, ?_, ?_, ?_, ?_⟩ <;>
    exact fun i => ⟨fun a => row_block_inb _ (by first | exact h0 _ | exact h1 _) a, Or.inl rfl⟩
theorem ok1_of_lt (pf : pre1.Contents (Elt F))
    (h0 : ∀ x, ((pf 0 : S12500.Idx → BitVec 32) x).toNat < 100000)
    (h1 : ∀ x, ((pf 1 : S125000.Idx → BitVec 32) x).toNat < 100000) : ok1 pf := by
  unfold ok1
  refine ⟨?_, ?_, ?_, ?_, ?_, ?_, ?_, ?_, ?_, ?_, ?_⟩ <;>
    exact fun i => ⟨fun a => row_block_inb _ (by first | exact h0 _ | exact h1 _) a, Or.inl rfl⟩
theorem ok2_of_lt (pf : pre2.Contents (Elt F))
    (h0 : ∀ x, ((pf 0 : S12500.Idx → BitVec 32) x).toNat < 100000)
    (h1 : ∀ x, ((pf 1 : S125000.Idx → BitVec 32) x).toNat < 100000) : ok2 pf := by
  unfold ok2
  refine ⟨?_, ?_, ?_, ?_, ?_, ?_, ?_, ?_, ?_, ?_, ?_⟩ <;>
    exact fun i => ⟨fun a => row_block_inb _ (by first | exact h0 _ | exact h1 _) a, Or.inl rfl⟩
theorem ok3_of_lt (pf : pre3.Contents (Elt F))
    (h0 : ∀ x, ((pf 0 : S12500.Idx → BitVec 32) x).toNat < 100000)
    (h1 : ∀ x, ((pf 1 : S125000.Idx → BitVec 32) x).toNat < 100000) : ok3 pf := by
  unfold ok3
  refine ⟨?_, ?_, ?_, ?_, ?_, ?_, ?_, ?_, ?_, ?_, ?_⟩ <;>
    exact fun i => ⟨fun a => row_block_inb _ (by first | exact h0 _ | exact h1 _) a, Or.inl rfl⟩
variable (m : (ℓ : Loc nD τ sig) → Buf (Elt F) ℓ)
theorem tab0_nodes (c : Dev nD) (t : Fin 12500) :
    (tab0 m c 0 : S12500.Idx → BitVec 32) (ValueIdx.ix1 t)
      = (m ((c : Thread nD τ).loc main_arg2) : S50000.Idx → BitVec 32) (ValueIdx.ix1 ⟨t.val, by omega⟩) := by
  have e : (tab0 m c 0 : S12500.Idx → BitVec 32)
      = extractStridedSlice S12500 ![0] (m ((c : Thread nD τ).loc main_arg2) : S50000.Idx → BitVec 32) slices_S50000_S12500_0 := by
    show StableHlo.after hostOps0 (W0 m c) (Proc.devRef .tc main_v1) = _
    dsimp only [hostOps0]
    after_results
  rw [e]
  refine extractStridedSlice_apply _ _ _ _ _ fun a => ?_
  match a with
  | ⟨0, _⟩ => show t.val = 0 + t.val; omega
theorem tab0_neigh (c : Dev nD) (u : Fin 125000) :
    (tab0 m c 1 : S125000.Idx → BitVec 32) (ValueIdx.ix1 u)
      = (m ((c : Thread nD τ).loc main_arg3) : S50000x10.Idx → BitVec 32) (ValueIdx.ix2 ⟨u.val / 10, by omega⟩ ⟨u.val % 10, by omega⟩) := by
  have e : (tab0 m c 1 : S125000.Idx → BitVec 32)
      = shapeCast S125000 (extractStridedSlice S12500x10 ![0, 0] (m ((c : Thread nD τ).loc main_arg3) : S50000x10.Idx → BitVec 32) slices_S50000x10_S12500x10_0_0)
          shapeCasts_S12500x10_S125000 := by
    show StableHlo.after hostOps0 (W0 m c) (Proc.devRef .tc main_v3) = _
    dsimp only [hostOps0]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show u.val / 10 = 0 + u.val / 10; omega
    | ⟨1, _⟩ => show u.val % 10 = 0 + u.val % 10; omega
theorem tab1_nodes (c : Dev nD) (t : Fin 12500) :
    (tab1 m c 0 : S12500.Idx → BitVec 32) (ValueIdx.ix1 t)
      = (m ((c : Thread nD τ).loc main_arg2) : S50000.Idx → BitVec 32) (ValueIdx.ix1 ⟨12500 + t.val, by omega⟩) := by
  have e : (tab1 m c 0 : S12500.Idx → BitVec 32)
      = extractStridedSlice S12500 ![12500] (m ((c : Thread nD τ).loc main_arg2) : S50000.Idx → BitVec 32) slices_S50000_S12500_12500 := by
    show StableHlo.after hostOps1 (W0 m c) (Proc.devRef .tc main_v7) = _
    dsimp only [hostOps1]
    after_results
  rw [e]
  refine extractStridedSlice_apply _ _ _ _ _ fun a => ?_
  match a with
  | ⟨0, _⟩ => show 12500 + t.val = 12500 + t.val; omega
theorem tab1_neigh (c : Dev nD) (u : Fin 125000) :
    (tab1 m c 1 : S125000.Idx → BitVec 32) (ValueIdx.ix1 u)
      = (m ((c : Thread nD τ).loc main_arg3) : S50000x10.Idx → BitVec 32) (ValueIdx.ix2 ⟨12500 + u.val / 10, by omega⟩ ⟨u.val % 10, by omega⟩) := by
  have e : (tab1 m c 1 : S125000.Idx → BitVec 32)
      = shapeCast S125000 (extractStridedSlice S12500x10 ![12500, 0] (m ((c : Thread nD τ).loc main_arg3) : S50000x10.Idx → BitVec 32) slices_S50000x10_S12500x10_12500_0)
          shapeCasts_S12500x10_S125000 := by
    show StableHlo.after hostOps1 (W0 m c) (Proc.devRef .tc main_v9) = _
    dsimp only [hostOps1]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show 12500 + u.val / 10 = 12500 + u.val / 10; omega
    | ⟨1, _⟩ => show u.val % 10 = 0 + u.val % 10; omega
theorem tab2_nodes (c : Dev nD) (t : Fin 12500) :
    (tab2 m c 0 : S12500.Idx → BitVec 32) (ValueIdx.ix1 t)
      = (m ((c : Thread nD τ).loc main_arg2) : S50000.Idx → BitVec 32) (ValueIdx.ix1 ⟨25000 + t.val, by omega⟩) := by
  have e : (tab2 m c 0 : S12500.Idx → BitVec 32)
      = extractStridedSlice S12500 ![25000] (m ((c : Thread nD τ).loc main_arg2) : S50000.Idx → BitVec 32) slices_S50000_S12500_25000 := by
    show StableHlo.after hostOps2 (W0 m c) (Proc.devRef .tc main_v13) = _
    dsimp only [hostOps2]
    after_results
  rw [e]
  refine extractStridedSlice_apply _ _ _ _ _ fun a => ?_
  match a with
  | ⟨0, _⟩ => show 25000 + t.val = 25000 + t.val; omega
theorem tab2_neigh (c : Dev nD) (u : Fin 125000) :
    (tab2 m c 1 : S125000.Idx → BitVec 32) (ValueIdx.ix1 u)
      = (m ((c : Thread nD τ).loc main_arg3) : S50000x10.Idx → BitVec 32) (ValueIdx.ix2 ⟨25000 + u.val / 10, by omega⟩ ⟨u.val % 10, by omega⟩) := by
  have e : (tab2 m c 1 : S125000.Idx → BitVec 32)
      = shapeCast S125000 (extractStridedSlice S12500x10 ![25000, 0] (m ((c : Thread nD τ).loc main_arg3) : S50000x10.Idx → BitVec 32) slices_S50000x10_S12500x10_25000_0)
          shapeCasts_S12500x10_S125000 := by
    show StableHlo.after hostOps2 (W0 m c) (Proc.devRef .tc main_v15) = _
    dsimp only [hostOps2]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show 25000 + u.val / 10 = 25000 + u.val / 10; omega
    | ⟨1, _⟩ => show u.val % 10 = 0 + u.val % 10; omega
theorem tab3_nodes (c : Dev nD) (t : Fin 12500) :
    (tab3 m c 0 : S12500.Idx → BitVec 32) (ValueIdx.ix1 t)
      = (m ((c : Thread nD τ).loc main_arg2) : S50000.Idx → BitVec 32) (ValueIdx.ix1 ⟨37500 + t.val, by omega⟩) := by
  have e : (tab3 m c 0 : S12500.Idx → BitVec 32)
      = extractStridedSlice S12500 ![37500] (m ((c : Thread nD τ).loc main_arg2) : S50000.Idx → BitVec 32) slices_S50000_S12500_37500 := by
    show StableHlo.after hostOps3 (W0 m c) (Proc.devRef .tc main_v19) = _
    dsimp only [hostOps3]
    after_results
  rw [e]
  refine extractStridedSlice_apply _ _ _ _ _ fun a => ?_
  match a with
  | ⟨0, _⟩ => show 37500 + t.val = 37500 + t.val; omega
theorem tab3_neigh (c : Dev nD) (u : Fin 125000) :
    (tab3 m c 1 : S125000.Idx → BitVec 32) (ValueIdx.ix1 u)
      = (m ((c : Thread nD τ).loc main_arg3) : S50000x10.Idx → BitVec 32) (ValueIdx.ix2 ⟨37500 + u.val / 10, by omega⟩ ⟨u.val % 10, by omega⟩) := by
  have e : (tab3 m c 1 : S125000.Idx → BitVec 32)
      = shapeCast S125000 (extractStridedSlice S12500x10 ![37500, 0] (m ((c : Thread nD τ).loc main_arg3) : S50000x10.Idx → BitVec 32) slices_S50000x10_S12500x10_37500_0)
          shapeCasts_S12500x10_S125000 := by
    show StableHlo.after hostOps3 (W0 m c) (Proc.devRef .tc main_v21) = _
    dsimp only [hostOps3]
    after_results
    rfl
  rw [e]
  refine (shapeCast_apply _ _ (ValueIdx.ix1 u) (ValueIdx.ix2 (⟨u.val / 10, by omega⟩ : Fin 12500) (⟨u.val % 10, by omega⟩ : Fin 10)) ?_).trans ?_
  · rw [Shape.rowMajor_val_two, Shape.rowMajor_val_one]
    show u.val / 10 * 10 + u.val % 10 = u.val
    omega
  · refine extractStridedSlice_apply _ _ _ _ _ fun a => ?_
    match a with
    | ⟨0, _⟩ => show 37500 + u.val / 10 = 37500 + u.val / 10; omega
    | ⟨1, _⟩ => show u.val % 10 = 0 + u.val % 10; omega
theorem tabsOk_of_ids
    (hids : Cert.Spec.IdsInRange (m (((0 : Dev nD) : Thread nD τ).loc main_arg2)) (m (((0 : Dev nD) : Thread nD τ).loc main_arg3))) :
    TabsOk m := by
  refine ⟨ok0_of_lt _ (fun (x : S12500.Idx) => ?_) (fun (x : S125000.Idx) => ?_), ok1_of_lt _ (fun (x : S12500.Idx) => ?_) (fun (x : S125000.Idx) => ?_),
    ok2_of_lt _ (fun (x : S12500.Idx) => ?_) (fun (x : S125000.Idx) => ?_), ok3_of_lt _ (fun (x : S12500.Idx) => ?_) (fun (x : S125000.Idx) => ?_)⟩ <;>
    (obtain ⟨t, rfl⟩ : ∃ t, x = ValueIdx.ix1 t := ⟨x 0, ValueIdx.eq_ix1 x⟩
     simp only [tab0_nodes, tab0_neigh, tab1_nodes, tab1_neigh, tab2_nodes, tab2_neigh, tab3_nodes, tab3_neigh]
     first | exact hids.nodes_lt _ | exact hids.neigh_lt _)
end Cert.Kernel.Hand
end
-- ==== Proof.lean ====
import proofs.«412514_j386547056896_2_alg».proof.Defs
import proofs.«412514_j386547056896_2_alg».proof.Proof.Gen.Kernel
import proofs.«412514_j386547056896_2_alg».proof.Proof.Gen.KernelIdeal
import proofs.«412514_j386547056896_2_alg».proof.Proof.Gen.ReferenceIdeal
import proofs.«412514_j386547056896_2_alg».proof.Proof.Gen.ReferenceIdeal.Run
import proofs.«412514_j386547056896_2_alg».proof.Proof.Gen.ReferenceIdeal.Read
import proofs.«412514_j386547056896_2_alg».proof.Proof.Gen.Pre_finite_inputs
import proofs.«412514_j386547056896_2_alg».proof.Proof.PreFacts
import proofs.«412514_j386547056896_2_alg».proof.Proof.RefValue
import proofs.«412514_j386547056896_2_alg».proof.Proof.Run
import proofs.«412514_j386547056896_2_alg».proof.Proof.Tabs
import proofs.«412514_j386547056896_2_alg».proof.Proof.KerValue
import proofs.«412514_j386547056896_2_alg».proof.Proof.Bits.Run
import proofs.«412514_j386547056896_2_alg».proof.Proof.Bits.Tabs
import Idealize.ShloMosaic.Adequacy
import Idealize.ShloMosaic.Init
noncomputable section
namespace Cert.Proof
open Idealize.ShloMosaic Idealize.ShloMosaic.TcCoe Idealize.SL.Sem
theorem frame_k : Cert.frame_Kernel := fun m g hpre =>
  have hok := Cert.Kernel.Hand.tabsOk_of_ids m (Cert.Pre_finite_inputs.Decode.ids_of_pre _ _ _ _ (hpre 0))
  (θ_run Cert.Kernel.defs _ _).mono (fun r hr c =>
    ⟨(hr c _ (Cert.Kernel.Hand.mem_uc Cert.Kernel.main_arg0 (by decide))).trans (Cert.Kernel.Hand.W12_arg m hok c Cert.Kernel.main_arg0 (by decide)),
     (hr c _ (Cert.Kernel.Hand.mem_uc Cert.Kernel.main_arg1 (by decide))).trans (Cert.Kernel.Hand.W12_arg m hok c Cert.Kernel.main_arg1 (by decide)),
     (hr c _ (Cert.Kernel.Hand.mem_uc Cert.Kernel.main_arg2 (by decide))).trans (Cert.Kernel.Hand.W12_arg m hok c Cert.Kernel.main_arg2 (by decide)),
     (hr c _ (Cert.Kernel.Hand.mem_uc Cert.Kernel.main_arg3 (by decide))).trans (Cert.Kernel.Hand.W12_arg m hok c Cert.Kernel.main_arg3 (by decide))⟩)
    (Cert.Kernel.Hand.run_main (F := Bits) m hok g)
theorem frame_ki : Cert.frame_KernelIdeal := fun m g hpre =>
  have hok := Cert.KernelIdeal.Hand.tabsOk_of_ids m (Cert.Pre_finite_inputs.Decode.ids_of_pre _ _ _ _ (hpre 0))
  (θ_run Cert.KernelIdeal.defs _ _).mono (fun r hr c =>
    ⟨(hr c _ (Cert.KernelIdeal.Hand.mem_uc Cert.KernelIdeal.main_arg0 (by decide))).trans (Cert.KernelIdeal.Hand.W12_arg m hok c Cert.KernelIdeal.main_arg0 (by decide)),
     (hr c _ (Cert.KernelIdeal.Hand.mem_uc Cert.KernelIdeal.main_arg1 (by decide))).trans (Cert.KernelIdeal.Hand.W12_arg m hok c Cert.KernelIdeal.main_arg1 (by decide)),
     (hr c _ (Cert.KernelIdeal.Hand.mem_uc Cert.KernelIdeal.main_arg2 (by decide))).trans (Cert.KernelIdeal.Hand.W12_arg m hok c Cert.KernelIdeal.main_arg2 (by decide)),
     (hr c _ (Cert.KernelIdeal.Hand.mem_uc Cert.KernelIdeal.main_arg3 (by decide))).trans (Cert.KernelIdeal.Hand.W12_arg m hok c Cert.KernelIdeal.main_arg3 (by decide))⟩)
    (Cert.KernelIdeal.Hand.run_main (F := Ideal) m hok g)
theorem frame_ri : Cert.frame_ReferenceIdeal := fun m g _ =>
  (θ_run Cert.ReferenceIdeal.defs _ _).mono (fun _ hr c => (hr c).2) (Cert.ReferenceIdeal.Value.run (F := Ideal) m g)
theorem preserves : Cert.preserves_Kernel_KernelIdeal :=
  ⟨IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl,
   IdealRules.named_const.statement Cert.KernelIdeal.κ "inv_10" .f32 0x3DCCCCCD#32 ((1 / 10 : ℝ) : EReal) rfl⟩
theorem algebraic : Cert.algebraic_KernelIdeal_ReferenceIdeal := by
  intro m g m' g' hpre hagree
  have hids := fun c => Cert.Pre_finite_inputs.Decode.ids_of_pre _ _ _ _ (hpre c)
  have hok := Cert.KernelIdeal.Hand.tabsOk_of_ids m (hids 0)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r hr c =>
      ⟨(hr c _ (Cert.KernelIdeal.Hand.mem_uc Cert.KernelIdeal.main_v30 (by decide))).trans (Cert.KernelIdeal.Hand.kernel_value m hok c),
       (hr c _ (Cert.KernelIdeal.Hand.mem_uc Cert.KernelIdeal.main_arg0 (by decide))).trans (Cert.KernelIdeal.Hand.W12_arg m hok c Cert.KernelIdeal.main_arg0 (by decide)),
       (hr c _ (Cert.KernelIdeal.Hand.mem_uc Cert.KernelIdeal.main_arg1 (by decide))).trans (Cert.KernelIdeal.Hand.W12_arg m hok c Cert.KernelIdeal.main_arg1 (by decide)),
       (hr c _ (Cert.KernelIdeal.Hand.mem_uc Cert.KernelIdeal.main_arg2 (by decide))).trans (Cert.KernelIdeal.Hand.W12_arg m hok c Cert.KernelIdeal.main_arg2 (by decide)),
       (hr c _ (Cert.KernelIdeal.Hand.mem_uc Cert.KernelIdeal.main_arg3 (by decide))).trans (Cert.KernelIdeal.Hand.W12_arg m hok c Cert.KernelIdeal.main_arg3 (by decide))⟩)
      (Cert.KernelIdeal.Hand.run_main (F := Ideal) m hok g)
  · refine (θ_run Cert.ReferenceIdeal.defs _ _).mono (fun _ hr c => ⟨(hr c).1.trans ?_, (hr c).2⟩)
      (Cert.ReferenceIdeal.Value.run (F := Ideal) m' g')
    rw [Cert.ReferenceIdeal.Read.val_main_v20_eq, (hagree c).1, (hagree c).2.1, (hagree c).2.2.1, (hagree c).2.2.2]
    exact Cert.ReferenceIdeal.RefValue.ref_eq_G _ _ _ _ (hids c)
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩
end Cert.Proof
end
